-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S512x512 : Shape := ⟨2, ![512, 512]⟩
abbrev S16 : Shape := ⟨1, ![16]⟩
abbrev S_ : Shape := ⟨0, ![]⟩
abbrev S1x32x512 : Shape := ⟨3, ![1, 32, 512]⟩
abbrev S32x512 : Shape := ⟨2, ![32, 512]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .bf16⟩
  | .local _ .vmem, ⟨0, _⟩ => ⟨S1x1024x1024, .f32⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_7 : BitVec 32 := 8#32
  let v15 : BitVec 32 := Scalar.muli v10 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_14 : BitVec 32 := 1#32
  let v25 : BitVec 32 := Scalar.muli v13 c1_i32_14
  let v26 : BitVec 32 := Scalar.addi v24 v25
  v26.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_17 : BitVec 32 := 0#32
  let v29 : BitVec 1 := Scalar.cmpi .eq v2 c0_i32_17
  let v30 : BitVec 32 := Scalar.extui v29
  let c0_i32_18 : BitVec 32 := 0#32
  let v31 : BitVec 1 := Scalar.cmpi .ne v30 c0_i32_18
  v31

def k0_off1 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32 : BitVec 32 := 512#32
  let v27 : BitVec 32 := Scalar.muli v9 c512_i32
  let c0_i32_16 : BitVec 32 := 0#32
  let v28 : BitVec 32 := Scalar.addi v27 c0_i32_16
  let v1259 : Index := Scalar.indexCast v28
  let c512 : Index := 512#32
  ![0, v1259.toNat, 512]
def k0_cond2 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_19 : BitVec 32 := 1#32
  let v32 : BitVec 1 := Scalar.cmpi .eq v2 c1_i32_19
  let v33 : BitVec 32 := Scalar.extui v32
  let c0_i32_20 : BitVec 32 := 0#32
  let v34 : BitVec 1 := Scalar.cmpi .ne v33 c0_i32_20
  v34

def k0_off2 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32 : BitVec 32 := 512#32
  let v27 : BitVec 32 := Scalar.muli v9 c512_i32
  let c0_i32_16 : BitVec 32 := 0#32
  let v28 : BitVec 32 := Scalar.addi v27 c0_i32_16
  let v1259 : Index := Scalar.indexCast v28
  let c0_1157 : Index := 0#32
  ![0, v1259.toNat, 0]
def k0_dev3 (d0 : Dev nD) : Nat :=
  let c0_i32_24 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_23 : BitVec 32 := 8#32
  let v35 : BitVec 32 := Scalar.muli v10 c8_i32_23
  let v36 : BitVec 32 := Scalar.addi c0_i32_24 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_25 : BitVec 32 := 4#32
  let v37 : BitVec 32 := Scalar.muli v5 c4_i32_25
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_26 : BitVec 32 := 1#32
  let v39 : BitVec 32 := Scalar.muli v8 c1_i32_26
  let v40 : BitVec 32 := Scalar.addi v38 v39
  v40.toNat
def k0_cond3 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_32 : BitVec 32 := 0#32
  let v49 : BitVec 1 := Scalar.cmpi .eq v2 c0_i32_32
  let v50 : BitVec 32 := Scalar.extui v49
  let c0_i32_33 : BitVec 32 := 0#32
  let v51 : BitVec 1 := Scalar.cmpi .ne v50 c0_i32_33
  v51

def k0_off3 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_31 : BitVec 32 := 512#32
  let v47 : BitVec 32 := Scalar.muli v9 c512_i32_31
  let c32_i32 : BitVec 32 := 32#32
  let v48 : BitVec 32 := Scalar.addi v47 c32_i32
  let v1259 : Index := Scalar.indexCast v48
  let c512 : Index := 512#32
  ![0, v1259.toNat, 512]
def k0_cond4 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_34 : BitVec 32 := 1#32
  let v52 : BitVec 1 := Scalar.cmpi .eq v2 c1_i32_34
  let v53 : BitVec 32 := Scalar.extui v52
  let c0_i32_35 : BitVec 32 := 0#32
  let v54 : BitVec 1 := Scalar.cmpi .ne v53 c0_i32_35
  v54

def k0_off4 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_31 : BitVec 32 := 512#32
  let v47 : BitVec 32 := Scalar.muli v9 c512_i32_31
  let c32_i32 : BitVec 32 := 32#32
  let v48 : BitVec 32 := Scalar.addi v47 c32_i32
  let v1259 : Index := Scalar.indexCast v48
  let c0_1157 : Index := 0#32
  ![0, v1259.toNat, 0]
def k0_dev4 (d0 : Dev nD) : Nat :=
  let c0_i32_39 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_38 : BitVec 32 := 8#32
  let v55 : BitVec 32 := Scalar.muli v10 c8_i32_38
  let v56 : BitVec 32 := Scalar.addi c0_i32_39 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v57 : BitVec 32 := Scalar.muli v5 c4_i32_40
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v59 : BitVec 32 := Scalar.muli v8 c1_i32_41
  let v60 : BitVec 32 := Scalar.addi v58 v59
  v60.toNat
def k0_cond5 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_47 : BitVec 32 := 0#32
  let v69 : BitVec 1 := Scalar.cmpi .eq v2 c0_i32_47
  let v70 : BitVec 32 := Scalar.extui v69
  let c0_i32_48 : BitVec 32 := 0#32
  let v71 : BitVec 1 := Scalar.cmpi .ne v70 c0_i32_48
  v71

def k0_off5 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_46 : BitVec 32 := 512#32
  let v67 : BitVec 32 := Scalar.muli v9 c512_i32_46
  let c64_i32 : BitVec 32 := 64#32
  let v68 : BitVec 32 := Scalar.addi v67 c64_i32
  let v1259 : Index := Scalar.indexCast v68
  let c512 : Index := 512#32
  ![0, v1259.toNat, 512]
def k0_cond6 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_49 : BitVec 32 := 1#32
  let v72 : BitVec 1 := Scalar.cmpi .eq v2 c1_i32_49
  let v73 : BitVec 32 := Scalar.extui v72
  let c0_i32_50 : BitVec 32 := 0#32
  let v74 : BitVec 1 := Scalar.cmpi .ne v73 c0_i32_50
  v74

def k0_off6 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_46 : BitVec 32 := 512#32
  let v67 : BitVec 32 := Scalar.muli v9 c512_i32_46
  let c64_i32 : BitVec 32 := 64#32
  let v68 : BitVec 32 := Scalar.addi v67 c64_i32
  let v1259 : Index := Scalar.indexCast v68
  let c0_1157 : Index := 0#32
  ![0, v1259.toNat, 0]
def k0_dev5 (d0 : Dev nD) : Nat :=
  let c0_i32_54 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_53 : BitVec 32 := 8#32
  let v75 : BitVec 32 := Scalar.muli v10 c8_i32_53
  let v76 : BitVec 32 := Scalar.addi c0_i32_54 v75
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_55 : BitVec 32 := 4#32
  let v77 : BitVec 32 := Scalar.muli v5 c4_i32_55
  let v78 : BitVec 32 := Scalar.addi v76 v77
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v79 : BitVec 32 := Scalar.muli v8 c1_i32_56
  let v80 : BitVec 32 := Scalar.addi v78 v79
  v80.toNat
def k0_cond7 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_62 : BitVec 32 := 0#32
  let v89 : BitVec 1 := Scalar.cmpi .eq v2 c0_i32_62
  let v90 : BitVec 32 := Scalar.extui v89
  let c0_i32_63 : BitVec 32 := 0#32
  let v91 : BitVec 1 := Scalar.cmpi .ne v90 c0_i32_63
  v91

def k0_off7 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_61 : BitVec 32 := 512#32
  let v87 : BitVec 32 := Scalar.muli v9 c512_i32_61
  let c96_i32 : BitVec 32 := 96#32
  let v88 : BitVec 32 := Scalar.addi v87 c96_i32
  let v1259 : Index := Scalar.indexCast v88
  let c512 : Index := 512#32
  ![0, v1259.toNat, 512]
def k0_cond8 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_64 : BitVec 32 := 1#32
  let v92 : BitVec 1 := Scalar.cmpi .eq v2 c1_i32_64
  let v93 : BitVec 32 := Scalar.extui v92
  let c0_i32_65 : BitVec 32 := 0#32
  let v94 : BitVec 1 := Scalar.cmpi .ne v93 c0_i32_65
  v94

def k0_off8 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_61 : BitVec 32 := 512#32
  let v87 : BitVec 32 := Scalar.muli v9 c512_i32_61
  let c96_i32 : BitVec 32 := 96#32
  let v88 : BitVec 32 := Scalar.addi v87 c96_i32
  let v1259 : Index := Scalar.indexCast v88
  let c0_1157 : Index := 0#32
  ![0, v1259.toNat, 0]
def k0_dev6 (d0 : Dev nD) : Nat :=
  let c0_i32_68 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_67 : BitVec 32 := 8#32
  let v95 : BitVec 32 := Scalar.muli v10 c8_i32_67
  let v96 : BitVec 32 := Scalar.addi c0_i32_68 v95
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v97 : BitVec 32 := Scalar.muli v5 c4_i32_69
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v99 : BitVec 32 := Scalar.muli v8 c1_i32_70
  let v100 : BitVec 32 := Scalar.addi v98 v99
  v100.toNat
def k0_cond9 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_76 : BitVec 32 := 0#32
  let v109 : BitVec 1 := Scalar.cmpi .eq v2 c0_i32_76
  let v110 : BitVec 32 := Scalar.extui v109
  let c0_i32_77 : BitVec 32 := 0#32
  let v111 : BitVec 1 := Scalar.cmpi .ne v110 c0_i32_77
  v111

def k0_off9 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_75 : BitVec 32 := 512#32
  let v107 : BitVec 32 := Scalar.muli v9 c512_i32_75
  let c128_i32 : BitVec 32 := 128#32
  let v108 : BitVec 32 := Scalar.addi v107 c128_i32
  let v1259 : Index := Scalar.indexCast v108
  let c512 : Index := 512#32
  ![0, v1259.toNat, 512]
def k0_cond10 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_78 : BitVec 32 := 1#32
  let v112 : BitVec 1 := Scalar.cmpi .eq v2 c1_i32_78
  let v113 : BitVec 32 := Scalar.extui v112
  let c0_i32_79 : BitVec 32 := 0#32
  let v114 : BitVec 1 := Scalar.cmpi .ne v113 c0_i32_79
  v114

def k0_off10 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_75 : BitVec 32 := 512#32
  let v107 : BitVec 32 := Scalar.muli v9 c512_i32_75
  let c128_i32 : BitVec 32 := 128#32
  let v108 : BitVec 32 := Scalar.addi v107 c128_i32
  let v1259 : Index := Scalar.indexCast v108
  let c0_1157 : Index := 0#32
  ![0, v1259.toNat, 0]
def k0_dev7 (d0 : Dev nD) : Nat :=
  let c0_i32_83 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_82 : BitVec 32 := 8#32
  let v115 : BitVec 32 := Scalar.muli v10 c8_i32_82
  let v116 : BitVec 32 := Scalar.addi c0_i32_83 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v117 : BitVec 32 := Scalar.muli v5 c4_i32_84
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v119 : BitVec 32 := Scalar.muli v8 c1_i32_85
  let v120 : BitVec 32 := Scalar.addi v118 v119
  v120.toNat
def k0_cond11 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_91 : BitVec 32 := 0#32
  let v129 : BitVec 1 := Scalar.cmpi .eq v2 c0_i32_91
  let v130 : BitVec 32 := Scalar.extui v129
  let c0_i32_92 : BitVec 32 := 0#32
  let v131 : BitVec 1 := Scalar.cmpi .ne v130 c0_i32_92
  v131

def k0_off11 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_90 : BitVec 32 := 512#32
  let v127 : BitVec 32 := Scalar.muli v9 c512_i32_90
  let c160_i32 : BitVec 32 := 160#32
  let v128 : BitVec 32 := Scalar.addi v127 c160_i32
  let v1259 : Index := Scalar.indexCast v128
  let c512 : Index := 512#32
  ![0, v1259.toNat, 512]
def k0_cond12 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_93 : BitVec 32 := 1#32
  let v132 : BitVec 1 := Scalar.cmpi .eq v2 c1_i32_93
  let v133 : BitVec 32 := Scalar.extui v132
  let c0_i32_94 : BitVec 32 := 0#32
  let v134 : BitVec 1 := Scalar.cmpi .ne v133 c0_i32_94
  v134

def k0_off12 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_90 : BitVec 32 := 512#32
  let v127 : BitVec 32 := Scalar.muli v9 c512_i32_90
  let c160_i32 : BitVec 32 := 160#32
  let v128 : BitVec 32 := Scalar.addi v127 c160_i32
  let v1259 : Index := Scalar.indexCast v128
  let c0_1157 : Index := 0#32
  ![0, v1259.toNat, 0]
def k0_dev8 (d0 : Dev nD) : Nat :=
  let c0_i32_97 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_96 : BitVec 32 := 8#32
  let v135 : BitVec 32 := Scalar.muli v10 c8_i32_96
  let v136 : BitVec 32 := Scalar.addi c0_i32_97 v135
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v137 : BitVec 32 := Scalar.muli v5 c4_i32_98
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v139 : BitVec 32 := Scalar.muli v8 c1_i32_99
  let v140 : BitVec 32 := Scalar.addi v138 v139
  v140.toNat
def k0_cond13 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_105 : BitVec 32 := 0#32
  let v149 : BitVec 1 := Scalar.cmpi .eq v2 c0_i32_105
  let v150 : BitVec 32 := Scalar.extui v149
  let c0_i32_106 : BitVec 32 := 0#32
  let v151 : BitVec 1 := Scalar.cmpi .ne v150 c0_i32_106
  v151

def k0_off13 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_104 : BitVec 32 := 512#32
  let v147 : BitVec 32 := Scalar.muli v9 c512_i32_104
  let c192_i32 : BitVec 32 := 192#32
  let v148 : BitVec 32 := Scalar.addi v147 c192_i32
  let v1259 : Index := Scalar.indexCast v148
  let c512 : Index := 512#32
  ![0, v1259.toNat, 512]
def k0_cond14 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_107 : BitVec 32 := 1#32
  let v152 : BitVec 1 := Scalar.cmpi .eq v2 c1_i32_107
  let v153 : BitVec 32 := Scalar.extui v152
  let c0_i32_108 : BitVec 32 := 0#32
  let v154 : BitVec 1 := Scalar.cmpi .ne v153 c0_i32_108
  v154

def k0_off14 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_104 : BitVec 32 := 512#32
  let v147 : BitVec 32 := Scalar.muli v9 c512_i32_104
  let c192_i32 : BitVec 32 := 192#32
  let v148 : BitVec 32 := Scalar.addi v147 c192_i32
  let v1259 : Index := Scalar.indexCast v148
  let c0_1157 : Index := 0#32
  ![0, v1259.toNat, 0]
def k0_dev9 (d0 : Dev nD) : Nat :=
  let c0_i32_111 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_110 : BitVec 32 := 8#32
  let v155 : BitVec 32 := Scalar.muli v10 c8_i32_110
  let v156 : BitVec 32 := Scalar.addi c0_i32_111 v155
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v157 : BitVec 32 := Scalar.muli v5 c4_i32_112
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v159 : BitVec 32 := Scalar.muli v8 c1_i32_113
  let v160 : BitVec 32 := Scalar.addi v158 v159
  v160.toNat
def k0_cond15 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_119 : BitVec 32 := 0#32
  let v169 : BitVec 1 := Scalar.cmpi .eq v2 c0_i32_119
  let v170 : BitVec 32 := Scalar.extui v169
  let c0_i32_120 : BitVec 32 := 0#32
  let v171 : BitVec 1 := Scalar.cmpi .ne v170 c0_i32_120
  v171

def k0_off15 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_118 : BitVec 32 := 512#32
  let v167 : BitVec 32 := Scalar.muli v9 c512_i32_118
  let c224_i32 : BitVec 32 := 224#32
  let v168 : BitVec 32 := Scalar.addi v167 c224_i32
  let v1259 : Index := Scalar.indexCast v168
  let c512 : Index := 512#32
  ![0, v1259.toNat, 512]
def k0_cond16 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_121 : BitVec 32 := 1#32
  let v172 : BitVec 1 := Scalar.cmpi .eq v2 c1_i32_121
  let v173 : BitVec 32 := Scalar.extui v172
  let c0_i32_122 : BitVec 32 := 0#32
  let v174 : BitVec 1 := Scalar.cmpi .ne v173 c0_i32_122
  v174

def k0_off16 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_118 : BitVec 32 := 512#32
  let v167 : BitVec 32 := Scalar.muli v9 c512_i32_118
  let c224_i32 : BitVec 32 := 224#32
  let v168 : BitVec 32 := Scalar.addi v167 c224_i32
  let v1259 : Index := Scalar.indexCast v168
  let c0_1157 : Index := 0#32
  ![0, v1259.toNat, 0]
def k0_dev10 (d0 : Dev nD) : Nat :=
  let c0_i32_125 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_124 : BitVec 32 := 8#32
  let v175 : BitVec 32 := Scalar.muli v10 c8_i32_124
  let v176 : BitVec 32 := Scalar.addi c0_i32_125 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_126 : BitVec 32 := 4#32
  let v177 : BitVec 32 := Scalar.muli v5 c4_i32_126
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v179 : BitVec 32 := Scalar.muli v8 c1_i32_127
  let v180 : BitVec 32 := Scalar.addi v178 v179
  v180.toNat
def k0_cond17 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_133 : BitVec 32 := 0#32
  let v189 : BitVec 1 := Scalar.cmpi .eq v2 c0_i32_133
  let v190 : BitVec 32 := Scalar.extui v189
  let c0_i32_134 : BitVec 32 := 0#32
  let v191 : BitVec 1 := Scalar.cmpi .ne v190 c0_i32_134
  v191

def k0_off17 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_132 : BitVec 32 := 512#32
  let v187 : BitVec 32 := Scalar.muli v9 c512_i32_132
  let c256_i32 : BitVec 32 := 256#32
  let v188 : BitVec 32 := Scalar.addi v187 c256_i32
  let v1259 : Index := Scalar.indexCast v188
  let c512 : Index := 512#32
  ![0, v1259.toNat, 512]
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_135 : BitVec 32 := 1#32
  let v192 : BitVec 1 := Scalar.cmpi .eq v2 c1_i32_135
  let v193 : BitVec 32 := Scalar.extui v192
  let c0_i32_136 : BitVec 32 := 0#32
  let v194 : BitVec 1 := Scalar.cmpi .ne v193 c0_i32_136
  v194

def k0_off18 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_132 : BitVec 32 := 512#32
  let v187 : BitVec 32 := Scalar.muli v9 c512_i32_132
  let c256_i32 : BitVec 32 := 256#32
  let v188 : BitVec 32 := Scalar.addi v187 c256_i32
  let v1259 : Index := Scalar.indexCast v188
  let c0_1157 : Index := 0#32
  ![0, v1259.toNat, 0]
def k0_dev11 (d0 : Dev nD) : Nat :=
  let c0_i32_140 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_139 : BitVec 32 := 8#32
  let v195 : BitVec 32 := Scalar.muli v10 c8_i32_139
  let v196 : BitVec 32 := Scalar.addi c0_i32_140 v195
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v197 : BitVec 32 := Scalar.muli v5 c4_i32_141
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v199 : BitVec 32 := Scalar.muli v8 c1_i32_142
  let v200 : BitVec 32 := Scalar.addi v198 v199
  v200.toNat
def k0_cond19 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_148 : BitVec 32 := 0#32
  let v209 : BitVec 1 := Scalar.cmpi .eq v2 c0_i32_148
  let v210 : BitVec 32 := Scalar.extui v209
  let c0_i32_149 : BitVec 32 := 0#32
  let v211 : BitVec 1 := Scalar.cmpi .ne v210 c0_i32_149
  v211

def k0_off19 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_147 : BitVec 32 := 512#32
  let v207 : BitVec 32 := Scalar.muli v9 c512_i32_147
  let c288_i32 : BitVec 32 := 288#32
  let v208 : BitVec 32 := Scalar.addi v207 c288_i32
  let v1259 : Index := Scalar.indexCast v208
  let c512 : Index := 512#32
  ![0, v1259.toNat, 512]
def k0_cond20 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_150 : BitVec 32 := 1#32
  let v212 : BitVec 1 := Scalar.cmpi .eq v2 c1_i32_150
  let v213 : BitVec 32 := Scalar.extui v212
  let c0_i32_151 : BitVec 32 := 0#32
  let v214 : BitVec 1 := Scalar.cmpi .ne v213 c0_i32_151
  v214

def k0_off20 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_147 : BitVec 32 := 512#32
  let v207 : BitVec 32 := Scalar.muli v9 c512_i32_147
  let c288_i32 : BitVec 32 := 288#32
  let v208 : BitVec 32 := Scalar.addi v207 c288_i32
  let v1259 : Index := Scalar.indexCast v208
  let c0_1157 : Index := 0#32
  ![0, v1259.toNat, 0]
def k0_dev12 (d0 : Dev nD) : Nat :=
  let c0_i32_154 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_153 : BitVec 32 := 8#32
  let v215 : BitVec 32 := Scalar.muli v10 c8_i32_153
  let v216 : BitVec 32 := Scalar.addi c0_i32_154 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v217 : BitVec 32 := Scalar.muli v5 c4_i32_155
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v219 : BitVec 32 := Scalar.muli v8 c1_i32_156
  let v220 : BitVec 32 := Scalar.addi v218 v219
  v220.toNat
def k0_cond21 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_162 : BitVec 32 := 0#32
  let v229 : BitVec 1 := Scalar.cmpi .eq v2 c0_i32_162
  let v230 : BitVec 32 := Scalar.extui v229
  let c0_i32_163 : BitVec 32 := 0#32
  let v231 : BitVec 1 := Scalar.cmpi .ne v230 c0_i32_163
  v231

def k0_off21 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_161 : BitVec 32 := 512#32
  let v227 : BitVec 32 := Scalar.muli v9 c512_i32_161
  let c320_i32 : BitVec 32 := 320#32
  let v228 : BitVec 32 := Scalar.addi v227 c320_i32
  let v1259 : Index := Scalar.indexCast v228
  let c512 : Index := 512#32
  ![0, v1259.toNat, 512]
def k0_cond22 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_164 : BitVec 32 := 1#32
  let v232 : BitVec 1 := Scalar.cmpi .eq v2 c1_i32_164
  let v233 : BitVec 32 := Scalar.extui v232
  let c0_i32_165 : BitVec 32 := 0#32
  let v234 : BitVec 1 := Scalar.cmpi .ne v233 c0_i32_165
  v234

def k0_off22 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_161 : BitVec 32 := 512#32
  let v227 : BitVec 32 := Scalar.muli v9 c512_i32_161
  let c320_i32 : BitVec 32 := 320#32
  let v228 : BitVec 32 := Scalar.addi v227 c320_i32
  let v1259 : Index := Scalar.indexCast v228
  let c0_1157 : Index := 0#32
  ![0, v1259.toNat, 0]
def k0_dev13 (d0 : Dev nD) : Nat :=
  let c0_i32_168 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_167 : BitVec 32 := 8#32
  let v235 : BitVec 32 := Scalar.muli v10 c8_i32_167
  let v236 : BitVec 32 := Scalar.addi c0_i32_168 v235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v237 : BitVec 32 := Scalar.muli v5 c4_i32_169
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v239 : BitVec 32 := Scalar.muli v8 c1_i32_170
  let v240 : BitVec 32 := Scalar.addi v238 v239
  v240.toNat
def k0_cond23 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_176 : BitVec 32 := 0#32
  let v249 : BitVec 1 := Scalar.cmpi .eq v2 c0_i32_176
  let v250 : BitVec 32 := Scalar.extui v249
  let c0_i32_177 : BitVec 32 := 0#32
  let v251 : BitVec 1 := Scalar.cmpi .ne v250 c0_i32_177
  v251

def k0_off23 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_175 : BitVec 32 := 512#32
  let v247 : BitVec 32 := Scalar.muli v9 c512_i32_175
  let c352_i32 : BitVec 32 := 352#32
  let v248 : BitVec 32 := Scalar.addi v247 c352_i32
  let v1259 : Index := Scalar.indexCast v248
  let c512 : Index := 512#32
  ![0, v1259.toNat, 512]
def k0_cond24 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_178 : BitVec 32 := 1#32
  let v252 : BitVec 1 := Scalar.cmpi .eq v2 c1_i32_178
  let v253 : BitVec 32 := Scalar.extui v252
  let c0_i32_179 : BitVec 32 := 0#32
  let v254 : BitVec 1 := Scalar.cmpi .ne v253 c0_i32_179
  v254

def k0_off24 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_175 : BitVec 32 := 512#32
  let v247 : BitVec 32 := Scalar.muli v9 c512_i32_175
  let c352_i32 : BitVec 32 := 352#32
  let v248 : BitVec 32 := Scalar.addi v247 c352_i32
  let v1259 : Index := Scalar.indexCast v248
  let c0_1157 : Index := 0#32
  ![0, v1259.toNat, 0]
def k0_dev14 (d0 : Dev nD) : Nat :=
  let c0_i32_182 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_181 : BitVec 32 := 8#32
  let v255 : BitVec 32 := Scalar.muli v10 c8_i32_181
  let v256 : BitVec 32 := Scalar.addi c0_i32_182 v255
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_183 : BitVec 32 := 4#32
  let v257 : BitVec 32 := Scalar.muli v5 c4_i32_183
  let v258 : BitVec 32 := Scalar.addi v256 v257
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v259 : BitVec 32 := Scalar.muli v8 c1_i32_184
  let v260 : BitVec 32 := Scalar.addi v258 v259
  v260.toNat
def k0_cond25 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_190 : BitVec 32 := 0#32
  let v269 : BitVec 1 := Scalar.cmpi .eq v2 c0_i32_190
  let v270 : BitVec 32 := Scalar.extui v269
  let c0_i32_191 : BitVec 32 := 0#32
  let v271 : BitVec 1 := Scalar.cmpi .ne v270 c0_i32_191
  v271

def k0_off25 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_189 : BitVec 32 := 512#32
  let v267 : BitVec 32 := Scalar.muli v9 c512_i32_189
  let c384_i32 : BitVec 32 := 384#32
  let v268 : BitVec 32 := Scalar.addi v267 c384_i32
  let v1259 : Index := Scalar.indexCast v268
  let c512 : Index := 512#32
  ![0, v1259.toNat, 512]
def k0_cond26 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_192 : BitVec 32 := 1#32
  let v272 : BitVec 1 := Scalar.cmpi .eq v2 c1_i32_192
  let v273 : BitVec 32 := Scalar.extui v272
  let c0_i32_193 : BitVec 32 := 0#32
  let v274 : BitVec 1 := Scalar.cmpi .ne v273 c0_i32_193
  v274

def k0_off26 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_189 : BitVec 32 := 512#32
  let v267 : BitVec 32 := Scalar.muli v9 c512_i32_189
  let c384_i32 : BitVec 32 := 384#32
  let v268 : BitVec 32 := Scalar.addi v267 c384_i32
  let v1259 : Index := Scalar.indexCast v268
  let c0_1157 : Index := 0#32
  ![0, v1259.toNat, 0]
def k0_dev15 (d0 : Dev nD) : Nat :=
  let c0_i32_196 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_195 : BitVec 32 := 8#32
  let v275 : BitVec 32 := Scalar.muli v10 c8_i32_195
  let v276 : BitVec 32 := Scalar.addi c0_i32_196 v275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_197 : BitVec 32 := 4#32
  let v277 : BitVec 32 := Scalar.muli v5 c4_i32_197
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v279 : BitVec 32 := Scalar.muli v8 c1_i32_198
  let v280 : BitVec 32 := Scalar.addi v278 v279
  v280.toNat
def k0_cond27 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_204 : BitVec 32 := 0#32
  let v289 : BitVec 1 := Scalar.cmpi .eq v2 c0_i32_204
  let v290 : BitVec 32 := Scalar.extui v289
  let c0_i32_205 : BitVec 32 := 0#32
  let v291 : BitVec 1 := Scalar.cmpi .ne v290 c0_i32_205
  v291

def k0_off27 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_203 : BitVec 32 := 512#32
  let v287 : BitVec 32 := Scalar.muli v9 c512_i32_203
  let c416_i32 : BitVec 32 := 416#32
  let v288 : BitVec 32 := Scalar.addi v287 c416_i32
  let v1259 : Index := Scalar.indexCast v288
  let c512 : Index := 512#32
  ![0, v1259.toNat, 512]
def k0_cond28 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_206 : BitVec 32 := 1#32
  let v292 : BitVec 1 := Scalar.cmpi .eq v2 c1_i32_206
  let v293 : BitVec 32 := Scalar.extui v292
  let c0_i32_207 : BitVec 32 := 0#32
  let v294 : BitVec 1 := Scalar.cmpi .ne v293 c0_i32_207
  v294

def k0_off28 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_203 : BitVec 32 := 512#32
  let v287 : BitVec 32 := Scalar.muli v9 c512_i32_203
  let c416_i32 : BitVec 32 := 416#32
  let v288 : BitVec 32 := Scalar.addi v287 c416_i32
  let v1259 : Index := Scalar.indexCast v288
  let c0_1157 : Index := 0#32
  ![0, v1259.toNat, 0]
def k0_dev16 (d0 : Dev nD) : Nat :=
  let c0_i32_210 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_209 : BitVec 32 := 8#32
  let v295 : BitVec 32 := Scalar.muli v10 c8_i32_209
  let v296 : BitVec 32 := Scalar.addi c0_i32_210 v295
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_211 : BitVec 32 := 4#32
  let v297 : BitVec 32 := Scalar.muli v5 c4_i32_211
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_212 : BitVec 32 := 1#32
  let v299 : BitVec 32 := Scalar.muli v8 c1_i32_212
  let v300 : BitVec 32 := Scalar.addi v298 v299
  v300.toNat
def k0_cond29 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_218 : BitVec 32 := 0#32
  let v309 : BitVec 1 := Scalar.cmpi .eq v2 c0_i32_218
  let v310 : BitVec 32 := Scalar.extui v309
  let c0_i32_219 : BitVec 32 := 0#32
  let v311 : BitVec 1 := Scalar.cmpi .ne v310 c0_i32_219
  v311

def k0_off29 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_217 : BitVec 32 := 512#32
  let v307 : BitVec 32 := Scalar.muli v9 c512_i32_217
  let c448_i32 : BitVec 32 := 448#32
  let v308 : BitVec 32 := Scalar.addi v307 c448_i32
  let v1259 : Index := Scalar.indexCast v308
  let c512 : Index := 512#32
  ![0, v1259.toNat, 512]
def k0_cond30 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_220 : BitVec 32 := 1#32
  let v312 : BitVec 1 := Scalar.cmpi .eq v2 c1_i32_220
  let v313 : BitVec 32 := Scalar.extui v312
  let c0_i32_221 : BitVec 32 := 0#32
  let v314 : BitVec 1 := Scalar.cmpi .ne v313 c0_i32_221
  v314

def k0_off30 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_217 : BitVec 32 := 512#32
  let v307 : BitVec 32 := Scalar.muli v9 c512_i32_217
  let c448_i32 : BitVec 32 := 448#32
  let v308 : BitVec 32 := Scalar.addi v307 c448_i32
  let v1259 : Index := Scalar.indexCast v308
  let c0_1157 : Index := 0#32
  ![0, v1259.toNat, 0]
def k0_dev17 (d0 : Dev nD) : Nat :=
  let c0_i32_224 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_223 : BitVec 32 := 8#32
  let v315 : BitVec 32 := Scalar.muli v10 c8_i32_223
  let v316 : BitVec 32 := Scalar.addi c0_i32_224 v315
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_225 : BitVec 32 := 4#32
  let v317 : BitVec 32 := Scalar.muli v5 c4_i32_225
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_226 : BitVec 32 := 1#32
  let v319 : BitVec 32 := Scalar.muli v8 c1_i32_226
  let v320 : BitVec 32 := Scalar.addi v318 v319
  v320.toNat
def k0_cond31 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_232 : BitVec 32 := 0#32
  let v329 : BitVec 1 := Scalar.cmpi .eq v2 c0_i32_232
  let v330 : BitVec 32 := Scalar.extui v329
  let c0_i32_233 : BitVec 32 := 0#32
  let v331 : BitVec 1 := Scalar.cmpi .ne v330 c0_i32_233
  v331

def k0_off31 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_231 : BitVec 32 := 512#32
  let v327 : BitVec 32 := Scalar.muli v9 c512_i32_231
  let c480_i32 : BitVec 32 := 480#32
  let v328 : BitVec 32 := Scalar.addi v327 c480_i32
  let v1259 : Index := Scalar.indexCast v328
  let c512 : Index := 512#32
  ![0, v1259.toNat, 512]
def k0_cond32 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_234 : BitVec 32 := 1#32
  let v332 : BitVec 1 := Scalar.cmpi .eq v2 c1_i32_234
  let v333 : BitVec 32 := Scalar.extui v332
  let c0_i32_235 : BitVec 32 := 0#32
  let v334 : BitVec 1 := Scalar.cmpi .ne v333 c0_i32_235
  v334

def k0_off32 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_231 : BitVec 32 := 512#32
  let v327 : BitVec 32 := Scalar.muli v9 c512_i32_231
  let c480_i32 : BitVec 32 := 480#32
  let v328 : BitVec 32 := Scalar.addi v327 c480_i32
  let v1259 : Index := Scalar.indexCast v328
  let c0_1157 : Index := 0#32
  ![0, v1259.toNat, 0]
def k0_dev18 (d0 : Dev nD) : Nat :=
  let c0_i32_238 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_237 : BitVec 32 := 8#32
  let v335 : BitVec 32 := Scalar.muli v10 c8_i32_237
  let v336 : BitVec 32 := Scalar.addi c0_i32_238 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v337 : BitVec 32 := Scalar.muli v5 c4_i32_239
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v339 : BitVec 32 := Scalar.muli v8 c1_i32_240
  let v340 : BitVec 32 := Scalar.addi v338 v339
  v340.toNat
def k0_dev19 (d0 : Dev nD) : Nat :=
  let c0_i32_258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_257 : BitVec 32 := 8#32
  let v357 : BitVec 32 := Scalar.muli v2 c8_i32_257
  let v358 : BitVec 32 := Scalar.addi c0_i32_258 v357
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_259 : BitVec 32 := 4#32
  let v359 : BitVec 32 := Scalar.muli v5 c4_i32_259
  let v360 : BitVec 32 := Scalar.addi v358 v359
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_260 : BitVec 32 := 1#32
  let v361 : BitVec 32 := Scalar.muli v13 c1_i32_260
  let v362 : BitVec 32 := Scalar.addi v360 v361
  v362.toNat
def k0_cond33 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_267 : BitVec 32 := 0#32
  let v371 : BitVec 1 := Scalar.cmpi .eq v2 c0_i32_267
  let v372 : BitVec 32 := Scalar.extui v371
  let c0_i32_268 : BitVec 32 := 0#32
  let v373 : BitVec 1 := Scalar.cmpi .ne v372 c0_i32_268
  v373

def k0_off33 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_265 : BitVec 32 := 512#32
  let v369 : BitVec 32 := Scalar.muli v9 c512_i32_265
  let c0_i32_266 : BitVec 32 := 0#32
  let v370 : BitVec 32 := Scalar.addi v369 c0_i32_266
  let v1259 : Index := Scalar.indexCast v370
  let c0_1157 : Index := 0#32
  ![0, v1259.toNat, 0]
def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_265 : BitVec 32 := 512#32
  let v369 : BitVec 32 := Scalar.muli v9 c512_i32_265
  let c0_i32_266 : BitVec 32 := 0#32
  let v370 : BitVec 32 := Scalar.addi v369 c0_i32_266
  let v1265 : Index := Scalar.indexCast v370
  let c0_1160 : Index := 0#32
  ![v1265.toNat, 0]
def k0_cond34 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_269 : BitVec 32 := 1#32
  let v374 : BitVec 1 := Scalar.cmpi .eq v2 c1_i32_269
  let v375 : BitVec 32 := Scalar.extui v374
  let c0_i32_270 : BitVec 32 := 0#32
  let v376 : BitVec 1 := Scalar.cmpi .ne v375 c0_i32_270
  v376

def k0_off35 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_265 : BitVec 32 := 512#32
  let v369 : BitVec 32 := Scalar.muli v9 c512_i32_265
  let c0_i32_266 : BitVec 32 := 0#32
  let v370 : BitVec 32 := Scalar.addi v369 c0_i32_266
  let v1259 : Index := Scalar.indexCast v370
  let c512 : Index := 512#32
  ![0, v1259.toNat, 512]
def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_265 : BitVec 32 := 512#32
  let v369 : BitVec 32 := Scalar.muli v9 c512_i32_265
  let c0_i32_266 : BitVec 32 := 0#32
  let v370 : BitVec 32 := Scalar.addi v369 c0_i32_266
  let v1265 : Index := Scalar.indexCast v370
  let c0_1159 : Index := 0#32
  ![v1265.toNat, 0]
def k0_dev20 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v387 : BitVec 32 := Scalar.muli v2 c8_i32_283
  let v388 : BitVec 32 := Scalar.addi c0_i32_284 v387
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v389 : BitVec 32 := Scalar.muli v5 c4_i32_285
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_286 : BitVec 32 := 1#32
  let v391 : BitVec 32 := Scalar.muli v13 c1_i32_286
  let v392 : BitVec 32 := Scalar.addi v390 v391
  v392.toNat
def k0_cond35 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_293 : BitVec 32 := 0#32
  let v401 : BitVec 1 := Scalar.cmpi .eq v2 c0_i32_293
  let v402 : BitVec 32 := Scalar.extui v401
  let c0_i32_294 : BitVec 32 := 0#32
  let v403 : BitVec 1 := Scalar.cmpi .ne v402 c0_i32_294
  v403

def k0_off37 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_291 : BitVec 32 := 512#32
  let v399 : BitVec 32 := Scalar.muli v9 c512_i32_291
  let c32_i32_292 : BitVec 32 := 32#32
  let v400 : BitVec 32 := Scalar.addi v399 c32_i32_292
  let v1259 : Index := Scalar.indexCast v400
  let c0_1157 : Index := 0#32
  ![0, v1259.toNat, 0]
def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_291 : BitVec 32 := 512#32
  let v399 : BitVec 32 := Scalar.muli v9 c512_i32_291
  let c32_i32_292 : BitVec 32 := 32#32
  let v400 : BitVec 32 := Scalar.addi v399 c32_i32_292
  let v1265 : Index := Scalar.indexCast v400
  let c0_1159 : Index := 0#32
  ![v1265.toNat, 0]
def k0_cond36 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_295 : BitVec 32 := 1#32
  let v404 : BitVec 1 := Scalar.cmpi .eq v2 c1_i32_295
  let v405 : BitVec 32 := Scalar.extui v404
  let c0_i32_296 : BitVec 32 := 0#32
  let v406 : BitVec 1 := Scalar.cmpi .ne v405 c0_i32_296
  v406

def k0_off39 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_291 : BitVec 32 := 512#32
  let v399 : BitVec 32 := Scalar.muli v9 c512_i32_291
  let c32_i32_292 : BitVec 32 := 32#32
  let v400 : BitVec 32 := Scalar.addi v399 c32_i32_292
  let v1259 : Index := Scalar.indexCast v400
  let c512 : Index := 512#32
  ![0, v1259.toNat, 512]
def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_291 : BitVec 32 := 512#32
  let v399 : BitVec 32 := Scalar.muli v9 c512_i32_291
  let c32_i32_292 : BitVec 32 := 32#32
  let v400 : BitVec 32 := Scalar.addi v399 c32_i32_292
  let v1265 : Index := Scalar.indexCast v400
  let c0_1158 : Index := 0#32
  ![v1265.toNat, 0]
def k0_dev21 (d0 : Dev nD) : Nat :=
  let c0_i32_310 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_309 : BitVec 32 := 8#32
  let v417 : BitVec 32 := Scalar.muli v2 c8_i32_309
  let v418 : BitVec 32 := Scalar.addi c0_i32_310 v417
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_311 : BitVec 32 := 4#32
  let v419 : BitVec 32 := Scalar.muli v5 c4_i32_311
  let v420 : BitVec 32 := Scalar.addi v418 v419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_312 : BitVec 32 := 1#32
  let v421 : BitVec 32 := Scalar.muli v13 c1_i32_312
  let v422 : BitVec 32 := Scalar.addi v420 v421
  v422.toNat
def k0_cond37 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_319 : BitVec 32 := 0#32
  let v431 : BitVec 1 := Scalar.cmpi .eq v2 c0_i32_319
  let v432 : BitVec 32 := Scalar.extui v431
  let c0_i32_320 : BitVec 32 := 0#32
  let v433 : BitVec 1 := Scalar.cmpi .ne v432 c0_i32_320
  v433

def k0_off41 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_317 : BitVec 32 := 512#32
  let v429 : BitVec 32 := Scalar.muli v9 c512_i32_317
  let c64_i32_318 : BitVec 32 := 64#32
  let v430 : BitVec 32 := Scalar.addi v429 c64_i32_318
  let v1259 : Index := Scalar.indexCast v430
  let c0_1157 : Index := 0#32
  ![0, v1259.toNat, 0]
def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_317 : BitVec 32 := 512#32
  let v429 : BitVec 32 := Scalar.muli v9 c512_i32_317
  let c64_i32_318 : BitVec 32 := 64#32
  let v430 : BitVec 32 := Scalar.addi v429 c64_i32_318
  let v1265 : Index := Scalar.indexCast v430
  let c0_1159 : Index := 0#32
  ![v1265.toNat, 0]
def k0_cond38 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_321 : BitVec 32 := 1#32
  let v434 : BitVec 1 := Scalar.cmpi .eq v2 c1_i32_321
  let v435 : BitVec 32 := Scalar.extui v434
  let c0_i32_322 : BitVec 32 := 0#32
  let v436 : BitVec 1 := Scalar.cmpi .ne v435 c0_i32_322
  v436

def k0_off43 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_317 : BitVec 32 := 512#32
  let v429 : BitVec 32 := Scalar.muli v9 c512_i32_317
  let c64_i32_318 : BitVec 32 := 64#32
  let v430 : BitVec 32 := Scalar.addi v429 c64_i32_318
  let v1259 : Index := Scalar.indexCast v430
  let c512 : Index := 512#32
  ![0, v1259.toNat, 512]
def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_317 : BitVec 32 := 512#32
  let v429 : BitVec 32 := Scalar.muli v9 c512_i32_317
  let c64_i32_318 : BitVec 32 := 64#32
  let v430 : BitVec 32 := Scalar.addi v429 c64_i32_318
  let v1265 : Index := Scalar.indexCast v430
  let c0_1158 : Index := 0#32
  ![v1265.toNat, 0]
def k0_dev22 (d0 : Dev nD) : Nat :=
  let c0_i32_336 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_335 : BitVec 32 := 8#32
  let v447 : BitVec 32 := Scalar.muli v2 c8_i32_335
  let v448 : BitVec 32 := Scalar.addi c0_i32_336 v447
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_337 : BitVec 32 := 4#32
  let v449 : BitVec 32 := Scalar.muli v5 c4_i32_337
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_338 : BitVec 32 := 1#32
  let v451 : BitVec 32 := Scalar.muli v13 c1_i32_338
  let v452 : BitVec 32 := Scalar.addi v450 v451
  v452.toNat
def k0_cond39 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_345 : BitVec 32 := 0#32
  let v461 : BitVec 1 := Scalar.cmpi .eq v2 c0_i32_345
  let v462 : BitVec 32 := Scalar.extui v461
  let c0_i32_346 : BitVec 32 := 0#32
  let v463 : BitVec 1 := Scalar.cmpi .ne v462 c0_i32_346
  v463

def k0_off45 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_343 : BitVec 32 := 512#32
  let v459 : BitVec 32 := Scalar.muli v9 c512_i32_343
  let c96_i32_344 : BitVec 32 := 96#32
  let v460 : BitVec 32 := Scalar.addi v459 c96_i32_344
  let v1259 : Index := Scalar.indexCast v460
  let c0_1157 : Index := 0#32
  ![0, v1259.toNat, 0]
def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_343 : BitVec 32 := 512#32
  let v459 : BitVec 32 := Scalar.muli v9 c512_i32_343
  let c96_i32_344 : BitVec 32 := 96#32
  let v460 : BitVec 32 := Scalar.addi v459 c96_i32_344
  let v1265 : Index := Scalar.indexCast v460
  let c0_1159 : Index := 0#32
  ![v1265.toNat, 0]
def k0_cond40 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_347 : BitVec 32 := 1#32
  let v464 : BitVec 1 := Scalar.cmpi .eq v2 c1_i32_347
  let v465 : BitVec 32 := Scalar.extui v464
  let c0_i32_348 : BitVec 32 := 0#32
  let v466 : BitVec 1 := Scalar.cmpi .ne v465 c0_i32_348
  v466

def k0_off47 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_343 : BitVec 32 := 512#32
  let v459 : BitVec 32 := Scalar.muli v9 c512_i32_343
  let c96_i32_344 : BitVec 32 := 96#32
  let v460 : BitVec 32 := Scalar.addi v459 c96_i32_344
  let v1259 : Index := Scalar.indexCast v460
  let c512 : Index := 512#32
  ![0, v1259.toNat, 512]
def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_343 : BitVec 32 := 512#32
  let v459 : BitVec 32 := Scalar.muli v9 c512_i32_343
  let c96_i32_344 : BitVec 32 := 96#32
  let v460 : BitVec 32 := Scalar.addi v459 c96_i32_344
  let v1265 : Index := Scalar.indexCast v460
  let c0_1158 : Index := 0#32
  ![v1265.toNat, 0]
def k0_dev23 (d0 : Dev nD) : Nat :=
  let c0_i32_362 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_361 : BitVec 32 := 8#32
  let v477 : BitVec 32 := Scalar.muli v2 c8_i32_361
  let v478 : BitVec 32 := Scalar.addi c0_i32_362 v477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_363 : BitVec 32 := 4#32
  let v479 : BitVec 32 := Scalar.muli v5 c4_i32_363
  let v480 : BitVec 32 := Scalar.addi v478 v479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_364 : BitVec 32 := 1#32
  let v481 : BitVec 32 := Scalar.muli v13 c1_i32_364
  let v482 : BitVec 32 := Scalar.addi v480 v481
  v482.toNat
def k0_cond41 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_371 : BitVec 32 := 0#32
  let v491 : BitVec 1 := Scalar.cmpi .eq v2 c0_i32_371
  let v492 : BitVec 32 := Scalar.extui v491
  let c0_i32_372 : BitVec 32 := 0#32
  let v493 : BitVec 1 := Scalar.cmpi .ne v492 c0_i32_372
  v493

def k0_off49 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_369 : BitVec 32 := 512#32
  let v489 : BitVec 32 := Scalar.muli v9 c512_i32_369
  let c128_i32_370 : BitVec 32 := 128#32
  let v490 : BitVec 32 := Scalar.addi v489 c128_i32_370
  let v1259 : Index := Scalar.indexCast v490
  let c0_1157 : Index := 0#32
  ![0, v1259.toNat, 0]
def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_369 : BitVec 32 := 512#32
  let v489 : BitVec 32 := Scalar.muli v9 c512_i32_369
  let c128_i32_370 : BitVec 32 := 128#32
  let v490 : BitVec 32 := Scalar.addi v489 c128_i32_370
  let v1265 : Index := Scalar.indexCast v490
  let c0_1159 : Index := 0#32
  ![v1265.toNat, 0]
def k0_cond42 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_373 : BitVec 32 := 1#32
  let v494 : BitVec 1 := Scalar.cmpi .eq v2 c1_i32_373
  let v495 : BitVec 32 := Scalar.extui v494
  let c0_i32_374 : BitVec 32 := 0#32
  let v496 : BitVec 1 := Scalar.cmpi .ne v495 c0_i32_374
  v496

def k0_off51 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_369 : BitVec 32 := 512#32
  let v489 : BitVec 32 := Scalar.muli v9 c512_i32_369
  let c128_i32_370 : BitVec 32 := 128#32
  let v490 : BitVec 32 := Scalar.addi v489 c128_i32_370
  let v1259 : Index := Scalar.indexCast v490
  let c512 : Index := 512#32
  ![0, v1259.toNat, 512]
def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_369 : BitVec 32 := 512#32
  let v489 : BitVec 32 := Scalar.muli v9 c512_i32_369
  let c128_i32_370 : BitVec 32 := 128#32
  let v490 : BitVec 32 := Scalar.addi v489 c128_i32_370
  let v1265 : Index := Scalar.indexCast v490
  let c0_1158 : Index := 0#32
  ![v1265.toNat, 0]
def k0_dev24 (d0 : Dev nD) : Nat :=
  let c0_i32_388 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_387 : BitVec 32 := 8#32
  let v507 : BitVec 32 := Scalar.muli v2 c8_i32_387
  let v508 : BitVec 32 := Scalar.addi c0_i32_388 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_389 : BitVec 32 := 4#32
  let v509 : BitVec 32 := Scalar.muli v5 c4_i32_389
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_390 : BitVec 32 := 1#32
  let v511 : BitVec 32 := Scalar.muli v13 c1_i32_390
  let v512 : BitVec 32 := Scalar.addi v510 v511
  v512.toNat
def k0_cond43 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_397 : BitVec 32 := 0#32
  let v521 : BitVec 1 := Scalar.cmpi .eq v2 c0_i32_397
  let v522 : BitVec 32 := Scalar.extui v521
  let c0_i32_398 : BitVec 32 := 0#32
  let v523 : BitVec 1 := Scalar.cmpi .ne v522 c0_i32_398
  v523

def k0_off53 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_395 : BitVec 32 := 512#32
  let v519 : BitVec 32 := Scalar.muli v9 c512_i32_395
  let c160_i32_396 : BitVec 32 := 160#32
  let v520 : BitVec 32 := Scalar.addi v519 c160_i32_396
  let v1259 : Index := Scalar.indexCast v520
  let c0_1157 : Index := 0#32
  ![0, v1259.toNat, 0]
def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_395 : BitVec 32 := 512#32
  let v519 : BitVec 32 := Scalar.muli v9 c512_i32_395
  let c160_i32_396 : BitVec 32 := 160#32
  let v520 : BitVec 32 := Scalar.addi v519 c160_i32_396
  let v1265 : Index := Scalar.indexCast v520
  let c0_1159 : Index := 0#32
  ![v1265.toNat, 0]
def k0_cond44 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_399 : BitVec 32 := 1#32
  let v524 : BitVec 1 := Scalar.cmpi .eq v2 c1_i32_399
  let v525 : BitVec 32 := Scalar.extui v524
  let c0_i32_400 : BitVec 32 := 0#32
  let v526 : BitVec 1 := Scalar.cmpi .ne v525 c0_i32_400
  v526

def k0_off55 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_395 : BitVec 32 := 512#32
  let v519 : BitVec 32 := Scalar.muli v9 c512_i32_395
  let c160_i32_396 : BitVec 32 := 160#32
  let v520 : BitVec 32 := Scalar.addi v519 c160_i32_396
  let v1259 : Index := Scalar.indexCast v520
  let c512 : Index := 512#32
  ![0, v1259.toNat, 512]
def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_395 : BitVec 32 := 512#32
  let v519 : BitVec 32 := Scalar.muli v9 c512_i32_395
  let c160_i32_396 : BitVec 32 := 160#32
  let v520 : BitVec 32 := Scalar.addi v519 c160_i32_396
  let v1265 : Index := Scalar.indexCast v520
  let c0_1158 : Index := 0#32
  ![v1265.toNat, 0]
def k0_dev25 (d0 : Dev nD) : Nat :=
  let c0_i32_414 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_413 : BitVec 32 := 8#32
  let v537 : BitVec 32 := Scalar.muli v2 c8_i32_413
  let v538 : BitVec 32 := Scalar.addi c0_i32_414 v537
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_415 : BitVec 32 := 4#32
  let v539 : BitVec 32 := Scalar.muli v5 c4_i32_415
  let v540 : BitVec 32 := Scalar.addi v538 v539
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_416 : BitVec 32 := 1#32
  let v541 : BitVec 32 := Scalar.muli v13 c1_i32_416
  let v542 : BitVec 32 := Scalar.addi v540 v541
  v542.toNat
def k0_cond45 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_423 : BitVec 32 := 0#32
  let v551 : BitVec 1 := Scalar.cmpi .eq v2 c0_i32_423
  let v552 : BitVec 32 := Scalar.extui v551
  let c0_i32_424 : BitVec 32 := 0#32
  let v553 : BitVec 1 := Scalar.cmpi .ne v552 c0_i32_424
  v553

def k0_off57 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_421 : BitVec 32 := 512#32
  let v549 : BitVec 32 := Scalar.muli v9 c512_i32_421
  let c192_i32_422 : BitVec 32 := 192#32
  let v550 : BitVec 32 := Scalar.addi v549 c192_i32_422
  let v1259 : Index := Scalar.indexCast v550
  let c0_1157 : Index := 0#32
  ![0, v1259.toNat, 0]
def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_421 : BitVec 32 := 512#32
  let v549 : BitVec 32 := Scalar.muli v9 c512_i32_421
  let c192_i32_422 : BitVec 32 := 192#32
  let v550 : BitVec 32 := Scalar.addi v549 c192_i32_422
  let v1265 : Index := Scalar.indexCast v550
  let c0_1159 : Index := 0#32
  ![v1265.toNat, 0]
def k0_cond46 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_425 : BitVec 32 := 1#32
  let v554 : BitVec 1 := Scalar.cmpi .eq v2 c1_i32_425
  let v555 : BitVec 32 := Scalar.extui v554
  let c0_i32_426 : BitVec 32 := 0#32
  let v556 : BitVec 1 := Scalar.cmpi .ne v555 c0_i32_426
  v556

def k0_off59 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_421 : BitVec 32 := 512#32
  let v549 : BitVec 32 := Scalar.muli v9 c512_i32_421
  let c192_i32_422 : BitVec 32 := 192#32
  let v550 : BitVec 32 := Scalar.addi v549 c192_i32_422
  let v1259 : Index := Scalar.indexCast v550
  let c512 : Index := 512#32
  ![0, v1259.toNat, 512]
def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_421 : BitVec 32 := 512#32
  let v549 : BitVec 32 := Scalar.muli v9 c512_i32_421
  let c192_i32_422 : BitVec 32 := 192#32
  let v550 : BitVec 32 := Scalar.addi v549 c192_i32_422
  let v1265 : Index := Scalar.indexCast v550
  let c0_1158 : Index := 0#32
  ![v1265.toNat, 0]
def k0_cond47 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_440 : BitVec 32 := 0#32
  let v570 : BitVec 1 := Scalar.cmpi .eq v2 c0_i32_440
  let v571 : BitVec 32 := Scalar.extui v570
  let c0_i32_441 : BitVec 32 := 0#32
  let v572 : BitVec 1 := Scalar.cmpi .ne v571 c0_i32_441
  v572

def k0_off61 (d0 : Dev nD) : Fin 3 → Nat :=
  let c0 : Index := 0#32
  let c1_i32_437 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v567 : BitVec 32 := Scalar.subi c1_i32_437 v9
  let c512_i32_438 : BitVec 32 := 512#32
  let v568 : BitVec 32 := Scalar.muli v567 c512_i32_438
  let c0_i32_439 : BitVec 32 := 0#32
  let v569 : BitVec 32 := Scalar.addi v568 c0_i32_439
  let v1259 : Index := Scalar.indexCast v569
  let c0_1157 : Index := 0#32
  ![0, v1259.toNat, 0]
def k0_off62 (d0 : Dev nD) : Fin 2 → Nat :=
  let c1_i32_437 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v567 : BitVec 32 := Scalar.subi c1_i32_437 v9
  let c512_i32_438 : BitVec 32 := 512#32
  let v568 : BitVec 32 := Scalar.muli v567 c512_i32_438
  let c0_i32_439 : BitVec 32 := 0#32
  let v569 : BitVec 32 := Scalar.addi v568 c0_i32_439
  let v1265 : Index := Scalar.indexCast v569
  let c0_1160 : Index := 0#32
  ![v1265.toNat, 0]
def k0_cond48 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_442 : BitVec 32 := 1#32
  let v573 : BitVec 1 := Scalar.cmpi .eq v2 c1_i32_442
  let v574 : BitVec 32 := Scalar.extui v573
  let c0_i32_443 : BitVec 32 := 0#32
  let v575 : BitVec 1 := Scalar.cmpi .ne v574 c0_i32_443
  v575

def k0_off63 (d0 : Dev nD) : Fin 3 → Nat :=
  let c0 : Index := 0#32
  let c1_i32_437 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v567 : BitVec 32 := Scalar.subi c1_i32_437 v9
  let c512_i32_438 : BitVec 32 := 512#32
  let v568 : BitVec 32 := Scalar.muli v567 c512_i32_438
  let c0_i32_439 : BitVec 32 := 0#32
  let v569 : BitVec 32 := Scalar.addi v568 c0_i32_439
  let v1259 : Index := Scalar.indexCast v569
  let c512 : Index := 512#32
  ![0, v1259.toNat, 512]
def k0_off64 (d0 : Dev nD) : Fin 2 → Nat :=
  let c1_i32_437 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v567 : BitVec 32 := Scalar.subi c1_i32_437 v9
  let c512_i32_438 : BitVec 32 := 512#32
  let v568 : BitVec 32 := Scalar.muli v567 c512_i32_438
  let c0_i32_439 : BitVec 32 := 0#32
  let v569 : BitVec 32 := Scalar.addi v568 c0_i32_439
  let v1265 : Index := Scalar.indexCast v569
  let c0_1159 : Index := 0#32
  ![v1265.toNat, 0]
def k0_dev26 (d0 : Dev nD) : Nat :=
  let c0_i32_457 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_456 : BitVec 32 := 8#32
  let v586 : BitVec 32 := Scalar.muli v2 c8_i32_456
  let v587 : BitVec 32 := Scalar.addi c0_i32_457 v586
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_458 : BitVec 32 := 4#32
  let v588 : BitVec 32 := Scalar.muli v5 c4_i32_458
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_459 : BitVec 32 := 1#32
  let v590 : BitVec 32 := Scalar.muli v13 c1_i32_459
  let v591 : BitVec 32 := Scalar.addi v589 v590
  v591.toNat
def k0_cond49 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_466 : BitVec 32 := 0#32
  let v600 : BitVec 1 := Scalar.cmpi .eq v2 c0_i32_466
  let v601 : BitVec 32 := Scalar.extui v600
  let c0_i32_467 : BitVec 32 := 0#32
  let v602 : BitVec 1 := Scalar.cmpi .ne v601 c0_i32_467
  v602

def k0_off65 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_464 : BitVec 32 := 512#32
  let v598 : BitVec 32 := Scalar.muli v9 c512_i32_464
  let c224_i32_465 : BitVec 32 := 224#32
  let v599 : BitVec 32 := Scalar.addi v598 c224_i32_465
  let v1259 : Index := Scalar.indexCast v599
  let c0_1157 : Index := 0#32
  ![0, v1259.toNat, 0]
def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_464 : BitVec 32 := 512#32
  let v598 : BitVec 32 := Scalar.muli v9 c512_i32_464
  let c224_i32_465 : BitVec 32 := 224#32
  let v599 : BitVec 32 := Scalar.addi v598 c224_i32_465
  let v1265 : Index := Scalar.indexCast v599
  let c0_1159 : Index := 0#32
  ![v1265.toNat, 0]
def k0_cond50 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_468 : BitVec 32 := 1#32
  let v603 : BitVec 1 := Scalar.cmpi .eq v2 c1_i32_468
  let v604 : BitVec 32 := Scalar.extui v603
  let c0_i32_469 : BitVec 32 := 0#32
  let v605 : BitVec 1 := Scalar.cmpi .ne v604 c0_i32_469
  v605

def k0_off67 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_464 : BitVec 32 := 512#32
  let v598 : BitVec 32 := Scalar.muli v9 c512_i32_464
  let c224_i32_465 : BitVec 32 := 224#32
  let v599 : BitVec 32 := Scalar.addi v598 c224_i32_465
  let v1259 : Index := Scalar.indexCast v599
  let c512 : Index := 512#32
  ![0, v1259.toNat, 512]
def k0_off68 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_464 : BitVec 32 := 512#32
  let v598 : BitVec 32 := Scalar.muli v9 c512_i32_464
  let c224_i32_465 : BitVec 32 := 224#32
  let v599 : BitVec 32 := Scalar.addi v598 c224_i32_465
  let v1265 : Index := Scalar.indexCast v599
  let c0_1158 : Index := 0#32
  ![v1265.toNat, 0]
def k0_cond51 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_483 : BitVec 32 := 0#32
  let v619 : BitVec 1 := Scalar.cmpi .eq v2 c0_i32_483
  let v620 : BitVec 32 := Scalar.extui v619
  let c0_i32_484 : BitVec 32 := 0#32
  let v621 : BitVec 1 := Scalar.cmpi .ne v620 c0_i32_484
  v621

def k0_off69 (d0 : Dev nD) : Fin 3 → Nat :=
  let c0 : Index := 0#32
  let c1_i32_480 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v616 : BitVec 32 := Scalar.subi c1_i32_480 v9
  let c512_i32_481 : BitVec 32 := 512#32
  let v617 : BitVec 32 := Scalar.muli v616 c512_i32_481
  let c32_i32_482 : BitVec 32 := 32#32
  let v618 : BitVec 32 := Scalar.addi v617 c32_i32_482
  let v1259 : Index := Scalar.indexCast v618
  let c0_1157 : Index := 0#32
  ![0, v1259.toNat, 0]
def k0_off70 (d0 : Dev nD) : Fin 2 → Nat :=
  let c1_i32_480 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v616 : BitVec 32 := Scalar.subi c1_i32_480 v9
  let c512_i32_481 : BitVec 32 := 512#32
  let v617 : BitVec 32 := Scalar.muli v616 c512_i32_481
  let c32_i32_482 : BitVec 32 := 32#32
  let v618 : BitVec 32 := Scalar.addi v617 c32_i32_482
  let v1265 : Index := Scalar.indexCast v618
  let c0_1159 : Index := 0#32
  ![v1265.toNat, 0]
def k0_cond52 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_485 : BitVec 32 := 1#32
  let v622 : BitVec 1 := Scalar.cmpi .eq v2 c1_i32_485
  let v623 : BitVec 32 := Scalar.extui v622
  let c0_i32_486 : BitVec 32 := 0#32
  let v624 : BitVec 1 := Scalar.cmpi .ne v623 c0_i32_486
  v624

def k0_off71 (d0 : Dev nD) : Fin 3 → Nat :=
  let c0 : Index := 0#32
  let c1_i32_480 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v616 : BitVec 32 := Scalar.subi c1_i32_480 v9
  let c512_i32_481 : BitVec 32 := 512#32
  let v617 : BitVec 32 := Scalar.muli v616 c512_i32_481
  let c32_i32_482 : BitVec 32 := 32#32
  let v618 : BitVec 32 := Scalar.addi v617 c32_i32_482
  let v1259 : Index := Scalar.indexCast v618
  let c512 : Index := 512#32
  ![0, v1259.toNat, 512]
def k0_off72 (d0 : Dev nD) : Fin 2 → Nat :=
  let c1_i32_480 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v616 : BitVec 32 := Scalar.subi c1_i32_480 v9
  let c512_i32_481 : BitVec 32 := 512#32
  let v617 : BitVec 32 := Scalar.muli v616 c512_i32_481
  let c32_i32_482 : BitVec 32 := 32#32
  let v618 : BitVec 32 := Scalar.addi v617 c32_i32_482
  let v1265 : Index := Scalar.indexCast v618
  let c0_1158 : Index := 0#32
  ![v1265.toNat, 0]
def k0_dev27 (d0 : Dev nD) : Nat :=
  let c0_i32_500 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_499 : BitVec 32 := 8#32
  let v635 : BitVec 32 := Scalar.muli v2 c8_i32_499
  let v636 : BitVec 32 := Scalar.addi c0_i32_500 v635
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_501 : BitVec 32 := 4#32
  let v637 : BitVec 32 := Scalar.muli v5 c4_i32_501
  let v638 : BitVec 32 := Scalar.addi v636 v637
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_502 : BitVec 32 := 1#32
  let v639 : BitVec 32 := Scalar.muli v13 c1_i32_502
  let v640 : BitVec 32 := Scalar.addi v638 v639
  v640.toNat
def k0_cond53 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_509 : BitVec 32 := 0#32
  let v649 : BitVec 1 := Scalar.cmpi .eq v2 c0_i32_509
  let v650 : BitVec 32 := Scalar.extui v649
  let c0_i32_510 : BitVec 32 := 0#32
  let v651 : BitVec 1 := Scalar.cmpi .ne v650 c0_i32_510
  v651

def k0_off73 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_507 : BitVec 32 := 512#32
  let v647 : BitVec 32 := Scalar.muli v9 c512_i32_507
  let c256_i32_508 : BitVec 32 := 256#32
  let v648 : BitVec 32 := Scalar.addi v647 c256_i32_508
  let v1259 : Index := Scalar.indexCast v648
  let c0_1157 : Index := 0#32
  ![0, v1259.toNat, 0]
def k0_off74 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_507 : BitVec 32 := 512#32
  let v647 : BitVec 32 := Scalar.muli v9 c512_i32_507
  let c256_i32_508 : BitVec 32 := 256#32
  let v648 : BitVec 32 := Scalar.addi v647 c256_i32_508
  let v1265 : Index := Scalar.indexCast v648
  let c0_1159 : Index := 0#32
  ![v1265.toNat, 0]
def k0_cond54 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_511 : BitVec 32 := 1#32
  let v652 : BitVec 1 := Scalar.cmpi .eq v2 c1_i32_511
  let v653 : BitVec 32 := Scalar.extui v652
  let c0_i32_512 : BitVec 32 := 0#32
  let v654 : BitVec 1 := Scalar.cmpi .ne v653 c0_i32_512
  v654

def k0_off75 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_507 : BitVec 32 := 512#32
  let v647 : BitVec 32 := Scalar.muli v9 c512_i32_507
  let c256_i32_508 : BitVec 32 := 256#32
  let v648 : BitVec 32 := Scalar.addi v647 c256_i32_508
  let v1259 : Index := Scalar.indexCast v648
  let c512 : Index := 512#32
  ![0, v1259.toNat, 512]
def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_507 : BitVec 32 := 512#32
  let v647 : BitVec 32 := Scalar.muli v9 c512_i32_507
  let c256_i32_508 : BitVec 32 := 256#32
  let v648 : BitVec 32 := Scalar.addi v647 c256_i32_508
  let v1265 : Index := Scalar.indexCast v648
  let c0_1158 : Index := 0#32
  ![v1265.toNat, 0]
def k0_cond55 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_526 : BitVec 32 := 0#32
  let v668 : BitVec 1 := Scalar.cmpi .eq v2 c0_i32_526
  let v669 : BitVec 32 := Scalar.extui v668
  let c0_i32_527 : BitVec 32 := 0#32
  let v670 : BitVec 1 := Scalar.cmpi .ne v669 c0_i32_527
  v670

def k0_off77 (d0 : Dev nD) : Fin 3 → Nat :=
  let c0 : Index := 0#32
  let c1_i32_523 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v665 : BitVec 32 := Scalar.subi c1_i32_523 v9
  let c512_i32_524 : BitVec 32 := 512#32
  let v666 : BitVec 32 := Scalar.muli v665 c512_i32_524
  let c64_i32_525 : BitVec 32 := 64#32
  let v667 : BitVec 32 := Scalar.addi v666 c64_i32_525
  let v1259 : Index := Scalar.indexCast v667
  let c0_1157 : Index := 0#32
  ![0, v1259.toNat, 0]
def k0_off78 (d0 : Dev nD) : Fin 2 → Nat :=
  let c1_i32_523 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v665 : BitVec 32 := Scalar.subi c1_i32_523 v9
  let c512_i32_524 : BitVec 32 := 512#32
  let v666 : BitVec 32 := Scalar.muli v665 c512_i32_524
  let c64_i32_525 : BitVec 32 := 64#32
  let v667 : BitVec 32 := Scalar.addi v666 c64_i32_525
  let v1265 : Index := Scalar.indexCast v667
  let c0_1159 : Index := 0#32
  ![v1265.toNat, 0]
def k0_cond56 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_528 : BitVec 32 := 1#32
  let v671 : BitVec 1 := Scalar.cmpi .eq v2 c1_i32_528
  let v672 : BitVec 32 := Scalar.extui v671
  let c0_i32_529 : BitVec 32 := 0#32
  let v673 : BitVec 1 := Scalar.cmpi .ne v672 c0_i32_529
  v673

def k0_off79 (d0 : Dev nD) : Fin 3 → Nat :=
  let c0 : Index := 0#32
  let c1_i32_523 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v665 : BitVec 32 := Scalar.subi c1_i32_523 v9
  let c512_i32_524 : BitVec 32 := 512#32
  let v666 : BitVec 32 := Scalar.muli v665 c512_i32_524
  let c64_i32_525 : BitVec 32 := 64#32
  let v667 : BitVec 32 := Scalar.addi v666 c64_i32_525
  let v1259 : Index := Scalar.indexCast v667
  let c512 : Index := 512#32
  ![0, v1259.toNat, 512]
def k0_off80 (d0 : Dev nD) : Fin 2 → Nat :=
  let c1_i32_523 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v665 : BitVec 32 := Scalar.subi c1_i32_523 v9
  let c512_i32_524 : BitVec 32 := 512#32
  let v666 : BitVec 32 := Scalar.muli v665 c512_i32_524
  let c64_i32_525 : BitVec 32 := 64#32
  let v667 : BitVec 32 := Scalar.addi v666 c64_i32_525
  let v1265 : Index := Scalar.indexCast v667
  let c0_1158 : Index := 0#32
  ![v1265.toNat, 0]
def k0_dev28 (d0 : Dev nD) : Nat :=
  let c0_i32_543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_542 : BitVec 32 := 8#32
  let v684 : BitVec 32 := Scalar.muli v2 c8_i32_542
  let v685 : BitVec 32 := Scalar.addi c0_i32_543 v684
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_544 : BitVec 32 := 4#32
  let v686 : BitVec 32 := Scalar.muli v5 c4_i32_544
  let v687 : BitVec 32 := Scalar.addi v685 v686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_545 : BitVec 32 := 1#32
  let v688 : BitVec 32 := Scalar.muli v13 c1_i32_545
  let v689 : BitVec 32 := Scalar.addi v687 v688
  v689.toNat
def k0_cond57 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_552 : BitVec 32 := 0#32
  let v698 : BitVec 1 := Scalar.cmpi .eq v2 c0_i32_552
  let v699 : BitVec 32 := Scalar.extui v698
  let c0_i32_553 : BitVec 32 := 0#32
  let v700 : BitVec 1 := Scalar.cmpi .ne v699 c0_i32_553
  v700

def k0_off81 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_550 : BitVec 32 := 512#32
  let v696 : BitVec 32 := Scalar.muli v9 c512_i32_550
  let c288_i32_551 : BitVec 32 := 288#32
  let v697 : BitVec 32 := Scalar.addi v696 c288_i32_551
  let v1259 : Index := Scalar.indexCast v697
  let c0_1157 : Index := 0#32
  ![0, v1259.toNat, 0]
def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_550 : BitVec 32 := 512#32
  let v696 : BitVec 32 := Scalar.muli v9 c512_i32_550
  let c288_i32_551 : BitVec 32 := 288#32
  let v697 : BitVec 32 := Scalar.addi v696 c288_i32_551
  let v1265 : Index := Scalar.indexCast v697
  let c0_1159 : Index := 0#32
  ![v1265.toNat, 0]
def k0_cond58 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_554 : BitVec 32 := 1#32
  let v701 : BitVec 1 := Scalar.cmpi .eq v2 c1_i32_554
  let v702 : BitVec 32 := Scalar.extui v701
  let c0_i32_555 : BitVec 32 := 0#32
  let v703 : BitVec 1 := Scalar.cmpi .ne v702 c0_i32_555
  v703

def k0_off83 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_550 : BitVec 32 := 512#32
  let v696 : BitVec 32 := Scalar.muli v9 c512_i32_550
  let c288_i32_551 : BitVec 32 := 288#32
  let v697 : BitVec 32 := Scalar.addi v696 c288_i32_551
  let v1259 : Index := Scalar.indexCast v697
  let c512 : Index := 512#32
  ![0, v1259.toNat, 512]
def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_550 : BitVec 32 := 512#32
  let v696 : BitVec 32 := Scalar.muli v9 c512_i32_550
  let c288_i32_551 : BitVec 32 := 288#32
  let v697 : BitVec 32 := Scalar.addi v696 c288_i32_551
  let v1265 : Index := Scalar.indexCast v697
  let c0_1158 : Index := 0#32
  ![v1265.toNat, 0]
def k0_cond59 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_569 : BitVec 32 := 0#32
  let v717 : BitVec 1 := Scalar.cmpi .eq v2 c0_i32_569
  let v718 : BitVec 32 := Scalar.extui v717
  let c0_i32_570 : BitVec 32 := 0#32
  let v719 : BitVec 1 := Scalar.cmpi .ne v718 c0_i32_570
  v719

def k0_off85 (d0 : Dev nD) : Fin 3 → Nat :=
  let c0 : Index := 0#32
  let c1_i32_566 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v714 : BitVec 32 := Scalar.subi c1_i32_566 v9
  let c512_i32_567 : BitVec 32 := 512#32
  let v715 : BitVec 32 := Scalar.muli v714 c512_i32_567
  let c96_i32_568 : BitVec 32 := 96#32
  let v716 : BitVec 32 := Scalar.addi v715 c96_i32_568
  let v1259 : Index := Scalar.indexCast v716
  let c0_1157 : Index := 0#32
  ![0, v1259.toNat, 0]
def k0_off86 (d0 : Dev nD) : Fin 2 → Nat :=
  let c1_i32_566 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v714 : BitVec 32 := Scalar.subi c1_i32_566 v9
  let c512_i32_567 : BitVec 32 := 512#32
  let v715 : BitVec 32 := Scalar.muli v714 c512_i32_567
  let c96_i32_568 : BitVec 32 := 96#32
  let v716 : BitVec 32 := Scalar.addi v715 c96_i32_568
  let v1265 : Index := Scalar.indexCast v716
  let c0_1159 : Index := 0#32
  ![v1265.toNat, 0]
def k0_cond60 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_571 : BitVec 32 := 1#32
  let v720 : BitVec 1 := Scalar.cmpi .eq v2 c1_i32_571
  let v721 : BitVec 32 := Scalar.extui v720
  let c0_i32_572 : BitVec 32 := 0#32
  let v722 : BitVec 1 := Scalar.cmpi .ne v721 c0_i32_572
  v722

def k0_off87 (d0 : Dev nD) : Fin 3 → Nat :=
  let c0 : Index := 0#32
  let c1_i32_566 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v714 : BitVec 32 := Scalar.subi c1_i32_566 v9
  let c512_i32_567 : BitVec 32 := 512#32
  let v715 : BitVec 32 := Scalar.muli v714 c512_i32_567
  let c96_i32_568 : BitVec 32 := 96#32
  let v716 : BitVec 32 := Scalar.addi v715 c96_i32_568
  let v1259 : Index := Scalar.indexCast v716
  let c512 : Index := 512#32
  ![0, v1259.toNat, 512]
def k0_off88 (d0 : Dev nD) : Fin 2 → Nat :=
  let c1_i32_566 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v714 : BitVec 32 := Scalar.subi c1_i32_566 v9
  let c512_i32_567 : BitVec 32 := 512#32
  let v715 : BitVec 32 := Scalar.muli v714 c512_i32_567
  let c96_i32_568 : BitVec 32 := 96#32
  let v716 : BitVec 32 := Scalar.addi v715 c96_i32_568
  let v1265 : Index := Scalar.indexCast v716
  let c0_1158 : Index := 0#32
  ![v1265.toNat, 0]
def k0_dev29 (d0 : Dev nD) : Nat :=
  let c0_i32_586 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_585 : BitVec 32 := 8#32
  let v733 : BitVec 32 := Scalar.muli v2 c8_i32_585
  let v734 : BitVec 32 := Scalar.addi c0_i32_586 v733
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_587 : BitVec 32 := 4#32
  let v735 : BitVec 32 := Scalar.muli v5 c4_i32_587
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_588 : BitVec 32 := 1#32
  let v737 : BitVec 32 := Scalar.muli v13 c1_i32_588
  let v738 : BitVec 32 := Scalar.addi v736 v737
  v738.toNat
def k0_cond61 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_595 : BitVec 32 := 0#32
  let v747 : BitVec 1 := Scalar.cmpi .eq v2 c0_i32_595
  let v748 : BitVec 32 := Scalar.extui v747
  let c0_i32_596 : BitVec 32 := 0#32
  let v749 : BitVec 1 := Scalar.cmpi .ne v748 c0_i32_596
  v749

def k0_off89 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_593 : BitVec 32 := 512#32
  let v745 : BitVec 32 := Scalar.muli v9 c512_i32_593
  let c320_i32_594 : BitVec 32 := 320#32
  let v746 : BitVec 32 := Scalar.addi v745 c320_i32_594
  let v1259 : Index := Scalar.indexCast v746
  let c0_1157 : Index := 0#32
  ![0, v1259.toNat, 0]
def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_593 : BitVec 32 := 512#32
  let v745 : BitVec 32 := Scalar.muli v9 c512_i32_593
  let c320_i32_594 : BitVec 32 := 320#32
  let v746 : BitVec 32 := Scalar.addi v745 c320_i32_594
  let v1265 : Index := Scalar.indexCast v746
  let c0_1159 : Index := 0#32
  ![v1265.toNat, 0]
def k0_cond62 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_597 : BitVec 32 := 1#32
  let v750 : BitVec 1 := Scalar.cmpi .eq v2 c1_i32_597
  let v751 : BitVec 32 := Scalar.extui v750
  let c0_i32_598 : BitVec 32 := 0#32
  let v752 : BitVec 1 := Scalar.cmpi .ne v751 c0_i32_598
  v752

def k0_off91 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_593 : BitVec 32 := 512#32
  let v745 : BitVec 32 := Scalar.muli v9 c512_i32_593
  let c320_i32_594 : BitVec 32 := 320#32
  let v746 : BitVec 32 := Scalar.addi v745 c320_i32_594
  let v1259 : Index := Scalar.indexCast v746
  let c512 : Index := 512#32
  ![0, v1259.toNat, 512]
def k0_off92 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_593 : BitVec 32 := 512#32
  let v745 : BitVec 32 := Scalar.muli v9 c512_i32_593
  let c320_i32_594 : BitVec 32 := 320#32
  let v746 : BitVec 32 := Scalar.addi v745 c320_i32_594
  let v1265 : Index := Scalar.indexCast v746
  let c0_1158 : Index := 0#32
  ![v1265.toNat, 0]
def k0_cond63 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_612 : BitVec 32 := 0#32
  let v766 : BitVec 1 := Scalar.cmpi .eq v2 c0_i32_612
  let v767 : BitVec 32 := Scalar.extui v766
  let c0_i32_613 : BitVec 32 := 0#32
  let v768 : BitVec 1 := Scalar.cmpi .ne v767 c0_i32_613
  v768

def k0_off93 (d0 : Dev nD) : Fin 3 → Nat :=
  let c0 : Index := 0#32
  let c1_i32_609 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v763 : BitVec 32 := Scalar.subi c1_i32_609 v9
  let c512_i32_610 : BitVec 32 := 512#32
  let v764 : BitVec 32 := Scalar.muli v763 c512_i32_610
  let c128_i32_611 : BitVec 32 := 128#32
  let v765 : BitVec 32 := Scalar.addi v764 c128_i32_611
  let v1259 : Index := Scalar.indexCast v765
  let c0_1157 : Index := 0#32
  ![0, v1259.toNat, 0]
def k0_off94 (d0 : Dev nD) : Fin 2 → Nat :=
  let c1_i32_609 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v763 : BitVec 32 := Scalar.subi c1_i32_609 v9
  let c512_i32_610 : BitVec 32 := 512#32
  let v764 : BitVec 32 := Scalar.muli v763 c512_i32_610
  let c128_i32_611 : BitVec 32 := 128#32
  let v765 : BitVec 32 := Scalar.addi v764 c128_i32_611
  let v1265 : Index := Scalar.indexCast v765
  let c0_1159 : Index := 0#32
  ![v1265.toNat, 0]
def k0_cond64 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_614 : BitVec 32 := 1#32
  let v769 : BitVec 1 := Scalar.cmpi .eq v2 c1_i32_614
  let v770 : BitVec 32 := Scalar.extui v769
  let c0_i32_615 : BitVec 32 := 0#32
  let v771 : BitVec 1 := Scalar.cmpi .ne v770 c0_i32_615
  v771

def k0_off95 (d0 : Dev nD) : Fin 3 → Nat :=
  let c0 : Index := 0#32
  let c1_i32_609 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v763 : BitVec 32 := Scalar.subi c1_i32_609 v9
  let c512_i32_610 : BitVec 32 := 512#32
  let v764 : BitVec 32 := Scalar.muli v763 c512_i32_610
  let c128_i32_611 : BitVec 32 := 128#32
  let v765 : BitVec 32 := Scalar.addi v764 c128_i32_611
  let v1259 : Index := Scalar.indexCast v765
  let c512 : Index := 512#32
  ![0, v1259.toNat, 512]
def k0_off96 (d0 : Dev nD) : Fin 2 → Nat :=
  let c1_i32_609 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v763 : BitVec 32 := Scalar.subi c1_i32_609 v9
  let c512_i32_610 : BitVec 32 := 512#32
  let v764 : BitVec 32 := Scalar.muli v763 c512_i32_610
  let c128_i32_611 : BitVec 32 := 128#32
  let v765 : BitVec 32 := Scalar.addi v764 c128_i32_611
  let v1265 : Index := Scalar.indexCast v765
  let c0_1158 : Index := 0#32
  ![v1265.toNat, 0]
def k0_dev30 (d0 : Dev nD) : Nat :=
  let c0_i32_629 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_628 : BitVec 32 := 8#32
  let v782 : BitVec 32 := Scalar.muli v2 c8_i32_628
  let v783 : BitVec 32 := Scalar.addi c0_i32_629 v782
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_630 : BitVec 32 := 4#32
  let v784 : BitVec 32 := Scalar.muli v5 c4_i32_630
  let v785 : BitVec 32 := Scalar.addi v783 v784
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_631 : BitVec 32 := 1#32
  let v786 : BitVec 32 := Scalar.muli v13 c1_i32_631
  let v787 : BitVec 32 := Scalar.addi v785 v786
  v787.toNat
def k0_cond65 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_638 : BitVec 32 := 0#32
  let v796 : BitVec 1 := Scalar.cmpi .eq v2 c0_i32_638
  let v797 : BitVec 32 := Scalar.extui v796
  let c0_i32_639 : BitVec 32 := 0#32
  let v798 : BitVec 1 := Scalar.cmpi .ne v797 c0_i32_639
  v798

def k0_off97 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_636 : BitVec 32 := 512#32
  let v794 : BitVec 32 := Scalar.muli v9 c512_i32_636
  let c352_i32_637 : BitVec 32 := 352#32
  let v795 : BitVec 32 := Scalar.addi v794 c352_i32_637
  let v1259 : Index := Scalar.indexCast v795
  let c0_1157 : Index := 0#32
  ![0, v1259.toNat, 0]
def k0_off98 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_636 : BitVec 32 := 512#32
  let v794 : BitVec 32 := Scalar.muli v9 c512_i32_636
  let c352_i32_637 : BitVec 32 := 352#32
  let v795 : BitVec 32 := Scalar.addi v794 c352_i32_637
  let v1265 : Index := Scalar.indexCast v795
  let c0_1159 : Index := 0#32
  ![v1265.toNat, 0]
def k0_cond66 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_640 : BitVec 32 := 1#32
  let v799 : BitVec 1 := Scalar.cmpi .eq v2 c1_i32_640
  let v800 : BitVec 32 := Scalar.extui v799
  let c0_i32_641 : BitVec 32 := 0#32
  let v801 : BitVec 1 := Scalar.cmpi .ne v800 c0_i32_641
  v801

def k0_off99 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_636 : BitVec 32 := 512#32
  let v794 : BitVec 32 := Scalar.muli v9 c512_i32_636
  let c352_i32_637 : BitVec 32 := 352#32
  let v795 : BitVec 32 := Scalar.addi v794 c352_i32_637
  let v1259 : Index := Scalar.indexCast v795
  let c512 : Index := 512#32
  ![0, v1259.toNat, 512]
def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_636 : BitVec 32 := 512#32
  let v794 : BitVec 32 := Scalar.muli v9 c512_i32_636
  let c352_i32_637 : BitVec 32 := 352#32
  let v795 : BitVec 32 := Scalar.addi v794 c352_i32_637
  let v1265 : Index := Scalar.indexCast v795
  let c0_1158 : Index := 0#32
  ![v1265.toNat, 0]
def k0_cond67 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_655 : BitVec 32 := 0#32
  let v815 : BitVec 1 := Scalar.cmpi .eq v2 c0_i32_655
  let v816 : BitVec 32 := Scalar.extui v815
  let c0_i32_656 : BitVec 32 := 0#32
  let v817 : BitVec 1 := Scalar.cmpi .ne v816 c0_i32_656
  v817

def k0_off101 (d0 : Dev nD) : Fin 3 → Nat :=
  let c0 : Index := 0#32
  let c1_i32_652 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v812 : BitVec 32 := Scalar.subi c1_i32_652 v9
  let c512_i32_653 : BitVec 32 := 512#32
  let v813 : BitVec 32 := Scalar.muli v812 c512_i32_653
  let c160_i32_654 : BitVec 32 := 160#32
  let v814 : BitVec 32 := Scalar.addi v813 c160_i32_654
  let v1259 : Index := Scalar.indexCast v814
  let c0_1157 : Index := 0#32
  ![0, v1259.toNat, 0]
def k0_off102 (d0 : Dev nD) : Fin 2 → Nat :=
  let c1_i32_652 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v812 : BitVec 32 := Scalar.subi c1_i32_652 v9
  let c512_i32_653 : BitVec 32 := 512#32
  let v813 : BitVec 32 := Scalar.muli v812 c512_i32_653
  let c160_i32_654 : BitVec 32 := 160#32
  let v814 : BitVec 32 := Scalar.addi v813 c160_i32_654
  let v1265 : Index := Scalar.indexCast v814
  let c0_1159 : Index := 0#32
  ![v1265.toNat, 0]
def k0_cond68 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_657 : BitVec 32 := 1#32
  let v818 : BitVec 1 := Scalar.cmpi .eq v2 c1_i32_657
  let v819 : BitVec 32 := Scalar.extui v818
  let c0_i32_658 : BitVec 32 := 0#32
  let v820 : BitVec 1 := Scalar.cmpi .ne v819 c0_i32_658
  v820

def k0_off103 (d0 : Dev nD) : Fin 3 → Nat :=
  let c0 : Index := 0#32
  let c1_i32_652 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v812 : BitVec 32 := Scalar.subi c1_i32_652 v9
  let c512_i32_653 : BitVec 32 := 512#32
  let v813 : BitVec 32 := Scalar.muli v812 c512_i32_653
  let c160_i32_654 : BitVec 32 := 160#32
  let v814 : BitVec 32 := Scalar.addi v813 c160_i32_654
  let v1259 : Index := Scalar.indexCast v814
  let c512 : Index := 512#32
  ![0, v1259.toNat, 512]
def k0_off104 (d0 : Dev nD) : Fin 2 → Nat :=
  let c1_i32_652 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v812 : BitVec 32 := Scalar.subi c1_i32_652 v9
  let c512_i32_653 : BitVec 32 := 512#32
  let v813 : BitVec 32 := Scalar.muli v812 c512_i32_653
  let c160_i32_654 : BitVec 32 := 160#32
  let v814 : BitVec 32 := Scalar.addi v813 c160_i32_654
  let v1265 : Index := Scalar.indexCast v814
  let c0_1158 : Index := 0#32
  ![v1265.toNat, 0]
def k0_dev31 (d0 : Dev nD) : Nat :=
  let c0_i32_672 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_671 : BitVec 32 := 8#32
  let v831 : BitVec 32 := Scalar.muli v2 c8_i32_671
  let v832 : BitVec 32 := Scalar.addi c0_i32_672 v831
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_673 : BitVec 32 := 4#32
  let v833 : BitVec 32 := Scalar.muli v5 c4_i32_673
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_674 : BitVec 32 := 1#32
  let v835 : BitVec 32 := Scalar.muli v13 c1_i32_674
  let v836 : BitVec 32 := Scalar.addi v834 v835
  v836.toNat
def k0_cond69 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_681 : BitVec 32 := 0#32
  let v845 : BitVec 1 := Scalar.cmpi .eq v2 c0_i32_681
  let v846 : BitVec 32 := Scalar.extui v845
  let c0_i32_682 : BitVec 32 := 0#32
  let v847 : BitVec 1 := Scalar.cmpi .ne v846 c0_i32_682
  v847

def k0_off105 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_679 : BitVec 32 := 512#32
  let v843 : BitVec 32 := Scalar.muli v9 c512_i32_679
  let c384_i32_680 : BitVec 32 := 384#32
  let v844 : BitVec 32 := Scalar.addi v843 c384_i32_680
  let v1259 : Index := Scalar.indexCast v844
  let c0_1157 : Index := 0#32
  ![0, v1259.toNat, 0]
def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_679 : BitVec 32 := 512#32
  let v843 : BitVec 32 := Scalar.muli v9 c512_i32_679
  let c384_i32_680 : BitVec 32 := 384#32
  let v844 : BitVec 32 := Scalar.addi v843 c384_i32_680
  let v1265 : Index := Scalar.indexCast v844
  let c0_1159 : Index := 0#32
  ![v1265.toNat, 0]
def k0_cond70 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_683 : BitVec 32 := 1#32
  let v848 : BitVec 1 := Scalar.cmpi .eq v2 c1_i32_683
  let v849 : BitVec 32 := Scalar.extui v848
  let c0_i32_684 : BitVec 32 := 0#32
  let v850 : BitVec 1 := Scalar.cmpi .ne v849 c0_i32_684
  v850

def k0_off107 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_679 : BitVec 32 := 512#32
  let v843 : BitVec 32 := Scalar.muli v9 c512_i32_679
  let c384_i32_680 : BitVec 32 := 384#32
  let v844 : BitVec 32 := Scalar.addi v843 c384_i32_680
  let v1259 : Index := Scalar.indexCast v844
  let c512 : Index := 512#32
  ![0, v1259.toNat, 512]
def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_679 : BitVec 32 := 512#32
  let v843 : BitVec 32 := Scalar.muli v9 c512_i32_679
  let c384_i32_680 : BitVec 32 := 384#32
  let v844 : BitVec 32 := Scalar.addi v843 c384_i32_680
  let v1265 : Index := Scalar.indexCast v844
  let c0_1158 : Index := 0#32
  ![v1265.toNat, 0]
def k0_cond71 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_698 : BitVec 32 := 0#32
  let v864 : BitVec 1 := Scalar.cmpi .eq v2 c0_i32_698
  let v865 : BitVec 32 := Scalar.extui v864
  let c0_i32_699 : BitVec 32 := 0#32
  let v866 : BitVec 1 := Scalar.cmpi .ne v865 c0_i32_699
  v866

def k0_off109 (d0 : Dev nD) : Fin 3 → Nat :=
  let c0 : Index := 0#32
  let c1_i32_695 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v861 : BitVec 32 := Scalar.subi c1_i32_695 v9
  let c512_i32_696 : BitVec 32 := 512#32
  let v862 : BitVec 32 := Scalar.muli v861 c512_i32_696
  let c192_i32_697 : BitVec 32 := 192#32
  let v863 : BitVec 32 := Scalar.addi v862 c192_i32_697
  let v1259 : Index := Scalar.indexCast v863
  let c0_1157 : Index := 0#32
  ![0, v1259.toNat, 0]
def k0_off110 (d0 : Dev nD) : Fin 2 → Nat :=
  let c1_i32_695 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v861 : BitVec 32 := Scalar.subi c1_i32_695 v9
  let c512_i32_696 : BitVec 32 := 512#32
  let v862 : BitVec 32 := Scalar.muli v861 c512_i32_696
  let c192_i32_697 : BitVec 32 := 192#32
  let v863 : BitVec 32 := Scalar.addi v862 c192_i32_697
  let v1265 : Index := Scalar.indexCast v863
  let c0_1159 : Index := 0#32
  ![v1265.toNat, 0]
def k0_cond72 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_700 : BitVec 32 := 1#32
  let v867 : BitVec 1 := Scalar.cmpi .eq v2 c1_i32_700
  let v868 : BitVec 32 := Scalar.extui v867
  let c0_i32_701 : BitVec 32 := 0#32
  let v869 : BitVec 1 := Scalar.cmpi .ne v868 c0_i32_701
  v869

def k0_off111 (d0 : Dev nD) : Fin 3 → Nat :=
  let c0 : Index := 0#32
  let c1_i32_695 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v861 : BitVec 32 := Scalar.subi c1_i32_695 v9
  let c512_i32_696 : BitVec 32 := 512#32
  let v862 : BitVec 32 := Scalar.muli v861 c512_i32_696
  let c192_i32_697 : BitVec 32 := 192#32
  let v863 : BitVec 32 := Scalar.addi v862 c192_i32_697
  let v1259 : Index := Scalar.indexCast v863
  let c512 : Index := 512#32
  ![0, v1259.toNat, 512]
def k0_off112 (d0 : Dev nD) : Fin 2 → Nat :=
  let c1_i32_695 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v861 : BitVec 32 := Scalar.subi c1_i32_695 v9
  let c512_i32_696 : BitVec 32 := 512#32
  let v862 : BitVec 32 := Scalar.muli v861 c512_i32_696
  let c192_i32_697 : BitVec 32 := 192#32
  let v863 : BitVec 32 := Scalar.addi v862 c192_i32_697
  let v1265 : Index := Scalar.indexCast v863
  let c0_1158 : Index := 0#32
  ![v1265.toNat, 0]
def k0_dev32 (d0 : Dev nD) : Nat :=
  let c0_i32_715 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_714 : BitVec 32 := 8#32
  let v880 : BitVec 32 := Scalar.muli v2 c8_i32_714
  let v881 : BitVec 32 := Scalar.addi c0_i32_715 v880
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_716 : BitVec 32 := 4#32
  let v882 : BitVec 32 := Scalar.muli v5 c4_i32_716
  let v883 : BitVec 32 := Scalar.addi v881 v882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_717 : BitVec 32 := 1#32
  let v884 : BitVec 32 := Scalar.muli v13 c1_i32_717
  let v885 : BitVec 32 := Scalar.addi v883 v884
  v885.toNat
def k0_cond73 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_724 : BitVec 32 := 0#32
  let v894 : BitVec 1 := Scalar.cmpi .eq v2 c0_i32_724
  let v895 : BitVec 32 := Scalar.extui v894
  let c0_i32_725 : BitVec 32 := 0#32
  let v896 : BitVec 1 := Scalar.cmpi .ne v895 c0_i32_725
  v896

def k0_off113 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_722 : BitVec 32 := 512#32
  let v892 : BitVec 32 := Scalar.muli v9 c512_i32_722
  let c416_i32_723 : BitVec 32 := 416#32
  let v893 : BitVec 32 := Scalar.addi v892 c416_i32_723
  let v1259 : Index := Scalar.indexCast v893
  let c0_1157 : Index := 0#32
  ![0, v1259.toNat, 0]
def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_722 : BitVec 32 := 512#32
  let v892 : BitVec 32 := Scalar.muli v9 c512_i32_722
  let c416_i32_723 : BitVec 32 := 416#32
  let v893 : BitVec 32 := Scalar.addi v892 c416_i32_723
  let v1265 : Index := Scalar.indexCast v893
  let c0_1159 : Index := 0#32
  ![v1265.toNat, 0]
def k0_cond74 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_726 : BitVec 32 := 1#32
  let v897 : BitVec 1 := Scalar.cmpi .eq v2 c1_i32_726
  let v898 : BitVec 32 := Scalar.extui v897
  let c0_i32_727 : BitVec 32 := 0#32
  let v899 : BitVec 1 := Scalar.cmpi .ne v898 c0_i32_727
  v899

def k0_off115 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_722 : BitVec 32 := 512#32
  let v892 : BitVec 32 := Scalar.muli v9 c512_i32_722
  let c416_i32_723 : BitVec 32 := 416#32
  let v893 : BitVec 32 := Scalar.addi v892 c416_i32_723
  let v1259 : Index := Scalar.indexCast v893
  let c512 : Index := 512#32
  ![0, v1259.toNat, 512]
def k0_off116 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_722 : BitVec 32 := 512#32
  let v892 : BitVec 32 := Scalar.muli v9 c512_i32_722
  let c416_i32_723 : BitVec 32 := 416#32
  let v893 : BitVec 32 := Scalar.addi v892 c416_i32_723
  let v1265 : Index := Scalar.indexCast v893
  let c0_1158 : Index := 0#32
  ![v1265.toNat, 0]
def k0_cond75 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_741 : BitVec 32 := 0#32
  let v913 : BitVec 1 := Scalar.cmpi .eq v2 c0_i32_741
  let v914 : BitVec 32 := Scalar.extui v913
  let c0_i32_742 : BitVec 32 := 0#32
  let v915 : BitVec 1 := Scalar.cmpi .ne v914 c0_i32_742
  v915

def k0_off117 (d0 : Dev nD) : Fin 3 → Nat :=
  let c0 : Index := 0#32
  let c1_i32_738 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v910 : BitVec 32 := Scalar.subi c1_i32_738 v9
  let c512_i32_739 : BitVec 32 := 512#32
  let v911 : BitVec 32 := Scalar.muli v910 c512_i32_739
  let c224_i32_740 : BitVec 32 := 224#32
  let v912 : BitVec 32 := Scalar.addi v911 c224_i32_740
  let v1259 : Index := Scalar.indexCast v912
  let c0_1157 : Index := 0#32
  ![0, v1259.toNat, 0]
def k0_off118 (d0 : Dev nD) : Fin 2 → Nat :=
  let c1_i32_738 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v910 : BitVec 32 := Scalar.subi c1_i32_738 v9
  let c512_i32_739 : BitVec 32 := 512#32
  let v911 : BitVec 32 := Scalar.muli v910 c512_i32_739
  let c224_i32_740 : BitVec 32 := 224#32
  let v912 : BitVec 32 := Scalar.addi v911 c224_i32_740
  let v1265 : Index := Scalar.indexCast v912
  let c0_1159 : Index := 0#32
  ![v1265.toNat, 0]
def k0_cond76 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_743 : BitVec 32 := 1#32
  let v916 : BitVec 1 := Scalar.cmpi .eq v2 c1_i32_743
  let v917 : BitVec 32 := Scalar.extui v916
  let c0_i32_744 : BitVec 32 := 0#32
  let v918 : BitVec 1 := Scalar.cmpi .ne v917 c0_i32_744
  v918

def k0_off119 (d0 : Dev nD) : Fin 3 → Nat :=
  let c0 : Index := 0#32
  let c1_i32_738 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v910 : BitVec 32 := Scalar.subi c1_i32_738 v9
  let c512_i32_739 : BitVec 32 := 512#32
  let v911 : BitVec 32 := Scalar.muli v910 c512_i32_739
  let c224_i32_740 : BitVec 32 := 224#32
  let v912 : BitVec 32 := Scalar.addi v911 c224_i32_740
  let v1259 : Index := Scalar.indexCast v912
  let c512 : Index := 512#32
  ![0, v1259.toNat, 512]
def k0_off120 (d0 : Dev nD) : Fin 2 → Nat :=
  let c1_i32_738 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v910 : BitVec 32 := Scalar.subi c1_i32_738 v9
  let c512_i32_739 : BitVec 32 := 512#32
  let v911 : BitVec 32 := Scalar.muli v910 c512_i32_739
  let c224_i32_740 : BitVec 32 := 224#32
  let v912 : BitVec 32 := Scalar.addi v911 c224_i32_740
  let v1265 : Index := Scalar.indexCast v912
  let c0_1158 : Index := 0#32
  ![v1265.toNat, 0]
def k0_dev33 (d0 : Dev nD) : Nat :=
  let c0_i32_758 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_757 : BitVec 32 := 8#32
  let v929 : BitVec 32 := Scalar.muli v2 c8_i32_757
  let v930 : BitVec 32 := Scalar.addi c0_i32_758 v929
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_759 : BitVec 32 := 4#32
  let v931 : BitVec 32 := Scalar.muli v5 c4_i32_759
  let v932 : BitVec 32 := Scalar.addi v930 v931
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_760 : BitVec 32 := 1#32
  let v933 : BitVec 32 := Scalar.muli v13 c1_i32_760
  let v934 : BitVec 32 := Scalar.addi v932 v933
  v934.toNat
def k0_cond77 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_767 : BitVec 32 := 0#32
  let v943 : BitVec 1 := Scalar.cmpi .eq v2 c0_i32_767
  let v944 : BitVec 32 := Scalar.extui v943
  let c0_i32_768 : BitVec 32 := 0#32
  let v945 : BitVec 1 := Scalar.cmpi .ne v944 c0_i32_768
  v945

def k0_off121 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_765 : BitVec 32 := 512#32
  let v941 : BitVec 32 := Scalar.muli v9 c512_i32_765
  let c448_i32_766 : BitVec 32 := 448#32
  let v942 : BitVec 32 := Scalar.addi v941 c448_i32_766
  let v1259 : Index := Scalar.indexCast v942
  let c0_1157 : Index := 0#32
  ![0, v1259.toNat, 0]
def k0_off122 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_765 : BitVec 32 := 512#32
  let v941 : BitVec 32 := Scalar.muli v9 c512_i32_765
  let c448_i32_766 : BitVec 32 := 448#32
  let v942 : BitVec 32 := Scalar.addi v941 c448_i32_766
  let v1265 : Index := Scalar.indexCast v942
  let c0_1159 : Index := 0#32
  ![v1265.toNat, 0]
def k0_cond78 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_769 : BitVec 32 := 1#32
  let v946 : BitVec 1 := Scalar.cmpi .eq v2 c1_i32_769
  let v947 : BitVec 32 := Scalar.extui v946
  let c0_i32_770 : BitVec 32 := 0#32
  let v948 : BitVec 1 := Scalar.cmpi .ne v947 c0_i32_770
  v948

def k0_off123 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_765 : BitVec 32 := 512#32
  let v941 : BitVec 32 := Scalar.muli v9 c512_i32_765
  let c448_i32_766 : BitVec 32 := 448#32
  let v942 : BitVec 32 := Scalar.addi v941 c448_i32_766
  let v1259 : Index := Scalar.indexCast v942
  let c512 : Index := 512#32
  ![0, v1259.toNat, 512]
def k0_off124 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_765 : BitVec 32 := 512#32
  let v941 : BitVec 32 := Scalar.muli v9 c512_i32_765
  let c448_i32_766 : BitVec 32 := 448#32
  let v942 : BitVec 32 := Scalar.addi v941 c448_i32_766
  let v1265 : Index := Scalar.indexCast v942
  let c0_1158 : Index := 0#32
  ![v1265.toNat, 0]
def k0_cond79 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_784 : BitVec 32 := 0#32
  let v962 : BitVec 1 := Scalar.cmpi .eq v2 c0_i32_784
  let v963 : BitVec 32 := Scalar.extui v962
  let c0_i32_785 : BitVec 32 := 0#32
  let v964 : BitVec 1 := Scalar.cmpi .ne v963 c0_i32_785
  v964

def k0_off125 (d0 : Dev nD) : Fin 3 → Nat :=
  let c0 : Index := 0#32
  let c1_i32_781 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v959 : BitVec 32 := Scalar.subi c1_i32_781 v9
  let c512_i32_782 : BitVec 32 := 512#32
  let v960 : BitVec 32 := Scalar.muli v959 c512_i32_782
  let c256_i32_783 : BitVec 32 := 256#32
  let v961 : BitVec 32 := Scalar.addi v960 c256_i32_783
  let v1259 : Index := Scalar.indexCast v961
  let c0_1157 : Index := 0#32
  ![0, v1259.toNat, 0]
def k0_off126 (d0 : Dev nD) : Fin 2 → Nat :=
  let c1_i32_781 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v959 : BitVec 32 := Scalar.subi c1_i32_781 v9
  let c512_i32_782 : BitVec 32 := 512#32
  let v960 : BitVec 32 := Scalar.muli v959 c512_i32_782
  let c256_i32_783 : BitVec 32 := 256#32
  let v961 : BitVec 32 := Scalar.addi v960 c256_i32_783
  let v1265 : Index := Scalar.indexCast v961
  let c0_1159 : Index := 0#32
  ![v1265.toNat, 0]
def k0_cond80 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_786 : BitVec 32 := 1#32
  let v965 : BitVec 1 := Scalar.cmpi .eq v2 c1_i32_786
  let v966 : BitVec 32 := Scalar.extui v965
  let c0_i32_787 : BitVec 32 := 0#32
  let v967 : BitVec 1 := Scalar.cmpi .ne v966 c0_i32_787
  v967

def k0_off127 (d0 : Dev nD) : Fin 3 → Nat :=
  let c0 : Index := 0#32
  let c1_i32_781 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v959 : BitVec 32 := Scalar.subi c1_i32_781 v9
  let c512_i32_782 : BitVec 32 := 512#32
  let v960 : BitVec 32 := Scalar.muli v959 c512_i32_782
  let c256_i32_783 : BitVec 32 := 256#32
  let v961 : BitVec 32 := Scalar.addi v960 c256_i32_783
  let v1259 : Index := Scalar.indexCast v961
  let c512 : Index := 512#32
  ![0, v1259.toNat, 512]
def k0_off128 (d0 : Dev nD) : Fin 2 → Nat :=
  let c1_i32_781 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v959 : BitVec 32 := Scalar.subi c1_i32_781 v9
  let c512_i32_782 : BitVec 32 := 512#32
  let v960 : BitVec 32 := Scalar.muli v959 c512_i32_782
  let c256_i32_783 : BitVec 32 := 256#32
  let v961 : BitVec 32 := Scalar.addi v960 c256_i32_783
  let v1265 : Index := Scalar.indexCast v961
  let c0_1158 : Index := 0#32
  ![v1265.toNat, 0]
def k0_dev34 (d0 : Dev nD) : Nat :=
  let c0_i32_801 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_800 : BitVec 32 := 8#32
  let v978 : BitVec 32 := Scalar.muli v2 c8_i32_800
  let v979 : BitVec 32 := Scalar.addi c0_i32_801 v978
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_802 : BitVec 32 := 4#32
  let v980 : BitVec 32 := Scalar.muli v5 c4_i32_802
  let v981 : BitVec 32 := Scalar.addi v979 v980
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_803 : BitVec 32 := 1#32
  let v982 : BitVec 32 := Scalar.muli v13 c1_i32_803
  let v983 : BitVec 32 := Scalar.addi v981 v982
  v983.toNat
def k0_cond81 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_810 : BitVec 32 := 0#32
  let v992 : BitVec 1 := Scalar.cmpi .eq v2 c0_i32_810
  let v993 : BitVec 32 := Scalar.extui v992
  let c0_i32_811 : BitVec 32 := 0#32
  let v994 : BitVec 1 := Scalar.cmpi .ne v993 c0_i32_811
  v994

def k0_off129 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_808 : BitVec 32 := 512#32
  let v990 : BitVec 32 := Scalar.muli v9 c512_i32_808
  let c480_i32_809 : BitVec 32 := 480#32
  let v991 : BitVec 32 := Scalar.addi v990 c480_i32_809
  let v1259 : Index := Scalar.indexCast v991
  let c0_1157 : Index := 0#32
  ![0, v1259.toNat, 0]
def k0_off130 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_808 : BitVec 32 := 512#32
  let v990 : BitVec 32 := Scalar.muli v9 c512_i32_808
  let c480_i32_809 : BitVec 32 := 480#32
  let v991 : BitVec 32 := Scalar.addi v990 c480_i32_809
  let v1265 : Index := Scalar.indexCast v991
  let c0_1159 : Index := 0#32
  ![v1265.toNat, 0]
def k0_cond82 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_812 : BitVec 32 := 1#32
  let v995 : BitVec 1 := Scalar.cmpi .eq v2 c1_i32_812
  let v996 : BitVec 32 := Scalar.extui v995
  let c0_i32_813 : BitVec 32 := 0#32
  let v997 : BitVec 1 := Scalar.cmpi .ne v996 c0_i32_813
  v997

def k0_off131 (d0 : Dev nD) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_808 : BitVec 32 := 512#32
  let v990 : BitVec 32 := Scalar.muli v9 c512_i32_808
  let c480_i32_809 : BitVec 32 := 480#32
  let v991 : BitVec 32 := Scalar.addi v990 c480_i32_809
  let v1259 : Index := Scalar.indexCast v991
  let c512 : Index := 512#32
  ![0, v1259.toNat, 512]
def k0_off132 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c512_i32_808 : BitVec 32 := 512#32
  let v990 : BitVec 32 := Scalar.muli v9 c512_i32_808
  let c480_i32_809 : BitVec 32 := 480#32
  let v991 : BitVec 32 := Scalar.addi v990 c480_i32_809
  let v1265 : Index := Scalar.indexCast v991
  let c0_1158 : Index := 0#32
  ![v1265.toNat, 0]
def k0_cond83 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_827 : BitVec 32 := 0#32
  let v1011 : BitVec 1 := Scalar.cmpi .eq v2 c0_i32_827
  let v1012 : BitVec 32 := Scalar.extui v1011
  let c0_i32_828 : BitVec 32 := 0#32
  let v1013 : BitVec 1 := Scalar.cmpi .ne v1012 c0_i32_828
  v1013

def k0_off133 (d0 : Dev nD) : Fin 3 → Nat :=
  let c0 : Index := 0#32
  let c1_i32_824 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1008 : BitVec 32 := Scalar.subi c1_i32_824 v9
  let c512_i32_825 : BitVec 32 := 512#32
  let v1009 : BitVec 32 := Scalar.muli v1008 c512_i32_825
  let c288_i32_826 : BitVec 32 := 288#32
  let v1010 : BitVec 32 := Scalar.addi v1009 c288_i32_826
  let v1259 : Index := Scalar.indexCast v1010
  let c0_1157 : Index := 0#32
  ![0, v1259.toNat, 0]
def k0_off134 (d0 : Dev nD) : Fin 2 → Nat :=
  let c1_i32_824 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1008 : BitVec 32 := Scalar.subi c1_i32_824 v9
  let c512_i32_825 : BitVec 32 := 512#32
  let v1009 : BitVec 32 := Scalar.muli v1008 c512_i32_825
  let c288_i32_826 : BitVec 32 := 288#32
  let v1010 : BitVec 32 := Scalar.addi v1009 c288_i32_826
  let v1265 : Index := Scalar.indexCast v1010
  let c0_1159 : Index := 0#32
  ![v1265.toNat, 0]
def k0_cond84 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_829 : BitVec 32 := 1#32
  let v1014 : BitVec 1 := Scalar.cmpi .eq v2 c1_i32_829
  let v1015 : BitVec 32 := Scalar.extui v1014
  let c0_i32_830 : BitVec 32 := 0#32
  let v1016 : BitVec 1 := Scalar.cmpi .ne v1015 c0_i32_830
  v1016

def k0_off135 (d0 : Dev nD) : Fin 3 → Nat :=
  let c0 : Index := 0#32
  let c1_i32_824 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1008 : BitVec 32 := Scalar.subi c1_i32_824 v9
  let c512_i32_825 : BitVec 32 := 512#32
  let v1009 : BitVec 32 := Scalar.muli v1008 c512_i32_825
  let c288_i32_826 : BitVec 32 := 288#32
  let v1010 : BitVec 32 := Scalar.addi v1009 c288_i32_826
  let v1259 : Index := Scalar.indexCast v1010
  let c512 : Index := 512#32
  ![0, v1259.toNat, 512]
def k0_off136 (d0 : Dev nD) : Fin 2 → Nat :=
  let c1_i32_824 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1008 : BitVec 32 := Scalar.subi c1_i32_824 v9
  let c512_i32_825 : BitVec 32 := 512#32
  let v1009 : BitVec 32 := Scalar.muli v1008 c512_i32_825
  let c288_i32_826 : BitVec 32 := 288#32
  let v1010 : BitVec 32 := Scalar.addi v1009 c288_i32_826
  let v1265 : Index := Scalar.indexCast v1010
  let c0_1158 : Index := 0#32
  ![v1265.toNat, 0]
def k0_cond85 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_844 : BitVec 32 := 0#32
  let v1030 : BitVec 1 := Scalar.cmpi .eq v2 c0_i32_844
  let v1031 : BitVec 32 := Scalar.extui v1030
  let c0_i32_845 : BitVec 32 := 0#32
  let v1032 : BitVec 1 := Scalar.cmpi .ne v1031 c0_i32_845
  v1032

def k0_off137 (d0 : Dev nD) : Fin 3 → Nat :=
  let c0 : Index := 0#32
  let c1_i32_841 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1027 : BitVec 32 := Scalar.subi c1_i32_841 v9
  let c512_i32_842 : BitVec 32 := 512#32
  let v1028 : BitVec 32 := Scalar.muli v1027 c512_i32_842
  let c320_i32_843 : BitVec 32 := 320#32
  let v1029 : BitVec 32 := Scalar.addi v1028 c320_i32_843
  let v1259 : Index := Scalar.indexCast v1029
  let c0_1157 : Index := 0#32
  ![0, v1259.toNat, 0]
def k0_off138 (d0 : Dev nD) : Fin 2 → Nat :=
  let c1_i32_841 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1027 : BitVec 32 := Scalar.subi c1_i32_841 v9
  let c512_i32_842 : BitVec 32 := 512#32
  let v1028 : BitVec 32 := Scalar.muli v1027 c512_i32_842
  let c320_i32_843 : BitVec 32 := 320#32
  let v1029 : BitVec 32 := Scalar.addi v1028 c320_i32_843
  let v1265 : Index := Scalar.indexCast v1029
  let c0_1159 : Index := 0#32
  ![v1265.toNat, 0]
def k0_cond86 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_846 : BitVec 32 := 1#32
  let v1033 : BitVec 1 := Scalar.cmpi .eq v2 c1_i32_846
  let v1034 : BitVec 32 := Scalar.extui v1033
  let c0_i32_847 : BitVec 32 := 0#32
  let v1035 : BitVec 1 := Scalar.cmpi .ne v1034 c0_i32_847
  v1035

def k0_off139 (d0 : Dev nD) : Fin 3 → Nat :=
  let c0 : Index := 0#32
  let c1_i32_841 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1027 : BitVec 32 := Scalar.subi c1_i32_841 v9
  let c512_i32_842 : BitVec 32 := 512#32
  let v1028 : BitVec 32 := Scalar.muli v1027 c512_i32_842
  let c320_i32_843 : BitVec 32 := 320#32
  let v1029 : BitVec 32 := Scalar.addi v1028 c320_i32_843
  let v1259 : Index := Scalar.indexCast v1029
  let c512 : Index := 512#32
  ![0, v1259.toNat, 512]
def k0_off140 (d0 : Dev nD) : Fin 2 → Nat :=
  let c1_i32_841 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1027 : BitVec 32 := Scalar.subi c1_i32_841 v9
  let c512_i32_842 : BitVec 32 := 512#32
  let v1028 : BitVec 32 := Scalar.muli v1027 c512_i32_842
  let c320_i32_843 : BitVec 32 := 320#32
  let v1029 : BitVec 32 := Scalar.addi v1028 c320_i32_843
  let v1265 : Index := Scalar.indexCast v1029
  let c0_1158 : Index := 0#32
  ![v1265.toNat, 0]
def k0_cond87 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_861 : BitVec 32 := 0#32
  let v1049 : BitVec 1 := Scalar.cmpi .eq v2 c0_i32_861
  let v1050 : BitVec 32 := Scalar.extui v1049
  let c0_i32_862 : BitVec 32 := 0#32
  let v1051 : BitVec 1 := Scalar.cmpi .ne v1050 c0_i32_862
  v1051

def k0_off141 (d0 : Dev nD) : Fin 3 → Nat :=
  let c0 : Index := 0#32
  let c1_i32_858 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1046 : BitVec 32 := Scalar.subi c1_i32_858 v9
  let c512_i32_859 : BitVec 32 := 512#32
  let v1047 : BitVec 32 := Scalar.muli v1046 c512_i32_859
  let c352_i32_860 : BitVec 32 := 352#32
  let v1048 : BitVec 32 := Scalar.addi v1047 c352_i32_860
  let v1259 : Index := Scalar.indexCast v1048
  let c0_1157 : Index := 0#32
  ![0, v1259.toNat, 0]
def k0_off142 (d0 : Dev nD) : Fin 2 → Nat :=
  let c1_i32_858 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1046 : BitVec 32 := Scalar.subi c1_i32_858 v9
  let c512_i32_859 : BitVec 32 := 512#32
  let v1047 : BitVec 32 := Scalar.muli v1046 c512_i32_859
  let c352_i32_860 : BitVec 32 := 352#32
  let v1048 : BitVec 32 := Scalar.addi v1047 c352_i32_860
  let v1265 : Index := Scalar.indexCast v1048
  let c0_1159 : Index := 0#32
  ![v1265.toNat, 0]
def k0_cond88 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_863 : BitVec 32 := 1#32
  let v1052 : BitVec 1 := Scalar.cmpi .eq v2 c1_i32_863
  let v1053 : BitVec 32 := Scalar.extui v1052
  let c0_i32_864 : BitVec 32 := 0#32
  let v1054 : BitVec 1 := Scalar.cmpi .ne v1053 c0_i32_864
  v1054

def k0_off143 (d0 : Dev nD) : Fin 3 → Nat :=
  let c0 : Index := 0#32
  let c1_i32_858 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1046 : BitVec 32 := Scalar.subi c1_i32_858 v9
  let c512_i32_859 : BitVec 32 := 512#32
  let v1047 : BitVec 32 := Scalar.muli v1046 c512_i32_859
  let c352_i32_860 : BitVec 32 := 352#32
  let v1048 : BitVec 32 := Scalar.addi v1047 c352_i32_860
  let v1259 : Index := Scalar.indexCast v1048
  let c512 : Index := 512#32
  ![0, v1259.toNat, 512]
def k0_off144 (d0 : Dev nD) : Fin 2 → Nat :=
  let c1_i32_858 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1046 : BitVec 32 := Scalar.subi c1_i32_858 v9
  let c512_i32_859 : BitVec 32 := 512#32
  let v1047 : BitVec 32 := Scalar.muli v1046 c512_i32_859
  let c352_i32_860 : BitVec 32 := 352#32
  let v1048 : BitVec 32 := Scalar.addi v1047 c352_i32_860
  let v1265 : Index := Scalar.indexCast v1048
  let c0_1158 : Index := 0#32
  ![v1265.toNat, 0]
def k0_cond89 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_878 : BitVec 32 := 0#32
  let v1068 : BitVec 1 := Scalar.cmpi .eq v2 c0_i32_878
  let v1069 : BitVec 32 := Scalar.extui v1068
  let c0_i32_879 : BitVec 32 := 0#32
  let v1070 : BitVec 1 := Scalar.cmpi .ne v1069 c0_i32_879
  v1070

def k0_off145 (d0 : Dev nD) : Fin 3 → Nat :=
  let c0 : Index := 0#32
  let c1_i32_875 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1065 : BitVec 32 := Scalar.subi c1_i32_875 v9
  let c512_i32_876 : BitVec 32 := 512#32
  let v1066 : BitVec 32 := Scalar.muli v1065 c512_i32_876
  let c384_i32_877 : BitVec 32 := 384#32
  let v1067 : BitVec 32 := Scalar.addi v1066 c384_i32_877
  let v1259 : Index := Scalar.indexCast v1067
  let c0_1157 : Index := 0#32
  ![0, v1259.toNat, 0]
def k0_off146 (d0 : Dev nD) : Fin 2 → Nat :=
  let c1_i32_875 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1065 : BitVec 32 := Scalar.subi c1_i32_875 v9
  let c512_i32_876 : BitVec 32 := 512#32
  let v1066 : BitVec 32 := Scalar.muli v1065 c512_i32_876
  let c384_i32_877 : BitVec 32 := 384#32
  let v1067 : BitVec 32 := Scalar.addi v1066 c384_i32_877
  let v1265 : Index := Scalar.indexCast v1067
  let c0_1159 : Index := 0#32
  ![v1265.toNat, 0]
def k0_cond90 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_880 : BitVec 32 := 1#32
  let v1071 : BitVec 1 := Scalar.cmpi .eq v2 c1_i32_880
  let v1072 : BitVec 32 := Scalar.extui v1071
  let c0_i32_881 : BitVec 32 := 0#32
  let v1073 : BitVec 1 := Scalar.cmpi .ne v1072 c0_i32_881
  v1073

def k0_off147 (d0 : Dev nD) : Fin 3 → Nat :=
  let c0 : Index := 0#32
  let c1_i32_875 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1065 : BitVec 32 := Scalar.subi c1_i32_875 v9
  let c512_i32_876 : BitVec 32 := 512#32
  let v1066 : BitVec 32 := Scalar.muli v1065 c512_i32_876
  let c384_i32_877 : BitVec 32 := 384#32
  let v1067 : BitVec 32 := Scalar.addi v1066 c384_i32_877
  let v1259 : Index := Scalar.indexCast v1067
  let c512 : Index := 512#32
  ![0, v1259.toNat, 512]
def k0_off148 (d0 : Dev nD) : Fin 2 → Nat :=
  let c1_i32_875 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1065 : BitVec 32 := Scalar.subi c1_i32_875 v9
  let c512_i32_876 : BitVec 32 := 512#32
  let v1066 : BitVec 32 := Scalar.muli v1065 c512_i32_876
  let c384_i32_877 : BitVec 32 := 384#32
  let v1067 : BitVec 32 := Scalar.addi v1066 c384_i32_877
  let v1265 : Index := Scalar.indexCast v1067
  let c0_1158 : Index := 0#32
  ![v1265.toNat, 0]
def k0_cond91 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_895 : BitVec 32 := 0#32
  let v1087 : BitVec 1 := Scalar.cmpi .eq v2 c0_i32_895
  let v1088 : BitVec 32 := Scalar.extui v1087
  let c0_i32_896 : BitVec 32 := 0#32
  let v1089 : BitVec 1 := Scalar.cmpi .ne v1088 c0_i32_896
  v1089

def k0_off149 (d0 : Dev nD) : Fin 3 → Nat :=
  let c0 : Index := 0#32
  let c1_i32_892 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1084 : BitVec 32 := Scalar.subi c1_i32_892 v9
  let c512_i32_893 : BitVec 32 := 512#32
  let v1085 : BitVec 32 := Scalar.muli v1084 c512_i32_893
  let c416_i32_894 : BitVec 32 := 416#32
  let v1086 : BitVec 32 := Scalar.addi v1085 c416_i32_894
  let v1259 : Index := Scalar.indexCast v1086
  let c0_1157 : Index := 0#32
  ![0, v1259.toNat, 0]
def k0_off150 (d0 : Dev nD) : Fin 2 → Nat :=
  let c1_i32_892 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1084 : BitVec 32 := Scalar.subi c1_i32_892 v9
  let c512_i32_893 : BitVec 32 := 512#32
  let v1085 : BitVec 32 := Scalar.muli v1084 c512_i32_893
  let c416_i32_894 : BitVec 32 := 416#32
  let v1086 : BitVec 32 := Scalar.addi v1085 c416_i32_894
  let v1265 : Index := Scalar.indexCast v1086
  let c0_1159 : Index := 0#32
  ![v1265.toNat, 0]
def k0_cond92 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_897 : BitVec 32 := 1#32
  let v1090 : BitVec 1 := Scalar.cmpi .eq v2 c1_i32_897
  let v1091 : BitVec 32 := Scalar.extui v1090
  let c0_i32_898 : BitVec 32 := 0#32
  let v1092 : BitVec 1 := Scalar.cmpi .ne v1091 c0_i32_898
  v1092

def k0_off151 (d0 : Dev nD) : Fin 3 → Nat :=
  let c0 : Index := 0#32
  let c1_i32_892 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1084 : BitVec 32 := Scalar.subi c1_i32_892 v9
  let c512_i32_893 : BitVec 32 := 512#32
  let v1085 : BitVec 32 := Scalar.muli v1084 c512_i32_893
  let c416_i32_894 : BitVec 32 := 416#32
  let v1086 : BitVec 32 := Scalar.addi v1085 c416_i32_894
  let v1259 : Index := Scalar.indexCast v1086
  let c512 : Index := 512#32
  ![0, v1259.toNat, 512]
def k0_off152 (d0 : Dev nD) : Fin 2 → Nat :=
  let c1_i32_892 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1084 : BitVec 32 := Scalar.subi c1_i32_892 v9
  let c512_i32_893 : BitVec 32 := 512#32
  let v1085 : BitVec 32 := Scalar.muli v1084 c512_i32_893
  let c416_i32_894 : BitVec 32 := 416#32
  let v1086 : BitVec 32 := Scalar.addi v1085 c416_i32_894
  let v1265 : Index := Scalar.indexCast v1086
  let c0_1158 : Index := 0#32
  ![v1265.toNat, 0]
def k0_cond93 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_912 : BitVec 32 := 0#32
  let v1106 : BitVec 1 := Scalar.cmpi .eq v2 c0_i32_912
  let v1107 : BitVec 32 := Scalar.extui v1106
  let c0_i32_913 : BitVec 32 := 0#32
  let v1108 : BitVec 1 := Scalar.cmpi .ne v1107 c0_i32_913
  v1108

def k0_off153 (d0 : Dev nD) : Fin 3 → Nat :=
  let c0 : Index := 0#32
  let c1_i32_909 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1103 : BitVec 32 := Scalar.subi c1_i32_909 v9
  let c512_i32_910 : BitVec 32 := 512#32
  let v1104 : BitVec 32 := Scalar.muli v1103 c512_i32_910
  let c448_i32_911 : BitVec 32 := 448#32
  let v1105 : BitVec 32 := Scalar.addi v1104 c448_i32_911
  let v1259 : Index := Scalar.indexCast v1105
  let c0_1157 : Index := 0#32
  ![0, v1259.toNat, 0]
def k0_off154 (d0 : Dev nD) : Fin 2 → Nat :=
  let c1_i32_909 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1103 : BitVec 32 := Scalar.subi c1_i32_909 v9
  let c512_i32_910 : BitVec 32 := 512#32
  let v1104 : BitVec 32 := Scalar.muli v1103 c512_i32_910
  let c448_i32_911 : BitVec 32 := 448#32
  let v1105 : BitVec 32 := Scalar.addi v1104 c448_i32_911
  let v1265 : Index := Scalar.indexCast v1105
  let c0_1159 : Index := 0#32
  ![v1265.toNat, 0]
def k0_cond94 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_914 : BitVec 32 := 1#32
  let v1109 : BitVec 1 := Scalar.cmpi .eq v2 c1_i32_914
  let v1110 : BitVec 32 := Scalar.extui v1109
  let c0_i32_915 : BitVec 32 := 0#32
  let v1111 : BitVec 1 := Scalar.cmpi .ne v1110 c0_i32_915
  v1111

def k0_off155 (d0 : Dev nD) : Fin 3 → Nat :=
  let c0 : Index := 0#32
  let c1_i32_909 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1103 : BitVec 32 := Scalar.subi c1_i32_909 v9
  let c512_i32_910 : BitVec 32 := 512#32
  let v1104 : BitVec 32 := Scalar.muli v1103 c512_i32_910
  let c448_i32_911 : BitVec 32 := 448#32
  let v1105 : BitVec 32 := Scalar.addi v1104 c448_i32_911
  let v1259 : Index := Scalar.indexCast v1105
  let c512 : Index := 512#32
  ![0, v1259.toNat, 512]
def k0_off156 (d0 : Dev nD) : Fin 2 → Nat :=
  let c1_i32_909 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1103 : BitVec 32 := Scalar.subi c1_i32_909 v9
  let c512_i32_910 : BitVec 32 := 512#32
  let v1104 : BitVec 32 := Scalar.muli v1103 c512_i32_910
  let c448_i32_911 : BitVec 32 := 448#32
  let v1105 : BitVec 32 := Scalar.addi v1104 c448_i32_911
  let v1265 : Index := Scalar.indexCast v1105
  let c0_1158 : Index := 0#32
  ![v1265.toNat, 0]
def k0_cond95 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_929 : BitVec 32 := 0#32
  let v1125 : BitVec 1 := Scalar.cmpi .eq v2 c0_i32_929
  let v1126 : BitVec 32 := Scalar.extui v1125
  let c0_i32_930 : BitVec 32 := 0#32
  let v1127 : BitVec 1 := Scalar.cmpi .ne v1126 c0_i32_930
  v1127

def k0_off157 (d0 : Dev nD) : Fin 3 → Nat :=
  let c0 : Index := 0#32
  let c1_i32_926 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1122 : BitVec 32 := Scalar.subi c1_i32_926 v9
  let c512_i32_927 : BitVec 32 := 512#32
  let v1123 : BitVec 32 := Scalar.muli v1122 c512_i32_927
  let c480_i32_928 : BitVec 32 := 480#32
  let v1124 : BitVec 32 := Scalar.addi v1123 c480_i32_928
  let v1259 : Index := Scalar.indexCast v1124
  let c0_1157 : Index := 0#32
  ![0, v1259.toNat, 0]
def k0_off158 (d0 : Dev nD) : Fin 2 → Nat :=
  let c1_i32_926 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1122 : BitVec 32 := Scalar.subi c1_i32_926 v9
  let c512_i32_927 : BitVec 32 := 512#32
  let v1123 : BitVec 32 := Scalar.muli v1122 c512_i32_927
  let c480_i32_928 : BitVec 32 := 480#32
  let v1124 : BitVec 32 := Scalar.addi v1123 c480_i32_928
  let v1265 : Index := Scalar.indexCast v1124
  let c0_1159 : Index := 0#32
  ![v1265.toNat, 0]
def k0_cond96 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_931 : BitVec 32 := 1#32
  let v1128 : BitVec 1 := Scalar.cmpi .eq v2 c1_i32_931
  let v1129 : BitVec 32 := Scalar.extui v1128
  let c0_i32_932 : BitVec 32 := 0#32
  let v1130 : BitVec 1 := Scalar.cmpi .ne v1129 c0_i32_932
  v1130

def k0_off159 (d0 : Dev nD) : Fin 3 → Nat :=
  let c0 : Index := 0#32
  let c1_i32_926 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1122 : BitVec 32 := Scalar.subi c1_i32_926 v9
  let c512_i32_927 : BitVec 32 := 512#32
  let v1123 : BitVec 32 := Scalar.muli v1122 c512_i32_927
  let c480_i32_928 : BitVec 32 := 480#32
  let v1124 : BitVec 32 := Scalar.addi v1123 c480_i32_928
  let v1259 : Index := Scalar.indexCast v1124
  let c512 : Index := 512#32
  ![0, v1259.toNat, 512]
def k0_off160 (d0 : Dev nD) : Fin 2 → Nat :=
  let c1_i32_926 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v1122 : BitVec 32 := Scalar.subi c1_i32_926 v9
  let c512_i32_927 : BitVec 32 := 512#32
  let v1123 : BitVec 32 := Scalar.muli v1122 c512_i32_927
  let c480_i32_928 : BitVec 32 := 480#32
  let v1124 : BitVec 32 := Scalar.addi v1123 c480_i32_928
  let v1265 : Index := Scalar.indexCast v1124
  let c0_1158 : Index := 0#32
  ![v1265.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S1x32x512 : 0 < S1x32x512.numel
  shapeCasts_S1x32x512_S32x512 : S1x32x512.ShapeCasts S32x512
  bitsLt_bf16_f32 : FTy.bits .bf16 < FTy.bits .f32
  inb_S512x512_S32x512_0_0 : ∀ a, (![0, 0] : Fin 2 → Nat) a + S32x512.size a ≤ S512x512.size a
  h_S32x512 : 0 < S32x512.numel
  shapeCasts_S32x512_S32x512 : S32x512.ShapeCasts S32x512
  packedbf16_S512x512_S32x512_0_0 : (Rect.unit (s := S512x512) ![0, 0] S32x512.size inb_S512x512_S32x512_0_0).PackedRows (EltTy.packing .bf16)
  inb_S16_S1_0 : ∀ a, (![0] : Fin 1 → Nat) a + S1.size a ≤ S16.size a
  squeezes_S1_S_ : S1.Squeezes S_
  wordsbf16_S512x512_S32x512_0_0 : (Rect.unit (s := S512x512) ![0, 0] S32x512.size inb_S512x512_S32x512_0_0).WholeWords (EltTy.packing .bf16)
  inb_S512x512_S32x512_32_0 : ∀ a, (![32, 0] : Fin 2 → Nat) a + S32x512.size a ≤ S512x512.size a
  packedbf16_S512x512_S32x512_32_0 : (Rect.unit (s := S512x512) ![32, 0] S32x512.size inb_S512x512_S32x512_32_0).PackedRows (EltTy.packing .bf16)
  inb_S16_S1_1 : ∀ a, (![1] : Fin 1 → Nat) a + S1.size a ≤ S16.size a
  wordsbf16_S512x512_S32x512_32_0 : (Rect.unit (s := S512x512) ![32, 0] S32x512.size inb_S512x512_S32x512_32_0).WholeWords (EltTy.packing .bf16)
  inb_S512x512_S32x512_64_0 : ∀ a, (![64, 0] : Fin 2 → Nat) a + S32x512.size a ≤ S512x512.size a
  packedbf16_S512x512_S32x512_64_0 : (Rect.unit (s := S512x512) ![64, 0] S32x512.size inb_S512x512_S32x512_64_0).PackedRows (EltTy.packing .bf16)
  inb_S16_S1_2 : ∀ a, (![2] : Fin 1 → Nat) a + S1.size a ≤ S16.size a
  wordsbf16_S512x512_S32x512_64_0 : (Rect.unit (s := S512x512) ![64, 0] S32x512.size inb_S512x512_S32x512_64_0).WholeWords (EltTy.packing .bf16)
  inb_S512x512_S32x512_96_0 : ∀ a, (![96, 0] : Fin 2 → Nat) a + S32x512.size a ≤ S512x512.size a
  packedbf16_S512x512_S32x512_96_0 : (Rect.unit (s := S512x512) ![96, 0] S32x512.size inb_S512x512_S32x512_96_0).PackedRows (EltTy.packing .bf16)
  inb_S16_S1_3 : ∀ a, (![3] : Fin 1 → Nat) a + S1.size a ≤ S16.size a
  wordsbf16_S512x512_S32x512_96_0 : (Rect.unit (s := S512x512) ![96, 0] S32x512.size inb_S512x512_S32x512_96_0).WholeWords (EltTy.packing .bf16)
  inb_S512x512_S32x512_128_0 : ∀ a, (![128, 0] : Fin 2 → Nat) a + S32x512.size a ≤ S512x512.size a
  packedbf16_S512x512_S32x512_128_0 : (Rect.unit (s := S512x512) ![128, 0] S32x512.size inb_S512x512_S32x512_128_0).PackedRows (EltTy.packing .bf16)
  inb_S16_S1_4 : ∀ a, (![4] : Fin 1 → Nat) a + S1.size a ≤ S16.size a
  wordsbf16_S512x512_S32x512_128_0 : (Rect.unit (s := S512x512) ![128, 0] S32x512.size inb_S512x512_S32x512_128_0).WholeWords (EltTy.packing .bf16)
  inb_S512x512_S32x512_160_0 : ∀ a, (![160, 0] : Fin 2 → Nat) a + S32x512.size a ≤ S512x512.size a
  packedbf16_S512x512_S32x512_160_0 : (Rect.unit (s := S512x512) ![160, 0] S32x512.size inb_S512x512_S32x512_160_0).PackedRows (EltTy.packing .bf16)
  inb_S16_S1_5 : ∀ a, (![5] : Fin 1 → Nat) a + S1.size a ≤ S16.size a
  wordsbf16_S512x512_S32x512_160_0 : (Rect.unit (s := S512x512) ![160, 0] S32x512.size inb_S512x512_S32x512_160_0).WholeWords (EltTy.packing .bf16)
  inb_S512x512_S32x512_192_0 : ∀ a, (![192, 0] : Fin 2 → Nat) a + S32x512.size a ≤ S512x512.size a
  packedbf16_S512x512_S32x512_192_0 : (Rect.unit (s := S512x512) ![192, 0] S32x512.size inb_S512x512_S32x512_192_0).PackedRows (EltTy.packing .bf16)
  inb_S16_S1_6 : ∀ a, (![6] : Fin 1 → Nat) a + S1.size a ≤ S16.size a
  wordsbf16_S512x512_S32x512_192_0 : (Rect.unit (s := S512x512) ![192, 0] S32x512.size inb_S512x512_S32x512_192_0).WholeWords (EltTy.packing .bf16)
  inb_S512x512_S32x512_224_0 : ∀ a, (![224, 0] : Fin 2 → Nat) a + S32x512.size a ≤ S512x512.size a
  packedbf16_S512x512_S32x512_224_0 : (Rect.unit (s := S512x512) ![224, 0] S32x512.size inb_S512x512_S32x512_224_0).PackedRows (EltTy.packing .bf16)
  inb_S16_S1_7 : ∀ a, (![7] : Fin 1 → Nat) a + S1.size a ≤ S16.size a
  wordsbf16_S512x512_S32x512_224_0 : (Rect.unit (s := S512x512) ![224, 0] S32x512.size inb_S512x512_S32x512_224_0).WholeWords (EltTy.packing .bf16)
  inb_S512x512_S32x512_256_0 : ∀ a, (![256, 0] : Fin 2 → Nat) a + S32x512.size a ≤ S512x512.size a
  packedbf16_S512x512_S32x512_256_0 : (Rect.unit (s := S512x512) ![256, 0] S32x512.size inb_S512x512_S32x512_256_0).PackedRows (EltTy.packing .bf16)
  inb_S16_S1_8 : ∀ a, (![8] : Fin 1 → Nat) a + S1.size a ≤ S16.size a
  wordsbf16_S512x512_S32x512_256_0 : (Rect.unit (s := S512x512) ![256, 0] S32x512.size inb_S512x512_S32x512_256_0).WholeWords (EltTy.packing .bf16)
  inb_S512x512_S32x512_288_0 : ∀ a, (![288, 0] : Fin 2 → Nat) a + S32x512.size a ≤ S512x512.size a
  packedbf16_S512x512_S32x512_288_0 : (Rect.unit (s := S512x512) ![288, 0] S32x512.size inb_S512x512_S32x512_288_0).PackedRows (EltTy.packing .bf16)
  inb_S16_S1_9 : ∀ a, (![9] : Fin 1 → Nat) a + S1.size a ≤ S16.size a
  wordsbf16_S512x512_S32x512_288_0 : (Rect.unit (s := S512x512) ![288, 0] S32x512.size inb_S512x512_S32x512_288_0).WholeWords (EltTy.packing .bf16)
  inb_S512x512_S32x512_320_0 : ∀ a, (![320, 0] : Fin 2 → Nat) a + S32x512.size a ≤ S512x512.size a
  packedbf16_S512x512_S32x512_320_0 : (Rect.unit (s := S512x512) ![320, 0] S32x512.size inb_S512x512_S32x512_320_0).PackedRows (EltTy.packing .bf16)
  inb_S16_S1_10 : ∀ a, (![10] : Fin 1 → Nat) a + S1.size a ≤ S16.size a
  wordsbf16_S512x512_S32x512_320_0 : (Rect.unit (s := S512x512) ![320, 0] S32x512.size inb_S512x512_S32x512_320_0).WholeWords (EltTy.packing .bf16)
  inb_S512x512_S32x512_352_0 : ∀ a, (![352, 0] : Fin 2 → Nat) a + S32x512.size a ≤ S512x512.size a
  packedbf16_S512x512_S32x512_352_0 : (Rect.unit (s := S512x512) ![352, 0] S32x512.size inb_S512x512_S32x512_352_0).PackedRows (EltTy.packing .bf16)
  inb_S16_S1_11 : ∀ a, (![11] : Fin 1 → Nat) a + S1.size a ≤ S16.size a
  wordsbf16_S512x512_S32x512_352_0 : (Rect.unit (s := S512x512) ![352, 0] S32x512.size inb_S512x512_S32x512_352_0).WholeWords (EltTy.packing .bf16)
  inb_S512x512_S32x512_384_0 : ∀ a, (![384, 0] : Fin 2 → Nat) a + S32x512.size a ≤ S512x512.size a
  packedbf16_S512x512_S32x512_384_0 : (Rect.unit (s := S512x512) ![384, 0] S32x512.size inb_S512x512_S32x512_384_0).PackedRows (EltTy.packing .bf16)
  inb_S16_S1_12 : ∀ a, (![12] : Fin 1 → Nat) a + S1.size a ≤ S16.size a
  wordsbf16_S512x512_S32x512_384_0 : (Rect.unit (s := S512x512) ![384, 0] S32x512.size inb_S512x512_S32x512_384_0).WholeWords (EltTy.packing .bf16)
  inb_S512x512_S32x512_416_0 : ∀ a, (![416, 0] : Fin 2 → Nat) a + S32x512.size a ≤ S512x512.size a
  packedbf16_S512x512_S32x512_416_0 : (Rect.unit (s := S512x512) ![416, 0] S32x512.size inb_S512x512_S32x512_416_0).PackedRows (EltTy.packing .bf16)
  inb_S16_S1_13 : ∀ a, (![13] : Fin 1 → Nat) a + S1.size a ≤ S16.size a
  wordsbf16_S512x512_S32x512_416_0 : (Rect.unit (s := S512x512) ![416, 0] S32x512.size inb_S512x512_S32x512_416_0).WholeWords (EltTy.packing .bf16)
  inb_S512x512_S32x512_448_0 : ∀ a, (![448, 0] : Fin 2 → Nat) a + S32x512.size a ≤ S512x512.size a
  packedbf16_S512x512_S32x512_448_0 : (Rect.unit (s := S512x512) ![448, 0] S32x512.size inb_S512x512_S32x512_448_0).PackedRows (EltTy.packing .bf16)
  inb_S16_S1_14 : ∀ a, (![14] : Fin 1 → Nat) a + S1.size a ≤ S16.size a
  wordsbf16_S512x512_S32x512_448_0 : (Rect.unit (s := S512x512) ![448, 0] S32x512.size inb_S512x512_S32x512_448_0).WholeWords (EltTy.packing .bf16)
  inb_S512x512_S32x512_480_0 : ∀ a, (![480, 0] : Fin 2 → Nat) a + S32x512.size a ≤ S512x512.size a
  packedbf16_S512x512_S32x512_480_0 : (Rect.unit (s := S512x512) ![480, 0] S32x512.size inb_S512x512_S32x512_480_0).PackedRows (EltTy.packing .bf16)
  inb_S16_S1_15 : ∀ a, (![15] : Fin 1 → Nat) a + S1.size a ≤ S16.size a
  wordsbf16_S512x512_S32x512_480_0 : (Rect.unit (s := S512x512) ![480, 0] S32x512.size inb_S512x512_S32x512_480_0).WholeWords (EltTy.packing .bf16)
  hcc0_scratch3 : 2 + S16.numel ≤ 66
  hcc0_scratch4 : 18 + S16.numel ≤ 66
  hcc0_scratch5 : 34 + S16.numel ≤ 66
  hcc0_scratch6 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ (k0_h1 : k0_cond1 d0 = 1#1), ∀ a, (k0_off1 d0) a + S1x32x512.size a ≤ S1x1024x1024.size a
  k0_off2_inb : ∀ d0 : Dev nD, ∀ (k0_h2 : k0_cond2 d0 = 1#1), ∀ a, (k0_off2 d0) a + S1x32x512.size a ≤ S1x1024x1024.size a
  k0_dev3_lt : ∀ d0 : Dev nD, (k0_dev3 d0) < nD
  k0_off3_inb : ∀ d0 : Dev nD, ∀ (k0_h3 : k0_cond3 d0 = 1#1), ∀ a, (k0_off3 d0) a + S1x32x512.size a ≤ S1x1024x1024.size a
  k0_off4_inb : ∀ d0 : Dev nD, ∀ (k0_h4 : k0_cond4 d0 = 1#1), ∀ a, (k0_off4 d0) a + S1x32x512.size a ≤ S1x1024x1024.size a
  k0_dev4_lt : ∀ d0 : Dev nD, (k0_dev4 d0) < nD
  k0_off5_inb : ∀ d0 : Dev nD, ∀ (k0_h5 : k0_cond5 d0 = 1#1), ∀ a, (k0_off5 d0) a + S1x32x512.size a ≤ S1x1024x1024.size a
  k0_off6_inb : ∀ d0 : Dev nD, ∀ (k0_h6 : k0_cond6 d0 = 1#1), ∀ a, (k0_off6 d0) a + S1x32x512.size a ≤ S1x1024x1024.size a
  k0_dev5_lt : ∀ d0 : Dev nD, (k0_dev5 d0) < nD
  k0_off7_inb : ∀ d0 : Dev nD, ∀ (k0_h7 : k0_cond7 d0 = 1#1), ∀ a, (k0_off7 d0) a + S1x32x512.size a ≤ S1x1024x1024.size a
  k0_off8_inb : ∀ d0 : Dev nD, ∀ (k0_h8 : k0_cond8 d0 = 1#1), ∀ a, (k0_off8 d0) a + S1x32x512.size a ≤ S1x1024x1024.size a
  k0_dev6_lt : ∀ d0 : Dev nD, (k0_dev6 d0) < nD
  k0_off9_inb : ∀ d0 : Dev nD, ∀ (k0_h9 : k0_cond9 d0 = 1#1), ∀ a, (k0_off9 d0) a + S1x32x512.size a ≤ S1x1024x1024.size a
  k0_off10_inb : ∀ d0 : Dev nD, ∀ (k0_h10 : k0_cond10 d0 = 1#1), ∀ a, (k0_off10 d0) a + S1x32x512.size a ≤ S1x1024x1024.size a
  k0_dev7_lt : ∀ d0 : Dev nD, (k0_dev7 d0) < nD
  k0_off11_inb : ∀ d0 : Dev nD, ∀ (k0_h11 : k0_cond11 d0 = 1#1), ∀ a, (k0_off11 d0) a + S1x32x512.size a ≤ S1x1024x1024.size a
  k0_off12_inb : ∀ d0 : Dev nD, ∀ (k0_h12 : k0_cond12 d0 = 1#1), ∀ a, (k0_off12 d0) a + S1x32x512.size a ≤ S1x1024x1024.size a
  k0_dev8_lt : ∀ d0 : Dev nD, (k0_dev8 d0) < nD
  k0_off13_inb : ∀ d0 : Dev nD, ∀ (k0_h13 : k0_cond13 d0 = 1#1), ∀ a, (k0_off13 d0) a + S1x32x512.size a ≤ S1x1024x1024.size a
  k0_off14_inb : ∀ d0 : Dev nD, ∀ (k0_h14 : k0_cond14 d0 = 1#1), ∀ a, (k0_off14 d0) a + S1x32x512.size a ≤ S1x1024x1024.size a
  k0_dev9_lt : ∀ d0 : Dev nD, (k0_dev9 d0) < nD
  k0_off15_inb : ∀ d0 : Dev nD, ∀ (k0_h15 : k0_cond15 d0 = 1#1), ∀ a, (k0_off15 d0) a + S1x32x512.size a ≤ S1x1024x1024.size a
  k0_off16_inb : ∀ d0 : Dev nD, ∀ (k0_h16 : k0_cond16 d0 = 1#1), ∀ a, (k0_off16 d0) a + S1x32x512.size a ≤ S1x1024x1024.size a
  k0_dev10_lt : ∀ d0 : Dev nD, (k0_dev10 d0) < nD
  k0_off17_inb : ∀ d0 : Dev nD, ∀ (k0_h17 : k0_cond17 d0 = 1#1), ∀ a, (k0_off17 d0) a + S1x32x512.size a ≤ S1x1024x1024.size a
  k0_off18_inb : ∀ d0 : Dev nD, ∀ (k0_h18 : k0_cond18 d0 = 1#1), ∀ a, (k0_off18 d0) a + S1x32x512.size a ≤ S1x1024x1024.size a
  k0_dev11_lt : ∀ d0 : Dev nD, (k0_dev11 d0) < nD
  k0_off19_inb : ∀ d0 : Dev nD, ∀ (k0_h19 : k0_cond19 d0 = 1#1), ∀ a, (k0_off19 d0) a + S1x32x512.size a ≤ S1x1024x1024.size a
  k0_off20_inb : ∀ d0 : Dev nD, ∀ (k0_h20 : k0_cond20 d0 = 1#1), ∀ a, (k0_off20 d0) a + S1x32x512.size a ≤ S1x1024x1024.size a
  k0_dev12_lt : ∀ d0 : Dev nD, (k0_dev12 d0) < nD
  k0_off21_inb : ∀ d0 : Dev nD, ∀ (k0_h21 : k0_cond21 d0 = 1#1), ∀ a, (k0_off21 d0) a + S1x32x512.size a ≤ S1x1024x1024.size a
  k0_off22_inb : ∀ d0 : Dev nD, ∀ (k0_h22 : k0_cond22 d0 = 1#1), ∀ a, (k0_off22 d0) a + S1x32x512.size a ≤ S1x1024x1024.size a
  k0_dev13_lt : ∀ d0 : Dev nD, (k0_dev13 d0) < nD
  k0_off23_inb : ∀ d0 : Dev nD, ∀ (k0_h23 : k0_cond23 d0 = 1#1), ∀ a, (k0_off23 d0) a + S1x32x512.size a ≤ S1x1024x1024.size a
  k0_off24_inb : ∀ d0 : Dev nD, ∀ (k0_h24 : k0_cond24 d0 = 1#1), ∀ a, (k0_off24 d0) a + S1x32x512.size a ≤ S1x1024x1024.size a
  k0_dev14_lt : ∀ d0 : Dev nD, (k0_dev14 d0) < nD
  k0_off25_inb : ∀ d0 : Dev nD, ∀ (k0_h25 : k0_cond25 d0 = 1#1), ∀ a, (k0_off25 d0) a + S1x32x512.size a ≤ S1x1024x1024.size a
  k0_off26_inb : ∀ d0 : Dev nD, ∀ (k0_h26 : k0_cond26 d0 = 1#1), ∀ a, (k0_off26 d0) a + S1x32x512.size a ≤ S1x1024x1024.size a
  k0_dev15_lt : ∀ d0 : Dev nD, (k0_dev15 d0) < nD
  k0_off27_inb : ∀ d0 : Dev nD, ∀ (k0_h27 : k0_cond27 d0 = 1#1), ∀ a, (k0_off27 d0) a + S1x32x512.size a ≤ S1x1024x1024.size a
  k0_off28_inb : ∀ d0 : Dev nD, ∀ (k0_h28 : k0_cond28 d0 = 1#1), ∀ a, (k0_off28 d0) a + S1x32x512.size a ≤ S1x1024x1024.size a
  k0_dev16_lt : ∀ d0 : Dev nD, (k0_dev16 d0) < nD
  k0_off29_inb : ∀ d0 : Dev nD, ∀ (k0_h29 : k0_cond29 d0 = 1#1), ∀ a, (k0_off29 d0) a + S1x32x512.size a ≤ S1x1024x1024.size a
  k0_off30_inb : ∀ d0 : Dev nD, ∀ (k0_h30 : k0_cond30 d0 = 1#1), ∀ a, (k0_off30 d0) a + S1x32x512.size a ≤ S1x1024x1024.size a
  k0_dev17_lt : ∀ d0 : Dev nD, (k0_dev17 d0) < nD
  k0_off31_inb : ∀ d0 : Dev nD, ∀ (k0_h31 : k0_cond31 d0 = 1#1), ∀ a, (k0_off31 d0) a + S1x32x512.size a ≤ S1x1024x1024.size a
  k0_off32_inb : ∀ d0 : Dev nD, ∀ (k0_h32 : k0_cond32 d0 = 1#1), ∀ a, (k0_off32 d0) a + S1x32x512.size a ≤ S1x1024x1024.size a
  k0_dev18_lt : ∀ d0 : Dev nD, (k0_dev18 d0) < nD
  k0_dev19_lt : ∀ d0 : Dev nD, (k0_dev19 d0) < nD
  k0_off33_inb : ∀ d0 : Dev nD, ∀ (k0_h33 : k0_cond33 d0 = 1#1), ∀ a, (k0_off33 d0) a + S1x32x512.size a ≤ S1x1024x1024.size a
  k0_off34_inb : ∀ d0 : Dev nD, ∀ (k0_h33 : k0_cond33 d0 = 1#1), ∀ a, (k0_off34 d0) a + S32x512.size a ≤ S1024x512.size a
  k0_off34_packedbf16 : ∀ d0 : Dev nD, ∀ (k0_h33 : k0_cond33 d0 = 1#1), (Rect.unit (s := S1024x512) (k0_off34 d0) S32x512.size (k0_off34_inb d0 k0_h33)).PackedRows (EltTy.packing .bf16)
  k0_off35_inb : ∀ d0 : Dev nD, ∀ (k0_h34 : k0_cond34 d0 = 1#1), ∀ a, (k0_off35 d0) a + S1x32x512.size a ≤ S1x1024x1024.size a
  k0_off36_inb : ∀ d0 : Dev nD, ∀ (k0_h34 : k0_cond34 d0 = 1#1), ∀ a, (k0_off36 d0) a + S32x512.size a ≤ S1024x512.size a
  k0_off36_packedbf16 : ∀ d0 : Dev nD, ∀ (k0_h34 : k0_cond34 d0 = 1#1), (Rect.unit (s := S1024x512) (k0_off36 d0) S32x512.size (k0_off36_inb d0 k0_h34)).PackedRows (EltTy.packing .bf16)
  k0_dev20_lt : ∀ d0 : Dev nD, (k0_dev20 d0) < nD
  k0_off37_inb : ∀ d0 : Dev nD, ∀ (k0_h35 : k0_cond35 d0 = 1#1), ∀ a, (k0_off37 d0) a + S1x32x512.size a ≤ S1x1024x1024.size a
  k0_off38_inb : ∀ d0 : Dev nD, ∀ (k0_h35 : k0_cond35 d0 = 1#1), ∀ a, (k0_off38 d0) a + S32x512.size a ≤ S1024x512.size a
  k0_off38_packedbf16 : ∀ d0 : Dev nD, ∀ (k0_h35 : k0_cond35 d0 = 1#1), (Rect.unit (s := S1024x512) (k0_off38 d0) S32x512.size (k0_off38_inb d0 k0_h35)).PackedRows (EltTy.packing .bf16)
  k0_off39_inb : ∀ d0 : Dev nD, ∀ (k0_h36 : k0_cond36 d0 = 1#1), ∀ a, (k0_off39 d0) a + S1x32x512.size a ≤ S1x1024x1024.size a
  k0_off40_inb : ∀ d0 : Dev nD, ∀ (k0_h36 : k0_cond36 d0 = 1#1), ∀ a, (k0_off40 d0) a + S32x512.size a ≤ S1024x512.size a
  k0_off40_packedbf16 : ∀ d0 : Dev nD, ∀ (k0_h36 : k0_cond36 d0 = 1#1), (Rect.unit (s := S1024x512) (k0_off40 d0) S32x512.size (k0_off40_inb d0 k0_h36)).PackedRows (EltTy.packing .bf16)
  k0_dev21_lt : ∀ d0 : Dev nD, (k0_dev21 d0) < nD
  k0_off41_inb : ∀ d0 : Dev nD, ∀ (k0_h37 : k0_cond37 d0 = 1#1), ∀ a, (k0_off41 d0) a + S1x32x512.size a ≤ S1x1024x1024.size a
  k0_off42_inb : ∀ d0 : Dev nD, ∀ (k0_h37 : k0_cond37 d0 = 1#1), ∀ a, (k0_off42 d0) a + S32x512.size a ≤ S1024x512.size a
  k0_off42_packedbf16 : ∀ d0 : Dev nD, ∀ (k0_h37 : k0_cond37 d0 = 1#1), (Rect.unit (s := S1024x512) (k0_off42 d0) S32x512.size (k0_off42_inb d0 k0_h37)).PackedRows (EltTy.packing .bf16)
  k0_off43_inb : ∀ d0 : Dev nD, ∀ (k0_h38 : k0_cond38 d0 = 1#1), ∀ a, (k0_off43 d0) a + S1x32x512.size a ≤ S1x1024x1024.size a
  k0_off44_inb : ∀ d0 : Dev nD, ∀ (k0_h38 : k0_cond38 d0 = 1#1), ∀ a, (k0_off44 d0) a + S32x512.size a ≤ S1024x512.size a
  k0_off44_packedbf16 : ∀ d0 : Dev nD, ∀ (k0_h38 : k0_cond38 d0 = 1#1), (Rect.unit (s := S1024x512) (k0_off44 d0) S32x512.size (k0_off44_inb d0 k0_h38)).PackedRows (EltTy.packing .bf16)
  k0_dev22_lt : ∀ d0 : Dev nD, (k0_dev22 d0) < nD
  k0_off45_inb : ∀ d0 : Dev nD, ∀ (k0_h39 : k0_cond39 d0 = 1#1), ∀ a, (k0_off45 d0) a + S1x32x512.size a ≤ S1x1024x1024.size a
  k0_off46_inb : ∀ d0 : Dev nD, ∀ (k0_h39 : k0_cond39 d0 = 1#1), ∀ a, (k0_off46 d0) a + S32x512.size a ≤ S1024x512.size a
  k0_off46_packedbf16 : ∀ d0 : Dev nD, ∀ (k0_h39 : k0_cond39 d0 = 1#1), (Rect.unit (s := S1024x512) (k0_off46 d0) S32x512.size (k0_off46_inb d0 k0_h39)).PackedRows (EltTy.packing .bf16)
  k0_off47_inb : ∀ d0 : Dev nD, ∀ (k0_h40 : k0_cond40 d0 = 1#1), ∀ a, (k0_off47 d0) a + S1x32x512.size a ≤ S1x1024x1024.size a
  k0_off48_inb : ∀ d0 : Dev nD, ∀ (k0_h40 : k0_cond40 d0 = 1#1), ∀ a, (k0_off48 d0) a + S32x512.size a ≤ S1024x512.size a
  k0_off48_packedbf16 : ∀ d0 : Dev nD, ∀ (k0_h40 : k0_cond40 d0 = 1#1), (Rect.unit (s := S1024x512) (k0_off48 d0) S32x512.size (k0_off48_inb d0 k0_h40)).PackedRows (EltTy.packing .bf16)
  k0_dev23_lt : ∀ d0 : Dev nD, (k0_dev23 d0) < nD
  k0_off49_inb : ∀ d0 : Dev nD, ∀ (k0_h41 : k0_cond41 d0 = 1#1), ∀ a, (k0_off49 d0) a + S1x32x512.size a ≤ S1x1024x1024.size a
  k0_off50_inb : ∀ d0 : Dev nD, ∀ (k0_h41 : k0_cond41 d0 = 1#1), ∀ a, (k0_off50 d0) a + S32x512.size a ≤ S1024x512.size a
  k0_off50_packedbf16 : ∀ d0 : Dev nD, ∀ (k0_h41 : k0_cond41 d0 = 1#1), (Rect.unit (s := S1024x512) (k0_off50 d0) S32x512.size (k0_off50_inb d0 k0_h41)).PackedRows (EltTy.packing .bf16)
  k0_off51_inb : ∀ d0 : Dev nD, ∀ (k0_h42 : k0_cond42 d0 = 1#1), ∀ a, (k0_off51 d0) a + S1x32x512.size a ≤ S1x1024x1024.size a
  k0_off52_inb : ∀ d0 : Dev nD, ∀ (k0_h42 : k0_cond42 d0 = 1#1), ∀ a, (k0_off52 d0) a + S32x512.size a ≤ S1024x512.size a
  k0_off52_packedbf16 : ∀ d0 : Dev nD, ∀ (k0_h42 : k0_cond42 d0 = 1#1), (Rect.unit (s := S1024x512) (k0_off52 d0) S32x512.size (k0_off52_inb d0 k0_h42)).PackedRows (EltTy.packing .bf16)
  k0_dev24_lt : ∀ d0 : Dev nD, (k0_dev24 d0) < nD
  k0_off53_inb : ∀ d0 : Dev nD, ∀ (k0_h43 : k0_cond43 d0 = 1#1), ∀ a, (k0_off53 d0) a + S1x32x512.size a ≤ S1x1024x1024.size a
  k0_off54_inb : ∀ d0 : Dev nD, ∀ (k0_h43 : k0_cond43 d0 = 1#1), ∀ a, (k0_off54 d0) a + S32x512.size a ≤ S1024x512.size a
  k0_off54_packedbf16 : ∀ d0 : Dev nD, ∀ (k0_h43 : k0_cond43 d0 = 1#1), (Rect.unit (s := S1024x512) (k0_off54 d0) S32x512.size (k0_off54_inb d0 k0_h43)).PackedRows (EltTy.packing .bf16)
  k0_off55_inb : ∀ d0 : Dev nD, ∀ (k0_h44 : k0_cond44 d0 = 1#1), ∀ a, (k0_off55 d0) a + S1x32x512.size a ≤ S1x1024x1024.size a
  k0_off56_inb : ∀ d0 : Dev nD, ∀ (k0_h44 : k0_cond44 d0 = 1#1), ∀ a, (k0_off56 d0) a + S32x512.size a ≤ S1024x512.size a
  k0_off56_packedbf16 : ∀ d0 : Dev nD, ∀ (k0_h44 : k0_cond44 d0 = 1#1), (Rect.unit (s := S1024x512) (k0_off56 d0) S32x512.size (k0_off56_inb d0 k0_h44)).PackedRows (EltTy.packing .bf16)
  k0_dev25_lt : ∀ d0 : Dev nD, (k0_dev25 d0) < nD
  k0_off57_inb : ∀ d0 : Dev nD, ∀ (k0_h45 : k0_cond45 d0 = 1#1), ∀ a, (k0_off57 d0) a + S1x32x512.size a ≤ S1x1024x1024.size a
  k0_off58_inb : ∀ d0 : Dev nD, ∀ (k0_h45 : k0_cond45 d0 = 1#1), ∀ a, (k0_off58 d0) a + S32x512.size a ≤ S1024x512.size a
  k0_off58_packedbf16 : ∀ d0 : Dev nD, ∀ (k0_h45 : k0_cond45 d0 = 1#1), (Rect.unit (s := S1024x512) (k0_off58 d0) S32x512.size (k0_off58_inb d0 k0_h45)).PackedRows (EltTy.packing .bf16)
  k0_off59_inb : ∀ d0 : Dev nD, ∀ (k0_h46 : k0_cond46 d0 = 1#1), ∀ a, (k0_off59 d0) a + S1x32x512.size a ≤ S1x1024x1024.size a
  k0_off60_inb : ∀ d0 : Dev nD, ∀ (k0_h46 : k0_cond46 d0 = 1#1), ∀ a, (k0_off60 d0) a + S32x512.size a ≤ S1024x512.size a
  k0_off60_packedbf16 : ∀ d0 : Dev nD, ∀ (k0_h46 : k0_cond46 d0 = 1#1), (Rect.unit (s := S1024x512) (k0_off60 d0) S32x512.size (k0_off60_inb d0 k0_h46)).PackedRows (EltTy.packing .bf16)
  k0_off61_inb : ∀ d0 : Dev nD, ∀ (k0_h47 : k0_cond47 d0 = 1#1), ∀ a, (k0_off61 d0) a + S1x32x512.size a ≤ S1x1024x1024.size a
  k0_off62_inb : ∀ d0 : Dev nD, ∀ (k0_h47 : k0_cond47 d0 = 1#1), ∀ a, (k0_off62 d0) a + S32x512.size a ≤ S1024x512.size a
  k0_off62_packedbf16 : ∀ d0 : Dev nD, ∀ (k0_h47 : k0_cond47 d0 = 1#1), (Rect.unit (s := S1024x512) (k0_off62 d0) S32x512.size (k0_off62_inb d0 k0_h47)).PackedRows (EltTy.packing .bf16)
  k0_off63_inb : ∀ d0 : Dev nD, ∀ (k0_h48 : k0_cond48 d0 = 1#1), ∀ a, (k0_off63 d0) a + S1x32x512.size a ≤ S1x1024x1024.size a
  k0_off64_inb : ∀ d0 : Dev nD, ∀ (k0_h48 : k0_cond48 d0 = 1#1), ∀ a, (k0_off64 d0) a + S32x512.size a ≤ S1024x512.size a
  k0_off64_packedbf16 : ∀ d0 : Dev nD, ∀ (k0_h48 : k0_cond48 d0 = 1#1), (Rect.unit (s := S1024x512) (k0_off64 d0) S32x512.size (k0_off64_inb d0 k0_h48)).PackedRows (EltTy.packing .bf16)
  k0_dev26_lt : ∀ d0 : Dev nD, (k0_dev26 d0) < nD
  k0_off65_inb : ∀ d0 : Dev nD, ∀ (k0_h49 : k0_cond49 d0 = 1#1), ∀ a, (k0_off65 d0) a + S1x32x512.size a ≤ S1x1024x1024.size a
  k0_off66_inb : ∀ d0 : Dev nD, ∀ (k0_h49 : k0_cond49 d0 = 1#1), ∀ a, (k0_off66 d0) a + S32x512.size a ≤ S1024x512.size a
  k0_off66_packedbf16 : ∀ d0 : Dev nD, ∀ (k0_h49 : k0_cond49 d0 = 1#1), (Rect.unit (s := S1024x512) (k0_off66 d0) S32x512.size (k0_off66_inb d0 k0_h49)).PackedRows (EltTy.packing .bf16)
  k0_off67_inb : ∀ d0 : Dev nD, ∀ (k0_h50 : k0_cond50 d0 = 1#1), ∀ a, (k0_off67 d0) a + S1x32x512.size a ≤ S1x1024x1024.size a
  k0_off68_inb : ∀ d0 : Dev nD, ∀ (k0_h50 : k0_cond50 d0 = 1#1), ∀ a, (k0_off68 d0) a + S32x512.size a ≤ S1024x512.size a
  k0_off68_packedbf16 : ∀ d0 : Dev nD, ∀ (k0_h50 : k0_cond50 d0 = 1#1), (Rect.unit (s := S1024x512) (k0_off68 d0) S32x512.size (k0_off68_inb d0 k0_h50)).PackedRows (EltTy.packing .bf16)
  k0_off69_inb : ∀ d0 : Dev nD, ∀ (k0_h51 : k0_cond51 d0 = 1#1), ∀ a, (k0_off69 d0) a + S1x32x512.size a ≤ S1x1024x1024.size a
  k0_off70_inb : ∀ d0 : Dev nD, ∀ (k0_h51 : k0_cond51 d0 = 1#1), ∀ a, (k0_off70 d0) a + S32x512.size a ≤ S1024x512.size a
  k0_off70_packedbf16 : ∀ d0 : Dev nD, ∀ (k0_h51 : k0_cond51 d0 = 1#1), (Rect.unit (s := S1024x512) (k0_off70 d0) S32x512.size (k0_off70_inb d0 k0_h51)).PackedRows (EltTy.packing .bf16)
  k0_off71_inb : ∀ d0 : Dev nD, ∀ (k0_h52 : k0_cond52 d0 = 1#1), ∀ a, (k0_off71 d0) a + S1x32x512.size a ≤ S1x1024x1024.size a
  k0_off72_inb : ∀ d0 : Dev nD, ∀ (k0_h52 : k0_cond52 d0 = 1#1), ∀ a, (k0_off72 d0) a + S32x512.size a ≤ S1024x512.size a
  k0_off72_packedbf16 : ∀ d0 : Dev nD, ∀ (k0_h52 : k0_cond52 d0 = 1#1), (Rect.unit (s := S1024x512) (k0_off72 d0) S32x512.size (k0_off72_inb d0 k0_h52)).PackedRows (EltTy.packing .bf16)
  k0_dev27_lt : ∀ d0 : Dev nD, (k0_dev27 d0) < nD
  k0_off73_inb : ∀ d0 : Dev nD, ∀ (k0_h53 : k0_cond53 d0 = 1#1), ∀ a, (k0_off73 d0) a + S1x32x512.size a ≤ S1x1024x1024.size a
  k0_off74_inb : ∀ d0 : Dev nD, ∀ (k0_h53 : k0_cond53 d0 = 1#1), ∀ a, (k0_off74 d0) a + S32x512.size a ≤ S1024x512.size a
  k0_off74_packedbf16 : ∀ d0 : Dev nD, ∀ (k0_h53 : k0_cond53 d0 = 1#1), (Rect.unit (s := S1024x512) (k0_off74 d0) S32x512.size (k0_off74_inb d0 k0_h53)).PackedRows (EltTy.packing .bf16)
  k0_off75_inb : ∀ d0 : Dev nD, ∀ (k0_h54 : k0_cond54 d0 = 1#1), ∀ a, (k0_off75 d0) a + S1x32x512.size a ≤ S1x1024x1024.size a
  k0_off76_inb : ∀ d0 : Dev nD, ∀ (k0_h54 : k0_cond54 d0 = 1#1), ∀ a, (k0_off76 d0) a + S32x512.size a ≤ S1024x512.size a
  k0_off76_packedbf16 : ∀ d0 : Dev nD, ∀ (k0_h54 : k0_cond54 d0 = 1#1), (Rect.unit (s := S1024x512) (k0_off76 d0) S32x512.size (k0_off76_inb d0 k0_h54)).PackedRows (EltTy.packing .bf16)
  k0_off77_inb : ∀ d0 : Dev nD, ∀ (k0_h55 : k0_cond55 d0 = 1#1), ∀ a, (k0_off77 d0) a + S1x32x512.size a ≤ S1x1024x1024.size a
  k0_off78_inb : ∀ d0 : Dev nD, ∀ (k0_h55 : k0_cond55 d0 = 1#1), ∀ a, (k0_off78 d0) a + S32x512.size a ≤ S1024x512.size a
  k0_off78_packedbf16 : ∀ d0 : Dev nD, ∀ (k0_h55 : k0_cond55 d0 = 1#1), (Rect.unit (s := S1024x512) (k0_off78 d0) S32x512.size (k0_off78_inb d0 k0_h55)).PackedRows (EltTy.packing .bf16)
  k0_off79_inb : ∀ d0 : Dev nD, ∀ (k0_h56 : k0_cond56 d0 = 1#1), ∀ a, (k0_off79 d0) a + S1x32x512.size a ≤ S1x1024x1024.size a
  k0_off80_inb : ∀ d0 : Dev nD, ∀ (k0_h56 : k0_cond56 d0 = 1#1), ∀ a, (k0_off80 d0) a + S32x512.size a ≤ S1024x512.size a
  k0_off80_packedbf16 : ∀ d0 : Dev nD, ∀ (k0_h56 : k0_cond56 d0 = 1#1), (Rect.unit (s := S1024x512) (k0_off80 d0) S32x512.size (k0_off80_inb d0 k0_h56)).PackedRows (EltTy.packing .bf16)
  k0_dev28_lt : ∀ d0 : Dev nD, (k0_dev28 d0) < nD
  k0_off81_inb : ∀ d0 : Dev nD, ∀ (k0_h57 : k0_cond57 d0 = 1#1), ∀ a, (k0_off81 d0) a + S1x32x512.size a ≤ S1x1024x1024.size a
  k0_off82_inb : ∀ d0 : Dev nD, ∀ (k0_h57 : k0_cond57 d0 = 1#1), ∀ a, (k0_off82 d0) a + S32x512.size a ≤ S1024x512.size a
  k0_off82_packedbf16 : ∀ d0 : Dev nD, ∀ (k0_h57 : k0_cond57 d0 = 1#1), (Rect.unit (s := S1024x512) (k0_off82 d0) S32x512.size (k0_off82_inb d0 k0_h57)).PackedRows (EltTy.packing .bf16)
  k0_off83_inb : ∀ d0 : Dev nD, ∀ (k0_h58 : k0_cond58 d0 = 1#1), ∀ a, (k0_off83 d0) a + S1x32x512.size a ≤ S1x1024x1024.size a
  k0_off84_inb : ∀ d0 : Dev nD, ∀ (k0_h58 : k0_cond58 d0 = 1#1), ∀ a, (k0_off84 d0) a + S32x512.size a ≤ S1024x512.size a
  k0_off84_packedbf16 : ∀ d0 : Dev nD, ∀ (k0_h58 : k0_cond58 d0 = 1#1), (Rect.unit (s := S1024x512) (k0_off84 d0) S32x512.size (k0_off84_inb d0 k0_h58)).PackedRows (EltTy.packing .bf16)
  k0_off85_inb : ∀ d0 : Dev nD, ∀ (k0_h59 : k0_cond59 d0 = 1#1), ∀ a, (k0_off85 d0) a + S1x32x512.size a ≤ S1x1024x1024.size a
  k0_off86_inb : ∀ d0 : Dev nD, ∀ (k0_h59 : k0_cond59 d0 = 1#1), ∀ a, (k0_off86 d0) a + S32x512.size a ≤ S1024x512.size a
  k0_off86_packedbf16 : ∀ d0 : Dev nD, ∀ (k0_h59 : k0_cond59 d0 = 1#1), (Rect.unit (s := S1024x512) (k0_off86 d0) S32x512.size (k0_off86_inb d0 k0_h59)).PackedRows (EltTy.packing .bf16)
  k0_off87_inb : ∀ d0 : Dev nD, ∀ (k0_h60 : k0_cond60 d0 = 1#1), ∀ a, (k0_off87 d0) a + S1x32x512.size a ≤ S1x1024x1024.size a
  k0_off88_inb : ∀ d0 : Dev nD, ∀ (k0_h60 : k0_cond60 d0 = 1#1), ∀ a, (k0_off88 d0) a + S32x512.size a ≤ S1024x512.size a
  k0_off88_packedbf16 : ∀ d0 : Dev nD, ∀ (k0_h60 : k0_cond60 d0 = 1#1), (Rect.unit (s := S1024x512) (k0_off88 d0) S32x512.size (k0_off88_inb d0 k0_h60)).PackedRows (EltTy.packing .bf16)
  k0_dev29_lt : ∀ d0 : Dev nD, (k0_dev29 d0) < nD
  k0_off89_inb : ∀ d0 : Dev nD, ∀ (k0_h61 : k0_cond61 d0 = 1#1), ∀ a, (k0_off89 d0) a + S1x32x512.size a ≤ S1x1024x1024.size a
  k0_off90_inb : ∀ d0 : Dev nD, ∀ (k0_h61 : k0_cond61 d0 = 1#1), ∀ a, (k0_off90 d0) a + S32x512.size a ≤ S1024x512.size a
  k0_off90_packedbf16 : ∀ d0 : Dev nD, ∀ (k0_h61 : k0_cond61 d0 = 1#1), (Rect.unit (s := S1024x512) (k0_off90 d0) S32x512.size (k0_off90_inb d0 k0_h61)).PackedRows (EltTy.packing .bf16)
  k0_off91_inb : ∀ d0 : Dev nD, ∀ (k0_h62 : k0_cond62 d0 = 1#1), ∀ a, (k0_off91 d0) a + S1x32x512.size a ≤ S1x1024x1024.size a
  k0_off92_inb : ∀ d0 : Dev nD, ∀ (k0_h62 : k0_cond62 d0 = 1#1), ∀ a, (k0_off92 d0) a + S32x512.size a ≤ S1024x512.size a
  k0_off92_packedbf16 : ∀ d0 : Dev nD, ∀ (k0_h62 : k0_cond62 d0 = 1#1), (Rect.unit (s := S1024x512) (k0_off92 d0) S32x512.size (k0_off92_inb d0 k0_h62)).PackedRows (EltTy.packing .bf16)
  k0_off93_inb : ∀ d0 : Dev nD, ∀ (k0_h63 : k0_cond63 d0 = 1#1), ∀ a, (k0_off93 d0) a + S1x32x512.size a ≤ S1x1024x1024.size a
  k0_off94_inb : ∀ d0 : Dev nD, ∀ (k0_h63 : k0_cond63 d0 = 1#1), ∀ a, (k0_off94 d0) a + S32x512.size a ≤ S1024x512.size a
  k0_off94_packedbf16 : ∀ d0 : Dev nD, ∀ (k0_h63 : k0_cond63 d0 = 1#1), (Rect.unit (s := S1024x512) (k0_off94 d0) S32x512.size (k0_off94_inb d0 k0_h63)).PackedRows (EltTy.packing .bf16)
  k0_off95_inb : ∀ d0 : Dev nD, ∀ (k0_h64 : k0_cond64 d0 = 1#1), ∀ a, (k0_off95 d0) a + S1x32x512.size a ≤ S1x1024x1024.size a
  k0_off96_inb : ∀ d0 : Dev nD, ∀ (k0_h64 : k0_cond64 d0 = 1#1), ∀ a, (k0_off96 d0) a + S32x512.size a ≤ S1024x512.size a
  k0_off96_packedbf16 : ∀ d0 : Dev nD, ∀ (k0_h64 : k0_cond64 d0 = 1#1), (Rect.unit (s := S1024x512) (k0_off96 d0) S32x512.size (k0_off96_inb d0 k0_h64)).PackedRows (EltTy.packing .bf16)
  k0_dev30_lt : ∀ d0 : Dev nD, (k0_dev30 d0) < nD
  k0_off97_inb : ∀ d0 : Dev nD, ∀ (k0_h65 : k0_cond65 d0 = 1#1), ∀ a, (k0_off97 d0) a + S1x32x512.size a ≤ S1x1024x1024.size a
  k0_off98_inb : ∀ d0 : Dev nD, ∀ (k0_h65 : k0_cond65 d0 = 1#1), ∀ a, (k0_off98 d0) a + S32x512.size a ≤ S1024x512.size a
  k0_off98_packedbf16 : ∀ d0 : Dev nD, ∀ (k0_h65 : k0_cond65 d0 = 1#1), (Rect.unit (s := S1024x512) (k0_off98 d0) S32x512.size (k0_off98_inb d0 k0_h65)).PackedRows (EltTy.packing .bf16)
  k0_off99_inb : ∀ d0 : Dev nD, ∀ (k0_h66 : k0_cond66 d0 = 1#1), ∀ a, (k0_off99 d0) a + S1x32x512.size a ≤ S1x1024x1024.size a
  k0_off100_inb : ∀ d0 : Dev nD, ∀ (k0_h66 : k0_cond66 d0 = 1#1), ∀ a, (k0_off100 d0) a + S32x512.size a ≤ S1024x512.size a
  k0_off100_packedbf16 : ∀ d0 : Dev nD, ∀ (k0_h66 : k0_cond66 d0 = 1#1), (Rect.unit (s := S1024x512) (k0_off100 d0) S32x512.size (k0_off100_inb d0 k0_h66)).PackedRows (EltTy.packing .bf16)
  k0_off101_inb : ∀ d0 : Dev nD, ∀ (k0_h67 : k0_cond67 d0 = 1#1), ∀ a, (k0_off101 d0) a + S1x32x512.size a ≤ S1x1024x1024.size a
  k0_off102_inb : ∀ d0 : Dev nD, ∀ (k0_h67 : k0_cond67 d0 = 1#1), ∀ a, (k0_off102 d0) a + S32x512.size a ≤ S1024x512.size a
  k0_off102_packedbf16 : ∀ d0 : Dev nD, ∀ (k0_h67 : k0_cond67 d0 = 1#1), (Rect.unit (s := S1024x512) (k0_off102 d0) S32x512.size (k0_off102_inb d0 k0_h67)).PackedRows (EltTy.packing .bf16)
  k0_off103_inb : ∀ d0 : Dev nD, ∀ (k0_h68 : k0_cond68 d0 = 1#1), ∀ a, (k0_off103 d0) a + S1x32x512.size a ≤ S1x1024x1024.size a
  k0_off104_inb : ∀ d0 : Dev nD, ∀ (k0_h68 : k0_cond68 d0 = 1#1), ∀ a, (k0_off104 d0) a + S32x512.size a ≤ S1024x512.size a
  k0_off104_packedbf16 : ∀ d0 : Dev nD, ∀ (k0_h68 : k0_cond68 d0 = 1#1), (Rect.unit (s := S1024x512) (k0_off104 d0) S32x512.size (k0_off104_inb d0 k0_h68)).PackedRows (EltTy.packing .bf16)
  k0_dev31_lt : ∀ d0 : Dev nD, (k0_dev31 d0) < nD
  k0_off105_inb : ∀ d0 : Dev nD, ∀ (k0_h69 : k0_cond69 d0 = 1#1), ∀ a, (k0_off105 d0) a + S1x32x512.size a ≤ S1x1024x1024.size a
  k0_off106_inb : ∀ d0 : Dev nD, ∀ (k0_h69 : k0_cond69 d0 = 1#1), ∀ a, (k0_off106 d0) a + S32x512.size a ≤ S1024x512.size a
  k0_off106_packedbf16 : ∀ d0 : Dev nD, ∀ (k0_h69 : k0_cond69 d0 = 1#1), (Rect.unit (s := S1024x512) (k0_off106 d0) S32x512.size (k0_off106_inb d0 k0_h69)).PackedRows (EltTy.packing .bf16)
  k0_off107_inb : ∀ d0 : Dev nD, ∀ (k0_h70 : k0_cond70 d0 = 1#1), ∀ a, (k0_off107 d0) a + S1x32x512.size a ≤ S1x1024x1024.size a
  k0_off108_inb : ∀ d0 : Dev nD, ∀ (k0_h70 : k0_cond70 d0 = 1#1), ∀ a, (k0_off108 d0) a + S32x512.size a ≤ S1024x512.size a
  k0_off108_packedbf16 : ∀ d0 : Dev nD, ∀ (k0_h70 : k0_cond70 d0 = 1#1), (Rect.unit (s := S1024x512) (k0_off108 d0) S32x512.size (k0_off108_inb d0 k0_h70)).PackedRows (EltTy.packing .bf16)
  k0_off109_inb : ∀ d0 : Dev nD, ∀ (k0_h71 : k0_cond71 d0 = 1#1), ∀ a, (k0_off109 d0) a + S1x32x512.size a ≤ S1x1024x1024.size a
  k0_off110_inb : ∀ d0 : Dev nD, ∀ (k0_h71 : k0_cond71 d0 = 1#1), ∀ a, (k0_off110 d0) a + S32x512.size a ≤ S1024x512.size a
  k0_off110_packedbf16 : ∀ d0 : Dev nD, ∀ (k0_h71 : k0_cond71 d0 = 1#1), (Rect.unit (s := S1024x512) (k0_off110 d0) S32x512.size (k0_off110_inb d0 k0_h71)).PackedRows (EltTy.packing .bf16)
  k0_off111_inb : ∀ d0 : Dev nD, ∀ (k0_h72 : k0_cond72 d0 = 1#1), ∀ a, (k0_off111 d0) a + S1x32x512.size a ≤ S1x1024x1024.size a
  k0_off112_inb : ∀ d0 : Dev nD, ∀ (k0_h72 : k0_cond72 d0 = 1#1), ∀ a, (k0_off112 d0) a + S32x512.size a ≤ S1024x512.size a
  k0_off112_packedbf16 : ∀ d0 : Dev nD, ∀ (k0_h72 : k0_cond72 d0 = 1#1), (Rect.unit (s := S1024x512) (k0_off112 d0) S32x512.size (k0_off112_inb d0 k0_h72)).PackedRows (EltTy.packing .bf16)
  k0_dev32_lt : ∀ d0 : Dev nD, (k0_dev32 d0) < nD
  k0_off113_inb : ∀ d0 : Dev nD, ∀ (k0_h73 : k0_cond73 d0 = 1#1), ∀ a, (k0_off113 d0) a + S1x32x512.size a ≤ S1x1024x1024.size a
  k0_off114_inb : ∀ d0 : Dev nD, ∀ (k0_h73 : k0_cond73 d0 = 1#1), ∀ a, (k0_off114 d0) a + S32x512.size a ≤ S1024x512.size a
  k0_off114_packedbf16 : ∀ d0 : Dev nD, ∀ (k0_h73 : k0_cond73 d0 = 1#1), (Rect.unit (s := S1024x512) (k0_off114 d0) S32x512.size (k0_off114_inb d0 k0_h73)).PackedRows (EltTy.packing .bf16)
  k0_off115_inb : ∀ d0 : Dev nD, ∀ (k0_h74 : k0_cond74 d0 = 1#1), ∀ a, (k0_off115 d0) a + S1x32x512.size a ≤ S1x1024x1024.size a
  k0_off116_inb : ∀ d0 : Dev nD, ∀ (k0_h74 : k0_cond74 d0 = 1#1), ∀ a, (k0_off116 d0) a + S32x512.size a ≤ S1024x512.size a
  k0_off116_packedbf16 : ∀ d0 : Dev nD, ∀ (k0_h74 : k0_cond74 d0 = 1#1), (Rect.unit (s := S1024x512) (k0_off116 d0) S32x512.size (k0_off116_inb d0 k0_h74)).PackedRows (EltTy.packing .bf16)
  k0_off117_inb : ∀ d0 : Dev nD, ∀ (k0_h75 : k0_cond75 d0 = 1#1), ∀ a, (k0_off117 d0) a + S1x32x512.size a ≤ S1x1024x1024.size a
  k0_off118_inb : ∀ d0 : Dev nD, ∀ (k0_h75 : k0_cond75 d0 = 1#1), ∀ a, (k0_off118 d0) a + S32x512.size a ≤ S1024x512.size a
  k0_off118_packedbf16 : ∀ d0 : Dev nD, ∀ (k0_h75 : k0_cond75 d0 = 1#1), (Rect.unit (s := S1024x512) (k0_off118 d0) S32x512.size (k0_off118_inb d0 k0_h75)).PackedRows (EltTy.packing .bf16)
  k0_off119_inb : ∀ d0 : Dev nD, ∀ (k0_h76 : k0_cond76 d0 = 1#1), ∀ a, (k0_off119 d0) a + S1x32x512.size a ≤ S1x1024x1024.size a
  k0_off120_inb : ∀ d0 : Dev nD, ∀ (k0_h76 : k0_cond76 d0 = 1#1), ∀ a, (k0_off120 d0) a + S32x512.size a ≤ S1024x512.size a
  k0_off120_packedbf16 : ∀ d0 : Dev nD, ∀ (k0_h76 : k0_cond76 d0 = 1#1), (Rect.unit (s := S1024x512) (k0_off120 d0) S32x512.size (k0_off120_inb d0 k0_h76)).PackedRows (EltTy.packing .bf16)
  k0_dev33_lt : ∀ d0 : Dev nD, (k0_dev33 d0) < nD
  k0_off121_inb : ∀ d0 : Dev nD, ∀ (k0_h77 : k0_cond77 d0 = 1#1), ∀ a, (k0_off121 d0) a + S1x32x512.size a ≤ S1x1024x1024.size a
  k0_off122_inb : ∀ d0 : Dev nD, ∀ (k0_h77 : k0_cond77 d0 = 1#1), ∀ a, (k0_off122 d0) a + S32x512.size a ≤ S1024x512.size a
  k0_off122_packedbf16 : ∀ d0 : Dev nD, ∀ (k0_h77 : k0_cond77 d0 = 1#1), (Rect.unit (s := S1024x512) (k0_off122 d0) S32x512.size (k0_off122_inb d0 k0_h77)).PackedRows (EltTy.packing .bf16)
  k0_off123_inb : ∀ d0 : Dev nD, ∀ (k0_h78 : k0_cond78 d0 = 1#1), ∀ a, (k0_off123 d0) a + S1x32x512.size a ≤ S1x1024x1024.size a
  k0_off124_inb : ∀ d0 : Dev nD, ∀ (k0_h78 : k0_cond78 d0 = 1#1), ∀ a, (k0_off124 d0) a + S32x512.size a ≤ S1024x512.size a
  k0_off124_packedbf16 : ∀ d0 : Dev nD, ∀ (k0_h78 : k0_cond78 d0 = 1#1), (Rect.unit (s := S1024x512) (k0_off124 d0) S32x512.size (k0_off124_inb d0 k0_h78)).PackedRows (EltTy.packing .bf16)
  k0_off125_inb : ∀ d0 : Dev nD, ∀ (k0_h79 : k0_cond79 d0 = 1#1), ∀ a, (k0_off125 d0) a + S1x32x512.size a ≤ S1x1024x1024.size a
  k0_off126_inb : ∀ d0 : Dev nD, ∀ (k0_h79 : k0_cond79 d0 = 1#1), ∀ a, (k0_off126 d0) a + S32x512.size a ≤ S1024x512.size a
  k0_off126_packedbf16 : ∀ d0 : Dev nD, ∀ (k0_h79 : k0_cond79 d0 = 1#1), (Rect.unit (s := S1024x512) (k0_off126 d0) S32x512.size (k0_off126_inb d0 k0_h79)).PackedRows (EltTy.packing .bf16)
  k0_off127_inb : ∀ d0 : Dev nD, ∀ (k0_h80 : k0_cond80 d0 = 1#1), ∀ a, (k0_off127 d0) a + S1x32x512.size a ≤ S1x1024x1024.size a
  k0_off128_inb : ∀ d0 : Dev nD, ∀ (k0_h80 : k0_cond80 d0 = 1#1), ∀ a, (k0_off128 d0) a + S32x512.size a ≤ S1024x512.size a
  k0_off128_packedbf16 : ∀ d0 : Dev nD, ∀ (k0_h80 : k0_cond80 d0 = 1#1), (Rect.unit (s := S1024x512) (k0_off128 d0) S32x512.size (k0_off128_inb d0 k0_h80)).PackedRows (EltTy.packing .bf16)
  k0_dev34_lt : ∀ d0 : Dev nD, (k0_dev34 d0) < nD
  k0_off129_inb : ∀ d0 : Dev nD, ∀ (k0_h81 : k0_cond81 d0 = 1#1), ∀ a, (k0_off129 d0) a + S1x32x512.size a ≤ S1x1024x1024.size a
  k0_off130_inb : ∀ d0 : Dev nD, ∀ (k0_h81 : k0_cond81 d0 = 1#1), ∀ a, (k0_off130 d0) a + S32x512.size a ≤ S1024x512.size a
  k0_off130_packedbf16 : ∀ d0 : Dev nD, ∀ (k0_h81 : k0_cond81 d0 = 1#1), (Rect.unit (s := S1024x512) (k0_off130 d0) S32x512.size (k0_off130_inb d0 k0_h81)).PackedRows (EltTy.packing .bf16)
  k0_off131_inb : ∀ d0 : Dev nD, ∀ (k0_h82 : k0_cond82 d0 = 1#1), ∀ a, (k0_off131 d0) a + S1x32x512.size a ≤ S1x1024x1024.size a
  k0_off132_inb : ∀ d0 : Dev nD, ∀ (k0_h82 : k0_cond82 d0 = 1#1), ∀ a, (k0_off132 d0) a + S32x512.size a ≤ S1024x512.size a
  k0_off132_packedbf16 : ∀ d0 : Dev nD, ∀ (k0_h82 : k0_cond82 d0 = 1#1), (Rect.unit (s := S1024x512) (k0_off132 d0) S32x512.size (k0_off132_inb d0 k0_h82)).PackedRows (EltTy.packing .bf16)
  k0_off133_inb : ∀ d0 : Dev nD, ∀ (k0_h83 : k0_cond83 d0 = 1#1), ∀ a, (k0_off133 d0) a + S1x32x512.size a ≤ S1x1024x1024.size a
  k0_off134_inb : ∀ d0 : Dev nD, ∀ (k0_h83 : k0_cond83 d0 = 1#1), ∀ a, (k0_off134 d0) a + S32x512.size a ≤ S1024x512.size a
  k0_off134_packedbf16 : ∀ d0 : Dev nD, ∀ (k0_h83 : k0_cond83 d0 = 1#1), (Rect.unit (s := S1024x512) (k0_off134 d0) S32x512.size (k0_off134_inb d0 k0_h83)).PackedRows (EltTy.packing .bf16)
  k0_off135_inb : ∀ d0 : Dev nD, ∀ (k0_h84 : k0_cond84 d0 = 1#1), ∀ a, (k0_off135 d0) a + S1x32x512.size a ≤ S1x1024x1024.size a
  k0_off136_inb : ∀ d0 : Dev nD, ∀ (k0_h84 : k0_cond84 d0 = 1#1), ∀ a, (k0_off136 d0) a + S32x512.size a ≤ S1024x512.size a
  k0_off136_packedbf16 : ∀ d0 : Dev nD, ∀ (k0_h84 : k0_cond84 d0 = 1#1), (Rect.unit (s := S1024x512) (k0_off136 d0) S32x512.size (k0_off136_inb d0 k0_h84)).PackedRows (EltTy.packing .bf16)
  k0_off137_inb : ∀ d0 : Dev nD, ∀ (k0_h85 : k0_cond85 d0 = 1#1), ∀ a, (k0_off137 d0) a + S1x32x512.size a ≤ S1x1024x1024.size a
  k0_off138_inb : ∀ d0 : Dev nD, ∀ (k0_h85 : k0_cond85 d0 = 1#1), ∀ a, (k0_off138 d0) a + S32x512.size a ≤ S1024x512.size a
  k0_off138_packedbf16 : ∀ d0 : Dev nD, ∀ (k0_h85 : k0_cond85 d0 = 1#1), (Rect.unit (s := S1024x512) (k0_off138 d0) S32x512.size (k0_off138_inb d0 k0_h85)).PackedRows (EltTy.packing .bf16)
  k0_off139_inb : ∀ d0 : Dev nD, ∀ (k0_h86 : k0_cond86 d0 = 1#1), ∀ a, (k0_off139 d0) a + S1x32x512.size a ≤ S1x1024x1024.size a
  k0_off140_inb : ∀ d0 : Dev nD, ∀ (k0_h86 : k0_cond86 d0 = 1#1), ∀ a, (k0_off140 d0) a + S32x512.size a ≤ S1024x512.size a
  k0_off140_packedbf16 : ∀ d0 : Dev nD, ∀ (k0_h86 : k0_cond86 d0 = 1#1), (Rect.unit (s := S1024x512) (k0_off140 d0) S32x512.size (k0_off140_inb d0 k0_h86)).PackedRows (EltTy.packing .bf16)
  k0_off141_inb : ∀ d0 : Dev nD, ∀ (k0_h87 : k0_cond87 d0 = 1#1), ∀ a, (k0_off141 d0) a + S1x32x512.size a ≤ S1x1024x1024.size a
  k0_off142_inb : ∀ d0 : Dev nD, ∀ (k0_h87 : k0_cond87 d0 = 1#1), ∀ a, (k0_off142 d0) a + S32x512.size a ≤ S1024x512.size a
  k0_off142_packedbf16 : ∀ d0 : Dev nD, ∀ (k0_h87 : k0_cond87 d0 = 1#1), (Rect.unit (s := S1024x512) (k0_off142 d0) S32x512.size (k0_off142_inb d0 k0_h87)).PackedRows (EltTy.packing .bf16)
  k0_off143_inb : ∀ d0 : Dev nD, ∀ (k0_h88 : k0_cond88 d0 = 1#1), ∀ a, (k0_off143 d0) a + S1x32x512.size a ≤ S1x1024x1024.size a
  k0_off144_inb : ∀ d0 : Dev nD, ∀ (k0_h88 : k0_cond88 d0 = 1#1), ∀ a, (k0_off144 d0) a + S32x512.size a ≤ S1024x512.size a
  k0_off144_packedbf16 : ∀ d0 : Dev nD, ∀ (k0_h88 : k0_cond88 d0 = 1#1), (Rect.unit (s := S1024x512) (k0_off144 d0) S32x512.size (k0_off144_inb d0 k0_h88)).PackedRows (EltTy.packing .bf16)
  k0_off145_inb : ∀ d0 : Dev nD, ∀ (k0_h89 : k0_cond89 d0 = 1#1), ∀ a, (k0_off145 d0) a + S1x32x512.size a ≤ S1x1024x1024.size a
  k0_off146_inb : ∀ d0 : Dev nD, ∀ (k0_h89 : k0_cond89 d0 = 1#1), ∀ a, (k0_off146 d0) a + S32x512.size a ≤ S1024x512.size a
  k0_off146_packedbf16 : ∀ d0 : Dev nD, ∀ (k0_h89 : k0_cond89 d0 = 1#1), (Rect.unit (s := S1024x512) (k0_off146 d0) S32x512.size (k0_off146_inb d0 k0_h89)).PackedRows (EltTy.packing .bf16)
  k0_off147_inb : ∀ d0 : Dev nD, ∀ (k0_h90 : k0_cond90 d0 = 1#1), ∀ a, (k0_off147 d0) a + S1x32x512.size a ≤ S1x1024x1024.size a
  k0_off148_inb : ∀ d0 : Dev nD, ∀ (k0_h90 : k0_cond90 d0 = 1#1), ∀ a, (k0_off148 d0) a + S32x512.size a ≤ S1024x512.size a
  k0_off148_packedbf16 : ∀ d0 : Dev nD, ∀ (k0_h90 : k0_cond90 d0 = 1#1), (Rect.unit (s := S1024x512) (k0_off148 d0) S32x512.size (k0_off148_inb d0 k0_h90)).PackedRows (EltTy.packing .bf16)
  k0_off149_inb : ∀ d0 : Dev nD, ∀ (k0_h91 : k0_cond91 d0 = 1#1), ∀ a, (k0_off149 d0) a + S1x32x512.size a ≤ S1x1024x1024.size a
  k0_off150_inb : ∀ d0 : Dev nD, ∀ (k0_h91 : k0_cond91 d0 = 1#1), ∀ a, (k0_off150 d0) a + S32x512.size a ≤ S1024x512.size a
  k0_off150_packedbf16 : ∀ d0 : Dev nD, ∀ (k0_h91 : k0_cond91 d0 = 1#1), (Rect.unit (s := S1024x512) (k0_off150 d0) S32x512.size (k0_off150_inb d0 k0_h91)).PackedRows (EltTy.packing .bf16)
  k0_off151_inb : ∀ d0 : Dev nD, ∀ (k0_h92 : k0_cond92 d0 = 1#1), ∀ a, (k0_off151 d0) a + S1x32x512.size a ≤ S1x1024x1024.size a
  k0_off152_inb : ∀ d0 : Dev nD, ∀ (k0_h92 : k0_cond92 d0 = 1#1), ∀ a, (k0_off152 d0) a + S32x512.size a ≤ S1024x512.size a
  k0_off152_packedbf16 : ∀ d0 : Dev nD, ∀ (k0_h92 : k0_cond92 d0 = 1#1), (Rect.unit (s := S1024x512) (k0_off152 d0) S32x512.size (k0_off152_inb d0 k0_h92)).PackedRows (EltTy.packing .bf16)
  k0_off153_inb : ∀ d0 : Dev nD, ∀ (k0_h93 : k0_cond93 d0 = 1#1), ∀ a, (k0_off153 d0) a + S1x32x512.size a ≤ S1x1024x1024.size a
  k0_off154_inb : ∀ d0 : Dev nD, ∀ (k0_h93 : k0_cond93 d0 = 1#1), ∀ a, (k0_off154 d0) a + S32x512.size a ≤ S1024x512.size a
  k0_off154_packedbf16 : ∀ d0 : Dev nD, ∀ (k0_h93 : k0_cond93 d0 = 1#1), (Rect.unit (s := S1024x512) (k0_off154 d0) S32x512.size (k0_off154_inb d0 k0_h93)).PackedRows (EltTy.packing .bf16)
  k0_off155_inb : ∀ d0 : Dev nD, ∀ (k0_h94 : k0_cond94 d0 = 1#1), ∀ a, (k0_off155 d0) a + S1x32x512.size a ≤ S1x1024x1024.size a
  k0_off156_inb : ∀ d0 : Dev nD, ∀ (k0_h94 : k0_cond94 d0 = 1#1), ∀ a, (k0_off156 d0) a + S32x512.size a ≤ S1024x512.size a
  k0_off156_packedbf16 : ∀ d0 : Dev nD, ∀ (k0_h94 : k0_cond94 d0 = 1#1), (Rect.unit (s := S1024x512) (k0_off156 d0) S32x512.size (k0_off156_inb d0 k0_h94)).PackedRows (EltTy.packing .bf16)
  k0_off157_inb : ∀ d0 : Dev nD, ∀ (k0_h95 : k0_cond95 d0 = 1#1), ∀ a, (k0_off157 d0) a + S1x32x512.size a ≤ S1x1024x1024.size a
  k0_off158_inb : ∀ d0 : Dev nD, ∀ (k0_h95 : k0_cond95 d0 = 1#1), ∀ a, (k0_off158 d0) a + S32x512.size a ≤ S1024x512.size a
  k0_off158_packedbf16 : ∀ d0 : Dev nD, ∀ (k0_h95 : k0_cond95 d0 = 1#1), (Rect.unit (s := S1024x512) (k0_off158 d0) S32x512.size (k0_off158_inb d0 k0_h95)).PackedRows (EltTy.packing .bf16)
  k0_off159_inb : ∀ d0 : Dev nD, ∀ (k0_h96 : k0_cond96 d0 = 1#1), ∀ a, (k0_off159 d0) a + S1x32x512.size a ≤ S1x1024x1024.size a
  k0_off160_inb : ∀ d0 : Dev nD, ∀ (k0_h96 : k0_cond96 d0 = 1#1), ∀ a, (k0_off160 d0) a + S32x512.size a ≤ S1024x512.size a
  k0_off160_packedbf16 : ∀ d0 : Dev nD, ∀ (k0_h96 : k0_cond96 d0 = 1#1), (Rect.unit (s := S1024x512) (k0_off160 d0) S32x512.size (k0_off160_inb d0 k0_h96)).PackedRows (EltTy.packing .bf16)
  hstage0_0 : ∀ j, (stage0_0 j).IsWhole
  hstage0_1 : ∀ j, (stage0_1 j).IsWhole

variable [Facts₀]

abbrev cc0_scratch3 : DmaSems sig S16 := SemArray.consecutive 2 S16 hcc0_scratch3
abbrev cc0_scratch4 : DmaSems sig S16 := SemArray.consecutive 18 S16 hcc0_scratch4
abbrev cc0_scratch5 : DmaSems sig S16 := SemArray.consecutive 34 S16 hcc0_scratch5
abbrev cc0_scratch6 : DmaSems sig S16 := SemArray.consecutive 50 S16 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel
  bitsLt_bf16_f32 : FTy.bits .bf16 < FTy.bits .f32

variable [Facts₀]

class Facts : Prop extends Facts₀ where

variable [Facts]
-- ==== Proof.Cells.lean ====
import proofs.«901032_g7700000000001033_dist_rs_v7x_xyz2x2x4_x_m1024_n512_bf16_1_alg».proof.Proof.Gen.KernelIdeal
import proofs.«901032_g7700000000001033_dist_rs_v7x_xyz2x2x4_x_m1024_n512_bf16_1_alg».proof.Proof.Gen.KernelIdeal.Skeleton
import proofs.«901032_g7700000000001033_dist_rs_v7x_xyz2x2x4_x_m1024_n512_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

abbrev EP : Emb (UR sig nD τ) (MT nD τ sig Unit (Elt F) ℕ UU ℕ) := embL
abbrev ER : Emb UB (MT nD τ sig Unit (Elt F) ℕ UU ℕ) := embR

/-- The four families of sixteen transfer cells: send and receive across x, send and receive along z. -/
inductive Trk | sx | rx | sz | rz
  deriving DecidableEq

instance : Fintype Trk := ⟨{.sx, .rx, .sz, .rz}, fun t => by cases t <;> simp⟩

abbrev Trk.arr : Trk → DmaSems sig S16
  | .sx => cc0_scratch3 | .rx => cc0_scratch4 | .sz => cc0_scratch5 | .rz => cc0_scratch6

theorem inb16 (k : Fin 16) : ∀ a, (![k.val] : Fin 1 → Nat) a + S1.size a ≤ S16.size a := by
  intro a; fin_cases a; have := k.isLt; simp [S1, S16, Shape.size]; omega

abbrev dsem (t : Trk) (k : Fin 16) : DmaSem sig :=
  ((t.arr.slice (Rect.unit (s := S16) ![k.val] S1.size (inb16 k))).squeeze S_ squeezes_S1_S_).sem

abbrev barS : Sem sig := (SemArray.scalar (sig.barrier 0 rfl) : Sems sig S_).sem

abbrev barCell (c : Dev nD) : GSem nD τ sig := ((c : Thread nD τ), .reg barS)
abbrev dCell (t : Trk) (c : Dev nD) (k : Fin 16) : GSem nD τ sig := ((c : Thread nD τ), .dma (dsem t k))

example : ((cc0_scratch3.slice (Rect.unit (s := S16) ![1] S1.size inb_S16_S1_1)).squeeze S_ squeezes_S1_S_).sem = dsem .sx 1 := rfl

theorem dsem_val (t : Trk) (k : Fin 16) : (dsem t k).val = (match t with | .sx => 2 | .rx => 18 | .sz => 34 | .rz => 50) + k.val := by
  revert k; cases t <;> decide

end Cert.KernelIdeal.Hand

end
-- ==== Proof.Mesh.lean ====
import proofs.«901032_g7700000000001033_dist_rs_v7x_xyz2x2x4_x_m1024_n512_bf16_1_alg».proof.Proof.Gen.KernelIdeal

namespace Cert.KernelIdeal.Hand

open Cert.KernelIdeal Idealize.ShloMosaic

/-- The device across the x axis: the first mesh coordinate flipped. -/
def px (c : Dev nD) : Dev nD := ⟨(c.val + 8) % 16, Nat.mod_lt _ (by decide)⟩

/-- The neighbour along z: the parity of the last mesh coordinate flipped. -/
def pz (c : Dev nD) : Dev nD := ⟨c.val + 1 - 2 * (c.val % 2), by have h : c.val < 16 := c.isLt; show _ < 16; omega⟩

/-- The x coordinate: which block of the input the device holds, and which column half it keeps. -/
def mxOf (c : Dev nD) : Nat := c.val / 8

/-- The row half whose partial sums reach the device directly from across x; the other half is relayed along z. -/
def sOf (c : Dev nD) : Nat := (c.val % 4) % 2

theorem px_px (c : Dev nD) : px (px c) = c := by revert c; decide
theorem pz_pz (c : Dev nD) : pz (pz c) = c := by revert c; decide
theorem mxOf_px (c : Dev nD) : mxOf (px c) = 1 - mxOf c := by revert c; decide
theorem mxOf_pz (c : Dev nD) : mxOf (pz c) = mxOf c := by revert c; decide
theorem sOf_px (c : Dev nD) : sOf (px c) = sOf c := by revert c; decide
theorem sOf_pz (c : Dev nD) : sOf (pz c) = 1 - sOf c := by revert c; decide
theorem mxOf_lt (c : Dev nD) : mxOf c < 2 := by revert c; decide
theorem sOf_lt (c : Dev nD) : sOf c < 2 := by revert c; decide
theorem mx_cases (c : Dev nD) : mxOf c = 0 ∨ mxOf c = 1 := by revert c; decide

def pxEquiv : Dev nD ≃ Dev nD := ⟨px, px, px_px, px_px⟩
def pzEquiv : Dev nD ≃ Dev nD := ⟨pz, pz, pz_pz, pz_pz⟩

end Cert.KernelIdeal.Hand
-- ==== Proof.MeshDev.lean ====
import proofs.«901032_g7700000000001033_dist_rs_v7x_xyz2x2x4_x_m1024_n512_bf16_1_alg».proof.Proof.Mesh

set_option Elab.async false

namespace Cert.KernelIdeal.Hand

open Cert.KernelIdeal Cert.KernelIdeal.Gen Idealize.ShloMosaic
theorem dev1_val : ∀ c : Dev nD, k0_dev1 c = (px c).val := by decide +kernel
theorem dev1_eq' (c : Dev nD) (h : k0_dev1 c < nD) : (⟨k0_dev1 c, h⟩ : Dev nD) = px c := Fin.ext (dev1_val c)
theorem dev1_eq (c : Dev nD) : (⟨k0_dev1 c, k0_dev1_lt c⟩ : Dev nD) = px c := dev1_eq' c _
theorem dev2_val : ∀ c : Dev nD, k0_dev2 c = (pz c).val := by decide +kernel
theorem dev2_eq' (c : Dev nD) (h : k0_dev2 c < nD) : (⟨k0_dev2 c, h⟩ : Dev nD) = pz c := Fin.ext (dev2_val c)
theorem dev2_eq (c : Dev nD) : (⟨k0_dev2 c, k0_dev2_lt c⟩ : Dev nD) = pz c := dev2_eq' c _
theorem dev3_val : ∀ c : Dev nD, k0_dev3 c = (px c).val := by decide +kernel
theorem dev3_eq' (c : Dev nD) (h : k0_dev3 c < nD) : (⟨k0_dev3 c, h⟩ : Dev nD) = px c := Fin.ext (dev3_val c)
theorem dev3_eq (c : Dev nD) : (⟨k0_dev3 c, k0_dev3_lt c⟩ : Dev nD) = px c := dev3_eq' c _
theorem dev4_val : ∀ c : Dev nD, k0_dev4 c = (px c).val := by decide +kernel
theorem dev4_eq' (c : Dev nD) (h : k0_dev4 c < nD) : (⟨k0_dev4 c, h⟩ : Dev nD) = px c := Fin.ext (dev4_val c)
theorem dev4_eq (c : Dev nD) : (⟨k0_dev4 c, k0_dev4_lt c⟩ : Dev nD) = px c := dev4_eq' c _
theorem dev5_val : ∀ c : Dev nD, k0_dev5 c = (px c).val := by decide +kernel
theorem dev5_eq' (c : Dev nD) (h : k0_dev5 c < nD) : (⟨k0_dev5 c, h⟩ : Dev nD) = px c := Fin.ext (dev5_val c)
theorem dev5_eq (c : Dev nD) : (⟨k0_dev5 c, k0_dev5_lt c⟩ : Dev nD) = px c := dev5_eq' c _
theorem dev6_val : ∀ c : Dev nD, k0_dev6 c = (px c).val := by decide +kernel
theorem dev6_eq' (c : Dev nD) (h : k0_dev6 c < nD) : (⟨k0_dev6 c, h⟩ : Dev nD) = px c := Fin.ext (dev6_val c)
theorem dev6_eq (c : Dev nD) : (⟨k0_dev6 c, k0_dev6_lt c⟩ : Dev nD) = px c := dev6_eq' c _
theorem dev7_val : ∀ c : Dev nD, k0_dev7 c = (px c).val := by decide +kernel
theorem dev7_eq' (c : Dev nD) (h : k0_dev7 c < nD) : (⟨k0_dev7 c, h⟩ : Dev nD) = px c := Fin.ext (dev7_val c)
theorem dev7_eq (c : Dev nD) : (⟨k0_dev7 c, k0_dev7_lt c⟩ : Dev nD) = px c := dev7_eq' c _
theorem dev8_val : ∀ c : Dev nD, k0_dev8 c = (px c).val := by decide +kernel
theorem dev8_eq' (c : Dev nD) (h : k0_dev8 c < nD) : (⟨k0_dev8 c, h⟩ : Dev nD) = px c := Fin.ext (dev8_val c)
theorem dev8_eq (c : Dev nD) : (⟨k0_dev8 c, k0_dev8_lt c⟩ : Dev nD) = px c := dev8_eq' c _
theorem dev9_val : ∀ c : Dev nD, k0_dev9 c = (px c).val := by decide +kernel
theorem dev9_eq' (c : Dev nD) (h : k0_dev9 c < nD) : (⟨k0_dev9 c, h⟩ : Dev nD) = px c := Fin.ext (dev9_val c)
theorem dev9_eq (c : Dev nD) : (⟨k0_dev9 c, k0_dev9_lt c⟩ : Dev nD) = px c := dev9_eq' c _
theorem dev10_val : ∀ c : Dev nD, k0_dev10 c = (px c).val := by decide +kernel
theorem dev10_eq' (c : Dev nD) (h : k0_dev10 c < nD) : (⟨k0_dev10 c, h⟩ : Dev nD) = px c := Fin.ext (dev10_val c)
theorem dev10_eq (c : Dev nD) : (⟨k0_dev10 c, k0_dev10_lt c⟩ : Dev nD) = px c := dev10_eq' c _
theorem dev11_val : ∀ c : Dev nD, k0_dev11 c = (px c).val := by decide +kernel
theorem dev11_eq' (c : Dev nD) (h : k0_dev11 c < nD) : (⟨k0_dev11 c, h⟩ : Dev nD) = px c := Fin.ext (dev11_val c)
theorem dev11_eq (c : Dev nD) : (⟨k0_dev11 c, k0_dev11_lt c⟩ : Dev nD) = px c := dev11_eq' c _
theorem dev12_val : ∀ c : Dev nD, k0_dev12 c = (px c).val := by decide +kernel
theorem dev12_eq' (c : Dev nD) (h : k0_dev12 c < nD) : (⟨k0_dev12 c, h⟩ : Dev nD) = px c := Fin.ext (dev12_val c)
theorem dev12_eq (c : Dev nD) : (⟨k0_dev12 c, k0_dev12_lt c⟩ : Dev nD) = px c := dev12_eq' c _
theorem dev13_val : ∀ c : Dev nD, k0_dev13 c = (px c).val := by decide +kernel
theorem dev13_eq' (c : Dev nD) (h : k0_dev13 c < nD) : (⟨k0_dev13 c, h⟩ : Dev nD) = px c := Fin.ext (dev13_val c)
theorem dev13_eq (c : Dev nD) : (⟨k0_dev13 c, k0_dev13_lt c⟩ : Dev nD) = px c := dev13_eq' c _
theorem dev14_val : ∀ c : Dev nD, k0_dev14 c = (px c).val := by decide +kernel
theorem dev14_eq' (c : Dev nD) (h : k0_dev14 c < nD) : (⟨k0_dev14 c, h⟩ : Dev nD) = px c := Fin.ext (dev14_val c)
theorem dev14_eq (c : Dev nD) : (⟨k0_dev14 c, k0_dev14_lt c⟩ : Dev nD) = px c := dev14_eq' c _
theorem dev15_val : ∀ c : Dev nD, k0_dev15 c = (px c).val := by decide +kernel
theorem dev15_eq' (c : Dev nD) (h : k0_dev15 c < nD) : (⟨k0_dev15 c, h⟩ : Dev nD) = px c := Fin.ext (dev15_val c)
theorem dev15_eq (c : Dev nD) : (⟨k0_dev15 c, k0_dev15_lt c⟩ : Dev nD) = px c := dev15_eq' c _
theorem dev16_val : ∀ c : Dev nD, k0_dev16 c = (px c).val := by decide +kernel
theorem dev16_eq' (c : Dev nD) (h : k0_dev16 c < nD) : (⟨k0_dev16 c, h⟩ : Dev nD) = px c := Fin.ext (dev16_val c)
theorem dev16_eq (c : Dev nD) : (⟨k0_dev16 c, k0_dev16_lt c⟩ : Dev nD) = px c := dev16_eq' c _
theorem dev17_val : ∀ c : Dev nD, k0_dev17 c = (px c).val := by decide +kernel
theorem dev17_eq' (c : Dev nD) (h : k0_dev17 c < nD) : (⟨k0_dev17 c, h⟩ : Dev nD) = px c := Fin.ext (dev17_val c)
theorem dev17_eq (c : Dev nD) : (⟨k0_dev17 c, k0_dev17_lt c⟩ : Dev nD) = px c := dev17_eq' c _
theorem dev18_val : ∀ c : Dev nD, k0_dev18 c = (px c).val := by decide +kernel
theorem dev18_eq' (c : Dev nD) (h : k0_dev18 c < nD) : (⟨k0_dev18 c, h⟩ : Dev nD) = px c := Fin.ext (dev18_val c)
theorem dev18_eq (c : Dev nD) : (⟨k0_dev18 c, k0_dev18_lt c⟩ : Dev nD) = px c := dev18_eq' c _
theorem dev19_val : ∀ c : Dev nD, k0_dev19 c = (pz c).val := by decide +kernel
theorem dev19_eq' (c : Dev nD) (h : k0_dev19 c < nD) : (⟨k0_dev19 c, h⟩ : Dev nD) = pz c := Fin.ext (dev19_val c)
theorem dev19_eq (c : Dev nD) : (⟨k0_dev19 c, k0_dev19_lt c⟩ : Dev nD) = pz c := dev19_eq' c _
theorem dev20_val : ∀ c : Dev nD, k0_dev20 c = (pz c).val := by decide +kernel
theorem dev20_eq' (c : Dev nD) (h : k0_dev20 c < nD) : (⟨k0_dev20 c, h⟩ : Dev nD) = pz c := Fin.ext (dev20_val c)
theorem dev20_eq (c : Dev nD) : (⟨k0_dev20 c, k0_dev20_lt c⟩ : Dev nD) = pz c := dev20_eq' c _
theorem dev21_val : ∀ c : Dev nD, k0_dev21 c = (pz c).val := by decide +kernel
theorem dev21_eq' (c : Dev nD) (h : k0_dev21 c < nD) : (⟨k0_dev21 c, h⟩ : Dev nD) = pz c := Fin.ext (dev21_val c)
theorem dev21_eq (c : Dev nD) : (⟨k0_dev21 c, k0_dev21_lt c⟩ : Dev nD) = pz c := dev21_eq' c _
theorem dev22_val : ∀ c : Dev nD, k0_dev22 c = (pz c).val := by decide +kernel
theorem dev22_eq' (c : Dev nD) (h : k0_dev22 c < nD) : (⟨k0_dev22 c, h⟩ : Dev nD) = pz c := Fin.ext (dev22_val c)
theorem dev22_eq (c : Dev nD) : (⟨k0_dev22 c, k0_dev22_lt c⟩ : Dev nD) = pz c := dev22_eq' c _
theorem dev23_val : ∀ c : Dev nD, k0_dev23 c = (pz c).val := by decide +kernel
theorem dev23_eq' (c : Dev nD) (h : k0_dev23 c < nD) : (⟨k0_dev23 c, h⟩ : Dev nD) = pz c := Fin.ext (dev23_val c)
theorem dev23_eq (c : Dev nD) : (⟨k0_dev23 c, k0_dev23_lt c⟩ : Dev nD) = pz c := dev23_eq' c _
theorem dev24_val : ∀ c : Dev nD, k0_dev24 c = (pz c).val := by decide +kernel
theorem dev24_eq' (c : Dev nD) (h : k0_dev24 c < nD) : (⟨k0_dev24 c, h⟩ : Dev nD) = pz c := Fin.ext (dev24_val c)
theorem dev24_eq (c : Dev nD) : (⟨k0_dev24 c, k0_dev24_lt c⟩ : Dev nD) = pz c := dev24_eq' c _
theorem dev25_val : ∀ c : Dev nD, k0_dev25 c = (pz c).val := by decide +kernel
theorem dev25_eq' (c : Dev nD) (h : k0_dev25 c < nD) : (⟨k0_dev25 c, h⟩ : Dev nD) = pz c := Fin.ext (dev25_val c)
theorem dev25_eq (c : Dev nD) : (⟨k0_dev25 c, k0_dev25_lt c⟩ : Dev nD) = pz c := dev25_eq' c _
theorem dev26_val : ∀ c : Dev nD, k0_dev26 c = (pz c).val := by decide +kernel
theorem dev26_eq' (c : Dev nD) (h : k0_dev26 c < nD) : (⟨k0_dev26 c, h⟩ : Dev nD) = pz c := Fin.ext (dev26_val c)
theorem dev26_eq (c : Dev nD) : (⟨k0_dev26 c, k0_dev26_lt c⟩ : Dev nD) = pz c := dev26_eq' c _
theorem dev27_val : ∀ c : Dev nD, k0_dev27 c = (pz c).val := by decide +kernel
theorem dev27_eq' (c : Dev nD) (h : k0_dev27 c < nD) : (⟨k0_dev27 c, h⟩ : Dev nD) = pz c := Fin.ext (dev27_val c)
theorem dev27_eq (c : Dev nD) : (⟨k0_dev27 c, k0_dev27_lt c⟩ : Dev nD) = pz c := dev27_eq' c _
theorem dev28_val : ∀ c : Dev nD, k0_dev28 c = (pz c).val := by decide +kernel
theorem dev28_eq' (c : Dev nD) (h : k0_dev28 c < nD) : (⟨k0_dev28 c, h⟩ : Dev nD) = pz c := Fin.ext (dev28_val c)
theorem dev28_eq (c : Dev nD) : (⟨k0_dev28 c, k0_dev28_lt c⟩ : Dev nD) = pz c := dev28_eq' c _
theorem dev29_val : ∀ c : Dev nD, k0_dev29 c = (pz c).val := by decide +kernel
theorem dev29_eq' (c : Dev nD) (h : k0_dev29 c < nD) : (⟨k0_dev29 c, h⟩ : Dev nD) = pz c := Fin.ext (dev29_val c)
theorem dev29_eq (c : Dev nD) : (⟨k0_dev29 c, k0_dev29_lt c⟩ : Dev nD) = pz c := dev29_eq' c _
theorem dev30_val : ∀ c : Dev nD, k0_dev30 c = (pz c).val := by decide +kernel
theorem dev30_eq' (c : Dev nD) (h : k0_dev30 c < nD) : (⟨k0_dev30 c, h⟩ : Dev nD) = pz c := Fin.ext (dev30_val c)
theorem dev30_eq (c : Dev nD) : (⟨k0_dev30 c, k0_dev30_lt c⟩ : Dev nD) = pz c := dev30_eq' c _
theorem dev31_val : ∀ c : Dev nD, k0_dev31 c = (pz c).val := by decide +kernel
theorem dev31_eq' (c : Dev nD) (h : k0_dev31 c < nD) : (⟨k0_dev31 c, h⟩ : Dev nD) = pz c := Fin.ext (dev31_val c)
theorem dev31_eq (c : Dev nD) : (⟨k0_dev31 c, k0_dev31_lt c⟩ : Dev nD) = pz c := dev31_eq' c _
theorem dev32_val : ∀ c : Dev nD, k0_dev32 c = (pz c).val := by decide +kernel
theorem dev32_eq' (c : Dev nD) (h : k0_dev32 c < nD) : (⟨k0_dev32 c, h⟩ : Dev nD) = pz c := Fin.ext (dev32_val c)
theorem dev32_eq (c : Dev nD) : (⟨k0_dev32 c, k0_dev32_lt c⟩ : Dev nD) = pz c := dev32_eq' c _
theorem dev33_val : ∀ c : Dev nD, k0_dev33 c = (pz c).val := by decide +kernel
theorem dev33_eq' (c : Dev nD) (h : k0_dev33 c < nD) : (⟨k0_dev33 c, h⟩ : Dev nD) = pz c := Fin.ext (dev33_val c)
theorem dev33_eq (c : Dev nD) : (⟨k0_dev33 c, k0_dev33_lt c⟩ : Dev nD) = pz c := dev33_eq' c _
theorem dev34_val : ∀ c : Dev nD, k0_dev34 c = (pz c).val := by decide +kernel
theorem dev34_eq' (c : Dev nD) (h : k0_dev34 c < nD) : (⟨k0_dev34 c, h⟩ : Dev nD) = pz c := Fin.ext (dev34_val c)
theorem dev34_eq (c : Dev nD) : (⟨k0_dev34 c, k0_dev34_lt c⟩ : Dev nD) = pz c := dev34_eq' c _

end Cert.KernelIdeal.Hand
-- ==== Proof.CellDecode.lean ====
import proofs.«901032_g7700000000001033_dist_rs_v7x_xyz2x2x4_x_m1024_n512_bf16_1_alg».proof.Proof.Cells

namespace Cert.KernelIdeal.Hand

open Cert.KernelIdeal Cert.KernelIdeal.Gen
open Idealize.ShloMosaic
open Idealize.ShloMosaic.TcCoe

def trkOfVal (n : Nat) : Option (Trk × Fin 16) :=
  if h : 2 ≤ n ∧ n < 18 then some (.sx, ⟨n - 2, by omega⟩)
  else if h : 18 ≤ n ∧ n < 34 then some (.rx, ⟨n - 18, by omega⟩)
  else if h : 34 ≤ n ∧ n < 50 then some (.sz, ⟨n - 34, by omega⟩)
  else if h : 50 ≤ n ∧ n < 66 then some (.rz, ⟨n - 50, by omega⟩)
  else none

def cellTrk : SemLoc sig → Option (Trk × Fin 16)
  | .reg _ => none
  | .dma s => trkOfVal s.val

theorem cellTrk_dsem (t : Trk) (k : Fin 16) : cellTrk (.dma (dsem t k)) = some (t, k) := by
  revert k; cases t <;> decide +kernel

theorem dma_ne_reg (t : Trk) (k : Fin 16) : (SemLoc.dma (dsem t k) : SemLoc sig) ≠ .reg barS :=
  fun h => nomatch h

end Cert.KernelIdeal.Hand
-- ==== Proof.Slices.lean ====
import proofs.«901032_g7700000000001033_dist_rs_v7x_xyz2x2x4_x_m1024_n512_bf16_1_alg».proof.Proof.Gen.KernelIdeal
import Idealize.ShloMosaic.Rules.PointsTo
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

theorem rk_inb (k : Fin 16) : ∀ a, (![32 * k.val, 0] : Fin 2 → Nat) a + S32x512.size a ≤ S512x512.size a :=
  Rect.inb₂ (by have := k.isLt; show 32 * k.val + 32 ≤ 512; omega) (by show 0 + 512 ≤ 512; omega)

abbrev rk (k : Fin 16) : Rect S512x512 := Rect.unit (s := S512x512) ![32 * k.val, 0] S32x512.size (rk_inb k)

def sset (k : Fin 16) : Finset S512x512.Idx := (rk k).set

theorem mem_sset {k : Fin 16} {i : S512x512.Idx} :
    i ∈ sset k ↔ 32 * k.val ≤ (i 0).val ∧ (i 0).val < 32 * k.val + 32 := by
  unfold sset
  rw [Rect.mem_set_unit]
  constructor
  · intro h; exact h 0
  · intro h a
    have h1 : (i 1).val < 512 := (i 1).isLt
    fin_cases a
    · exact h
    · exact ⟨Nat.zero_le _, by show (i 1).val < 0 + 512; omega⟩

def bandOf (i : S512x512.Idx) : Fin 16 := ⟨(i 0).val / 32, by have h : (i 0).val < 512 := (i 0).isLt; omega⟩

theorem bandOf_val (i : S512x512.Idx) : (bandOf i).val = (i 0).val / 32 := rfl

theorem mem_sset_bandOf (i : S512x512.Idx) : i ∈ sset (bandOf i) := by
  rw [mem_sset, bandOf_val]; omega

theorem mem_sset_iff_bandOf {k : Fin 16} {i : S512x512.Idx} : i ∈ sset k ↔ bandOf i = k := by
  rw [mem_sset, Fin.ext_iff, bandOf_val]; have := k.isLt; omega

theorem sset_disjoint {k k' : Fin 16} (h : k ≠ k') : Disjoint (sset k) (sset k') := by
  rw [Finset.disjoint_left]
  intro i hi hi'
  rw [mem_sset_iff_bandOf] at hi hi'
  exact h (hi.symm.trans hi')

theorem sset_pairwise : ∀ k ∈ (Finset.univ : Finset (Fin 16)), ∀ k' ∈ (Finset.univ : Finset (Fin 16)), k ≠ k' → Disjoint (sset k) (sset k') :=
  fun k _ k' _ h => sset_disjoint h

theorem sset_cover : (Finset.univ : Finset (Fin 16)).biUnion sset = (Finset.univ : Finset S512x512.Idx) := by
  ext i
  simp only [Finset.mem_biUnion, Finset.mem_univ, true_and, iff_true]
  exact ⟨bandOf i, mem_sset_bandOf i⟩

theorem rk_emb_row (k : Fin 16) (x : (rk k).shape.Idx) : ((rk k).emb x 0).val = 32 * k.val + (x 0).val := by
  rw [Rect.emb_apply]; show 32 * k.val + 1 * (x 0).val = _; omega

theorem rk_emb_col (k : Fin 16) (x : (rk k).shape.Idx) : ((rk k).emb x 1).val = (x 1).val := by
  rw [Rect.emb_apply]; show 0 + 1 * (x 1).val = _; omega

theorem rk_emb_mem (k : Fin 16) (x : (rk k).shape.Idx) : (rk k).emb x ∈ sset k := by
  unfold sset; rw [← Rect.map_emb_univ]; exact Finset.mem_map_of_mem _ (Finset.mem_univ x)

def locOf (i : S512x512.Idx) : S32x512.Idx := fun a =>
  match a with
  | ⟨0, _⟩ => ⟨(i 0).val % 32, Nat.mod_lt _ (by decide)⟩
  | ⟨1, _⟩ => ⟨(i 1).val, (i 1).isLt⟩

theorem rk_emb_locOf {k : Fin 16} {i : S512x512.Idx} (hi : i ∈ sset k) : (rk k).emb (locOf i) = i := by
  rw [mem_sset] at hi
  have h : ∀ a, ((rk k).emb (locOf i) a).val = (i a).val :=
    Fin.forall_fin_two.mpr ⟨by rw [rk_emb_row]; show 32 * k.val + (i 0).val % 32 = (i 0).val; omega,
      by rw [rk_emb_col]; rfl⟩
  exact funext fun a => Fin.ext (h a)

theorem locOf_rk_emb (k : Fin 16) (x : S32x512.Idx) : locOf ((rk k).emb x) = x := by
  have h0 : (x 0).val < 32 := (x 0).isLt
  have h : ∀ a, (locOf ((rk k).emb x) a).val = (x a).val :=
    Fin.forall_fin_two.mpr ⟨by show ((rk k).emb x 0).val % 32 = (x 0).val; rw [rk_emb_row]; omega,
      by show ((rk k).emb x 1).val = (x 1).val; rw [rk_emb_col]⟩
  exact funext fun a => Fin.ext (h a)

section Whole
variable {Val : EltTy → Type} {κ : Kind}

theorem read_whole_slice (b : Ref sig κ) (r : Rect b.ty.shape) (f : b.ty.Contents Val) (x : r.shape.Idx) :
    ((View.whole b).slice r).read Val f x = f (r.emb x) := rfl

theorem write_whole_slice_emb (b : Ref sig κ) (r : Rect b.ty.shape) (f : b.ty.Contents Val) (w : r.shape.Idx → Val b.ty.elt)
    (x : r.shape.Idx) : ((View.whole b).slice r).write Val f w Finset.univ (r.emb x) = w x :=
  View.write_emb_of_mem (v := (View.whole b).slice r) f w (Finset.mem_univ x)

theorem setOn_whole_rect (b : Ref sig κ) (r : Rect b.ty.shape) : (Memref.whole b).view.setOn r.toLoadRect.set = r.set :=
  Finset.map_refl

theorem setOn_access_univ (b : Ref sig κ) (r : Rect b.ty.shape) : ((Memref.whole b).access r).setOn Finset.univ = r.set := by
  rw [View.setOn_univ]; exact View.set_slice_whole b r

end Whole

abbrev sliceM (m : Memref sig .tc .vmem S512x512 .bf16) (k : Fin 16) : Memref sig .tc .vmem S32x512 .bf16 :=
  m.slice (rk k) (fun _ => rfl)

example : (Memref.whole cc0_scratch1).slice (Rect.unit (s := S512x512) ![32, 0] S32x512.size inb_S512x512_S32x512_32_0) (fun _ => rfl)
    = sliceM (Memref.whole cc0_scratch1) 1 := rfl
example : (Memref.whole cc0_scratch0).slice (Rect.unit (s := S512x512) ![480, 0] S32x512.size inb_S512x512_S32x512_480_0) (fun _ => rfl)
    = sliceM (Memref.whole cc0_scratch0) 15 := rfl

theorem sliceM_set0 (k : Fin 16) : (sliceM (Memref.whole cc0_scratch0) k).view.set = sset k := View.set_slice_whole cc0_scratch0 (rk k)
theorem sliceM_set1 (k : Fin 16) : (sliceM (Memref.whole cc0_scratch1) k).view.set = sset k := View.set_slice_whole cc0_scratch1 (rk k)
theorem sliceM_set2 (k : Fin 16) : (sliceM (Memref.whole cc0_scratch2) k).view.set = sset k := View.set_slice_whole cc0_scratch2 (rk k)

theorem load_sub0 (k : Fin 16) : (Memref.whole cc0_scratch0).view.setOn (rk k).toLoadRect.set ⊆ sset k := (setOn_whole_rect cc0_scratch0 (rk k)).subset
theorem load_sub1 (k : Fin 16) : (Memref.whole cc0_scratch1).view.setOn (rk k).toLoadRect.set ⊆ sset k := (setOn_whole_rect cc0_scratch1 (rk k)).subset
theorem load_sub2 (k : Fin 16) : (Memref.whole cc0_scratch2).view.setOn (rk k).toLoadRect.set ⊆ sset k := (setOn_whole_rect cc0_scratch2 (rk k)).subset
theorem store_sub0 (k : Fin 16) : ((Memref.whole cc0_scratch0).access (rk k)).setOn Finset.univ ⊆ sset k := (setOn_access_univ cc0_scratch0 (rk k)).subset

section Values
variable {Val : EltTy → Type}

theorem read_slice1 (k : Fin 16) (f : (cc0_scratch1 : Ref sig .tc).ty.Contents Val) (x : S32x512.Idx) :
    (Memref.whole cc0_scratch1).view.readAt Val (rk k).toLoadRect f x = f ((rk k).emb x) := rfl
theorem read_slice2 (k : Fin 16) (f : (cc0_scratch2 : Ref sig .tc).ty.Contents Val) (x : S32x512.Idx) :
    (Memref.whole cc0_scratch2).view.readAt Val (rk k).toLoadRect f x = f ((rk k).emb x) := rfl

theorem write_slice0 (k : Fin 16) (f : (cc0_scratch0 : Ref sig .tc).ty.Contents Val) (w : S32x512.Idx → Val .bf16)
    {i : S512x512.Idx} (hi : i ∈ sset k) :
    ((Memref.whole cc0_scratch0).access (rk k)).write Val f w Finset.univ i = w (locOf i) := by
  have h := write_whole_slice_emb cc0_scratch0 (rk k) f w (locOf i)
  rwa [rk_emb_locOf hi] at h

theorem landed_on01 (k : Fin 16) (fs : (cc0_scratch0 : Ref sig .tc).ty.Contents Val) (fd : (cc0_scratch1 : Ref sig .tc).ty.Contents Val)
    {i : S512x512.Idx} (hi : i ∈ sset k) :
    (sliceM (Memref.whole cc0_scratch1) k).view.write Val fd ((sliceM (Memref.whole cc0_scratch0) k).view.read Val fs) Finset.univ i = fs i := by
  have h := write_whole_slice_emb cc0_scratch1 (rk k) fd (((View.whole cc0_scratch0).slice (rk k)).read Val fs) (locOf i)
  rw [rk_emb_locOf hi] at h
  exact h.trans (by rw [read_whole_slice, rk_emb_locOf hi])
theorem landed_on12 (k : Fin 16) (fs : (cc0_scratch1 : Ref sig .tc).ty.Contents Val) (fd : (cc0_scratch2 : Ref sig .tc).ty.Contents Val)
    {i : S512x512.Idx} (hi : i ∈ sset k) :
    (sliceM (Memref.whole cc0_scratch2) k).view.write Val fd ((sliceM (Memref.whole cc0_scratch1) k).view.read Val fs) Finset.univ i = fs i := by
  have h := write_whole_slice_emb cc0_scratch2 (rk k) fd (((View.whole cc0_scratch1).slice (rk k)).read Val fs) (locOf i)
  rw [rk_emb_locOf hi] at h
  exact h.trans (by rw [read_whole_slice, rk_emb_locOf hi])

end Values

section PointsTo
variable {Ix : Type} [DecidableEq Ix] {Val : EltTy → Type} {Name : Type} [DecidableEq Name] {U : Type} [URA U] {Lvl : Type}
local notation "𝕄" => MT nD τ sig Ix Val Name U Lvl

theorem pointsTo_deal {ℓ : Loc nD τ sig} {T : Type} [Fintype T] (K : T → Finset (Idx ℓ)) {S : Finset (Idx ℓ)}
    (hK : ∀ t ∈ (Finset.univ : Finset T), ∀ t' ∈ (Finset.univ : Finset T), t ≠ t' → Disjoint (K t) (K t'))
    (hS : (Finset.univ : Finset T).biUnion K = S) (q : PosShare TreeShare) (f : Buf Val ℓ) :
    (ℓ ↦[S]{q} f : sProp 𝕄) = bigSep (Finset.univ : Finset T) fun t => ℓ ↦[K t]{q} f := by
  rw [← hS]; exact pointsTo_biUnion Finset.univ K hK

theorem pointsTo_congr_iff {ℓ : Loc nD τ sig} {S : Finset (Idx ℓ)} {q : PosShare TreeShare} {f g : Buf Val ℓ}
    (h : ∀ i ∈ S, f i = g i) : (ℓ ↦[S]{q} f : sProp 𝕄) ⊣⊢ ℓ ↦[S]{q} g :=
  ⟨Entails.of_eq (pointsTo_congr h), Entails.of_eq (pointsTo_congr h).symm⟩

theorem pointsTo_halves {ℓ : Loc nD τ sig} {S : Finset (Idx ℓ)} {f : Buf Val ℓ} :
    (ℓ ↦[S]{fullShare} f : sProp 𝕄) ⊣⊢ iprop((ℓ ↦[S]{fullShare.left} f) ∗ ℓ ↦[S]{fullShare.right} f) :=
  pointsTo_share (PosShare.mem_left_op_right fullShare)

theorem split16_eq0 (c : Dev nD) (q : PosShare TreeShare) (f : Buf Val ((c : Thread nD τ).loc cc0_scratch0)) :
    (((c : Thread nD τ).loc cc0_scratch0) ↦{q} f : sProp 𝕄)
      = bigSep (Finset.univ : Finset (Fin 16)) fun k => ((c : Thread nD τ).loc cc0_scratch0) ↦[sset k]{q} f :=
  pointsTo_deal (ℓ := (c : Thread nD τ).loc cc0_scratch0) sset sset_pairwise sset_cover q f
theorem split16_eq1 (c : Dev nD) (q : PosShare TreeShare) (f : Buf Val ((c : Thread nD τ).loc cc0_scratch1)) :
    (((c : Thread nD τ).loc cc0_scratch1) ↦{q} f : sProp 𝕄)
      = bigSep (Finset.univ : Finset (Fin 16)) fun k => ((c : Thread nD τ).loc cc0_scratch1) ↦[sset k]{q} f :=
  pointsTo_deal (ℓ := (c : Thread nD τ).loc cc0_scratch1) sset sset_pairwise sset_cover q f
theorem split16_eq2 (c : Dev nD) (q : PosShare TreeShare) (f : Buf Val ((c : Thread nD τ).loc cc0_scratch2)) :
    (((c : Thread nD τ).loc cc0_scratch2) ↦{q} f : sProp 𝕄)
      = bigSep (Finset.univ : Finset (Fin 16)) fun k => ((c : Thread nD τ).loc cc0_scratch2) ↦[sset k]{q} f :=
  pointsTo_deal (ℓ := (c : Thread nD τ).loc cc0_scratch2) sset sset_pairwise sset_cover q f

theorem split16_0 (c : Dev nD) (q : PosShare TreeShare) (f : Buf Val ((c : Thread nD τ).loc cc0_scratch0)) :
    (((c : Thread nD τ).loc cc0_scratch0) ↦{q} f : sProp 𝕄)
      ⊢ bigSep (Finset.univ : Finset (Fin 16)) fun k => ((c : Thread nD τ).loc cc0_scratch0) ↦[sset k]{q} f := Entails.of_eq (split16_eq0 c q f)
theorem join16_0 (c : Dev nD) (q : PosShare TreeShare) (f : Buf Val ((c : Thread nD τ).loc cc0_scratch0)) :
    (bigSep (Finset.univ : Finset (Fin 16)) fun k => ((c : Thread nD τ).loc cc0_scratch0) ↦[sset k]{q} f)
      ⊢ (((c : Thread nD τ).loc cc0_scratch0) ↦{q} f : sProp 𝕄) := Entails.of_eq (split16_eq0 c q f).symm
theorem split16_1 (c : Dev nD) (q : PosShare TreeShare) (f : Buf Val ((c : Thread nD τ).loc cc0_scratch1)) :
    (((c : Thread nD τ).loc cc0_scratch1) ↦{q} f : sProp 𝕄)
      ⊢ bigSep (Finset.univ : Finset (Fin 16)) fun k => ((c : Thread nD τ).loc cc0_scratch1) ↦[sset k]{q} f := Entails.of_eq (split16_eq1 c q f)
theorem join16_1 (c : Dev nD) (q : PosShare TreeShare) (f : Buf Val ((c : Thread nD τ).loc cc0_scratch1)) :
    (bigSep (Finset.univ : Finset (Fin 16)) fun k => ((c : Thread nD τ).loc cc0_scratch1) ↦[sset k]{q} f)
      ⊢ (((c : Thread nD τ).loc cc0_scratch1) ↦{q} f : sProp 𝕄) := Entails.of_eq (split16_eq1 c q f).symm
theorem split16_2 (c : Dev nD) (q : PosShare TreeShare) (f : Buf Val ((c : Thread nD τ).loc cc0_scratch2)) :
    (((c : Thread nD τ).loc cc0_scratch2) ↦{q} f : sProp 𝕄)
      ⊢ bigSep (Finset.univ : Finset (Fin 16)) fun k => ((c : Thread nD τ).loc cc0_scratch2) ↦[sset k]{q} f := Entails.of_eq (split16_eq2 c q f)
theorem join16_2 (c : Dev nD) (q : PosShare TreeShare) (f : Buf Val ((c : Thread nD τ).loc cc0_scratch2)) :
    (bigSep (Finset.univ : Finset (Fin 16)) fun k => ((c : Thread nD τ).loc cc0_scratch2) ↦[sset k]{q} f)
      ⊢ (((c : Thread nD τ).loc cc0_scratch2) ↦{q} f : sProp 𝕄) := Entails.of_eq (split16_eq2 c q f).symm

theorem slicePts0 (c : Dev nD) (k : Fin 16) (q : PosShare TreeShare) (f : Buf Val ((c : Thread nD τ).loc cc0_scratch0)) :
    ((sliceM (Memref.whole cc0_scratch0) k).view.loc (c : Thread nD τ) ↦[(sliceM (Memref.whole cc0_scratch0) k).view.set]{q} f : sProp 𝕄)
      = (((c : Thread nD τ).loc cc0_scratch0) ↦[sset k]{q} f) := by rw [sliceM_set0]
theorem slicePts1 (c : Dev nD) (k : Fin 16) (q : PosShare TreeShare) (f : Buf Val ((c : Thread nD τ).loc cc0_scratch1)) :
    ((sliceM (Memref.whole cc0_scratch1) k).view.loc (c : Thread nD τ) ↦[(sliceM (Memref.whole cc0_scratch1) k).view.set]{q} f : sProp 𝕄)
      = (((c : Thread nD τ).loc cc0_scratch1) ↦[sset k]{q} f) := by rw [sliceM_set1]
theorem slicePts2 (c : Dev nD) (k : Fin 16) (q : PosShare TreeShare) (f : Buf Val ((c : Thread nD τ).loc cc0_scratch2)) :
    ((sliceM (Memref.whole cc0_scratch2) k).view.loc (c : Thread nD τ) ↦[(sliceM (Memref.whole cc0_scratch2) k).view.set]{q} f : sProp 𝕄)
      = (((c : Thread nD τ).loc cc0_scratch2) ↦[sset k]{q} f) := by rw [sliceM_set2]

theorem landed_pts01 (c c' : Dev nD) (k : Fin 16) (q : PosShare TreeShare)
    (fs : Buf Val ((c : Thread nD τ).loc cc0_scratch0)) (fd g : Buf Val ((c' : Thread nD τ).loc cc0_scratch1))
    (hg : ∀ i ∈ sset k, g i = fs i) :
    ((sliceM (Memref.whole cc0_scratch1) k).view.loc (c' : Thread nD τ) ↦[(sliceM (Memref.whole cc0_scratch1) k).view.set]{q}
        ((sliceM (Memref.whole cc0_scratch1) k).view.write Val fd ((sliceM (Memref.whole cc0_scratch0) k).view.read Val fs) Finset.univ) : sProp 𝕄)
      = (((c' : Thread nD τ).loc cc0_scratch1) ↦[sset k]{q} g) := by
  rw [sliceM_set1]
  exact pointsTo_congr fun i hi => (landed_on01 k fs fd hi).trans (hg i hi).symm
theorem landed_pts12 (c c' : Dev nD) (k : Fin 16) (q : PosShare TreeShare)
    (fs : Buf Val ((c : Thread nD τ).loc cc0_scratch1)) (fd g : Buf Val ((c' : Thread nD τ).loc cc0_scratch2))
    (hg : ∀ i ∈ sset k, g i = fs i) :
    ((sliceM (Memref.whole cc0_scratch2) k).view.loc (c' : Thread nD τ) ↦[(sliceM (Memref.whole cc0_scratch2) k).view.set]{q}
        ((sliceM (Memref.whole cc0_scratch2) k).view.write Val fd ((sliceM (Memref.whole cc0_scratch1) k).view.read Val fs) Finset.univ) : sProp 𝕄)
      = (((c' : Thread nD τ).loc cc0_scratch2) ↦[sset k]{q} g) := by
  rw [sliceM_set2]
  exact pointsTo_congr fun i hi => (landed_on12 k fs fd hi).trans (hg i hi).symm

end PointsTo

end Cert.KernelIdeal.Hand
-- ==== Proof.Sched.lean ====
import proofs.«901032_g7700000000001033_dist_rs_v7x_xyz2x2x4_x_m1024_n512_bf16_1_alg».proof.Proof.Cells
import proofs.«901032_g7700000000001033_dist_rs_v7x_xyz2x2x4_x_m1024_n512_bf16_1_alg».proof.Proof.Mesh
import proofs.«901032_g7700000000001033_dist_rs_v7x_xyz2x2x4_x_m1024_n512_bf16_1_alg».proof.Proof.MeshDev
import proofs.«901032_g7700000000001033_dist_rs_v7x_xyz2x2x4_x_m1024_n512_bf16_1_alg».proof.Proof.CellDecode
import proofs.«901032_g7700000000001033_dist_rs_v7x_xyz2x2x4_x_m1024_n512_bf16_1_alg».proof.Proof.Slices

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

abbrev xM : Memref sig .tc .vmem S1x1024x1024 .f32 := Memref.whole cc0_stg0_0
abbrev oM : Memref sig .tc .vmem S1024x512 .bf16 := Memref.whole cc0_stg1_0
abbrev sM : Memref sig .tc .vmem S512x512 .bf16 := Memref.whole cc0_scratch0
abbrev rM : Memref sig .tc .vmem S512x512 .bf16 := Memref.whole cc0_scratch1
abbrev zM : Memref sig .tc .vmem S512x512 .bf16 := Memref.whole cc0_scratch2

abbrev N : ℕ := (sliceM rM 0).view.dmaCredit

def xstg (c : Dev nD) : (cc0_stg0_0 : Ref sig .tc).ty.Contents (Elt F) :=
  (win0_0.blk (0 : Fin 1)).view.read (Elt F) ((s₀ m ρ).mem ((c : Thread nD τ).loc main_arg0))

theorem xoff_inb (r q : Nat) (hr : r + 32 ≤ 1024) (hq : q + 512 ≤ 1024) :
    ∀ a, (![0, r, q] : Fin 3 → Nat) a + S1x32x512.size a ≤ S1x1024x1024.size a := by
  intro a; fin_cases a <;> simp [S1x32x512, S1x1024x1024, Shape.size] <;> omega

abbrev xRect (r q : Nat) (hr : r + 32 ≤ 1024) (hq : q + 512 ≤ 1024) : Rect S1x1024x1024 :=
  Rect.unit (s := S1x1024x1024) ![0, r, q] S1x32x512.size (xoff_inb r q hr hq)

theorem rowS (c : Dev nD) (k : Fin 16) : 512 * sOf c + 32 * k.val + 32 ≤ 1024 := by
  have := sOf_lt c; have := k.isLt; omega
theorem rowT (c : Dev nD) (k : Fin 16) : 512 * (1 - sOf c) + 32 * k.val + 32 ≤ 1024 := by
  have := k.isLt; omega
theorem colM (c : Dev nD) : 512 * mxOf c + 512 ≤ 1024 := by have := mxOf_lt c; omega
theorem colP (c : Dev nD) : 512 * (1 - mxOf c) + 512 ≤ 1024 := by omega

def xld (c : Dev nD) (r q : Nat) (hr : r + 32 ≤ 1024) (hq : q + 512 ≤ 1024) : Vec F S1x32x512 .f32 :=
  (xM : Memref sig .tc .vmem S1x1024x1024 .f32).view.readAt (Elt F) (xRect r q hr hq).toLoadRect (xstg m ρ c)

/-- Chunk k of what device c sends across x: thirty-two rows of its half, the columns its x partner keeps, narrowed. -/
def sendW (c : Dev nD) (k : Fin 16) : Vec F S32x512 .bf16 :=
  k0_pay1 (xld m ρ c (512 * sOf c + 32 * k.val) (512 * (1 - mxOf c)) (rowS c k) (colP c))

def sendG (c : Dev nD) : (cc0_scratch0 : Ref sig .tc).ty.Contents (Elt F) := fun i => sendW m ρ c (bandOf i) (locOf i)
/-- What lands from across x is the x partner's send buffer. -/
def recvG (c : Dev nD) : (cc0_scratch1 : Ref sig .tc).ty.Contents (Elt F) := fun i => sendW m ρ (px c) (bandOf i) (locOf i)
/-- What is relayed along z is what landed at the z partner. -/
def relayG (c : Dev nD) : (cc0_scratch2 : Ref sig .tc).ty.Contents (Elt F) := fun i => sendW m ρ (px (pz c)) (bandOf i) (locOf i)

def addD (c : Dev nD) (k : Fin 16) : Vec F S32x512 .bf16 :=
  k0_pay33 (xld m ρ c (512 * sOf c + 32 * k.val) (512 * mxOf c) (rowS c k) (colM c)) (sendW m ρ (px c) k)
def addR (c : Dev nD) (k : Fin 16) : Vec F S32x512 .bf16 :=
  k0_pay33 (xld m ρ c (512 * (1 - sOf c) + 32 * k.val) (512 * mxOf c) (rowT c k) (colM c)) (sendW m ρ (px (pz c)) k)

abbrev chunk0 (c : Dev nD) (k : Fin 16) (q : PosShare TreeShare) (f : Buf (Elt F) ((c : Thread nD τ).loc cc0_scratch0)) : sProp 𝕄 :=
  ((c : Thread nD τ).loc cc0_scratch0) ↦[sset k]{q} f
abbrev chunk1 (c : Dev nD) (k : Fin 16) (q : PosShare TreeShare) (f : Buf (Elt F) ((c : Thread nD τ).loc cc0_scratch1)) : sProp 𝕄 :=
  ((c : Thread nD τ).loc cc0_scratch1) ↦[sset k]{q} f
abbrev chunk2 (c : Dev nD) (k : Fin 16) (q : PosShare TreeShare) (f : Buf (Elt F) ((c : Thread nD τ).loc cc0_scratch2)) : sProp 𝕄 :=
  ((c : Thread nD τ).loc cc0_scratch2) ↦[sset k]{q} f

def barPayX (c : Dev nD) : sProp 𝕄 := iprop(∃ f, ((px c : Thread nD τ).loc cc0_scratch1) ↦{fullShare} f)

def barPayZ (c : Dev nD) : sProp 𝕄 := iprop(∃ f, ((pz c : Thread nD τ).loc cc0_scratch2) ↦{fullShare} f)

def dmaPay (c : Dev nD) : Trk → Fin 16 → sProp 𝕄
  | .sx, k => chunk0 c k fullShare (sendG m ρ c)
  | .rx, k => chunk1 c k fullShare (recvG m ρ c)
  | .sz, k => chunk1 c k fullShare.right (recvG m ρ c)
  | .rz, k => chunk2 c k fullShare (relayG m ρ c)

abbrev IsBar (g : GSem nD τ sig) : Prop := g.1.2 = .tc ∧ g.2 = .reg barS
abbrev IsDma (g : GSem nD τ sig) : Prop := g.1.2 = .tc ∧ (cellTrk g.2).isSome

/-- The protocol: the entry cell takes one unit from each partner and every transfer cell one copy, each in a single round. -/
def rd : Rounds.Schedule (GSem nD τ sig) Bool 𝕄 where
  duties g r := if r = 0 ∧ IsBar g then Finset.univ else if r = 0 ∧ IsDma g then {false} else ∅
  unitless _ := False
  amount g _ _ := if g.2 = .reg barS then 1 else N
  payload g _ d :=
    if g.2 = .reg barS then (if d then barPayZ g.1.1 else barPayX g.1.1)
    else match cellTrk g.2 with
      | some (t, k) => dmaPay m ρ g.1.1 t k
      | none => iprop(emp)
  amount_pos g _ _ _ := by
    by_cases h : g.2 = .reg barS
    · rw [if_pos h]; exact Nat.one_pos
    · rw [if_neg h]; exact View.dmaCredit_pos _ (by decide)

/-- The thirty-two add-stores in program order, each as (relayed, chunk). -/
def addSeq : List (Bool × Fin 16) :=
  [(false, 0), (false, 1), (false, 2), (false, 3), (false, 4), (false, 5), (false, 6), (true, 0), (false, 7), (true, 1),
   (false, 8), (true, 2), (false, 9), (true, 3), (false, 10), (true, 4), (false, 11), (true, 5), (false, 12), (true, 6),
   (false, 13), (true, 7), (false, 14), (true, 8), (false, 15), (true, 9), (true, 10), (true, 11), (true, 12), (true, 13),
   (true, 14), (true, 15)]

theorem ooff_inb (r : Nat) (hr : r + 32 ≤ 1024) :
    ∀ a, (![r, 0] : Fin 2 → Nat) a + S32x512.size a ≤ S1024x512.size a := by
  intro a; fin_cases a <;> simp [S32x512, S1024x512, Shape.size] <;> omega

abbrev oRect (r : Nat) (hr : r + 32 ≤ 1024) : Rect S1024x512 := Rect.unit (s := S1024x512) ![r, 0] S32x512.size (ooff_inb r hr)

def pieceOf (c : Dev nD) : Bool × Fin 16 → View.Piece (Elt F) S1024x512 .bf16
  | (false, k) => ⟨oRect (512 * sOf c + 32 * k.val) (rowS c k), addD m ρ c k⟩
  | (true, k) => ⟨oRect (512 * (1 - sOf c) + 32 * k.val) (rowT c k), addR m ρ c k⟩

def outPieces (c : Dev nD) (n : Nat) : List (View.Piece (Elt F) S1024x512 .bf16) := ((addSeq.take n).map (pieceOf m ρ c)).reverse

/-- The result buffer after the first n add-stores. -/
def outAt (c : Dev nD) (g : (cc0_stg1_0 : Ref sig .tc).ty.Contents (Elt F)) (n : Nat) : (cc0_stg1_0 : Ref sig .tc).ty.Contents (Elt F) :=
  (View.whole cc0_stg1_0).writes (Elt F) g (outPieces m ρ c n)

def outG (c : Dev nD) : (cc0_stg1_0 : Ref sig .tc).ty.Contents (Elt F) := View.canon (outPieces m ρ c 32)

end Cert.KernelIdeal.Hand

end
-- ==== Proof.LaunchBase.lean ====
import proofs.«901032_g7700000000001033_dist_rs_v7x_xyz2x2x4_x_m1024_n512_bf16_1_alg».proof.Proof.Cells
import proofs.«901032_g7700000000001033_dist_rs_v7x_xyz2x2x4_x_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev CellIx : Type := Unit ⊕ (Trk × Fin 16)

abbrev csem : CellIx → SemLoc sig
  | .inl _ => .reg barS
  | .inr tk => .dma (dsem tk.1 tk.2)

abbrev kcell (ci : Dev nD × CellIx) : GSem nD τ sig := ((ci.1 : Thread nD τ), csem ci.2)

theorem dsem_injective : Function.Injective (fun tk : Trk × Fin 16 => dsem tk.1 tk.2) := by
  rintro ⟨t, k⟩ ⟨t', k'⟩ h
  have hv : (dsem t k).val = (dsem t' k').val := congrArg Fin.val h
  rw [dsem_val, dsem_val] at hv
  have hk := k.isLt; have hk' := k'.isLt
  have ht : t = t' := by cases t <;> cases t' <;> first | rfl | (exfalso; simp only at hv; omega)
  subst ht
  have : k = k' := Fin.ext (by omega)
  subst this; rfl

theorem csem_injective : Function.Injective csem := by
  rintro (u | tk) (u' | tk') h
  · rfl
  · exact absurd h (fun h => by cases h)
  · exact absurd h (fun h => by cases h)
  · have h1 : dsem tk.1 tk.2 = dsem tk'.1 tk'.2 := by injection h
    exact congrArg Sum.inr (dsem_injective h1)

theorem kcell_injective : Function.Injective (kcell : Dev nD × CellIx → GSem nD τ sig) := by
  rintro ⟨c, i⟩ ⟨c', i'⟩ h
  have h1 : c = c' := by have := congrArg (fun g : GSem nD τ sig => g.1.1) h; exact this
  subst h1
  have h2 : csem i = csem i' := congrArg Prod.snd h
  rw [csem_injective h2]

def protoCells : Finset (GSem nD τ sig) := Finset.univ.map ⟨kcell, kcell_injective⟩

abbrev osem : Trk × Fin 16 → SemLoc sig := fun tk => .dma (dsem tk.1 tk.2)

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun tk : Trk × Fin 16 => semVal (dCell tk.1 c tk.2) 0 := rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_trk (Φ : Trk → sProp 𝕄) : bigSep Finset.univ Φ = iprop(Φ .sx ∗ Φ .rx ∗ Φ .sz ∗ Φ .rz) :=
  bigSep_univ_eq_bigSepL [Trk.sx, Trk.rx, Trk.sz, Trk.rz] (by decide) (by decide) Φ

omit [FloatOps F] in
theorem bigSep_dma (Φ : Trk × Fin 16 → sProp 𝕄) : bigSep Finset.univ Φ
    = iprop((bigSep Finset.univ fun k => Φ (.sx, k)) ∗ (bigSep Finset.univ fun k => Φ (.rx, k))
        ∗ (bigSep Finset.univ fun k => Φ (.sz, k)) ∗ (bigSep Finset.univ fun k => Φ (.rz, k))) := by
  rw [bigSep_univ_prod, bigSep_trk]

omit [FloatOps F] in
theorem bigSep_cellIx (Φ : CellIx → sProp 𝕄) : bigSep Finset.univ Φ
    = iprop(Φ (.inl ()) ∗ bigSep Finset.univ fun tk : Trk × Fin 16 => Φ (.inr tk)) := by
  rw [bigSep_univ_sum, bigSep_univ_of_subsingleton ()]; rfl

omit [FloatOps F] in
theorem bigSep_protoCells (Φ : GSem nD τ sig → sProp 𝕄) :
    bigSep protoCells Φ = bigSep Finset.univ fun c : Dev nD => bigSep Finset.univ fun i : CellIx => Φ (kcell (c, i)) := by
  unfold protoCells; rw [bigSep_map, bigSep_univ_prod]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CellIx => semVal (kcell (c, i)) 0 : sProp 𝕄) := by
  rw [ownSems0_eq, unscopedSems0_eq, bigSep_cellIx]
  iintro ⟨HD, HB⟩
  isplitl [HB]; · iexact HB
  iexact HD

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

abbrev TokIx : Type := Bool ⊕ (Trk × Fin 16)

abbrev tokOf (cj : Dev nD × TokIx) : GSem nD τ sig × ℕ × Bool := match cj.2 with
  | .inl b => (barCell cj.1, 0, b)
  | .inr tk => (dCell tk.1 cj.1 tk.2, 0, false)

theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    rcases j with b | tk <;> rcases j' with b' | tk' <;> exact this
  subst h1
  have : j = j' := by
    rcases j with b | tk <;> rcases j' with b' | tk'
    · exact congrArg Sum.inl (congrArg (fun x : GSem nD τ sig × ℕ × Bool => x.2.2) h)
    · exact absurd (congrArg (fun x : GSem nD τ sig × ℕ × Bool => x.1.2) h) (fun h' => by cases h')
    · exact absurd (congrArg (fun x : GSem nD τ sig × ℕ × Bool => x.1.2) h) (fun h' => by cases h')
    · have h2 : (SemLoc.dma (dsem tk.1 tk.2) : SemLoc sig) = .dma (dsem tk'.1 tk'.2) := congrArg (fun x : GSem nD τ sig × ℕ × Bool => x.1.2) h
      have h3 : dsem tk.1 tk.2 = dsem tk'.1 tk'.2 := by injection h2
      exact congrArg Sum.inr (dsem_injective h3)
  subst this; rfl

def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

def toks (c : Dev nD) : sProp 𝕄 :=
  iprop((dutyTok ER (barCell c) 0 false ∗ dutyTok ER (barCell c) 0 true)
    ∗ bigSep Finset.univ fun tk : Trk × Fin 16 => dutyTok ER (dCell tk.1 c tk.2) 0 false)

omit [FloatOps F] in
theorem bigSep_tokIx (Φ : TokIx → sProp 𝕄) : bigSep Finset.univ Φ
    = iprop((Φ (.inl false) ∗ Φ (.inl true)) ∗ bigSep Finset.univ fun tk : Trk × Fin 16 => Φ (.inr tk)) := by
  rw [bigSep_univ_sum, bigSep_univ_eq_bigSepL [false, true] (by decide) (by decide)]; rfl

omit [FloatOps F] in
theorem bigSep_protoToks : bigSep protoToks (fun x => (dutyTok ER x.1 x.2.1 x.2.2 : sProp 𝕄)) = bigSep Finset.univ fun c : Dev nD => toks c := by
  unfold protoToks; rw [bigSep_map, bigSep_univ_prod]
  exact bigSep_congr fun c _ => by unfold toks; rw [bigSep_tokIx]; rfl

section Sched

def G (Rd : Rounds.Schedule (GSem nD τ sig) Bool (MT nD τ sig Unit (Elt F) ℕ UU ℕ)) (c : Dev nD) : sProp 𝕄 :=
  iprop((bigSep Finset.univ fun i : CellIx => roundState ER Rd (kcell (c, i)) 0)
    ∗ (bigSep Finset.univ fun i : CellIx => iprop(atPos ER (kcell (c, i)) 0 ∅ 0 ∗ reached ER (kcell (c, i)) 0)) ∗ toks c)

omit [FloatOps F] in
theorem fund_proto (Rd : Rounds.Schedule (GSem nD τ sig) Bool (MT nD τ sig Unit (Elt F) ℕ UU ℕ)) : BI.own (ER (initOf protoCells protoToks)) ⊢ (|==> bigSep Finset.univ (G Rd) : sProp 𝕄) := by
  iintro HX
  imod (Rounds.fund ER Rd protoCells protoToks) $$ HX with ⟨Hst, Hr, Hat, Htok⟩
  imodintro
  ihave Hst' := (Entails.of_eq (bigSep_protoCells fun g => roundState ER Rd g 0)) $$ Hst
  ihave Hat' := (Entails.of_eq (bigSep_protoCells fun g => atPos ER g 0 ∅ 0)) $$ Hat
  ihave Hr' := (Entails.of_eq (bigSep_protoCells fun g => reached ER g 0)) $$ Hr
  ihave Htok' := (Entails.of_eq bigSep_protoToks) $$ Htok
  unfold G; simp only [bigSep_sep']
  isplitl [Hst']; · iexact Hst'
  isplitl [Hat' Hr']
  · isplitl [Hat'] <;> iassumption
  iexact Htok'

omit [FloatOps F] in
theorem fund_u₀ (Rd : Rounds.Schedule (GSem nD τ sig) Bool (MT nD τ sig Unit (Elt F) ℕ UU ℕ)) : (ownU (u₀ : UU) : sProp 𝕄)
    ⊢ |={Set.univ}=> iprop(BI.own (EP (initOf (Pipeline.cells cfgs cellOf_inj) (Pipeline.launchToks cfgs cellOf_inj))) ∗ bigSep Finset.univ (G Rd)) := by
  unfold u₀
  iintro Hu
  ihave H := (ownU_pair _ _) $$ Hu
  icases H with ⟨HP, HX⟩
  imod (fund_proto Rd) $$ HX with HG
  imodintro
  isplitl [HP] <;> iassumption

omit [FloatOps F] in
theorem core_alloc (Rd : Rounds.Schedule (GSem nD τ sig) Bool (MT nD τ sig Unit (Elt F) ℕ UU ℕ))
    [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun i : CellIx => iprop(∃ κ : ℕ, cellInv ER Rd κ (kcell (c, i))))
          ∗ (bigSep Finset.univ fun i : CellIx => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CellIx => semVal (kcell (c, i)) 0) ∗ bigSep Finset.univ fun i : CellIx => roundState ER Rd (kcell (c, i)) 0)
      ⊢ (|={Set.univ}=> bigSep Finset.univ fun i : CellIx => iprop(∃ κ : ℕ, cellInv ER Rd κ (kcell (c, i))) : sProp 𝕄) from by
        rw [← bigSep_sep']
        exact (bigSep_mono fun i _ => (Rounds.body_intro ER Rd (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

def records (Rd : Rounds.Schedule (GSem nD τ sig) Bool (MT nD τ sig Unit (Elt F) ℕ UU ℕ)) (K : Dev nD × CellIx → ℕ) : sProp 𝕄 :=
  iprop((bigSep Finset.univ fun ci : Dev nD × CellIx => cellInv ER Rd (K ci) (kcell ci))
    ∗ bigSep Finset.univ fun ci : Dev nD × CellIx => reached ER (kcell ci) 0)

instance records_persistent (Rd : Rounds.Schedule (GSem nD τ sig) Bool (MT nD τ sig Unit (Elt F) ℕ UU ℕ)) (K : Dev nD × CellIx → ℕ) : BI.Persistent (records Rd K) := by unfold records; infer_instance

omit [FloatOps F] in
theorem inv_at (Rd : Rounds.Schedule (GSem nD τ sig) Bool (MT nD τ sig Unit (Elt F) ℕ UU ℕ)) (K : Dev nD × CellIx → ℕ) (ci : Dev nD × CellIx) :
    (bigSep Finset.univ fun ci : Dev nD × CellIx => (cellInv ER Rd (K ci) (kcell ci) : sProp 𝕄)) ⊢ cellInv ER Rd (K ci) (kcell ci) :=
  bigSep_elim (Finset.mem_univ ci)

end Sched

omit [FloatOps F] in
theorem reached_at (ci : Dev nD × CellIx) :
    (bigSep Finset.univ fun ci : Dev nD × CellIx => (reached ER (kcell ci) 0 : sProp 𝕄)) ⊢ reached ER (kcell ci) 0 :=
  bigSep_elim (Finset.mem_univ ci)

def payToks (ex ez : Dev nD ≃ Dev nD) (c : Dev nD) : sProp 𝕄 :=
  iprop((dutyTok ER (barCell (ex c)) 0 false ∗ dutyTok ER (barCell (ez c)) 0 true)
    ∗ (bigSep Finset.univ fun k : Fin 16 => dutyTok ER (dCell .sx c k) 0 false)
    ∗ (bigSep Finset.univ fun k : Fin 16 => dutyTok ER (dCell .rx (ex c) k) 0 false)
    ∗ (bigSep Finset.univ fun k : Fin 16 => dutyTok ER (dCell .sz c k) 0 false)
    ∗ (bigSep Finset.univ fun k : Fin 16 => dutyTok ER (dCell .rz (ez c) k) 0 false))

omit [FloatOps F] in
theorem toks_eq (c : Dev nD) : (toks c : sProp 𝕄) = iprop((dutyTok ER (barCell c) 0 false ∗ dutyTok ER (barCell c) 0 true)
    ∗ (bigSep Finset.univ fun k : Fin 16 => dutyTok ER (dCell .sx c k) 0 false)
    ∗ (bigSep Finset.univ fun k : Fin 16 => dutyTok ER (dCell .rx c k) 0 false)
    ∗ (bigSep Finset.univ fun k : Fin 16 => dutyTok ER (dCell .sz c k) 0 false)
    ∗ (bigSep Finset.univ fun k : Fin 16 => dutyTok ER (dCell .rz c k) 0 false)) := by
  unfold toks; rw [bigSep_dma]

omit [FloatOps F] in
theorem toks_around (ex ez : Dev nD ≃ Dev nD) :
    (bigSep Finset.univ fun c : Dev nD => (toks c : sProp 𝕄)) ⊢ bigSep Finset.univ fun c : Dev nD => payToks ex ez c := by
  rw [bigSep_congr (s := Finset.univ) fun (c : Dev nD) _ => toks_eq (F := F) c]
  unfold payToks
  rw [bigSep_sep', bigSep_sep', bigSep_sep', bigSep_sep', bigSep_sep', bigSep_sep', bigSep_sep', bigSep_sep', bigSep_sep', bigSep_sep',
    bigSep_univ_equiv ex (fun c : Dev nD => (dutyTok ER (barCell c) 0 false : sProp 𝕄)),
    bigSep_univ_equiv ez (fun c : Dev nD => (dutyTok ER (barCell c) 0 true : sProp 𝕄)),
    bigSep_univ_equiv ex (fun c : Dev nD => (bigSep Finset.univ fun k : Fin 16 => dutyTok ER (dCell .rx c k) 0 false : sProp 𝕄)),
    bigSep_univ_equiv ez (fun c : Dev nD => (bigSep Finset.univ fun k : Fin 16 => dutyTok ER (dCell .rz c k) 0 false : sProp 𝕄))]

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := fetch0_0 t
theorem flush_1 (t : Fin cfg0.N) : (cfg0.win (1 : Fin 2)).flush t = true := flush0_1 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem launchCred_bar (e : Dev nD ≃ Dev nD) (n : ℕ) (c : Dev nD) :
    (Pipeline.launchCred (fun d => (tallyAt (barCell (e d)) () n : CellTallies nD τ sig Unit)) c : sProp 𝕄) ⊢ cred (tallyAt (barCell c) () n) :=
  Pipeline.launchCred_tallyAt (.reg barS) e e.symm e.apply_symm_apply e.symm_apply_apply () n c

omit [FloatOps F] in
theorem launchCred_fam (t : Trk) (e : Dev nD ≃ Dev nD) (n : ℕ) (c : Dev nD) :
    (Pipeline.launchCred (fun d => ∑ k : Fin 16, (tallyAt (dCell t (e d) k) () n : CellTallies nD τ sig Unit)) c : sProp 𝕄)
      ⊢ bigSep Finset.univ fun k : Fin 16 => cred (tallyAt (dCell t c k) () n) := by
  rw [Pipeline.launchCred_sum]
  exact bigSep_mono fun k _ => Pipeline.launchCred_tallyAt (.dma (dsem t k)) e e.symm e.apply_symm_apply e.symm_apply_apply () n c

def linear (ex ez : Dev nD ≃ Dev nD) (c : Dev nD) : sProp 𝕄 :=
  iprop((bigSep Finset.univ fun i : CellIx => atPos ER (kcell (c, i)) 0 ∅ 0) ∗ payToks ex ez c)

omit [FloatOps F] in
theorem regroup (Rd : Rounds.Schedule (GSem nD τ sig) Bool (MT nD τ sig Unit (Elt F) ℕ UU ℕ)) (ex ez : Dev nD ≃ Dev nD)
    (G' : Dev nD → sProp (MT nD τ sig Unit (Elt F) ℕ UU ℕ))
    (hintro : ∀ (K : Dev nD × CellIx → ℕ) (c : Dev nD), iprop(records Rd K ∗ linear ex ez c) ⊢ G' c) :
    (bigSep Finset.univ fun c : Dev nD => iprop((bigSep Finset.univ fun i : CellIx => iprop(∃ κ : ℕ, cellInv ER Rd κ (kcell (c, i))))
          ∗ (bigSep Finset.univ fun i : CellIx => iprop(atPos ER (kcell (c, i)) 0 ∅ 0 ∗ reached ER (kcell (c, i)) 0)) ∗ toks c) : sProp 𝕄)
      ⊢ bigSep Finset.univ G' := by
  rw [bigSep_sep', bigSep_sep', ← bigSep_univ_prod (fun ci : Dev nD × CellIx => iprop(∃ κ : ℕ, cellInv ER Rd κ (kcell ci))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ci : Dev nD × CellIx => (reached ER (kcell ci) 0 : sProp 𝕄))]
  iintro ⟨HI, ⟨Hat, #HR⟩, Htok⟩
  ihave HK := (BI.bigSep_exists_pi Finset.univ (fun (ci : Dev nD × CellIx) (κ : ℕ) => (cellInv ER Rd κ (kcell ci) : sProp 𝕄))) $$ HI
  icases HK with ⟨%K, #HI⟩
  ihave Htk := (toks_around (F := F) ex ez) $$ Htok
  iapply (bigSep_with_persistent (R := records Rd K) fun c _ => hintro K c)
  isplitr
  · unfold records; isplitl; · iexact HI
    iexact HR
  · iapply (Entails.of_eq (bigSep_sep' Finset.univ (fun c : Dev nD => bigSep Finset.univ fun i : CellIx => (atPos ER (kcell (c, i)) 0 ∅ 0 : sProp 𝕄)) (payToks ex ez)).symm)
    isplitl [Hat]; · iexact Hat
    iexact Htk

omit [FloatOps F] in
theorem glob (Rd : Rounds.Schedule (GSem nD τ sig) Bool (MT nD τ sig Unit (Elt F) ℕ UU ℕ))
    [∀ g r d, BI.Storable (upEmb : UEmb _ (MT nD τ sig Unit (Elt F) ℕ UU ℕ)) (Rd.payload g r d)]
    (ex ez : Dev nD ≃ Dev nD) (G' : Dev nD → sProp (MT nD τ sig Unit (Elt F) ℕ UU ℕ))
    (hintro : ∀ (K : Dev nD × CellIx → ℕ) (c : Dev nD), iprop(records Rd K ∗ linear ex ez c) ⊢ G' c) :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ G' :=
  ((bigSep_mono fun c _ => core_alloc Rd c).trans (bigSep_fupd _ _)).trans (BI.fupd_mono (regroup Rd ex ez G' hintro))

end Cert.KernelIdeal.Hand

end
-- ==== Proof.Data.lean ====
import proofs.«901032_g7700000000001033_dist_rs_v7x_xyz2x2x4_x_m1024_n512_bf16_1_alg».proof.Proof.Sched
import proofs.«901032_g7700000000001033_dist_rs_v7x_xyz2x2x4_x_m1024_n512_bf16_1_alg».proof.Proof.LaunchBase

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What device c still has to pay once j copies across x are under way. -/
def owedX (c : Dev nD) (j : ℕ) : CellTallies nD τ sig Unit :=
  ∑ k ∈ (Finset.univ : Finset (Fin 16)).filter (fun k => j ≤ k.val), tallyAt (dCell .rx (px c) k) () N

def owedZ (c : Dev nD) (j : ℕ) : CellTallies nD τ sig Unit :=
  ∑ k ∈ (Finset.univ : Finset (Fin 16)).filter (fun k => j ≤ k.val), tallyAt (dCell .rz (pz c) k) () N

def O₀ (c : Dev nD) : CellTallies nD τ sig Unit :=
  (tallyAt (barCell (px c)) () 1 + tallyAt (barCell (pz c)) () 1)
    + (∑ k : Fin 16, tallyAt (dCell .rx (px c) k) () N) + (∑ k : Fin 16, tallyAt (dCell .rz (pz c) k) () N)

theorem owedX_zero (c : Dev nD) : owedX c 0 = ∑ k : Fin 16, tallyAt (dCell .rx (px c) k) () N := by
  unfold owedX; rw [Finset.filter_true_of_mem (fun k _ => Nat.zero_le _)]
theorem owedZ_zero (c : Dev nD) : owedZ c 0 = ∑ k : Fin 16, tallyAt (dCell .rz (pz c) k) () N := by
  unfold owedZ; rw [Finset.filter_true_of_mem (fun k _ => Nat.zero_le _)]
theorem owedX_last (c : Dev nD) : owedX c 16 = 0 := by
  unfold owedX; rw [Finset.sum_eq_zero]; intro k hk; have := (Finset.mem_filter.mp hk).2; have := k.isLt; omega
theorem owedZ_last (c : Dev nD) : owedZ c 16 = 0 := by
  unfold owedZ; rw [Finset.sum_eq_zero]; intro k hk; have := (Finset.mem_filter.mp hk).2; have := k.isLt; omega

theorem filter_ge_succ (j : ℕ) (hj : j < 16) :
    (Finset.univ : Finset (Fin 16)).filter (fun k => j ≤ k.val) = insert ⟨j, hj⟩ ((Finset.univ : Finset (Fin 16)).filter (fun k => j + 1 ≤ k.val)) := by
  ext k; simp only [Finset.mem_filter, Finset.mem_univ, true_and, Finset.mem_insert, Fin.ext_iff]; omega

theorem owedX_peel (c : Dev nD) (j : ℕ) (hj : j < 16) : owedX c j = owedX c (j + 1) + tallyAt (dCell .rx (px c) ⟨j, hj⟩) () N := by
  unfold owedX; rw [filter_ge_succ j hj, Finset.sum_insert (by simp), add_comm]
theorem owedZ_peel (c : Dev nD) (j : ℕ) (hj : j < 16) : owedZ c j = owedZ c (j + 1) + tallyAt (dCell .rz (pz c) ⟨j, hj⟩) () N := by
  unfold owedZ; rw [filter_ge_succ j hj, Finset.sum_insert (by simp), add_comm]

theorem O₀_eq (c : Dev nD) : O₀ c = (owedX c 0 + owedZ c 0 + tallyAt (barCell (pz c)) () 1) + tallyAt (barCell (px c)) () 1 := by
  unfold O₀; rw [owedX_zero, owedZ_zero]; ac_rfl

def L (g : GSem nD τ sig) : Finset Unit := if g.1.2 = .tc then {()} else ∅

/-- The levels that order the waits: send cells lowest, then the entry cell, then the receive cells chunk by chunk, x before z. -/
def lv (g : GSem nD τ sig) (_ : Unit) : ℕ :=
  if g.2 = .reg barS then 1 else
    match cellTrk g.2 with
    | some (.rx, k) => 2 + 2 * k.val
    | some (.rz, k) => 3 + 2 * k.val
    | _ => 0

theorem L_of_ne (g : GSem nD τ sig) (h : g.1.2 ≠ .tc) : L g = ∅ := if_neg h
theorem L_tc (c : Dev nD) (sm : SemLoc sig) : L ((c : Thread nD τ), sm) = {()} := if_pos rfl

def ghost (c : Dev nD) : sProp 𝕄 := iprop(∃ K, records (rd m ρ) K ∗ linear pxEquiv pzEquiv c)

def start (c : Dev nD) : sProp 𝕄 :=
  iprop(ghost m ρ c ∗ cred (tallyAt (barCell c) () 2)
    ∗ (bigSep Finset.univ fun k : Fin 16 => cred (tallyAt (dCell .rx c k) () N))
    ∗ (bigSep Finset.univ fun k : Fin 16 => cred (tallyAt (dCell .rz c k) () N))
    ∗ levAts L lv)

def scr3 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scr3 c)

def Φ₁ (c : Dev nD) : sProp 𝕄 := iprop(scr3 c ∗ bigSep Finset.univ fun tk : Trk × Fin 16 => semVal (dCell tk.1 c tk.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outG m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Hand

end
-- ==== Proof.LaunchSched.lean ====
import proofs.«901032_g7700000000001033_dist_rs_v7x_xyz2x2x4_x_m1024_n512_bf16_1_alg».proof.Proof.Sched
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance rd_payload_storable (g : GSem nD τ sig) (r : ℕ) (d : Bool) :
    BI.Storable (upEmb : UEmb _ 𝕄) ((rd (F := F) m ρ).payload g r d) := by
  show BI.Storable upEmb (if g.2 = .reg barS then (if d then barPayZ g.1.1 else barPayX g.1.1)
    else match cellTrk g.2 with
      | some (t, k) => dmaPay m ρ g.1.1 t k
      | none => iprop(emp))
  unfold barPayZ barPayX
  split
  · split <;> infer_instance
  · split
    · rename_i t k _
      unfold dmaPay; cases t <;> infer_instance
    · infer_instance

section Tables
variable (c : Dev nD)

theorem not_bar_dma (t : Trk) (k : Fin 16) : ¬ IsBar (dCell t c k) := fun h => dma_ne_reg t k h.2
theorem isDma_dCell (t : Trk) (k : Fin 16) : IsDma (dCell t c k) := ⟨rfl, by show (cellTrk (.dma (dsem t k))).isSome = true; rw [cellTrk_dsem]; rfl⟩

theorem duties_bar : (rd (F := F) m ρ).duties (barCell c) 0 = Finset.univ := by dsimp only [rd]; exact if_pos ⟨rfl, rfl, rfl⟩
theorem duties_dma (t : Trk) (k : Fin 16) : (rd (F := F) m ρ).duties (dCell t c k) 0 = {false} := by
  dsimp only [rd]; rw [if_neg (fun h => not_bar_dma c t k h.2)]; exact if_pos ⟨rfl, isDma_dCell c t k⟩
theorem duties_later (g : GSem nD τ sig) : ∀ r, 1 ≤ r → (rd (F := F) m ρ).duties g r = ∅ :=
  fun r hr => by dsimp only [rd]; rw [if_neg fun h => by omega, if_neg fun h => by omega]

theorem amount_bar (d : Bool) : (rd (F := F) m ρ).amount (barCell c) 0 d = 1 := by dsimp only [rd]; exact if_pos rfl
theorem amount_dma (t : Trk) (k : Fin 16) (d : Bool) : (rd (F := F) m ρ).amount (dCell t c k) 0 d = N := by
  dsimp only [rd]; exact if_neg (dma_ne_reg t k)

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (t : Trk) (k : Fin 16) : (rd (F := F) m ρ).expect (dCell t c k) 0 = N := by
  unfold Schedule.expect Schedule.amountOf; rw [duties_dma, Finset.sum_singleton, amount_dma]

theorem payload_bar_false : (rd (F := F) m ρ).payload (barCell c) 0 false = barPayX c := by
  dsimp only [rd]; rw [if_pos rfl]; exact if_neg Bool.false_ne_true
theorem payload_bar_true : (rd (F := F) m ρ).payload (barCell c) 0 true = barPayZ c := by
  dsimp only [rd]; rw [if_pos rfl, if_pos rfl]
theorem payload_dma (t : Trk) (k : Fin 16) (d : Bool) : (rd (F := F) m ρ).payload (dCell t c k) 0 d = dmaPay m ρ c t k := by
  dsimp only [rd]; rw [if_neg (dma_ne_reg t k), cellTrk_dsem]

theorem rest_bar : bigSep ((rd (F := F) m ρ).duties (barCell c) 0 \ ∅) (fun d => (rd (F := F) m ρ).payload (barCell c) 0 d) = iprop(barPayX c ∗ barPayZ c) := by
  rw [Finset.sdiff_empty, duties_bar, bigSep_univ_eq_bigSepL [false, true] (by decide) (by decide), bigSepL_cons_cons, bigSepL_singleton,
    payload_bar_false, payload_bar_true]
  rfl
theorem rest_dma (t : Trk) (k : Fin 16) :
    bigSep ((rd (F := F) m ρ).duties (dCell t c k) 0 \ ∅) (fun d => (rd (F := F) m ρ).payload (dCell t c k) 0 d) = dmaPay m ρ c t k := by
  rw [Finset.sdiff_empty, duties_dma, bigSep_singleton, payload_dma]

end Tables

end Cert.KernelIdeal.Hand

end
-- ==== Proof.Inv.lean ====
import proofs.«901032_g7700000000001033_dist_rs_v7x_xyz2x2x4_x_m1024_n512_bf16_1_alg».proof.Proof.Data
import proofs.«901032_g7700000000001033_dist_rs_v7x_xyz2x2x4_x_m1024_n512_bf16_1_alg».proof.Proof.LaunchSched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- How far a device's body has come: stores made, copies started, waits passed, add-stores made. -/
structure Prg where

  st : ℕ

  xs : ℕ

  rw : ℕ

  zs : ℕ

  ad : ℕ

  zw : ℕ

  sw : ℕ

  tw : ℕ

/-- Chunk k of the send buffer at progress p: untouched, stored, in flight, back. -/
def sxStage (p : Prg) (k : Fin 16) : ℕ := if k.val < p.sw then 3 else if k.val < p.xs then 2 else if k.val < p.st then 1 else 0

def sxAtom (c : Dev nD) (f0 : Buf (Elt F) ((c : Thread nD τ).loc cc0_scratch0)) (f1 : Buf (Elt F) ((px c : Thread nD τ).loc cc0_scratch1)) (k : Fin 16) : ℕ → sProp 𝕄
  | 0 => iprop(chunk0 c k fullShare f0 ∗ dutyTok ER (dCell .sx c k) 0 false ∗ dutyTok ER (dCell .rx (px c) k) 0 false
      ∗ chunk1 (px c) k fullShare f1 ∗ atPos ER (dCell .sx c k) 0 ∅ 0)
  | 1 => iprop(chunk0 c k fullShare (sendG m ρ c) ∗ dutyTok ER (dCell .sx c k) 0 false ∗ dutyTok ER (dCell .rx (px c) k) 0 false
      ∗ chunk1 (px c) k fullShare f1 ∗ atPos ER (dCell .sx c k) 0 ∅ 0)
  | 2 => iprop(cred (tallyAt (dCell .sx c k) () N) ∗ atPos ER (dCell .sx c k) 0 ∅ 0)
  | _ => iprop(chunk0 c k fullShare (sendG m ρ c) ∗ semVal (dCell .sx c k) 0)

/-- Chunk k of the landing buffer: awaited, landed, lent to the relay, back. -/
def rxStage (p : Prg) (k : Fin 16) : ℕ := if k.val < p.tw then 3 else if k.val < p.zs then 2 else if k.val < p.rw then 1 else 0

def zKit (c : Dev nD) (f2 : Buf (Elt F) ((pz c : Thread nD τ).loc cc0_scratch2)) (k : Fin 16) : sProp 𝕄 :=
  iprop(dutyTok ER (dCell .sz c k) 0 false ∗ dutyTok ER (dCell .rz (pz c) k) 0 false ∗ chunk2 (pz c) k fullShare f2 ∗ atPos ER (dCell .sz c k) 0 ∅ 0)

def rxAtom (c : Dev nD) (f2 : Buf (Elt F) ((pz c : Thread nD τ).loc cc0_scratch2)) (k : Fin 16) : ℕ → sProp 𝕄
  | 0 => iprop(cred (tallyAt (dCell .rx c k) () N) ∗ atPos ER (dCell .rx c k) 0 ∅ 0 ∗ zKit c f2 k)
  | 1 => iprop(chunk1 c k fullShare (recvG m ρ c) ∗ semVal (dCell .rx c k) 0 ∗ zKit c f2 k)
  | 2 => iprop(chunk1 c k fullShare.left (recvG m ρ c) ∗ semVal (dCell .rx c k) 0 ∗ cred (tallyAt (dCell .sz c k) () N) ∗ atPos ER (dCell .sz c k) 0 ∅ 0)
  | _ => iprop(chunk1 c k fullShare (recvG m ρ c) ∗ semVal (dCell .rx c k) 0 ∗ semVal (dCell .sz c k) 0)

def rzStage (p : Prg) (k : Fin 16) : ℕ := if k.val < p.zw then 1 else 0

def rzAtom (c : Dev nD) (k : Fin 16) : ℕ → sProp 𝕄
  | 0 => iprop(cred (tallyAt (dCell .rz c k) () N) ∗ atPos ER (dCell .rz c k) 0 ∅ 0)
  | _ => iprop(chunk2 c k fullShare (relayG m ρ c) ∗ semVal (dCell .rz c k) 0)

def owedP (c : Dev nD) (p : Prg) : CellTallies nD τ sig Unit := owedX c p.xs + owedZ c p.zs

/-- Device c's state at progress p: the protocol's records and levels, what it still owes, each scratch chunk at its stage, the input unchanged and the result after p.ad add-stores. -/
def Inv (c : Dev nD) (K : Dev nD × CellIx → ℕ) (f0 : Buf (Elt F) ((c : Thread nD τ).loc cc0_scratch0))
    (f1 : Buf (Elt F) ((px c : Thread nD τ).loc cc0_scratch1)) (f2 : Buf (Elt F) ((pz c : Thread nD τ).loc cc0_scratch2))
    (g : (cc0_stg1_0 : Ref sig .tc).ty.Contents (Elt F)) (p : Prg) : sProp 𝕄 :=
  iprop(records (rd m ρ) K ∗ levAts L lv
    ∗ (∃ W : Waits sig Unit, owes (c : Thread nD τ) (owedP c p) W)
    ∗ (bigSep Finset.univ fun k : Fin 16 => sxAtom m ρ c f0 f1 k (sxStage p k))
    ∗ (bigSep Finset.univ fun k : Fin 16 => rxAtom m ρ c f2 k (rxStage p k))
    ∗ (bigSep Finset.univ fun k : Fin 16 => rzAtom m ρ c k (rzStage p k))
    ∗ (((c : Thread nD τ).loc cc0_stg0_0) ↦{fullShare} xstg m ρ c)
    ∗ (((c : Thread nD τ).loc cc0_stg1_0) ↦{fullShare} outAt m ρ c g p.ad))

def p0 : Prg := ⟨0, 0, 0, 0, 0, 0, 0, 0⟩
def pEnd : Prg := ⟨16, 16, 16, 16, 32, 16, 16, 16⟩

omit [FloatOps F] in
theorem bigSep_focus (k : Fin 16) (Φ Φ' : Fin 16 → sProp 𝕄) (h : ∀ j, j ≠ k → Φ j = Φ' j) :
    bigSep Finset.univ Φ = iprop(Φ k ∗ bigSep (Finset.univ.erase k) Φ') := by
  rw [bigSep_univ_split k, bigSep_congr (fun j hj => h j (Finset.ne_of_mem_erase hj))]; rfl

omit [FloatOps F] in
theorem bigSep_unfocus (k : Fin 16) (Φ' : Fin 16 → sProp 𝕄) :
    iprop(Φ' k ∗ bigSep (Finset.univ.erase k) Φ') = bigSep Finset.univ Φ' := (bigSep_univ_split k).symm

end Cert.KernelIdeal.Hand

end
-- ==== Proof.Launch.lean ====
import proofs.«901032_g7700000000001033_dist_rs_v7x_xyz2x2x4_x_m1024_n512_bf16_1_alg».proof.Proof.Data
import proofs.«901032_g7700000000001033_dist_rs_v7x_xyz2x2x4_x_m1024_n512_bf16_1_alg».proof.Proof.LaunchBase
import proofs.«901032_g7700000000001033_dist_rs_v7x_xyz2x2x4_x_m1024_n512_bf16_1_alg».proof.Proof.LaunchSched
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem creds (c : Dev nD) :
    (Pipeline.launchCred (O₀) c : sProp 𝕄) ⊢ iprop(cred (tallyAt (barCell c) () 2)
      ∗ (bigSep Finset.univ fun k : Fin 16 => cred (tallyAt (dCell .rx c k) () N))
      ∗ (bigSep Finset.univ fun k : Fin 16 => cred (tallyAt (dCell .rz c k) () N))) := by
  have h : (Pipeline.launchCred (O₀) c : sProp 𝕄)
      = iprop(((Pipeline.launchCred (fun d => (tallyAt (barCell (pxEquiv d)) () 1 : CellTallies nD τ sig Unit)) c
          ∗ Pipeline.launchCred (fun d => (tallyAt (barCell (pzEquiv d)) () 1 : CellTallies nD τ sig Unit)) c)
        ∗ Pipeline.launchCred (fun d => ∑ k : Fin 16, (tallyAt (dCell .rx (pxEquiv d) k) () N : CellTallies nD τ sig Unit)) c)
        ∗ Pipeline.launchCred (fun d => ∑ k : Fin 16, (tallyAt (dCell .rz (pzEquiv d) k) () N : CellTallies nD τ sig Unit)) c) := by
    rw [← Pipeline.launchCred_add, ← Pipeline.launchCred_add, ← Pipeline.launchCred_add]
    rfl
  rw [h]
  iintro ⟨⟨⟨H1, H2⟩, H3⟩, H4⟩
  ihave H1' := (launchCred_bar (F := F) pxEquiv 1 c) $$ H1
  ihave H2' := (launchCred_bar (F := F) pzEquiv 1 c) $$ H2
  ihave H3' := (launchCred_fam (F := F) .rx pxEquiv N c) $$ H3
  ihave H4' := (launchCred_fam (F := F) .rz pzEquiv N c) $$ H4
  isplitl [H1' H2']
  · rw [← tallyAt_add (barCell c) () 1 1]
    iapply (cred_add _ _).2
    isplitl [H1'] <;> iassumption
  isplitl [H3'] <;> iassumption

theorem lv_bar (d : Dev nD) : lv (barCell d) () = 1 := by dsimp only [lv]; rw [if_pos rfl]
theorem lv_rx (d : Dev nD) (k : Fin 16) : lv (dCell .rx d k) () = 2 + 2 * k.val := by
  dsimp only [lv]; rw [if_neg (dma_ne_reg _ _), cellTrk_dsem]
theorem lv_rz (d : Dev nD) (k : Fin 16) : lv (dCell .rz d k) () = 3 + 2 * k.val := by
  dsimp only [lv]; rw [if_neg (dma_ne_reg _ _), cellTrk_dsem]

theorem lv_other (d : Dev nD) (q : DmaSem sig) (hq : cellTrk (.dma q) = none) : lv ((d : Thread nD τ), .dma q) () = 0 := by
  dsimp only [lv]; rw [if_neg (fun h => by cases h), hq]

theorem owedX_pos {c : Dev nD} {j : ℕ} {g : GSem nD τ sig} {u : Unit} (h : 0 < owedX c j g u) :
    ∃ k : Fin 16, j ≤ k.val ∧ g = dCell .rx (px c) k := by
  unfold owedX at h
  obtain ⟨k, hk, hp⟩ := Pipeline.sum_pos_exists h
  exact ⟨k, (Finset.mem_filter.mp hk).2, (Pipeline.tallyAt_pos hp).1⟩
theorem owedZ_pos {c : Dev nD} {j : ℕ} {g : GSem nD τ sig} {u : Unit} (h : 0 < owedZ c j g u) :
    ∃ k : Fin 16, j ≤ k.val ∧ g = dCell .rz (pz c) k := by
  unfold owedZ at h
  obtain ⟨k, hk, hp⟩ := Pipeline.sum_pos_exists h
  exact ⟨k, (Finset.mem_filter.mp hk).2, (Pipeline.tallyAt_pos hp).1⟩

theorem O₀_pos {c : Dev nD} {g : GSem nD τ sig} {u : Unit} (h : 0 < O₀ c g u) :
    g = barCell (px c) ∨ g = barCell (pz c) ∨ (∃ k, g = dCell .rx (px c) k) ∨ (∃ k, g = dCell .rz (pz c) k) := by
  unfold O₀ at h
  rcases Pipeline.add_pos_cases h with h | h
  · rcases Pipeline.add_pos_cases h with h | h
    · rcases Pipeline.add_pos_cases h with h | h
      · exact .inl (Pipeline.tallyAt_pos h).1
      · exact .inr (.inl (Pipeline.tallyAt_pos h).1)
    · obtain ⟨k, -, hk⟩ := Pipeline.sum_pos_exists h
      exact .inr (.inr (.inl ⟨k, (Pipeline.tallyAt_pos hk).1⟩))
  · obtain ⟨k, -, hk⟩ := Pipeline.sum_pos_exists h
    exact .inr (.inr (.inr ⟨k, (Pipeline.tallyAt_pos hk).1⟩))

omit [FloatOps F] in
theorem mayWait_of_above (c : Dev nD) (s : SemLoc sig) (O : CellTallies nD τ sig Unit)
    (h : ∀ (g : GSem nD τ sig) (u : Unit), 0 < O g u → g.1.2 = .tc ∧ lv ((c : Thread nD τ), s) () < lv g u) :
    (levAts L lv : sProp 𝕄) ⊢ MayWait (c : Thread nD τ) s () O :=
  Pipeline.mayWait_of_levAts (by rw [L_tc]; exact Finset.mem_singleton_self _)
    (fun g u hg => ⟨by unfold L; rw [if_pos (h g u hg).1]; exact Finset.mem_singleton_self _, (h g u hg).2⟩)

omit [FloatOps F] in
theorem mayWait_stage (c : Dev nD) (q : DmaSem sig) (hq : cellTrk (.dma q) = none) (O : CellTallies nD τ sig Unit) (hO : O = O₀ c ∨ O = 0) :
    (levAts L lv : sProp 𝕄) ⊢ MayWait (c : Thread nD τ) (.dma q) () O := by
  rcases hO with rfl | rfl
  · refine mayWait_of_above c _ _ fun g u hg => ?_
    cases u
    rw [lv_other c q hq]
    rcases O₀_pos hg with rfl | rfl | ⟨k, rfl⟩ | ⟨k, rfl⟩
    · exact ⟨rfl, by rw [lv_bar]; decide⟩
    · exact ⟨rfl, by rw [lv_bar]; decide⟩
    · exact ⟨rfl, by rw [lv_rx]; omega⟩
    · exact ⟨rfl, by rw [lv_rz]; omega⟩
  · rw [MayWait_zero]; iintro -; iempintro

omit [FloatOps F] in
theorem mayWait_bar (c : Dev nD) (i j : ℕ) :
    (levAts L lv : sProp 𝕄) ⊢ MayWait (c : Thread nD τ) (.reg barS) () (owedX c i + owedZ c j) := by
  refine mayWait_of_above c _ _ fun g u hg => ?_
  cases u
  rw [show lv ((c : Thread nD τ), .reg barS) () = 1 from lv_bar c]
  rcases Pipeline.add_pos_cases hg with h | h
  · obtain ⟨k, -, rfl⟩ := owedX_pos h; exact ⟨rfl, by rw [lv_rx]; omega⟩
  · obtain ⟨k, -, rfl⟩ := owedZ_pos h; exact ⟨rfl, by rw [lv_rz]; omega⟩

omit [FloatOps F] in
theorem mayWait_rx (c : Dev nD) (k : Fin 16) (j : ℕ) (hj : k.val ≤ j) :
    (levAts L lv : sProp 𝕄) ⊢ MayWait (c : Thread nD τ) (.dma (dsem .rx k)) () (owedZ c j) := by
  refine mayWait_of_above c _ _ fun g u hg => ?_
  cases u
  rw [show lv ((c : Thread nD τ), .dma (dsem .rx k)) () = 2 + 2 * k.val from lv_rx c k]
  obtain ⟨k', hk', rfl⟩ := owedZ_pos hg; exact ⟨rfl, by rw [lv_rz]; omega⟩

omit [FloatOps F] in
theorem mayWait_rz (c : Dev nD) (k : Fin 16) (j : ℕ) (hj : k.val < j) :
    (levAts L lv : sProp 𝕄) ⊢ MayWait (c : Thread nD τ) (.dma (dsem .rz k)) () (owedZ c j) := by
  refine mayWait_of_above c _ _ fun g u hg => ?_
  cases u
  rw [show lv ((c : Thread nD τ), .dma (dsem .rz k)) () = 3 + 2 * k.val from lv_rz c k]
  obtain ⟨k', hk', rfl⟩ := owedZ_pos hg; exact ⟨rfl, by rw [lv_rz]; omega⟩

theorem share_eq (c : Dev nD) (w : Fin cfg0.W) : (dats m ρ 0 c).share w = fullShare := by unfold Dat.share; split <;> rfl

theorem ghost_intro (K : Dev nD × CellIx → ℕ) (c : Dev nD) : iprop(records (rd m ρ) K ∗ linear pxEquiv pzEquiv c) ⊢ ghost m ρ c := by
  unfold ghost
  iintro H
  iexists K
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨HB, HX, HZ⟩
  imodintro
  unfold start
  isplitl
  · isplitl [HG]; · iexact HG
    isplitl [HB]; · iexact HB
    isplitl [HX]; · iexact HX
    isplitl [HZ]; · iexact HZ
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr3
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scr3
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (rd m ρ)) (G' := ghost m ρ) (u₀ := u₀)
    (hu₀ := fund_u₀ (rd m ρ))
    (hglob := glob (rd m ρ) pxEquiv pzEquiv (ghost m ρ) (ghost_intro m ρ))
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Hand

end
-- ==== Proof.Offs.lean ====
import proofs.«901032_g7700000000001033_dist_rs_v7x_xyz2x2x4_x_m1024_n512_bf16_1_alg».proof.Proof.Mesh

namespace Cert.KernelIdeal.Hand

open Cert.KernelIdeal Cert.KernelIdeal.Gen Idealize.ShloMosaic

theorem vec3_mid {a b b' q : Nat} (h : b = b') : (![a, b, q] : Fin 3 → Nat) = ![a, b', q] := by rw [h]
theorem vec2_fst {b b' q : Nat} (h : b = b') : (![b, q] : Fin 2 → Nat) = ![b', q] := by rw [h]

theorem off1_eq (c : Dev nD) : k0_off1 c = ![0, 512 * sOf c + 32 * 0, 512] := (k0_off1_eq c).trans (vec3_mid (by unfold sOf; omega))
theorem off2_eq (c : Dev nD) : k0_off2 c = ![0, 512 * sOf c + 32 * 0, 0] := (k0_off2_eq c).trans (vec3_mid (by unfold sOf; omega))
theorem off3_eq (c : Dev nD) : k0_off3 c = ![0, 512 * sOf c + 32 * 1, 512] := (k0_off3_eq c).trans (vec3_mid (by unfold sOf; omega))
theorem off4_eq (c : Dev nD) : k0_off4 c = ![0, 512 * sOf c + 32 * 1, 0] := (k0_off4_eq c).trans (vec3_mid (by unfold sOf; omega))
theorem off5_eq (c : Dev nD) : k0_off5 c = ![0, 512 * sOf c + 32 * 2, 512] := (k0_off5_eq c).trans (vec3_mid (by unfold sOf; omega))
theorem off6_eq (c : Dev nD) : k0_off6 c = ![0, 512 * sOf c + 32 * 2, 0] := (k0_off6_eq c).trans (vec3_mid (by unfold sOf; omega))
theorem off7_eq (c : Dev nD) : k0_off7 c = ![0, 512 * sOf c + 32 * 3, 512] := (k0_off7_eq c).trans (vec3_mid (by unfold sOf; omega))
theorem off8_eq (c : Dev nD) : k0_off8 c = ![0, 512 * sOf c + 32 * 3, 0] := (k0_off8_eq c).trans (vec3_mid (by unfold sOf; omega))
theorem off9_eq (c : Dev nD) : k0_off9 c = ![0, 512 * sOf c + 32 * 4, 512] := (k0_off9_eq c).trans (vec3_mid (by unfold sOf; omega))
theorem off10_eq (c : Dev nD) : k0_off10 c = ![0, 512 * sOf c + 32 * 4, 0] := (k0_off10_eq c).trans (vec3_mid (by unfold sOf; omega))
theorem off11_eq (c : Dev nD) : k0_off11 c = ![0, 512 * sOf c + 32 * 5, 512] := (k0_off11_eq c).trans (vec3_mid (by unfold sOf; omega))
theorem off12_eq (c : Dev nD) : k0_off12 c = ![0, 512 * sOf c + 32 * 5, 0] := (k0_off12_eq c).trans (vec3_mid (by unfold sOf; omega))
theorem off13_eq (c : Dev nD) : k0_off13 c = ![0, 512 * sOf c + 32 * 6, 512] := (k0_off13_eq c).trans (vec3_mid (by unfold sOf; omega))
theorem off14_eq (c : Dev nD) : k0_off14 c = ![0, 512 * sOf c + 32 * 6, 0] := (k0_off14_eq c).trans (vec3_mid (by unfold sOf; omega))
theorem off15_eq (c : Dev nD) : k0_off15 c = ![0, 512 * sOf c + 32 * 7, 512] := (k0_off15_eq c).trans (vec3_mid (by unfold sOf; omega))
theorem off16_eq (c : Dev nD) : k0_off16 c = ![0, 512 * sOf c + 32 * 7, 0] := (k0_off16_eq c).trans (vec3_mid (by unfold sOf; omega))
theorem off17_eq (c : Dev nD) : k0_off17 c = ![0, 512 * sOf c + 32 * 8, 512] := (k0_off17_eq c).trans (vec3_mid (by unfold sOf; omega))
theorem off18_eq (c : Dev nD) : k0_off18 c = ![0, 512 * sOf c + 32 * 8, 0] := (k0_off18_eq c).trans (vec3_mid (by unfold sOf; omega))
theorem off19_eq (c : Dev nD) : k0_off19 c = ![0, 512 * sOf c + 32 * 9, 512] := (k0_off19_eq c).trans (vec3_mid (by unfold sOf; omega))
theorem off20_eq (c : Dev nD) : k0_off20 c = ![0, 512 * sOf c + 32 * 9, 0] := (k0_off20_eq c).trans (vec3_mid (by unfold sOf; omega))
theorem off21_eq (c : Dev nD) : k0_off21 c = ![0, 512 * sOf c + 32 * 10, 512] := (k0_off21_eq c).trans (vec3_mid (by unfold sOf; omega))
theorem off22_eq (c : Dev nD) : k0_off22 c = ![0, 512 * sOf c + 32 * 10, 0] := (k0_off22_eq c).trans (vec3_mid (by unfold sOf; omega))
theorem off23_eq (c : Dev nD) : k0_off23 c = ![0, 512 * sOf c + 32 * 11, 512] := (k0_off23_eq c).trans (vec3_mid (by unfold sOf; omega))
theorem off24_eq (c : Dev nD) : k0_off24 c = ![0, 512 * sOf c + 32 * 11, 0] := (k0_off24_eq c).trans (vec3_mid (by unfold sOf; omega))
theorem off25_eq (c : Dev nD) : k0_off25 c = ![0, 512 * sOf c + 32 * 12, 512] := (k0_off25_eq c).trans (vec3_mid (by unfold sOf; omega))
theorem off26_eq (c : Dev nD) : k0_off26 c = ![0, 512 * sOf c + 32 * 12, 0] := (k0_off26_eq c).trans (vec3_mid (by unfold sOf; omega))
theorem off27_eq (c : Dev nD) : k0_off27 c = ![0, 512 * sOf c + 32 * 13, 512] := (k0_off27_eq c).trans (vec3_mid (by unfold sOf; omega))
theorem off28_eq (c : Dev nD) : k0_off28 c = ![0, 512 * sOf c + 32 * 13, 0] := (k0_off28_eq c).trans (vec3_mid (by unfold sOf; omega))
theorem off29_eq (c : Dev nD) : k0_off29 c = ![0, 512 * sOf c + 32 * 14, 512] := (k0_off29_eq c).trans (vec3_mid (by unfold sOf; omega))
theorem off30_eq (c : Dev nD) : k0_off30 c = ![0, 512 * sOf c + 32 * 14, 0] := (k0_off30_eq c).trans (vec3_mid (by unfold sOf; omega))
theorem off31_eq (c : Dev nD) : k0_off31 c = ![0, 512 * sOf c + 32 * 15, 512] := (k0_off31_eq c).trans (vec3_mid (by unfold sOf; omega))
theorem off32_eq (c : Dev nD) : k0_off32 c = ![0, 512 * sOf c + 32 * 15, 0] := (k0_off32_eq c).trans (vec3_mid (by unfold sOf; omega))
theorem off33_eq (c : Dev nD) : k0_off33 c = ![0, 512 * sOf c + 32 * 0, 0] := (k0_off33_eq c).trans (vec3_mid (by unfold sOf; omega))
theorem off34_eq (c : Dev nD) : k0_off34 c = ![512 * sOf c + 32 * 0, 0] := (k0_off34_eq c).trans (vec2_fst (by unfold sOf; omega))
theorem off35_eq (c : Dev nD) : k0_off35 c = ![0, 512 * sOf c + 32 * 0, 512] := (k0_off35_eq c).trans (vec3_mid (by unfold sOf; omega))
theorem off36_eq (c : Dev nD) : k0_off36 c = ![512 * sOf c + 32 * 0, 0] := (k0_off36_eq c).trans (vec2_fst (by unfold sOf; omega))
theorem off37_eq (c : Dev nD) : k0_off37 c = ![0, 512 * sOf c + 32 * 1, 0] := (k0_off37_eq c).trans (vec3_mid (by unfold sOf; omega))
theorem off38_eq (c : Dev nD) : k0_off38 c = ![512 * sOf c + 32 * 1, 0] := (k0_off38_eq c).trans (vec2_fst (by unfold sOf; omega))
theorem off39_eq (c : Dev nD) : k0_off39 c = ![0, 512 * sOf c + 32 * 1, 512] := (k0_off39_eq c).trans (vec3_mid (by unfold sOf; omega))
theorem off40_eq (c : Dev nD) : k0_off40 c = ![512 * sOf c + 32 * 1, 0] := (k0_off40_eq c).trans (vec2_fst (by unfold sOf; omega))
theorem off41_eq (c : Dev nD) : k0_off41 c = ![0, 512 * sOf c + 32 * 2, 0] := (k0_off41_eq c).trans (vec3_mid (by unfold sOf; omega))
theorem off42_eq (c : Dev nD) : k0_off42 c = ![512 * sOf c + 32 * 2, 0] := (k0_off42_eq c).trans (vec2_fst (by unfold sOf; omega))
theorem off43_eq (c : Dev nD) : k0_off43 c = ![0, 512 * sOf c + 32 * 2, 512] := (k0_off43_eq c).trans (vec3_mid (by unfold sOf; omega))
theorem off44_eq (c : Dev nD) : k0_off44 c = ![512 * sOf c + 32 * 2, 0] := (k0_off44_eq c).trans (vec2_fst (by unfold sOf; omega))
theorem off45_eq (c : Dev nD) : k0_off45 c = ![0, 512 * sOf c + 32 * 3, 0] := (k0_off45_eq c).trans (vec3_mid (by unfold sOf; omega))
theorem off46_eq (c : Dev nD) : k0_off46 c = ![512 * sOf c + 32 * 3, 0] := (k0_off46_eq c).trans (vec2_fst (by unfold sOf; omega))
theorem off47_eq (c : Dev nD) : k0_off47 c = ![0, 512 * sOf c + 32 * 3, 512] := (k0_off47_eq c).trans (vec3_mid (by unfold sOf; omega))
theorem off48_eq (c : Dev nD) : k0_off48 c = ![512 * sOf c + 32 * 3, 0] := (k0_off48_eq c).trans (vec2_fst (by unfold sOf; omega))
theorem off49_eq (c : Dev nD) : k0_off49 c = ![0, 512 * sOf c + 32 * 4, 0] := (k0_off49_eq c).trans (vec3_mid (by unfold sOf; omega))
theorem off50_eq (c : Dev nD) : k0_off50 c = ![512 * sOf c + 32 * 4, 0] := (k0_off50_eq c).trans (vec2_fst (by unfold sOf; omega))
theorem off51_eq (c : Dev nD) : k0_off51 c = ![0, 512 * sOf c + 32 * 4, 512] := (k0_off51_eq c).trans (vec3_mid (by unfold sOf; omega))
theorem off52_eq (c : Dev nD) : k0_off52 c = ![512 * sOf c + 32 * 4, 0] := (k0_off52_eq c).trans (vec2_fst (by unfold sOf; omega))
theorem off53_eq (c : Dev nD) : k0_off53 c = ![0, 512 * sOf c + 32 * 5, 0] := (k0_off53_eq c).trans (vec3_mid (by unfold sOf; omega))
theorem off54_eq (c : Dev nD) : k0_off54 c = ![512 * sOf c + 32 * 5, 0] := (k0_off54_eq c).trans (vec2_fst (by unfold sOf; omega))
theorem off55_eq (c : Dev nD) : k0_off55 c = ![0, 512 * sOf c + 32 * 5, 512] := (k0_off55_eq c).trans (vec3_mid (by unfold sOf; omega))
theorem off56_eq (c : Dev nD) : k0_off56 c = ![512 * sOf c + 32 * 5, 0] := (k0_off56_eq c).trans (vec2_fst (by unfold sOf; omega))
theorem off57_eq (c : Dev nD) : k0_off57 c = ![0, 512 * sOf c + 32 * 6, 0] := (k0_off57_eq c).trans (vec3_mid (by unfold sOf; omega))
theorem off58_eq (c : Dev nD) : k0_off58 c = ![512 * sOf c + 32 * 6, 0] := (k0_off58_eq c).trans (vec2_fst (by unfold sOf; omega))
theorem off59_eq (c : Dev nD) : k0_off59 c = ![0, 512 * sOf c + 32 * 6, 512] := (k0_off59_eq c).trans (vec3_mid (by unfold sOf; omega))
theorem off60_eq (c : Dev nD) : k0_off60 c = ![512 * sOf c + 32 * 6, 0] := (k0_off60_eq c).trans (vec2_fst (by unfold sOf; omega))
theorem off61_eq (c : Dev nD) : k0_off61 c = ![0, 512 * (1 - sOf c) + 32 * 0, 0] := (k0_off61_eq c).trans (vec3_mid (by unfold sOf; omega))
theorem off62_eq (c : Dev nD) : k0_off62 c = ![512 * (1 - sOf c) + 32 * 0, 0] := (k0_off62_eq c).trans (vec2_fst (by unfold sOf; omega))
theorem off63_eq (c : Dev nD) : k0_off63 c = ![0, 512 * (1 - sOf c) + 32 * 0, 512] := (k0_off63_eq c).trans (vec3_mid (by unfold sOf; omega))
theorem off64_eq (c : Dev nD) : k0_off64 c = ![512 * (1 - sOf c) + 32 * 0, 0] := (k0_off64_eq c).trans (vec2_fst (by unfold sOf; omega))
theorem off65_eq (c : Dev nD) : k0_off65 c = ![0, 512 * sOf c + 32 * 7, 0] := (k0_off65_eq c).trans (vec3_mid (by unfold sOf; omega))
theorem off66_eq (c : Dev nD) : k0_off66 c = ![512 * sOf c + 32 * 7, 0] := (k0_off66_eq c).trans (vec2_fst (by unfold sOf; omega))
theorem off67_eq (c : Dev nD) : k0_off67 c = ![0, 512 * sOf c + 32 * 7, 512] := (k0_off67_eq c).trans (vec3_mid (by unfold sOf; omega))
theorem off68_eq (c : Dev nD) : k0_off68 c = ![512 * sOf c + 32 * 7, 0] := (k0_off68_eq c).trans (vec2_fst (by unfold sOf; omega))
theorem off69_eq (c : Dev nD) : k0_off69 c = ![0, 512 * (1 - sOf c) + 32 * 1, 0] := (k0_off69_eq c).trans (vec3_mid (by unfold sOf; omega))
theorem off70_eq (c : Dev nD) : k0_off70 c = ![512 * (1 - sOf c) + 32 * 1, 0] := (k0_off70_eq c).trans (vec2_fst (by unfold sOf; omega))
theorem off71_eq (c : Dev nD) : k0_off71 c = ![0, 512 * (1 - sOf c) + 32 * 1, 512] := (k0_off71_eq c).trans (vec3_mid (by unfold sOf; omega))
theorem off72_eq (c : Dev nD) : k0_off72 c = ![512 * (1 - sOf c) + 32 * 1, 0] := (k0_off72_eq c).trans (vec2_fst (by unfold sOf; omega))
theorem off73_eq (c : Dev nD) : k0_off73 c = ![0, 512 * sOf c + 32 * 8, 0] := (k0_off73_eq c).trans (vec3_mid (by unfold sOf; omega))
theorem off74_eq (c : Dev nD) : k0_off74 c = ![512 * sOf c + 32 * 8, 0] := (k0_off74_eq c).trans (vec2_fst (by unfold sOf; omega))
theorem off75_eq (c : Dev nD) : k0_off75 c = ![0, 512 * sOf c + 32 * 8, 512] := (k0_off75_eq c).trans (vec3_mid (by unfold sOf; omega))
theorem off76_eq (c : Dev nD) : k0_off76 c = ![512 * sOf c + 32 * 8, 0] := (k0_off76_eq c).trans (vec2_fst (by unfold sOf; omega))
theorem off77_eq (c : Dev nD) : k0_off77 c = ![0, 512 * (1 - sOf c) + 32 * 2, 0] := (k0_off77_eq c).trans (vec3_mid (by unfold sOf; omega))
theorem off78_eq (c : Dev nD) : k0_off78 c = ![512 * (1 - sOf c) + 32 * 2, 0] := (k0_off78_eq c).trans (vec2_fst (by unfold sOf; omega))
theorem off79_eq (c : Dev nD) : k0_off79 c = ![0, 512 * (1 - sOf c) + 32 * 2, 512] := (k0_off79_eq c).trans (vec3_mid (by unfold sOf; omega))
theorem off80_eq (c : Dev nD) : k0_off80 c = ![512 * (1 - sOf c) + 32 * 2, 0] := (k0_off80_eq c).trans (vec2_fst (by unfold sOf; omega))
theorem off81_eq (c : Dev nD) : k0_off81 c = ![0, 512 * sOf c + 32 * 9, 0] := (k0_off81_eq c).trans (vec3_mid (by unfold sOf; omega))
theorem off82_eq (c : Dev nD) : k0_off82 c = ![512 * sOf c + 32 * 9, 0] := (k0_off82_eq c).trans (vec2_fst (by unfold sOf; omega))
theorem off83_eq (c : Dev nD) : k0_off83 c = ![0, 512 * sOf c + 32 * 9, 512] := (k0_off83_eq c).trans (vec3_mid (by unfold sOf; omega))
theorem off84_eq (c : Dev nD) : k0_off84 c = ![512 * sOf c + 32 * 9, 0] := (k0_off84_eq c).trans (vec2_fst (by unfold sOf; omega))
theorem off85_eq (c : Dev nD) : k0_off85 c = ![0, 512 * (1 - sOf c) + 32 * 3, 0] := (k0_off85_eq c).trans (vec3_mid (by unfold sOf; omega))
theorem off86_eq (c : Dev nD) : k0_off86 c = ![512 * (1 - sOf c) + 32 * 3, 0] := (k0_off86_eq c).trans (vec2_fst (by unfold sOf; omega))
theorem off87_eq (c : Dev nD) : k0_off87 c = ![0, 512 * (1 - sOf c) + 32 * 3, 512] := (k0_off87_eq c).trans (vec3_mid (by unfold sOf; omega))
theorem off88_eq (c : Dev nD) : k0_off88 c = ![512 * (1 - sOf c) + 32 * 3, 0] := (k0_off88_eq c).trans (vec2_fst (by unfold sOf; omega))
theorem off89_eq (c : Dev nD) : k0_off89 c = ![0, 512 * sOf c + 32 * 10, 0] := (k0_off89_eq c).trans (vec3_mid (by unfold sOf; omega))
theorem off90_eq (c : Dev nD) : k0_off90 c = ![512 * sOf c + 32 * 10, 0] := (k0_off90_eq c).trans (vec2_fst (by unfold sOf; omega))
theorem off91_eq (c : Dev nD) : k0_off91 c = ![0, 512 * sOf c + 32 * 10, 512] := (k0_off91_eq c).trans (vec3_mid (by unfold sOf; omega))
theorem off92_eq (c : Dev nD) : k0_off92 c = ![512 * sOf c + 32 * 10, 0] := (k0_off92_eq c).trans (vec2_fst (by unfold sOf; omega))
theorem off93_eq (c : Dev nD) : k0_off93 c = ![0, 512 * (1 - sOf c) + 32 * 4, 0] := (k0_off93_eq c).trans (vec3_mid (by unfold sOf; omega))
theorem off94_eq (c : Dev nD) : k0_off94 c = ![512 * (1 - sOf c) + 32 * 4, 0] := (k0_off94_eq c).trans (vec2_fst (by unfold sOf; omega))
theorem off95_eq (c : Dev nD) : k0_off95 c = ![0, 512 * (1 - sOf c) + 32 * 4, 512] := (k0_off95_eq c).trans (vec3_mid (by unfold sOf; omega))
theorem off96_eq (c : Dev nD) : k0_off96 c = ![512 * (1 - sOf c) + 32 * 4, 0] := (k0_off96_eq c).trans (vec2_fst (by unfold sOf; omega))
theorem off97_eq (c : Dev nD) : k0_off97 c = ![0, 512 * sOf c + 32 * 11, 0] := (k0_off97_eq c).trans (vec3_mid (by unfold sOf; omega))
theorem off98_eq (c : Dev nD) : k0_off98 c = ![512 * sOf c + 32 * 11, 0] := (k0_off98_eq c).trans (vec2_fst (by unfold sOf; omega))
theorem off99_eq (c : Dev nD) : k0_off99 c = ![0, 512 * sOf c + 32 * 11, 512] := (k0_off99_eq c).trans (vec3_mid (by unfold sOf; omega))
theorem off100_eq (c : Dev nD) : k0_off100 c = ![512 * sOf c + 32 * 11, 0] := (k0_off100_eq c).trans (vec2_fst (by unfold sOf; omega))
theorem off101_eq (c : Dev nD) : k0_off101 c = ![0, 512 * (1 - sOf c) + 32 * 5, 0] := (k0_off101_eq c).trans (vec3_mid (by unfold sOf; omega))
theorem off102_eq (c : Dev nD) : k0_off102 c = ![512 * (1 - sOf c) + 32 * 5, 0] := (k0_off102_eq c).trans (vec2_fst (by unfold sOf; omega))
theorem off103_eq (c : Dev nD) : k0_off103 c = ![0, 512 * (1 - sOf c) + 32 * 5, 512] := (k0_off103_eq c).trans (vec3_mid (by unfold sOf; omega))
theorem off104_eq (c : Dev nD) : k0_off104 c = ![512 * (1 - sOf c) + 32 * 5, 0] := (k0_off104_eq c).trans (vec2_fst (by unfold sOf; omega))
theorem off105_eq (c : Dev nD) : k0_off105 c = ![0, 512 * sOf c + 32 * 12, 0] := (k0_off105_eq c).trans (vec3_mid (by unfold sOf; omega))
theorem off106_eq (c : Dev nD) : k0_off106 c = ![512 * sOf c + 32 * 12, 0] := (k0_off106_eq c).trans (vec2_fst (by unfold sOf; omega))
theorem off107_eq (c : Dev nD) : k0_off107 c = ![0, 512 * sOf c + 32 * 12, 512] := (k0_off107_eq c).trans (vec3_mid (by unfold sOf; omega))
theorem off108_eq (c : Dev nD) : k0_off108 c = ![512 * sOf c + 32 * 12, 0] := (k0_off108_eq c).trans (vec2_fst (by unfold sOf; omega))
theorem off109_eq (c : Dev nD) : k0_off109 c = ![0, 512 * (1 - sOf c) + 32 * 6, 0] := (k0_off109_eq c).trans (vec3_mid (by unfold sOf; omega))
theorem off110_eq (c : Dev nD) : k0_off110 c = ![512 * (1 - sOf c) + 32 * 6, 0] := (k0_off110_eq c).trans (vec2_fst (by unfold sOf; omega))
theorem off111_eq (c : Dev nD) : k0_off111 c = ![0, 512 * (1 - sOf c) + 32 * 6, 512] := (k0_off111_eq c).trans (vec3_mid (by unfold sOf; omega))
theorem off112_eq (c : Dev nD) : k0_off112 c = ![512 * (1 - sOf c) + 32 * 6, 0] := (k0_off112_eq c).trans (vec2_fst (by unfold sOf; omega))
theorem off113_eq (c : Dev nD) : k0_off113 c = ![0, 512 * sOf c + 32 * 13, 0] := (k0_off113_eq c).trans (vec3_mid (by unfold sOf; omega))
theorem off114_eq (c : Dev nD) : k0_off114 c = ![512 * sOf c + 32 * 13, 0] := (k0_off114_eq c).trans (vec2_fst (by unfold sOf; omega))
theorem off115_eq (c : Dev nD) : k0_off115 c = ![0, 512 * sOf c + 32 * 13, 512] := (k0_off115_eq c).trans (vec3_mid (by unfold sOf; omega))
theorem off116_eq (c : Dev nD) : k0_off116 c = ![512 * sOf c + 32 * 13, 0] := (k0_off116_eq c).trans (vec2_fst (by unfold sOf; omega))
theorem off117_eq (c : Dev nD) : k0_off117 c = ![0, 512 * (1 - sOf c) + 32 * 7, 0] := (k0_off117_eq c).trans (vec3_mid (by unfold sOf; omega))
theorem off118_eq (c : Dev nD) : k0_off118 c = ![512 * (1 - sOf c) + 32 * 7, 0] := (k0_off118_eq c).trans (vec2_fst (by unfold sOf; omega))
theorem off119_eq (c : Dev nD) : k0_off119 c = ![0, 512 * (1 - sOf c) + 32 * 7, 512] := (k0_off119_eq c).trans (vec3_mid (by unfold sOf; omega))
theorem off120_eq (c : Dev nD) : k0_off120 c = ![512 * (1 - sOf c) + 32 * 7, 0] := (k0_off120_eq c).trans (vec2_fst (by unfold sOf; omega))
theorem off121_eq (c : Dev nD) : k0_off121 c = ![0, 512 * sOf c + 32 * 14, 0] := (k0_off121_eq c).trans (vec3_mid (by unfold sOf; omega))
theorem off122_eq (c : Dev nD) : k0_off122 c = ![512 * sOf c + 32 * 14, 0] := (k0_off122_eq c).trans (vec2_fst (by unfold sOf; omega))
theorem off123_eq (c : Dev nD) : k0_off123 c = ![0, 512 * sOf c + 32 * 14, 512] := (k0_off123_eq c).trans (vec3_mid (by unfold sOf; omega))
theorem off124_eq (c : Dev nD) : k0_off124 c = ![512 * sOf c + 32 * 14, 0] := (k0_off124_eq c).trans (vec2_fst (by unfold sOf; omega))
theorem off125_eq (c : Dev nD) : k0_off125 c = ![0, 512 * (1 - sOf c) + 32 * 8, 0] := (k0_off125_eq c).trans (vec3_mid (by unfold sOf; omega))
theorem off126_eq (c : Dev nD) : k0_off126 c = ![512 * (1 - sOf c) + 32 * 8, 0] := (k0_off126_eq c).trans (vec2_fst (by unfold sOf; omega))
theorem off127_eq (c : Dev nD) : k0_off127 c = ![0, 512 * (1 - sOf c) + 32 * 8, 512] := (k0_off127_eq c).trans (vec3_mid (by unfold sOf; omega))
theorem off128_eq (c : Dev nD) : k0_off128 c = ![512 * (1 - sOf c) + 32 * 8, 0] := (k0_off128_eq c).trans (vec2_fst (by unfold sOf; omega))
theorem off129_eq (c : Dev nD) : k0_off129 c = ![0, 512 * sOf c + 32 * 15, 0] := (k0_off129_eq c).trans (vec3_mid (by unfold sOf; omega))
theorem off130_eq (c : Dev nD) : k0_off130 c = ![512 * sOf c + 32 * 15, 0] := (k0_off130_eq c).trans (vec2_fst (by unfold sOf; omega))
theorem off131_eq (c : Dev nD) : k0_off131 c = ![0, 512 * sOf c + 32 * 15, 512] := (k0_off131_eq c).trans (vec3_mid (by unfold sOf; omega))
theorem off132_eq (c : Dev nD) : k0_off132 c = ![512 * sOf c + 32 * 15, 0] := (k0_off132_eq c).trans (vec2_fst (by unfold sOf; omega))
theorem off133_eq (c : Dev nD) : k0_off133 c = ![0, 512 * (1 - sOf c) + 32 * 9, 0] := (k0_off133_eq c).trans (vec3_mid (by unfold sOf; omega))
theorem off134_eq (c : Dev nD) : k0_off134 c = ![512 * (1 - sOf c) + 32 * 9, 0] := (k0_off134_eq c).trans (vec2_fst (by unfold sOf; omega))
theorem off135_eq (c : Dev nD) : k0_off135 c = ![0, 512 * (1 - sOf c) + 32 * 9, 512] := (k0_off135_eq c).trans (vec3_mid (by unfold sOf; omega))
theorem off136_eq (c : Dev nD) : k0_off136 c = ![512 * (1 - sOf c) + 32 * 9, 0] := (k0_off136_eq c).trans (vec2_fst (by unfold sOf; omega))
theorem off137_eq (c : Dev nD) : k0_off137 c = ![0, 512 * (1 - sOf c) + 32 * 10, 0] := (k0_off137_eq c).trans (vec3_mid (by unfold sOf; omega))
theorem off138_eq (c : Dev nD) : k0_off138 c = ![512 * (1 - sOf c) + 32 * 10, 0] := (k0_off138_eq c).trans (vec2_fst (by unfold sOf; omega))
theorem off139_eq (c : Dev nD) : k0_off139 c = ![0, 512 * (1 - sOf c) + 32 * 10, 512] := (k0_off139_eq c).trans (vec3_mid (by unfold sOf; omega))
theorem off140_eq (c : Dev nD) : k0_off140 c = ![512 * (1 - sOf c) + 32 * 10, 0] := (k0_off140_eq c).trans (vec2_fst (by unfold sOf; omega))
theorem off141_eq (c : Dev nD) : k0_off141 c = ![0, 512 * (1 - sOf c) + 32 * 11, 0] := (k0_off141_eq c).trans (vec3_mid (by unfold sOf; omega))
theorem off142_eq (c : Dev nD) : k0_off142 c = ![512 * (1 - sOf c) + 32 * 11, 0] := (k0_off142_eq c).trans (vec2_fst (by unfold sOf; omega))
theorem off143_eq (c : Dev nD) : k0_off143 c = ![0, 512 * (1 - sOf c) + 32 * 11, 512] := (k0_off143_eq c).trans (vec3_mid (by unfold sOf; omega))
theorem off144_eq (c : Dev nD) : k0_off144 c = ![512 * (1 - sOf c) + 32 * 11, 0] := (k0_off144_eq c).trans (vec2_fst (by unfold sOf; omega))
theorem off145_eq (c : Dev nD) : k0_off145 c = ![0, 512 * (1 - sOf c) + 32 * 12, 0] := (k0_off145_eq c).trans (vec3_mid (by unfold sOf; omega))
theorem off146_eq (c : Dev nD) : k0_off146 c = ![512 * (1 - sOf c) + 32 * 12, 0] := (k0_off146_eq c).trans (vec2_fst (by unfold sOf; omega))
theorem off147_eq (c : Dev nD) : k0_off147 c = ![0, 512 * (1 - sOf c) + 32 * 12, 512] := (k0_off147_eq c).trans (vec3_mid (by unfold sOf; omega))
theorem off148_eq (c : Dev nD) : k0_off148 c = ![512 * (1 - sOf c) + 32 * 12, 0] := (k0_off148_eq c).trans (vec2_fst (by unfold sOf; omega))
theorem off149_eq (c : Dev nD) : k0_off149 c = ![0, 512 * (1 - sOf c) + 32 * 13, 0] := (k0_off149_eq c).trans (vec3_mid (by unfold sOf; omega))
theorem off150_eq (c : Dev nD) : k0_off150 c = ![512 * (1 - sOf c) + 32 * 13, 0] := (k0_off150_eq c).trans (vec2_fst (by unfold sOf; omega))
theorem off151_eq (c : Dev nD) : k0_off151 c = ![0, 512 * (1 - sOf c) + 32 * 13, 512] := (k0_off151_eq c).trans (vec3_mid (by unfold sOf; omega))
theorem off152_eq (c : Dev nD) : k0_off152 c = ![512 * (1 - sOf c) + 32 * 13, 0] := (k0_off152_eq c).trans (vec2_fst (by unfold sOf; omega))
theorem off153_eq (c : Dev nD) : k0_off153 c = ![0, 512 * (1 - sOf c) + 32 * 14, 0] := (k0_off153_eq c).trans (vec3_mid (by unfold sOf; omega))
theorem off154_eq (c : Dev nD) : k0_off154 c = ![512 * (1 - sOf c) + 32 * 14, 0] := (k0_off154_eq c).trans (vec2_fst (by unfold sOf; omega))
theorem off155_eq (c : Dev nD) : k0_off155 c = ![0, 512 * (1 - sOf c) + 32 * 14, 512] := (k0_off155_eq c).trans (vec3_mid (by unfold sOf; omega))
theorem off156_eq (c : Dev nD) : k0_off156 c = ![512 * (1 - sOf c) + 32 * 14, 0] := (k0_off156_eq c).trans (vec2_fst (by unfold sOf; omega))
theorem off157_eq (c : Dev nD) : k0_off157 c = ![0, 512 * (1 - sOf c) + 32 * 15, 0] := (k0_off157_eq c).trans (vec3_mid (by unfold sOf; omega))
theorem off158_eq (c : Dev nD) : k0_off158 c = ![512 * (1 - sOf c) + 32 * 15, 0] := (k0_off158_eq c).trans (vec2_fst (by unfold sOf; omega))
theorem off159_eq (c : Dev nD) : k0_off159 c = ![0, 512 * (1 - sOf c) + 32 * 15, 512] := (k0_off159_eq c).trans (vec3_mid (by unfold sOf; omega))
theorem off160_eq (c : Dev nD) : k0_off160 c = ![512 * (1 - sOf c) + 32 * 15, 0] := (k0_off160_eq c).trans (vec2_fst (by unfold sOf; omega))

end Cert.KernelIdeal.Hand
-- ==== Proof.MeshConds.lean ====
import proofs.«901032_g7700000000001033_dist_rs_v7x_xyz2x2x4_x_m1024_n512_bf16_1_alg».proof.Proof.Mesh

set_option Elab.async false

namespace Cert.KernelIdeal.Hand

open Cert.KernelIdeal Cert.KernelIdeal.Gen Idealize.ShloMosaic

/-- The bit that says the x coordinate is 0; every odd-numbered branch condition of the body equals it. -/
def mx0Bit (c : Dev nD) : BitVec 1 := if mxOf c = 0 then 1#1 else 0#1

/-- The bit that says the x coordinate is 1; every even-numbered branch condition equals it. -/
def mx1Bit (c : Dev nD) : BitVec 1 := if mxOf c = 1 then 1#1 else 0#1

theorem mx0Bit_mx0 (c : Dev nD) (h : mxOf c = 0) : mx0Bit c = 1#1 := by simp [mx0Bit, h]
theorem mx0Bit_mx1 (c : Dev nD) (h : mxOf c = 1) : mx0Bit c = 0#1 := by simp [mx0Bit, h]
theorem mx1Bit_mx0 (c : Dev nD) (h : mxOf c = 0) : mx1Bit c = 0#1 := by simp [mx1Bit, h]
theorem mx1Bit_mx1 (c : Dev nD) (h : mxOf c = 1) : mx1Bit c = 1#1 := by simp [mx1Bit, h]

theorem cond1_eq : ∀ c : Dev nD, k0_cond1 c = mx0Bit c := by decide +kernel
theorem cond2_eq : ∀ c : Dev nD, k0_cond2 c = mx1Bit c := by decide +kernel
theorem cond3_eq : ∀ c : Dev nD, k0_cond3 c = mx0Bit c := by decide +kernel
theorem cond4_eq : ∀ c : Dev nD, k0_cond4 c = mx1Bit c := by decide +kernel
theorem cond5_eq : ∀ c : Dev nD, k0_cond5 c = mx0Bit c := by decide +kernel
theorem cond6_eq : ∀ c : Dev nD, k0_cond6 c = mx1Bit c := by decide +kernel
theorem cond7_eq : ∀ c : Dev nD, k0_cond7 c = mx0Bit c := by decide +kernel
theorem cond8_eq : ∀ c : Dev nD, k0_cond8 c = mx1Bit c := by decide +kernel
theorem cond9_eq : ∀ c : Dev nD, k0_cond9 c = mx0Bit c := by decide +kernel
theorem cond10_eq : ∀ c : Dev nD, k0_cond10 c = mx1Bit c := by decide +kernel
theorem cond11_eq : ∀ c : Dev nD, k0_cond11 c = mx0Bit c := by decide +kernel
theorem cond12_eq : ∀ c : Dev nD, k0_cond12 c = mx1Bit c := by decide +kernel
theorem cond13_eq : ∀ c : Dev nD, k0_cond13 c = mx0Bit c := by decide +kernel
theorem cond14_eq : ∀ c : Dev nD, k0_cond14 c = mx1Bit c := by decide +kernel
theorem cond15_eq : ∀ c : Dev nD, k0_cond15 c = mx0Bit c := by decide +kernel
theorem cond16_eq : ∀ c : Dev nD, k0_cond16 c = mx1Bit c := by decide +kernel
theorem cond17_eq : ∀ c : Dev nD, k0_cond17 c = mx0Bit c := by decide +kernel
theorem cond18_eq : ∀ c : Dev nD, k0_cond18 c = mx1Bit c := by decide +kernel
theorem cond19_eq : ∀ c : Dev nD, k0_cond19 c = mx0Bit c := by decide +kernel
theorem cond20_eq : ∀ c : Dev nD, k0_cond20 c = mx1Bit c := by decide +kernel
theorem cond21_eq : ∀ c : Dev nD, k0_cond21 c = mx0Bit c := by decide +kernel
theorem cond22_eq : ∀ c : Dev nD, k0_cond22 c = mx1Bit c := by decide +kernel
theorem cond23_eq : ∀ c : Dev nD, k0_cond23 c = mx0Bit c := by decide +kernel
theorem cond24_eq : ∀ c : Dev nD, k0_cond24 c = mx1Bit c := by decide +kernel
theorem cond25_eq : ∀ c : Dev nD, k0_cond25 c = mx0Bit c := by decide +kernel
theorem cond26_eq : ∀ c : Dev nD, k0_cond26 c = mx1Bit c := by decide +kernel
theorem cond27_eq : ∀ c : Dev nD, k0_cond27 c = mx0Bit c := by decide +kernel
theorem cond28_eq : ∀ c : Dev nD, k0_cond28 c = mx1Bit c := by decide +kernel
theorem cond29_eq : ∀ c : Dev nD, k0_cond29 c = mx0Bit c := by decide +kernel
theorem cond30_eq : ∀ c : Dev nD, k0_cond30 c = mx1Bit c := by decide +kernel
theorem cond31_eq : ∀ c : Dev nD, k0_cond31 c = mx0Bit c := by decide +kernel
theorem cond32_eq : ∀ c : Dev nD, k0_cond32 c = mx1Bit c := by decide +kernel
theorem cond33_eq : ∀ c : Dev nD, k0_cond33 c = mx0Bit c := by decide +kernel
theorem cond34_eq : ∀ c : Dev nD, k0_cond34 c = mx1Bit c := by decide +kernel
theorem cond35_eq : ∀ c : Dev nD, k0_cond35 c = mx0Bit c := by decide +kernel
theorem cond36_eq : ∀ c : Dev nD, k0_cond36 c = mx1Bit c := by decide +kernel
theorem cond37_eq : ∀ c : Dev nD, k0_cond37 c = mx0Bit c := by decide +kernel
theorem cond38_eq : ∀ c : Dev nD, k0_cond38 c = mx1Bit c := by decide +kernel
theorem cond39_eq : ∀ c : Dev nD, k0_cond39 c = mx0Bit c := by decide +kernel
theorem cond40_eq : ∀ c : Dev nD, k0_cond40 c = mx1Bit c := by decide +kernel
theorem cond41_eq : ∀ c : Dev nD, k0_cond41 c = mx0Bit c := by decide +kernel
theorem cond42_eq : ∀ c : Dev nD, k0_cond42 c = mx1Bit c := by decide +kernel
theorem cond43_eq : ∀ c : Dev nD, k0_cond43 c = mx0Bit c := by decide +kernel
theorem cond44_eq : ∀ c : Dev nD, k0_cond44 c = mx1Bit c := by decide +kernel
theorem cond45_eq : ∀ c : Dev nD, k0_cond45 c = mx0Bit c := by decide +kernel
theorem cond46_eq : ∀ c : Dev nD, k0_cond46 c = mx1Bit c := by decide +kernel
theorem cond47_eq : ∀ c : Dev nD, k0_cond47 c = mx0Bit c := by decide +kernel
theorem cond48_eq : ∀ c : Dev nD, k0_cond48 c = mx1Bit c := by decide +kernel
theorem cond49_eq : ∀ c : Dev nD, k0_cond49 c = mx0Bit c := by decide +kernel
theorem cond50_eq : ∀ c : Dev nD, k0_cond50 c = mx1Bit c := by decide +kernel
theorem cond51_eq : ∀ c : Dev nD, k0_cond51 c = mx0Bit c := by decide +kernel
theorem cond52_eq : ∀ c : Dev nD, k0_cond52 c = mx1Bit c := by decide +kernel
theorem cond53_eq : ∀ c : Dev nD, k0_cond53 c = mx0Bit c := by decide +kernel
theorem cond54_eq : ∀ c : Dev nD, k0_cond54 c = mx1Bit c := by decide +kernel
theorem cond55_eq : ∀ c : Dev nD, k0_cond55 c = mx0Bit c := by decide +kernel
theorem cond56_eq : ∀ c : Dev nD, k0_cond56 c = mx1Bit c := by decide +kernel
theorem cond57_eq : ∀ c : Dev nD, k0_cond57 c = mx0Bit c := by decide +kernel
theorem cond58_eq : ∀ c : Dev nD, k0_cond58 c = mx1Bit c := by decide +kernel
theorem cond59_eq : ∀ c : Dev nD, k0_cond59 c = mx0Bit c := by decide +kernel
theorem cond60_eq : ∀ c : Dev nD, k0_cond60 c = mx1Bit c := by decide +kernel
theorem cond61_eq : ∀ c : Dev nD, k0_cond61 c = mx0Bit c := by decide +kernel
theorem cond62_eq : ∀ c : Dev nD, k0_cond62 c = mx1Bit c := by decide +kernel
theorem cond63_eq : ∀ c : Dev nD, k0_cond63 c = mx0Bit c := by decide +kernel
theorem cond64_eq : ∀ c : Dev nD, k0_cond64 c = mx1Bit c := by decide +kernel
theorem cond65_eq : ∀ c : Dev nD, k0_cond65 c = mx0Bit c := by decide +kernel
theorem cond66_eq : ∀ c : Dev nD, k0_cond66 c = mx1Bit c := by decide +kernel
theorem cond67_eq : ∀ c : Dev nD, k0_cond67 c = mx0Bit c := by decide +kernel
theorem cond68_eq : ∀ c : Dev nD, k0_cond68 c = mx1Bit c := by decide +kernel
theorem cond69_eq : ∀ c : Dev nD, k0_cond69 c = mx0Bit c := by decide +kernel
theorem cond70_eq : ∀ c : Dev nD, k0_cond70 c = mx1Bit c := by decide +kernel
theorem cond71_eq : ∀ c : Dev nD, k0_cond71 c = mx0Bit c := by decide +kernel
theorem cond72_eq : ∀ c : Dev nD, k0_cond72 c = mx1Bit c := by decide +kernel
theorem cond73_eq : ∀ c : Dev nD, k0_cond73 c = mx0Bit c := by decide +kernel
theorem cond74_eq : ∀ c : Dev nD, k0_cond74 c = mx1Bit c := by decide +kernel
theorem cond75_eq : ∀ c : Dev nD, k0_cond75 c = mx0Bit c := by decide +kernel
theorem cond76_eq : ∀ c : Dev nD, k0_cond76 c = mx1Bit c := by decide +kernel
theorem cond77_eq : ∀ c : Dev nD, k0_cond77 c = mx0Bit c := by decide +kernel
theorem cond78_eq : ∀ c : Dev nD, k0_cond78 c = mx1Bit c := by decide +kernel
theorem cond79_eq : ∀ c : Dev nD, k0_cond79 c = mx0Bit c := by decide +kernel
theorem cond80_eq : ∀ c : Dev nD, k0_cond80 c = mx1Bit c := by decide +kernel
theorem cond81_eq : ∀ c : Dev nD, k0_cond81 c = mx0Bit c := by decide +kernel
theorem cond82_eq : ∀ c : Dev nD, k0_cond82 c = mx1Bit c := by decide +kernel
theorem cond83_eq : ∀ c : Dev nD, k0_cond83 c = mx0Bit c := by decide +kernel
theorem cond84_eq : ∀ c : Dev nD, k0_cond84 c = mx1Bit c := by decide +kernel
theorem cond85_eq : ∀ c : Dev nD, k0_cond85 c = mx0Bit c := by decide +kernel
theorem cond86_eq : ∀ c : Dev nD, k0_cond86 c = mx1Bit c := by decide +kernel
theorem cond87_eq : ∀ c : Dev nD, k0_cond87 c = mx0Bit c := by decide +kernel
theorem cond88_eq : ∀ c : Dev nD, k0_cond88 c = mx1Bit c := by decide +kernel
theorem cond89_eq : ∀ c : Dev nD, k0_cond89 c = mx0Bit c := by decide +kernel
theorem cond90_eq : ∀ c : Dev nD, k0_cond90 c = mx1Bit c := by decide +kernel
theorem cond91_eq : ∀ c : Dev nD, k0_cond91 c = mx0Bit c := by decide +kernel
theorem cond92_eq : ∀ c : Dev nD, k0_cond92 c = mx1Bit c := by decide +kernel
theorem cond93_eq : ∀ c : Dev nD, k0_cond93 c = mx0Bit c := by decide +kernel
theorem cond94_eq : ∀ c : Dev nD, k0_cond94 c = mx1Bit c := by decide +kernel
theorem cond95_eq : ∀ c : Dev nD, k0_cond95 c = mx0Bit c := by decide +kernel
theorem cond96_eq : ∀ c : Dev nD, k0_cond96 c = mx1Bit c := by decide +kernel

end Cert.KernelIdeal.Hand
-- ==== Proof.StepBase.lean ====
import proofs.«901032_g7700000000001033_dist_rs_v7x_xyz2x2x4_x_m1024_n512_bf16_1_alg».proof.Proof.Inv
import proofs.«901032_g7700000000001033_dist_rs_v7x_xyz2x2x4_x_m1024_n512_bf16_1_alg».proof.Proof.Launch
import proofs.«901032_g7700000000001033_dist_rs_v7x_xyz2x2x4_x_m1024_n512_bf16_1_alg».proof.Proof.Offs
import proofs.«901032_g7700000000001033_dist_rs_v7x_xyz2x2x4_x_m1024_n512_bf16_1_alg».proof.Proof.MeshConds

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev WP (c : Dev nD) {α : Type} (prog : Prog (TpuEff nD τ sig (Elt F) Λ₀ .tc) α) (Q : α → sProp 𝕄) : sProp 𝕄 :=
  wp frame (wpE (defs₀ (F := F)) 𝒱₀ (c : Thread nD τ) none) Set.univ prog Q

/-- A function of the body applied to the whole input, result and scratch buffers and the four arrays of transfer cells. -/
abbrev onBufs {β : Sort _}
    (f : (a0 : Memref sig .tc .vmem S1x1024x1024 .f32) → a0.IsWhole → (a1 : Memref sig .tc .vmem S1024x512 .bf16) → a1.IsWhole →
      (a2 : Memref sig .tc .vmem S512x512 .bf16) → a2.IsWhole → (a3 : Memref sig .tc .vmem S512x512 .bf16) → a3.IsWhole →
      (a4 : Memref sig .tc .vmem S512x512 .bf16) → a4.IsWhole → DmaSems sig S16 → DmaSems sig S16 → DmaSems sig S16 → DmaSems sig S16 → β) : β :=
  f (Memref.whole cc0_stg0_0) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) cc0_scratch3 cc0_scratch4 cc0_scratch5 cc0_scratch6

/-- A stretch of the body takes device c's state from progress p to progress p', whatever follows it. -/
def Moves (m : (ℓ : Loc nD τ sig) → Buf (Elt F) ℓ) (ρ : Dev nD → PrngReg) (c : Dev nD) (K : Dev nD × CellIx → ℕ)
    (f0 : Buf (Elt F) ((c : Thread nD τ).loc cc0_scratch0)) (f1 : Buf (Elt F) ((px c : Thread nD τ).loc cc0_scratch1))
    (f2 : Buf (Elt F) ((pz c : Thread nD τ).loc cc0_scratch2)) (g : (cc0_stg1_0 : Ref sig .tc).ty.Contents (Elt F))
    (p p' : Prg) {α : Type} (prog : Prog (TpuEff nD τ sig (Elt F) Λ₀ .tc) α) : Prop :=
  ∀ Kt : α → sProp 𝕄, iprop(Inv m ρ c K f0 f1 f2 g p ∗ (∀ r : α, Inv m ρ c K f0 f1 f2 g p' -∗ Kt r)) ⊢ WP c prog Kt

section Calculus

variable {m : (ℓ : Loc nD τ sig) → Buf (Elt F) ℓ} {ρ : Dev nD → PrngReg} {c : Dev nD} {K : Dev nD × CellIx → ℕ}
  {f0 : Buf (Elt F) ((c : Thread nD τ).loc cc0_scratch0)} {f1 : Buf (Elt F) ((px c : Thread nD τ).loc cc0_scratch1)}
  {f2 : Buf (Elt F) ((pz c : Thread nD τ).loc cc0_scratch2)} {g : (cc0_stg1_0 : Ref sig .tc).ty.Contents (Elt F)}

/-- Returning a value moves nothing. -/
theorem Moves.ret {p : Prg} {α : Type} (a : α) : Moves m ρ c K f0 f1 f2 g p p (.ret a) := by
  intro Kt
  iintro ⟨HI, Hk⟩
  unfold WP; rw [wp_ret]; imodintro
  iapply Hk $$ %_ HI

/-- One step, given in continuation form, followed by a stretch that moves the state on. -/
theorem Moves.step {p p' p'' : Prg} {α : Type} {prog rest : Prog (TpuEff nD τ sig (Elt F) Λ₀ .tc) α}
    (h : ∀ Q : α → sProp 𝕄, iprop(Inv m ρ c K f0 f1 f2 g p ∗ (Inv m ρ c K f0 f1 f2 g p' -∗ WP c rest Q)) ⊢ WP c prog Q)
    (hr : Moves m ρ c K f0 f1 f2 g p' p'' rest) : Moves m ρ c K f0 f1 f2 g p p'' prog := by
  intro Kt
  iintro ⟨HI, Hk⟩
  iapply (h Kt)
  isplitl [HI]; · iexact HI
  iintro HI
  iapply (hr Kt)
  isplitl [HI]; · iexact HI
  iexact Hk

end Calculus

end Cert.KernelIdeal.Hand

end
-- ==== Proof.Pre1.lean ====
import proofs.«901032_g7700000000001033_dist_rs_v7x_xyz2x2x4_x_m1024_n512_bf16_1_alg».proof.Proof.StepBase

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def Pre1 (c : Dev nD) (g : (cc0_stg1_0 : Ref sig .tc).ty.Contents (Elt F)) : sProp 𝕄 :=
  iprop(start m ρ c ∗ scr3 c ∗ (∃ W : Waits sig Unit, owes (c : Thread nD τ) (O₀ c) W)
    ∗ (((c : Thread nD τ).loc cc0_stg0_0) ↦{fullShare} xstg m ρ c) ∗ (((c : Thread nD τ).loc cc0_stg1_0) ↦{fullShare} g))

end Cert.KernelIdeal.Hand

end
-- ==== Proof.Part1.lean ====
import proofs.«901032_g7700000000001033_dist_rs_v7x_xyz2x2x4_x_m1024_n512_bf16_1_alg».proof.Proof.StepBase
import proofs.«901032_g7700000000001033_dist_rs_v7x_xyz2x2x4_x_m1024_n512_bf16_1_alg».proof.Proof.Pre1

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev R1 : Type :=
  Σ' (d0 : Dev nD) (v2 : BitVec 32) (v5 : BitVec 32) (v8 : BitVec 32) (v9 : BitVec 32) (v10 : BitVec 32) (v13 : BitVec 32)
    (v28 : BitVec 32), BitVec 32

theorem sxStage_p0 (k : Fin 16) : sxStage p0 k = 0 := by unfold sxStage p0; simp
theorem rxStage_p0 (k : Fin 16) : rxStage p0 k = 0 := by unfold rxStage p0; simp
theorem rzStage_p0 (k : Fin 16) : rzStage p0 k = 0 := by unfold rzStage p0; simp

section Atoms
variable (c : Dev nD) (f0 : Buf (Elt F) ((c : Thread nD τ).loc cc0_scratch0))
  (f1 : Buf (Elt F) ((px c : Thread nD τ).loc cc0_scratch1)) (f2 : Buf (Elt F) ((pz c : Thread nD τ).loc cc0_scratch2))

theorem sxAtom_p0 (k : Fin 16) : sxAtom m ρ c f0 f1 k (sxStage p0 k)
    = iprop(chunk0 c k fullShare f0 ∗ dutyTok ER (dCell .sx c k) 0 false ∗ dutyTok ER (dCell .rx (px c) k) 0 false
      ∗ chunk1 (px c) k fullShare f1 ∗ atPos ER (dCell .sx c k) 0 ∅ 0) := by
  rw [sxStage_p0]; rfl

theorem rxAtom_p0 (k : Fin 16) : rxAtom m ρ c f2 k (rxStage p0 k)
    = iprop(cred (tallyAt (dCell .rx c k) () N) ∗ atPos ER (dCell .rx c k) 0 ∅ 0
      ∗ dutyTok ER (dCell .sz c k) 0 false ∗ dutyTok ER (dCell .rz (pz c) k) 0 false ∗ chunk2 (pz c) k fullShare f2
      ∗ atPos ER (dCell .sz c k) 0 ∅ 0) := by
  rw [rxStage_p0]; rfl

theorem rzAtom_p0 (k : Fin 16) : rzAtom m ρ c k (rzStage p0 k)
    = iprop(cred (tallyAt (dCell .rz c k) () N) ∗ atPos ER (dCell .rz c k) 0 ∅ 0) := by
  rw [rzStage_p0]; rfl

theorem outAt_zero (g : (cc0_stg1_0 : Ref sig .tc).ty.Contents (Elt F)) : outAt m ρ c g 0 = g := rfl

theorem inv_p0_intro (K : Dev nD × CellIx → ℕ) (g : (cc0_stg1_0 : Ref sig .tc).ty.Contents (Elt F)) (W : Waits sig Unit) :
    iprop(records (rd m ρ) K ∗ levAts L lv ∗ owes (c : Thread nD τ) (owedX c 0 + owedZ c 0) W
        ∗ (((c : Thread nD τ).loc cc0_scratch0) ↦{fullShare} f0) ∗ (((px c : Thread nD τ).loc cc0_scratch1) ↦{fullShare} f1)
        ∗ (((pz c : Thread nD τ).loc cc0_scratch2) ↦{fullShare} f2)
        ∗ (bigSep Finset.univ fun k : Fin 16 => dutyTok ER (dCell .sx c k) 0 false)
        ∗ (bigSep Finset.univ fun k : Fin 16 => dutyTok ER (dCell .rx (px c) k) 0 false)
        ∗ (bigSep Finset.univ fun k : Fin 16 => dutyTok ER (dCell .sz c k) 0 false)
        ∗ (bigSep Finset.univ fun k : Fin 16 => dutyTok ER (dCell .rz (pz c) k) 0 false)
        ∗ (bigSep Finset.univ fun k : Fin 16 => atPos ER (dCell .sx c k) 0 ∅ 0)
        ∗ (bigSep Finset.univ fun k : Fin 16 => atPos ER (dCell .rx c k) 0 ∅ 0)
        ∗ (bigSep Finset.univ fun k : Fin 16 => atPos ER (dCell .sz c k) 0 ∅ 0)
        ∗ (bigSep Finset.univ fun k : Fin 16 => atPos ER (dCell .rz c k) 0 ∅ 0)
        ∗ (bigSep Finset.univ fun k : Fin 16 => cred (tallyAt (dCell .rx c k) () N))
        ∗ (bigSep Finset.univ fun k : Fin 16 => cred (tallyAt (dCell .rz c k) () N))
        ∗ (((c : Thread nD τ).loc cc0_stg0_0) ↦{fullShare} xstg m ρ c) ∗ (((c : Thread nD τ).loc cc0_stg1_0) ↦{fullShare} g))
      ⊢ Inv m ρ c K f0 f1 f2 g p0 := by
  unfold Inv
  rw [bigSep_congr (s := Finset.univ) (fun k _ => sxAtom_p0 m ρ c f0 f1 k),
    bigSep_congr (s := Finset.univ) (fun k _ => rxAtom_p0 m ρ c f2 k),
    bigSep_congr (s := Finset.univ) (fun k _ => rzAtom_p0 m ρ c k),
    show p0.ad = 0 from rfl, outAt_zero, show owedP c p0 = owedX c 0 + owedZ c 0 from rfl]
  simp only [bigSep_sep']
  iintro ⟨Hrec, Hlev, HO, HS, HR, HZ, Htsx, Htrx, Htsz, Htrz, Hpsx, Hprx, Hpsz, Hprz, Hcx, Hcz, Hx, Hg⟩
  ihave HS' := (split16_0 (Val := Elt F) c fullShare f0) $$ HS
  ihave HR' := (split16_1 (Val := Elt F) (px c) fullShare f1) $$ HR
  ihave HZ' := (split16_2 (Val := Elt F) (pz c) fullShare f2) $$ HZ
  isplitl [Hrec]; · iexact Hrec
  isplitl [Hlev]; · iexact Hlev
  isplitl [HO]; · iexists W; iexact HO
  isplitl [HS' Htsx Htrx HR' Hpsx]
  · isplitl [HS']; · iexact HS'
    isplitl [Htsx]; · iexact Htsx
    isplitl [Htrx]; · iexact Htrx
    isplitl [HR']; · iexact HR'
    iexact Hpsx
  isplitl [Hcx Hprx Htsz Htrz HZ' Hpsz]
  · isplitl [Hcx]; · iexact Hcx
    isplitl [Hprx]; · iexact Hprx
    isplitl [Htsz]; · iexact Htsz
    isplitl [Htrz]; · iexact Htrz
    isplitl [HZ']; · iexact HZ'
    iexact Hpsz
  isplitl [Hcz Hprz]
  · isplitl [Hcz]; · iexact Hcz
    iexact Hprz
  isplitl [Hx]; · iexact Hx
  iexact Hg

end Atoms

theorem part1_spec (c : Dev nD) (g : (cc0_stg1_0 : Ref sig .tc).ty.Contents (Elt F)) (Kt : R1 → sProp 𝕄) :
    iprop(Pre1 m ρ c g ∗ (∀ (r : R1) K f0 f1 f2, ⌜r.1 = c⌝ -∗ Inv m ρ c K f0 f1 f2 g p0 -∗ Kt r))
      ⊢ WP c (k0_part1 (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5 cc0_scratch6) Kt := by
  rw [k0_part1_eq_skeleton]
  unfold k0_part1_skel
  simp only [semSignalWord, semWaitWord, Prog.lift, Prog.bind_op, Prog.bind_ret, Prog.pure_eq_ret, wp_deviceId, dev1_eq c, dev2_eq c]
  have e1 : ((1#32 : BitVec 32)).toNat = 1 := rfl
  have e2 : ((2#32 : BitVec 32)).toNat = 2 := rfl
  rw [e1, e2]
  unfold Pre1 start ghost scr3 linear payToks records
  simp only [pxEquiv, pzEquiv, Equiv.coe_fn_mk]
  rw [bigSep_cellIx, bigSep_dma]
  iintro ⟨⟨⟨⟨%K, ⟨#HI, #HRch⟩, ⟨Hpb, Hpsx, Hprx, Hpsz, Hprz⟩, ⟨Htbx, Htbz⟩, Htsx, Htrx, Htsz, Htrz⟩, Hcb, Hcx, Hcz, #Hlev⟩,
    ⟨⟨%f0, HS⟩, ⟨%f1', HR⟩, ⟨%f2', HZ⟩⟩, ⟨%W, HO⟩, Hx, Hg⟩, HK⟩

  ihave HIx := (inv_at (rd m ρ) K (px c, .inl ())) $$ HI
  ihave HRx := (reached_at (F := F) (px c, .inl ())) $$ HRch
  iapply (wp_signal 𝒱₀ ER (rd m ρ) (c : Thread nD τ) none (dst := (px c : Thread nD τ)) (sem := barS) (r := 0) (d := false)
      (by rw [duties_bar]; exact Finset.mem_univ _) (amount_bar m ρ (px c) false) ()
      (owedX c 0 + owedZ c 0 + tallyAt (barCell (pz c)) () 1) (O₀_eq c)) $$ [HO Htbx HR HIx HRx]
  · isplitl [HIx]; · iexact HIx
    isplitl [HO]; · iexact HO
    isplitl [Htbx]; · iexact Htbx
    isplitl [HR]
    · rw [payload_bar_false]; unfold barPayX; rw [px_px]; iexists f1'; iexact HR
    · iexact HRx
  iintro HO

  ihave HIz := (inv_at (rd m ρ) K (pz c, .inl ())) $$ HI
  ihave HRz := (reached_at (F := F) (pz c, .inl ())) $$ HRch
  iapply (wp_signal 𝒱₀ ER (rd m ρ) (c : Thread nD τ) none (dst := (pz c : Thread nD τ)) (sem := barS) (r := 0) (d := true)
      (by rw [duties_bar]; exact Finset.mem_univ _) (amount_bar m ρ (pz c) true) ()
      (owedX c 0 + owedZ c 0) rfl) $$ [HO Htbz HZ HIz HRz]
  · isplitl [HIz]; · iexact HIz
    isplitl [HO]; · iexact HO
    isplitl [Htbz]; · iexact Htbz
    isplitl [HZ]
    · rw [payload_bar_true]; unfold barPayZ; rw [pz_pz]; iexists f2'; iexact HZ
    · iexact HRz
  iintro HO

  ihave HIc := (inv_at (rd m ρ) K (c, .inl ())) $$ HI
  iapply (wp_wait_rest_token 𝒱₀ ER (rd m ρ) (c : Thread nD τ) none (wpE_semWait_eq 𝒱₀ (c : Thread nD τ) none Set.univ)
      (Set.mem_univ (K (c, .inl ()))) () (R := 0) (T := ∅) (m := 0) (by rw [expect_bar])) $$ [HIc Hcb HO Hpb]
  · isplitl [HIc]; · iexact HIc
    isplitl [Hcb]; · iexact Hcb
    isplitl [HO]; · iexact HO
    isplitr
    · iapply (mayWait_bar (F := F) c 0 0); iexact Hlev
    · iexact Hpb
  iintro ⟨HO, -, -, Hrest⟩
  ihave Hrest' := (Entails.of_eq (rest_bar m ρ c)) $$ Hrest
  unfold barPayX barPayZ
  icases Hrest' with ⟨⟨%f1, HR1⟩, ⟨%f2, HZ2⟩⟩
  rw [wp_ret]; imodintro

  iapply HK $$ %_ %K %f0 %f1 %f2 [] [HO HS HR1 HZ2 Htsx Htrx Htsz Htrz Hpsx Hprx Hpsz Hprz Hcx Hcz Hx Hg]
  · ipureintro; rfl
  iapply (inv_p0_intro m ρ c f0 f1 f2 K g _)
  isplitr
  · unfold records
    isplitr; · iexact HI
    iexact HRch
  isplitr; · iexact Hlev
  isplitl [HO]; · iexact HO
  isplitl [HS]; · iexact HS
  isplitl [HR1]; · iexact HR1
  isplitl [HZ2]; · iexact HZ2
  isplitl [Htsx]; · iexact Htsx
  isplitl [Htrx]; · iexact Htrx
  isplitl [Htsz]; · iexact Htsz
  isplitl [Htrz]; · iexact Htrz
  isplitl [Hpsx]; · iexact Hpsx
  isplitl [Hprx]; · iexact Hprx
  isplitl [Hpsz]; · iexact Hpsz
  isplitl [Hprz]; · iexact Hprz
  isplitl [Hcx]; · iexact Hcx
  isplitl [Hcz]; · iexact Hcz
  isplitl [Hx]; · iexact Hx
  iexact Hg

end Cert.KernelIdeal.Hand

end
-- ==== Proof.BodyGlue.lean ====
import proofs.«901032_g7700000000001033_dist_rs_v7x_xyz2x2x4_x_m1024_n512_bf16_1_alg».proof.Proof.Launch
import proofs.«901032_g7700000000001033_dist_rs_v7x_xyz2x2x4_x_m1024_n512_bf16_1_alg».proof.Proof.Inv
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outG m ρ c))

set_option maxRecDepth 4000 in
theorem body_obligation
    (hsound : ∀ c : Dev nD, bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6)
      (fun _ => bodyPost m ρ c)) :
    ∀ c : Dev nD, BodyObligation (dats (F := F) m ρ 0 c) (defs₀ (F := F)) 𝒱₀ () Set.univ := fun c t => by
  rw [fin_N t]
  rw [bigSep_W, bigSep_W]
  simp only [owns_whole_eq]
  have hΦ0 : (dats m ρ 0 c).Φ t₀.castSucc = Φ₀ m ρ c := rfl
  have hΦ1 : (dats m ρ 0 c).Φ t₀.succ = Φ₁ c := rfl
  have ha0 : (dats m ρ 0 c).after 0 t₀ = xstg m ρ c := by dsimp only [dats]
  have ha1 : (dats m ρ 0 c).after 1 t₀ = outG m ρ c := by dsimp only [dats]
  rw [hΦ0, hΦ1, ha0, ha1]
  exact hsound c

theorem sxAtom_end (c : Dev nD) (f0 : Buf (Elt F) ((c : Thread nD τ).loc cc0_scratch0)) (f1 : Buf (Elt F) ((px c : Thread nD τ).loc cc0_scratch1)) (k : Fin 16) :
    sxAtom m ρ c f0 f1 k (sxStage pEnd k) = iprop(chunk0 c k fullShare (sendG m ρ c) ∗ semVal (dCell .sx c k) 0) := by
  have h : sxStage pEnd k = 3 := by unfold sxStage pEnd; exact if_pos k.isLt
  rw [h]; rfl

theorem rxAtom_end (c : Dev nD) (f2 : Buf (Elt F) ((pz c : Thread nD τ).loc cc0_scratch2)) (k : Fin 16) :
    rxAtom m ρ c f2 k (rxStage pEnd k) = iprop(chunk1 c k fullShare (recvG m ρ c) ∗ semVal (dCell .rx c k) 0 ∗ semVal (dCell .sz c k) 0) := by
  have h : rxStage pEnd k = 3 := by unfold rxStage pEnd; exact if_pos k.isLt
  rw [h]; rfl

theorem rzAtom_end (c : Dev nD) (k : Fin 16) :
    rzAtom m ρ c k (rzStage pEnd k) = iprop(chunk2 c k fullShare (relayG m ρ c) ∗ semVal (dCell .rz c k) 0) := by
  have h : rzStage pEnd k = 1 := by unfold rzStage pEnd; exact if_pos k.isLt
  rw [h]; rfl

theorem owedP_end (c : Dev nD) : owedP c pEnd = 0 := by
  show owedX c 16 + owedZ c 16 = 0
  rw [owedX_last, owedZ_last, add_zero]

theorem epilogue (c : Dev nD) (K : Dev nD × CellIx → ℕ) (f0 : Buf (Elt F) ((c : Thread nD τ).loc cc0_scratch0))
    (f1 : Buf (Elt F) ((px c : Thread nD τ).loc cc0_scratch1)) (f2 : Buf (Elt F) ((pz c : Thread nD τ).loc cc0_scratch2))
    (g : (cc0_stg1_0 : Ref sig .tc).ty.Contents (Elt F)) (hfin : outAt m ρ c g 32 = outG m ρ c) :
    Inv m ρ c K f0 f1 f2 g pEnd ⊢ bodyPost m ρ c := by
  unfold Inv
  rw [owedP_end, bigSep_congr (s := Finset.univ) (fun k _ => sxAtom_end m ρ c f0 f1 k),
    bigSep_congr (s := Finset.univ) (fun k _ => rxAtom_end m ρ c f2 k), bigSep_congr (s := Finset.univ) (fun k _ => rzAtom_end m ρ c k),
    show pEnd.ad = 32 from rfl, hfin]
  simp only [bigSep_sep']
  iintro ⟨-, -, ⟨%W, HO⟩, ⟨H0, Zsx⟩, ⟨H1, Zrx, Zsz⟩, ⟨H2, Zrz⟩, Hx, Hout⟩
  ihave H0' := (join16_0 (Val := Elt F) c fullShare (sendG m ρ c)) $$ H0
  ihave H1' := (join16_1 (Val := Elt F) c fullShare (recvG m ρ c)) $$ H1
  ihave H2' := (join16_2 (Val := Elt F) c fullShare (relayG m ρ c)) $$ H2
  unfold bodyPost Φ₁ scr3
  rw [bigSep_dma]
  isplitl [H0' H1' H2' Zsx Zrx Zsz Zrz]
  · isplitl [H0' H1' H2']
    · isplitl [H0']; · iexists _; iexact H0'
      isplitl [H1']; · iexists _; iexact H1'
      iexists _; iexact H2'
    · isplitl [Zsx]; · iexact Zsx
      isplitl [Zrx]; · iexact Zrx
      isplitl [Zsz]; · iexact Zsz
      iexact Zrz
  isplitl [HO]
  · unfold Dat.owesAt Pipeline.owesWithin
    rw [show (dats m ρ 0 c).owed t₀.succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdeal.Hand

end
-- ==== Proof.BodyPre.lean ====
import proofs.«901032_g7700000000001033_dist_rs_v7x_xyz2x2x4_x_m1024_n512_bf16_1_alg».proof.Proof.BodyGlue
import proofs.«901032_g7700000000001033_dist_rs_v7x_xyz2x2x4_x_m1024_n512_bf16_1_alg».proof.Proof.Pre1

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 4000 in
theorem pre1_of_bodyPre' (c : Dev nD) : bodyPre' m ρ c ⊢ (∃ g, Pre1 m ρ c g : sProp 𝕄) := by
  unfold bodyPre' Φ₀ Dat.owesAt Pipeline.owesWithin
  rw [show (dats m ρ 0 c).owed t₀.castSucc = O₀ c from rfl]
  iintro ⟨⟨Hst, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iexists g1
  unfold Pre1
  isplitl [Hst]; · iexact Hst
  isplitl [Hscr]; · iexact Hscr
  isplitl [HO]; · iexists W; iexact HO
  isplitl [Hx]; · iexact Hx
  iexact Hout

end Cert.KernelIdeal.Hand

end
-- ==== Proof.StepStore.lean ====
import proofs.«901032_g7700000000001033_dist_rs_v7x_xyz2x2x4_x_m1024_n512_bf16_1_alg».proof.Proof.StepBase

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

/-- Storing chunk k of the send buffer. -/
theorem step_store {p p' : Prg} (k : Fin 16)
    {off : Fin 3 → Nat} (hoff : off = ![0, 512 * sOf c + 32 * k.val, 512 * (1 - mxOf c)])
    {inb : ∀ a, off a + S1x32x512.size a ≤ S1x1024x1024.size a}
    {hl1 : (xM : Memref sig .tc .vmem S1x1024x1024 .f32).view.LoadsAt (Rect.unit (s := S1x1024x1024) off S1x32x512.size inb).toLoadRect}
    {hl2 : (sM : Memref sig .tc .vmem S512x512 .bf16).view.LoadsAt (rk k).toLoadRect}
    {hx : ((sM : Memref sig .tc .vmem S512x512 .bf16).access (rk k)).Stores Finset.univ} {hm : (Finset.univ : Finset (rk k).shape.Idx) = Finset.univ ∨ ∀ a, (rk k).stride a = 1}
    {pay : Vec F S1x32x512 .f32 → FVec F S32x512 .bf16}
    {α : Type} {Q : α → sProp 𝕄} {kont : PUnit → Prog (TpuEff nD τ sig (Elt F) Λ₀ .tc) α}
    (hp' : p' = { p with st := p.st + 1 } := by rfl) (h0 : sxStage p k = 0 := by decide) (h1 : sxStage p' k = 1 := by decide)
    (hj : ∀ j, j ≠ k → sxStage p j = sxStage p' j := by decide) (hpay : pay = k0_pay1 := by rfl) :
    iprop(Inv m ρ c K f0 f1 f2 g p ∗ (Inv m ρ c K f0 f1 f2 g p' -∗ WP c (kont ⟨⟩) Q))
      ⊢ WP c (.op (.load xM (Rect.unit (s := S1x1024x1024) off S1x32x512.size inb).toLoadRect hl1) fun v =>
              .op (.load sM (rk k).toLoadRect hl2) fun _ =>
              .op (.store sM (rk k) (pay v) Finset.univ hx hm) kont) Q := by
  subst hpay hoff
  have e1 : ∀ j, rxStage p' j = rxStage p j := fun j => by subst hp'; rfl
  have e2 : ∀ j, rzStage p' j = rzStage p j := fun j => by subst hp'; rfl
  have e3 : owedP c p' = owedP c p := by subst hp'; rfl
  have e4 : p'.ad = p.ad := by subst hp'; rfl
  unfold Inv
  simp only [e1, e2, e3, e4]
  rw [bigSep_focus k (fun j => sxAtom m ρ c f0 f1 j (sxStage p j)) (fun j => sxAtom m ρ c f0 f1 j (sxStage p' j))
      (fun j hjk => by rw [hj j hjk]),
    ← bigSep_unfocus k (fun j => sxAtom m ρ c f0 f1 j (sxStage p' j))]
  simp only [h0, h1, sxAtom]
  iintro ⟨⟨HR, HL, HO, ⟨⟨Hc, Ht1, Ht2, Hc1, Hpos⟩, Hsx⟩, Hrx, Hrz, Hx, Hout⟩, Hk⟩
  iapply (wp_load 𝒱₀ (c : Thread nD τ) none Set.univ (m := xM) (S := Finset.univ) (Finset.subset_univ _)) $$ Hx
  iintro Hx
  iapply (wp_load 𝒱₀ (c : Thread nD τ) none Set.univ (m := sM) (S := sset k) (load_sub0 k)) $$ Hc
  iintro Hc
  iapply (wp_store 𝒱₀ (c : Thread nD τ) none Set.univ (m := sM) (r := rk k) (S := sset k) (store_sub0 k)) $$ Hc
  iintro Hc
  have hcong : ∀ i ∈ sset k,
      View.write (Elt F) ((sM : Memref sig .tc .vmem S512x512 .bf16).access (rk k)) f0
        (k0_pay1 (View.readAt (Elt F) (xM : Memref sig .tc .vmem S1x1024x1024 .f32).view
          (Rect.unit (s := S1x1024x1024) ![0, 512 * sOf c + 32 * k.val, 512 * (1 - mxOf c)] S1x32x512.size inb).toLoadRect (xstg m ρ c)))
        Finset.univ i = sendG m ρ c i := by
    intro i hi
    rw [write_slice0 k f0 _ hi]
    show _ = sendW m ρ c (bandOf i) (locOf i)
    rw [mem_sset_iff_bandOf.mp hi]
    rfl
  ihave Hc' := (pointsTo_congr_iff (Val := Elt F) (ℓ := (c : Thread nD τ).loc cc0_scratch0) (S := sset k) (q := fullShare) hcong).1 $$ Hc
  iapply Hk
  isplitl [HR]; · iexact HR
  isplitl [HL]; · iexact HL
  isplitl [HO]; · iexact HO
  isplitl [Hc' Ht1 Ht2 Hc1 Hpos Hsx]
  · isplitr [Hsx]
    · isplitl [Hc']; · iexact Hc'
      isplitl [Ht1]; · iexact Ht1
      isplitl [Ht2]; · iexact Ht2
      isplitl [Hc1]; · iexact Hc1
      iexact Hpos
    · iexact Hsx
  isplitl [Hrx]; · iexact Hrx
  isplitl [Hrz]; · iexact Hrz
  isplitl [Hx]; · iexact Hx
  iexact Hout

end Steps

end Cert.KernelIdeal.Hand

end
-- ==== Proof.OutCover.lean ====
import proofs.«901032_g7700000000001033_dist_rs_v7x_xyz2x2x4_x_m1024_n512_bf16_1_alg».proof.Proof.Sched
import Idealize.ShloMosaic.Lib.Pipeline.FrameBody

noncomputable section

namespace Cert.KernelIdeal.Hand

open Cert.KernelIdeal Cert.KernelIdeal.Gen
open Idealize.ShloMosaic
open Idealize.ShloMosaic.TcCoe

variable {F : FTy → Type} [FloatOps F]

variable (m : (ℓ : Loc nD τ sig) → Buf (Elt F) ℓ) (ρ : Dev nD → PrngReg)

theorem mem_addSeq (p : Bool × Fin 16) : p ∈ addSeq := by revert p; decide

theorem addSeq_length : addSeq.length = 32 := rfl

theorem mem_outPieces (c : Dev nD) (p : Bool × Fin 16) : pieceOf m ρ c p ∈ outPieces m ρ c 32 := by
  unfold outPieces
  rw [List.mem_reverse, List.take_of_length_le (Nat.le_of_eq addSeq_length)]
  exact List.mem_map.mpr ⟨p, mem_addSeq p, rfl⟩

theorem of_mem_outPieces (c : Dev nD) (n : Nat) {q : View.Piece (Elt F) S1024x512 .bf16} (hq : q ∈ outPieces m ρ c n) :
    ∃ p, q = pieceOf m ρ c p := by
  unfold outPieces at hq
  rw [List.mem_reverse] at hq
  obtain ⟨p, _, rfl⟩ := List.mem_map.mp hq
  exact ⟨p, rfl⟩

theorem mem_oRect {r : Nat} {hr : r + 32 ≤ 1024} {i : S1024x512.Idx} :
    i ∈ (oRect r hr).set ↔ r ≤ (i 0).val ∧ (i 0).val < r + 32 := by
  rw [Rect.mem_set_unit]
  constructor
  · intro h; exact h 0
  · intro h a
    have h1 : (i 1).val < 512 := (i 1).isLt
    fin_cases a
    · exact h
    · exact ⟨Nat.zero_le _, by show (i 1).val < 0 + 512; omega⟩

theorem mem_piece_false (c : Dev nD) (k : Fin 16) (y : S1024x512.Idx) :
    y ∈ (pieceOf m ρ c (false, k)).1.set
      ↔ 512 * sOf c + 32 * k.val ≤ (y 0).val ∧ (y 0).val < 512 * sOf c + 32 * k.val + 32 :=
  mem_oRect (hr := rowS c k)

theorem mem_piece_true (c : Dev nD) (k : Fin 16) (y : S1024x512.Idx) :
    y ∈ (pieceOf m ρ c (true, k)).1.set
      ↔ 512 * (1 - sOf c) + 32 * k.val ≤ (y 0).val ∧ (y 0).val < 512 * (1 - sOf c) + 32 * k.val + 32 :=
  mem_oRect (hr := rowT c k)

/-- The add-store that writes row r of the result. -/
def storeOf (c : Dev nD) (r : Fin 1024) : Bool × Fin 16 :=
  (decide (r.val / 512 ≠ sOf c), ⟨r.val % 512 / 32, by omega⟩)

theorem mem_storeOf (c : Dev nD) (y : S1024x512.Idx) : y ∈ (pieceOf m ρ c (storeOf c (y 0))).1.set := by
  have hr : (y 0).val < 1024 := (y 0).isLt
  have hs := sOf_lt c
  unfold storeOf
  by_cases h : (y 0).val / 512 = sOf c
  · rw [show decide ((y 0).val / 512 ≠ sOf c) = false from decide_eq_false (not_not.mpr h)]
    refine (mem_piece_false m ρ c _ y).mpr ?_
    show 512 * sOf c + 32 * ((y 0).val % 512 / 32) ≤ (y 0).val ∧ (y 0).val < 512 * sOf c + 32 * ((y 0).val % 512 / 32) + 32
    omega
  · rw [show decide ((y 0).val / 512 ≠ sOf c) = true from decide_eq_true h]
    refine (mem_piece_true m ρ c _ y).mpr ?_
    show 512 * (1 - sOf c) + 32 * ((y 0).val % 512 / 32) ≤ (y 0).val ∧ (y 0).val < 512 * (1 - sOf c) + 32 * ((y 0).val % 512 / 32) + 32
    omega

theorem out_cover (c : Dev nD) (y : S1024x512.Idx) : ∃ p ∈ outPieces m ρ c 32, y ∈ p.1.set :=
  ⟨pieceOf m ρ c (storeOf c (y 0)), mem_outPieces m ρ c _, mem_storeOf m ρ c y⟩

theorem outAt_final (c : Dev nD) (g : (cc0_stg1_0 : Ref sig .tc).ty.Contents (Elt F)) :
    outAt m ρ c g 32 = outG m ρ c := by
  unfold outAt outG
  exact (View.read_whole cc0_stg1_0 _).symm.trans
    (View.read_writes_eq_canon (View.whole cc0_stg1_0) g (outPieces m ρ c 32) (out_cover m ρ c))

theorem outAt_succ (c : Dev nD) (g : (cc0_stg1_0 : Ref sig .tc).ty.Contents (Elt F)) (n : Nat) (p : Bool × Fin 16)
    (hp : addSeq[n]? = some p) :
    outAt m ρ c g (n + 1)
      = ((View.whole cc0_stg1_0).slice (pieceOf m ρ c p).1).write (Elt F) (outAt m ρ c g n) (pieceOf m ρ c p).2 Finset.univ := by
  unfold outAt outPieces
  rw [List.take_succ, hp, Option.toList_some, List.map_append, List.reverse_append, List.map_singleton,
    List.reverse_singleton, List.singleton_append, View.writes_cons]

end Cert.KernelIdeal.Hand

end
-- ==== Proof.StepAdd.lean ====
import proofs.«901032_g7700000000001033_dist_rs_v7x_xyz2x2x4_x_m1024_n512_bf16_1_alg».proof.Proof.StepBase
import proofs.«901032_g7700000000001033_dist_rs_v7x_xyz2x2x4_x_m1024_n512_bf16_1_alg».proof.Proof.OutCover

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

/-- The add-store of chunk k of the own half: the own column half plus what landed. -/
theorem step_addD {p p' : Prg} (k : Fin 16)
    {off : Fin 3 → Nat} (hoff : off = ![0, 512 * sOf c + 32 * k.val, 512 * mxOf c])
    {inb : ∀ a, off a + S1x32x512.size a ≤ S1x1024x1024.size a}
    {ooff : Fin 2 → Nat} (hooff : ooff = ![512 * sOf c + 32 * k.val, 0])
    {oinb : ∀ a, ooff a + S32x512.size a ≤ S1024x512.size a}
    {hl1 : (xM : Memref sig .tc .vmem S1x1024x1024 .f32).view.LoadsAt (Rect.unit (s := S1x1024x1024) off S1x32x512.size inb).toLoadRect}
    {hl2 : (rM : Memref sig .tc .vmem S512x512 .bf16).view.LoadsAt (rk k).toLoadRect}
    {hl3 : (oM : Memref sig .tc .vmem S1024x512 .bf16).view.LoadsAt (Rect.unit (s := S1024x512) ooff S32x512.size oinb).toLoadRect}
    {hx : ((oM : Memref sig .tc .vmem S1024x512 .bf16).access (Rect.unit (s := S1024x512) ooff S32x512.size oinb)).Stores Finset.univ}
    {hm : (Finset.univ : Finset (Rect.unit (s := S1024x512) ooff S32x512.size oinb).shape.Idx) = Finset.univ ∨ ∀ a, (Rect.unit (s := S1024x512) ooff S32x512.size oinb).stride a = 1}
    {pay : Vec F S1x32x512 .f32 → Vec F S32x512 .bf16 → FVec F S32x512 .bf16}
    {α : Type} {Q : α → sProp 𝕄} {kont : PUnit → Prog (TpuEff nD τ sig (Elt F) Λ₀ .tc) α}
    (hp' : p' = { p with ad := p.ad + 1 } := by rfl) (hseq : addSeq[p.ad]? = some (false, k) := by rfl)
    (h0 : rxStage p k = 2 := by decide) (hpay : pay = k0_pay33 := by rfl) :
    iprop(Inv m ρ c K f0 f1 f2 g p ∗ (Inv m ρ c K f0 f1 f2 g p' -∗ WP c (kont ⟨⟩) Q))
      ⊢ WP c (.op (.load xM (Rect.unit (s := S1x1024x1024) off S1x32x512.size inb).toLoadRect hl1) fun v =>
              .op (.load rM (rk k).toLoadRect hl2) fun w =>
              .op (.load oM (Rect.unit (s := S1024x512) ooff S32x512.size oinb).toLoadRect hl3) fun _ =>
              .op (.store oM (Rect.unit (s := S1024x512) ooff S32x512.size oinb) (pay v w) Finset.univ hx hm) kont) Q := by
  subst hpay hoff hooff
  have e0 : ∀ j, sxStage p' j = sxStage p j := fun j => by subst hp'; rfl
  have e1 : ∀ j, rxStage p' j = rxStage p j := fun j => by subst hp'; rfl
  have e2 : ∀ j, rzStage p' j = rzStage p j := fun j => by subst hp'; rfl
  have e3 : owedP c p' = owedP c p := by subst hp'; rfl
  have e4 : p'.ad = p.ad + 1 := by subst hp'; rfl
  have hA : rxAtom m ρ c f2 k 2 = iprop(chunk1 c k fullShare.left (recvG m ρ c) ∗ semVal (dCell .rx c k) 0 ∗ cred (tallyAt (dCell .sz c k) () N) ∗ atPos ER (dCell .sz c k) 0 ∅ 0) := rfl

  have hw : View.readAt (Elt F) (rM : Memref sig .tc .vmem S512x512 .bf16).view (rk k).toLoadRect (recvG m ρ c) = sendW m ρ (px c) k := by
    funext x
    rw [read_slice1]
    show sendW m ρ (px c) (bandOf ((rk k).emb x)) (locOf ((rk k).emb x)) = _
    rw [mem_sset_iff_bandOf.mp (rk_emb_mem k x), locOf_rk_emb]
  unfold Inv
  simp only [e0, e1, e2, e3, e4]
  rw [bigSep_focus k (fun j => rxAtom m ρ c f2 j (rxStage p j)) (fun j => rxAtom m ρ c f2 j (rxStage p j)) (fun _ _ => rfl)]
  rw [h0, hA]
  iintro ⟨⟨HR, HL, HO, Hsx, ⟨⟨Hc, Hsv, Hcr, Hpos⟩, Hrx⟩, Hrz, Hx, Hout⟩, Hk⟩
  iapply (wp_load 𝒱₀ (c : Thread nD τ) none Set.univ (m := xM) (S := Finset.univ) (Finset.subset_univ _)) $$ Hx
  iintro Hx
  iapply (wp_load 𝒱₀ (c : Thread nD τ) none Set.univ (m := rM) (S := sset k) (q := fullShare.left) (load_sub1 k)) $$ Hc
  iintro Hc
  iapply (wp_load 𝒱₀ (c : Thread nD τ) none Set.univ (m := oM) (S := Finset.univ) (Finset.subset_univ _)) $$ Hout
  iintro Hout
  iapply (wp_store 𝒱₀ (c : Thread nD τ) none Set.univ (m := oM) (r := Rect.unit (s := S1024x512) ![512 * sOf c + 32 * k.val, 0] S32x512.size oinb)
    (S := Finset.univ) (f := outAt m ρ c g p.ad) (Finset.subset_univ _)) $$ Hout
  iintro Hout
  rw [hw]
  have hout : ∀ i ∈ (Finset.univ : Finset (Idx ((c : Thread nD τ).loc cc0_stg1_0))),
      View.write (Elt F) ((oM : Memref sig .tc .vmem S1024x512 .bf16).access (Rect.unit (s := S1024x512) ![512 * sOf c + 32 * k.val, 0] S32x512.size oinb))
        (outAt m ρ c g p.ad)
        (k0_pay33 (View.readAt (Elt F) (xM : Memref sig .tc .vmem S1x1024x1024 .f32).view
          (Rect.unit (s := S1x1024x1024) ![0, 512 * sOf c + 32 * k.val, 512 * mxOf c] S1x32x512.size inb).toLoadRect (xstg m ρ c)) (sendW m ρ (px c) k))
        Finset.univ i = outAt m ρ c g (p.ad + 1) i := by
    intro i _
    rw [outAt_succ m ρ c g p.ad (false, k) hseq]
    rfl
  ihave Hout' := (pointsTo_congr_iff (Val := Elt F) (ℓ := (c : Thread nD τ).loc cc0_stg1_0) (S := Finset.univ) (q := fullShare) hout).1 $$ Hout
  iapply Hk
  isplitl [HR]; · iexact HR
  isplitl [HL]; · iexact HL
  isplitl [HO]; · iexact HO
  isplitl [Hsx]; · iexact Hsx
  isplitl [Hc Hsv Hcr Hpos Hrx]
  · isplitr [Hrx]
    · isplitl [Hc]; · iexact Hc
      isplitl [Hsv]; · iexact Hsv
      isplitl [Hcr]; · iexact Hcr
      iexact Hpos
    · iexact Hrx
  isplitl [Hrz]; · iexact Hrz
  isplitl [Hx]; · iexact Hx
  iexact Hout'

/-- The add-store of chunk k of the other half: the own column half plus what was relayed. -/
theorem step_addR {p p' : Prg} (k : Fin 16)
    {off : Fin 3 → Nat} (hoff : off = ![0, 512 * (1 - sOf c) + 32 * k.val, 512 * mxOf c])
    {inb : ∀ a, off a + S1x32x512.size a ≤ S1x1024x1024.size a}
    {ooff : Fin 2 → Nat} (hooff : ooff = ![512 * (1 - sOf c) + 32 * k.val, 0])
    {oinb : ∀ a, ooff a + S32x512.size a ≤ S1024x512.size a}
    {hl1 : (xM : Memref sig .tc .vmem S1x1024x1024 .f32).view.LoadsAt (Rect.unit (s := S1x1024x1024) off S1x32x512.size inb).toLoadRect}
    {hl2 : (zM : Memref sig .tc .vmem S512x512 .bf16).view.LoadsAt (rk k).toLoadRect}
    {hl3 : (oM : Memref sig .tc .vmem S1024x512 .bf16).view.LoadsAt (Rect.unit (s := S1024x512) ooff S32x512.size oinb).toLoadRect}
    {hx : ((oM : Memref sig .tc .vmem S1024x512 .bf16).access (Rect.unit (s := S1024x512) ooff S32x512.size oinb)).Stores Finset.univ}
    {hm : (Finset.univ : Finset (Rect.unit (s := S1024x512) ooff S32x512.size oinb).shape.Idx) = Finset.univ ∨ ∀ a, (Rect.unit (s := S1024x512) ooff S32x512.size oinb).stride a = 1}
    {pay : Vec F S1x32x512 .f32 → Vec F S32x512 .bf16 → FVec F S32x512 .bf16}
    {α : Type} {Q : α → sProp 𝕄} {kont : PUnit → Prog (TpuEff nD τ sig (Elt F) Λ₀ .tc) α}
    (hp' : p' = { p with ad := p.ad + 1 } := by rfl) (hseq : addSeq[p.ad]? = some (true, k) := by rfl)
    (h0 : rzStage p k = 1 := by decide) (hpay : pay = k0_pay33 := by rfl) :
    iprop(Inv m ρ c K f0 f1 f2 g p ∗ (Inv m ρ c K f0 f1 f2 g p' -∗ WP c (kont ⟨⟩) Q))
      ⊢ WP c (.op (.load xM (Rect.unit (s := S1x1024x1024) off S1x32x512.size inb).toLoadRect hl1) fun v =>
              .op (.load zM (rk k).toLoadRect hl2) fun w =>
              .op (.load oM (Rect.unit (s := S1024x512) ooff S32x512.size oinb).toLoadRect hl3) fun _ =>
              .op (.store oM (Rect.unit (s := S1024x512) ooff S32x512.size oinb) (pay v w) Finset.univ hx hm) kont) Q := by
  subst hpay hoff hooff
  have e0 : ∀ j, sxStage p' j = sxStage p j := fun j => by subst hp'; rfl
  have e1 : ∀ j, rxStage p' j = rxStage p j := fun j => by subst hp'; rfl
  have e2 : ∀ j, rzStage p' j = rzStage p j := fun j => by subst hp'; rfl
  have e3 : owedP c p' = owedP c p := by subst hp'; rfl
  have e4 : p'.ad = p.ad + 1 := by subst hp'; rfl
  have hA : rzAtom m ρ c k 1 = iprop(chunk2 c k fullShare (relayG m ρ c) ∗ semVal (dCell .rz c k) 0) := rfl

  have hw : View.readAt (Elt F) (zM : Memref sig .tc .vmem S512x512 .bf16).view (rk k).toLoadRect (relayG m ρ c) = sendW m ρ (px (pz c)) k := by
    funext x
    rw [read_slice2]
    show sendW m ρ (px (pz c)) (bandOf ((rk k).emb x)) (locOf ((rk k).emb x)) = _
    rw [mem_sset_iff_bandOf.mp (rk_emb_mem k x), locOf_rk_emb]
  unfold Inv
  simp only [e0, e1, e2, e3, e4]
  rw [bigSep_focus k (fun j => rzAtom m ρ c j (rzStage p j)) (fun j => rzAtom m ρ c j (rzStage p j)) (fun _ _ => rfl)]
  rw [h0, hA]
  iintro ⟨⟨HR, HL, HO, Hsx, Hrx, ⟨⟨Hc, Hsv⟩, Hrz⟩, Hx, Hout⟩, Hk⟩
  iapply (wp_load 𝒱₀ (c : Thread nD τ) none Set.univ (m := xM) (S := Finset.univ) (Finset.subset_univ _)) $$ Hx
  iintro Hx
  iapply (wp_load 𝒱₀ (c : Thread nD τ) none Set.univ (m := zM) (S := sset k) (q := fullShare) (load_sub2 k)) $$ Hc
  iintro Hc
  iapply (wp_load 𝒱₀ (c : Thread nD τ) none Set.univ (m := oM) (S := Finset.univ) (Finset.subset_univ _)) $$ Hout
  iintro Hout
  iapply (wp_store 𝒱₀ (c : Thread nD τ) none Set.univ (m := oM) (r := Rect.unit (s := S1024x512) ![512 * (1 - sOf c) + 32 * k.val, 0] S32x512.size oinb)
    (S := Finset.univ) (f := outAt m ρ c g p.ad) (Finset.subset_univ _)) $$ Hout
  iintro Hout
  rw [hw]
  have hout : ∀ i ∈ (Finset.univ : Finset (Idx ((c : Thread nD τ).loc cc0_stg1_0))),
      View.write (Elt F) ((oM : Memref sig .tc .vmem S1024x512 .bf16).access (Rect.unit (s := S1024x512) ![512 * (1 - sOf c) + 32 * k.val, 0] S32x512.size oinb))
        (outAt m ρ c g p.ad)
        (k0_pay33 (View.readAt (Elt F) (xM : Memref sig .tc .vmem S1x1024x1024 .f32).view
          (Rect.unit (s := S1x1024x1024) ![0, 512 * (1 - sOf c) + 32 * k.val, 512 * mxOf c] S1x32x512.size inb).toLoadRect (xstg m ρ c)) (sendW m ρ (px (pz c)) k))
        Finset.univ i = outAt m ρ c g (p.ad + 1) i := by
    intro i _
    rw [outAt_succ m ρ c g p.ad (true, k) hseq]
    rfl
  ihave Hout' := (pointsTo_congr_iff (Val := Elt F) (ℓ := (c : Thread nD τ).loc cc0_stg1_0) (S := Finset.univ) (q := fullShare) hout).1 $$ Hout
  iapply Hk
  isplitl [HR]; · iexact HR
  isplitl [HL]; · iexact HL
  isplitl [HO]; · iexact HO
  isplitl [Hsx]; · iexact Hsx
  isplitl [Hrx]; · iexact Hrx
  isplitl [Hc Hsv Hrz]
  · isplitr [Hrz]
    · isplitl [Hc]; · iexact Hc
      iexact Hsv
    · iexact Hrz
  isplitl [Hx]; · iexact Hx
  iexact Hout'

end Steps

end Cert.KernelIdeal.Hand

end
-- ==== Proof.StepSend.lean ====
import proofs.«901032_g7700000000001033_dist_rs_v7x_xyz2x2x4_x_m1024_n512_bf16_1_alg».proof.Proof.StepBase

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem xsend_rule (k : Fin 16) (W : Waits sig Unit) (O : CellTallies nD τ sig Unit)
    {hsc : (sliceM rM k : Memref sig (Dev.tc (px c) : Thread nD τ).2.kind .vmem S32x512 .bf16).view.ref.isScScratch = false}
    {hsrc : (sliceM sM k : Memref sig .tc .vmem S32x512 .bf16).view.WordExact} {hdst : (sliceM rM k : Memref sig .tc .vmem S32x512 .bf16).view.WordExact}
    {hsem : DmaTarget.Typed .vmem (.dma (dsem .rx k)) (.remote (Dev.tc (px c) : Thread nD τ) (sliceM rM k : Memref sig .tc .vmem S32x512 .bf16) (.dma (dsem .sx k)) hsc)}
    {α : Type} {Q : α → sProp 𝕄} {kont : PUnit → Prog (TpuEff nD τ sig (Elt F) Λ₀ .tc) α} :
    iprop(cellInv ER (rd m ρ) (K (c, .inr (.sx, k))) (dCell .sx c k) ∗ cellInv ER (rd m ρ) (K (px c, .inr (.rx, k))) (dCell .rx (px c) k)
        ∗ ((sliceM sM k).view.loc (c : Thread nD τ) ↦[(sliceM sM k).view.set]{fullShare} sendG m ρ c)
        ∗ ((sliceM rM k).view.loc (px c : Thread nD τ) ↦[(sliceM rM k).view.set]{fullShare} f1)
        ∗ owes (c : Thread nD τ) (O + tallyAt (dCell .rx (px c) k) () N) W
        ∗ dutyTok ER (dCell .sx c k) 0 false ∗ reached ER (dCell .sx c k) 0
        ∗ dutyTok ER (dCell .rx (px c) k) 0 false ∗ reached ER (dCell .rx (px c) k) 0)
      ⊢ iprop(((cred (tallyAt (dCell .sx c k) () N) ∗ owes (c : Thread nD τ) O W) -∗ WP c (kont ⟨⟩) Q)
          -∗ WP c (.op (.enqueueDma (sliceM sM k) (.remote (Dev.tc (px c) : Thread nD τ) (sliceM rM k) (.dma (dsem .sx k)) hsc) (.dma (dsem .rx k)) hsrc hdst hsem) kont) Q) :=
  Rounds.wp_send_pointsTo 𝒱₀ ER (rd m ρ) (c : Thread nD τ) none (κ₁ := K (c, .inr (.sx, k))) (κ₂ := K (px c, .inr (.rx, k)))
    (c' := (Dev.tc (px c) : Thread nD τ)) (src := sliceM sM k) (dst := sliceM rM k) (q := fullShare) (fs := sendG m ρ c) (fd := f1)
    (r₁ := 0) (r₂ := 0) (d₁ := false) (d₂ := false)
    (by rw [show ((c : Thread nD τ), SemLoc.dma (dsem .sx k)) = dCell .sx c k from rfl, duties_dma]; exact Finset.mem_singleton_self _)
    (by rw [show ((Dev.tc (px c) : Thread nD τ), SemLoc.dma (dsem .rx k)) = dCell .rx (px c) k from rfl, duties_dma]; exact Finset.mem_singleton_self _)
    () () N rfl (amount_dma m ρ c .sx k false) (amount_dma m ρ (px c) .rx k false) O rfl (W := W)
    (by rw [show ((c : Thread nD τ), SemLoc.dma (dsem .sx k)) = dCell .sx c k from rfl, payload_dma, slicePts0]; exact .rfl)
    (by
      rw [show ((Dev.tc (px c) : Thread nD τ), SemLoc.dma (dsem .rx k)) = dCell .rx (px c) k from rfl, payload_dma,
        landed_pts01 c (px c) k fullShare (sendG m ρ c) f1 (recvG m ρ (px c)) (fun i _ => by unfold recvG sendG; rw [px_px])]
      exact .rfl)

/-- Starting the copy of chunk k across x pays the two duties of that copy and lends the chunk out. -/
theorem step_xsend {p p' : Prg} (k : Fin 16)
    (n : Dev nD) (hn : n = px c)
    {hsc : (sliceM rM k : Memref sig (Dev.tc n : Thread nD τ).2.kind .vmem S32x512 .bf16).view.ref.isScScratch = false}
    {hsrc : (sliceM sM k : Memref sig .tc .vmem S32x512 .bf16).view.WordExact} {hdst : (sliceM rM k : Memref sig .tc .vmem S32x512 .bf16).view.WordExact}
    {hsem : DmaTarget.Typed .vmem (.dma (dsem .rx k)) (.remote (Dev.tc n : Thread nD τ) (sliceM rM k : Memref sig .tc .vmem S32x512 .bf16) (.dma (dsem .sx k)) hsc)}
    {α : Type} {Q : α → sProp 𝕄} {kont : PUnit → Prog (TpuEff nD τ sig (Elt F) Λ₀ .tc) α}
    (hp' : p' = { p with xs := p.xs + 1 } := by rfl) (hxs : p.xs = k.val := by decide) (h0 : sxStage p k = 1 := by decide)
    (h1 : sxStage p' k = 2 := by decide) (hj : ∀ j, j ≠ k → sxStage p j = sxStage p' j := by decide) :
    iprop(Inv m ρ c K f0 f1 f2 g p ∗ (Inv m ρ c K f0 f1 f2 g p' -∗ WP c (kont ⟨⟩) Q))
      ⊢ WP c (.op (.enqueueDma (sliceM sM k) (.remote (Dev.tc n : Thread nD τ) (sliceM rM k) (.dma (dsem .sx k)) hsc) (.dma (dsem .rx k)) hsrc hdst hsem) kont) Q := by
  subst hn
  have e_rx : ∀ j, rxStage p' j = rxStage p j := by subst hp'; intro j; rfl
  have e_rz : ∀ j, rzStage p' j = rzStage p j := by subst hp'; intro j; rfl
  have e_ad : p'.ad = p.ad := by subst hp'; rfl
  have e_xs : p'.xs = k.val + 1 := by subst hp'; show p.xs + 1 = _; omega
  have e_zs : p'.zs = p.zs := by subst hp'; rfl
  unfold Inv owedP records
  simp only [e_rx, e_rz, e_ad, e_xs, e_zs]
  rw [hxs, owedX_peel c k.val k.isLt,
    show owedX c (k.val + 1) + tallyAt (dCell .rx (px c) ⟨k.val, k.isLt⟩) () N + owedZ c p.zs
      = (owedX c (k.val + 1) + owedZ c p.zs) + tallyAt (dCell .rx (px c) k) () N from add_right_comm _ _ _,
    bigSep_focus k (fun j => sxAtom m ρ c f0 f1 j (sxStage p j)) (fun j => sxAtom m ρ c f0 f1 j (sxStage p' j)) (fun j hjk => by rw [hj j hjk]),
    ← bigSep_unfocus k (fun j => sxAtom m ρ c f0 f1 j (sxStage p' j))]
  rw [h0, h1,
    show sxAtom m ρ c f0 f1 k 1 = iprop(chunk0 c k fullShare (sendG m ρ c) ∗ dutyTok ER (dCell .sx c k) 0 false ∗ dutyTok ER (dCell .rx (px c) k) 0 false
      ∗ chunk1 (px c) k fullShare f1 ∗ atPos ER (dCell .sx c k) 0 ∅ 0) from rfl,
    show sxAtom m ρ c f0 f1 k 2 = iprop(cred (tallyAt (dCell .sx c k) () N) ∗ atPos ER (dCell .sx c k) 0 ∅ 0) from rfl]
  iintro ⟨⟨⟨#Hinv, #Hreach⟩, #Hlev, ⟨%W, HO⟩, ⟨⟨Hs, HtS, HtR, Hd, Hat⟩, Hsxr⟩, Hrx, Hrz, Hx, Hout⟩, Hk⟩
  ihave #HI1 := (inv_at (rd m ρ) K (c, .inr (.sx, k))) $$ Hinv
  ihave #HI2 := (inv_at (rd m ρ) K (px c, .inr (.rx, k))) $$ Hinv
  ihave #HR1 := (reached_at (c, .inr (.sx, k))) $$ Hreach
  ihave #HR2 := (reached_at (px c, .inr (.rx, k))) $$ Hreach
  ihave Hs' := (Entails.of_eq (slicePts0 c k fullShare (sendG m ρ c)).symm) $$ Hs
  ihave Hd' := (Entails.of_eq (slicePts1 (px c) k fullShare f1).symm) $$ Hd
  iapply (xsend_rule m ρ c K f1 k W (owedX c (k.val + 1) + owedZ c p.zs)) $$ [Hs' Hd' HO HtS HtR]
  · isplitr; · iexact HI1
    isplitr; · iexact HI2
    isplitl [Hs']; · iexact Hs'
    isplitl [Hd']; · iexact Hd'
    isplitl [HO]; · iexact HO
    isplitl [HtS]; · iexact HtS
    isplitr; · iexact HR1
    isplitl [HtR]; · iexact HtR
    iexact HR2
  iintro ⟨Hc, HO⟩
  iapply Hk
  isplitr
  · isplitr; · iexact Hinv
    iexact Hreach
  isplitr; · iexact Hlev
  isplitl [HO]; · iexists W; iexact HO
  isplitl [Hc Hat Hsxr]
  · isplitl [Hc Hat]
    · isplitl [Hc]; · iexact Hc
      iexact Hat
    iexact Hsxr
  isplitl [Hrx]; · iexact Hrx
  isplitl [Hrz]; · iexact Hrz
  isplitl [Hx]; · iexact Hx
  iexact Hout

theorem zsend_rule (k : Fin 16) (W : Waits sig Unit) (O : CellTallies nD τ sig Unit)
    {hsc : (sliceM zM k : Memref sig (Dev.tc (pz c) : Thread nD τ).2.kind .vmem S32x512 .bf16).view.ref.isScScratch = false}
    {hsrc : (sliceM rM k : Memref sig .tc .vmem S32x512 .bf16).view.WordExact} {hdst : (sliceM zM k : Memref sig .tc .vmem S32x512 .bf16).view.WordExact}
    {hsem : DmaTarget.Typed .vmem (.dma (dsem .rz k)) (.remote (Dev.tc (pz c) : Thread nD τ) (sliceM zM k : Memref sig .tc .vmem S32x512 .bf16) (.dma (dsem .sz k)) hsc)}
    {α : Type} {Q : α → sProp 𝕄} {kont : PUnit → Prog (TpuEff nD τ sig (Elt F) Λ₀ .tc) α} :
    iprop(cellInv ER (rd m ρ) (K (c, .inr (.sz, k))) (dCell .sz c k) ∗ cellInv ER (rd m ρ) (K (pz c, .inr (.rz, k))) (dCell .rz (pz c) k)
        ∗ ((sliceM rM k).view.loc (c : Thread nD τ) ↦[(sliceM rM k).view.set]{fullShare.right} recvG m ρ c)
        ∗ ((sliceM zM k).view.loc (pz c : Thread nD τ) ↦[(sliceM zM k).view.set]{fullShare} f2)
        ∗ owes (c : Thread nD τ) (O + tallyAt (dCell .rz (pz c) k) () N) W
        ∗ dutyTok ER (dCell .sz c k) 0 false ∗ reached ER (dCell .sz c k) 0
        ∗ dutyTok ER (dCell .rz (pz c) k) 0 false ∗ reached ER (dCell .rz (pz c) k) 0)
      ⊢ iprop(((cred (tallyAt (dCell .sz c k) () N) ∗ owes (c : Thread nD τ) O W) -∗ WP c (kont ⟨⟩) Q)
          -∗ WP c (.op (.enqueueDma (sliceM rM k) (.remote (Dev.tc (pz c) : Thread nD τ) (sliceM zM k) (.dma (dsem .sz k)) hsc) (.dma (dsem .rz k)) hsrc hdst hsem) kont) Q) :=
  Rounds.wp_send_pointsTo 𝒱₀ ER (rd m ρ) (c : Thread nD τ) none (κ₁ := K (c, .inr (.sz, k))) (κ₂ := K (pz c, .inr (.rz, k)))
    (c' := (Dev.tc (pz c) : Thread nD τ)) (src := sliceM rM k) (dst := sliceM zM k) (q := fullShare.right) (fs := recvG m ρ c) (fd := f2)
    (r₁ := 0) (r₂ := 0) (d₁ := false) (d₂ := false)
    (by rw [show ((c : Thread nD τ), SemLoc.dma (dsem .sz k)) = dCell .sz c k from rfl, duties_dma]; exact Finset.mem_singleton_self _)
    (by rw [show ((Dev.tc (pz c) : Thread nD τ), SemLoc.dma (dsem .rz k)) = dCell .rz (pz c) k from rfl, duties_dma]; exact Finset.mem_singleton_self _)
    () () N rfl (amount_dma m ρ c .sz k false) (amount_dma m ρ (pz c) .rz k false) O rfl (W := W)
    (by rw [show ((c : Thread nD τ), SemLoc.dma (dsem .sz k)) = dCell .sz c k from rfl, payload_dma, slicePts1]; exact .rfl)
    (by
      rw [show ((Dev.tc (pz c) : Thread nD τ), SemLoc.dma (dsem .rz k)) = dCell .rz (pz c) k from rfl, payload_dma,
        landed_pts12 c (pz c) k fullShare (recvG m ρ c) f2 (relayG m ρ (pz c)) (fun i _ => by unfold relayG recvG; rw [pz_pz])]
      exact .rfl)

/-- Relaying landed chunk k along z. -/
theorem step_zsend {p p' : Prg} (k : Fin 16)
    (n : Dev nD) (hn : n = pz c)
    {hsc : (sliceM zM k : Memref sig (Dev.tc n : Thread nD τ).2.kind .vmem S32x512 .bf16).view.ref.isScScratch = false}
    {hsrc : (sliceM rM k : Memref sig .tc .vmem S32x512 .bf16).view.WordExact} {hdst : (sliceM zM k : Memref sig .tc .vmem S32x512 .bf16).view.WordExact}
    {hsem : DmaTarget.Typed .vmem (.dma (dsem .rz k)) (.remote (Dev.tc n : Thread nD τ) (sliceM zM k : Memref sig .tc .vmem S32x512 .bf16) (.dma (dsem .sz k)) hsc)}
    {α : Type} {Q : α → sProp 𝕄} {kont : PUnit → Prog (TpuEff nD τ sig (Elt F) Λ₀ .tc) α}
    (hp' : p' = { p with zs := p.zs + 1 } := by rfl) (hzs : p.zs = k.val := by decide) (h0 : rxStage p k = 1 := by decide)
    (h1 : rxStage p' k = 2 := by decide) (hj : ∀ j, j ≠ k → rxStage p j = rxStage p' j := by decide) :
    iprop(Inv m ρ c K f0 f1 f2 g p ∗ (Inv m ρ c K f0 f1 f2 g p' -∗ WP c (kont ⟨⟩) Q))
      ⊢ WP c (.op (.enqueueDma (sliceM rM k) (.remote (Dev.tc n : Thread nD τ) (sliceM zM k) (.dma (dsem .sz k)) hsc) (.dma (dsem .rz k)) hsrc hdst hsem) kont) Q := by
  subst hn
  have e_sx : ∀ j, sxStage p' j = sxStage p j := by subst hp'; intro j; rfl
  have e_rz : ∀ j, rzStage p' j = rzStage p j := by subst hp'; intro j; rfl
  have e_ad : p'.ad = p.ad := by subst hp'; rfl
  have e_xs : p'.xs = p.xs := by subst hp'; rfl
  have e_zs : p'.zs = k.val + 1 := by subst hp'; show p.zs + 1 = _; omega
  unfold Inv owedP records
  simp only [e_sx, e_rz, e_ad, e_xs, e_zs]
  rw [hzs, owedZ_peel c k.val k.isLt,
    show owedX c p.xs + (owedZ c (k.val + 1) + tallyAt (dCell .rz (pz c) ⟨k.val, k.isLt⟩) () N)
      = (owedX c p.xs + owedZ c (k.val + 1)) + tallyAt (dCell .rz (pz c) k) () N from (add_assoc _ _ _).symm,
    bigSep_focus k (fun j => rxAtom m ρ c f2 j (rxStage p j)) (fun j => rxAtom m ρ c f2 j (rxStage p' j)) (fun j hjk => by rw [hj j hjk]),
    ← bigSep_unfocus k (fun j => rxAtom m ρ c f2 j (rxStage p' j))]
  rw [h0, h1,
    show rxAtom m ρ c f2 k 1 = iprop(chunk1 c k fullShare (recvG m ρ c) ∗ semVal (dCell .rx c k) 0
      ∗ (dutyTok ER (dCell .sz c k) 0 false ∗ dutyTok ER (dCell .rz (pz c) k) 0 false ∗ chunk2 (pz c) k fullShare f2 ∗ atPos ER (dCell .sz c k) 0 ∅ 0)) from rfl,
    show rxAtom m ρ c f2 k 2 = iprop(chunk1 c k fullShare.left (recvG m ρ c) ∗ semVal (dCell .rx c k) 0
      ∗ cred (tallyAt (dCell .sz c k) () N) ∗ atPos ER (dCell .sz c k) 0 ∅ 0) from rfl]
  iintro ⟨⟨⟨#Hinv, #Hreach⟩, #Hlev, ⟨%W, HO⟩, Hsx, ⟨⟨Hr, Hv, HtS, HtR, Hd, Hat⟩, Hrxr⟩, Hrz, Hx, Hout⟩, Hk⟩
  ihave #HI1 := (inv_at (rd m ρ) K (c, .inr (.sz, k))) $$ Hinv
  ihave #HI2 := (inv_at (rd m ρ) K (pz c, .inr (.rz, k))) $$ Hinv
  ihave #HR1 := (reached_at (c, .inr (.sz, k))) $$ Hreach
  ihave #HR2 := (reached_at (pz c, .inr (.rz, k))) $$ Hreach
  ihave Hr2 := (pointsTo_halves (ℓ := (c : Thread nD τ).loc cc0_scratch1) (S := sset k) (f := recvG m ρ c)).1 $$ Hr
  icases Hr2 with ⟨Hl, Hrt⟩
  ihave Hs' := (Entails.of_eq (slicePts1 c k fullShare.right (recvG m ρ c)).symm) $$ Hrt
  ihave Hd' := (Entails.of_eq (slicePts2 (pz c) k fullShare f2).symm) $$ Hd
  iapply (zsend_rule m ρ c K f2 k W (owedX c p.xs + owedZ c (k.val + 1))) $$ [Hs' Hd' HO HtS HtR]
  · isplitr; · iexact HI1
    isplitr; · iexact HI2
    isplitl [Hs']; · iexact Hs'
    isplitl [Hd']; · iexact Hd'
    isplitl [HO]; · iexact HO
    isplitl [HtS]; · iexact HtS
    isplitr; · iexact HR1
    isplitl [HtR]; · iexact HtR
    iexact HR2
  iintro ⟨Hc, HO⟩
  iapply Hk
  isplitr
  · isplitr; · iexact Hinv
    iexact Hreach
  isplitr; · iexact Hlev
  isplitl [HO]; · iexists W; iexact HO
  isplitl [Hsx]; · iexact Hsx
  isplitl [Hl Hv Hc Hat Hrxr]
  · isplitl [Hl Hv Hc Hat]
    · isplitl [Hl]; · iexact Hl
      isplitl [Hv]; · iexact Hv
      isplitl [Hc]; · iexact Hc
      iexact Hat
    iexact Hrxr
  isplitl [Hrz]; · iexact Hrz
  isplitl [Hx]; · iexact Hx
  iexact Hout

end Steps

end Cert.KernelIdeal.Hand

end
-- ==== Proof.StepWaitR.lean ====
import proofs.«901032_g7700000000001033_dist_rs_v7x_xyz2x2x4_x_m1024_n512_bf16_1_alg».proof.Proof.StepBase

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

/-- Past the receive wait of chunk k across x the chunk holds the partner's rows. -/
theorem step_rxwait {p p' : Prg} (k : Fin 16)
    {src dst : Memref sig .tc .vmem S32x512 .bf16} {hsrc : src.view.WordExact} {hdst : dst.view.WordExact}
    {α : Type} {Q : α → sProp 𝕄} {kont : PUnit → Prog (TpuEff nD τ sig (Elt F) Λ₀ .tc) α}
    (hp' : p' = { p with rw := p.rw + 1 } := by rfl) (hx16 : p.xs = 16 := by decide) (hz : k.val ≤ p.zs := by decide)
    (h0 : rxStage p k = 0 := by decide) (h1 : rxStage p' k = 1 := by decide) (hj : ∀ j, j ≠ k → rxStage p j = rxStage p' j := by decide)
    (hd : dst.view.dmaCredit = N := by rfl) :
    iprop(Inv m ρ c K f0 f1 f2 g p ∗ (Inv m ρ c K f0 f1 f2 g p' -∗ WP c (kont ⟨⟩) Q))
      ⊢ WP c (.op (.waitDma2 (dsem .rx k) src dst hsrc hdst) kont) Q := by
  have e_sx : ∀ j, sxStage p' j = sxStage p j := by subst hp'; intro j; rfl
  have e_rz : ∀ j, rzStage p' j = rzStage p j := by subst hp'; intro j; rfl
  have e_ad : p'.ad = p.ad := by subst hp'; rfl
  have e_xs : p'.xs = p.xs := by subst hp'; rfl
  have e_zs : p'.zs = p.zs := by subst hp'; rfl
  have hpayeq : bigSep ((rd (F := F) m ρ).duties (dCell .rx c k) 0 \ ∅) (fun d => (rd (F := F) m ρ).payload (dCell .rx c k) 0 d)
      = chunk1 c k fullShare (recvG m ρ c) := (rest_dma m ρ c .rx k).trans rfl
  unfold Inv owedP records
  simp only [e_sx, e_rz, e_ad, e_xs, e_zs]
  rw [hx16, owedX_last, zero_add,
    bigSep_focus k (fun j => rxAtom m ρ c f2 j (rxStage p j)) (fun j => rxAtom m ρ c f2 j (rxStage p' j)) (fun j hjk => by rw [hj j hjk]),
    ← bigSep_unfocus k (fun j => rxAtom m ρ c f2 j (rxStage p' j))]
  rw [h0, h1,
    show rxAtom m ρ c f2 k 0 = iprop(cred (tallyAt (dCell .rx c k) () N) ∗ atPos ER (dCell .rx c k) 0 ∅ 0 ∗ zKit c f2 k) from rfl,
    show rxAtom m ρ c f2 k 1 = iprop(chunk1 c k fullShare (recvG m ρ c) ∗ semVal (dCell .rx c k) 0 ∗ zKit c f2 k) from rfl]
  iintro ⟨⟨⟨#Hinv, #Hreach⟩, #Hlev, ⟨%W, HO⟩, Hsx, ⟨⟨Hc, Hat, Hkit⟩, Hrxr⟩, Hrz, Hx, Hout⟩, Hk⟩
  ihave #HI := (inv_at (rd m ρ) K (c, .inr (.rx, k))) $$ Hinv
  iapply (Rounds.wp_wait_rest_token 𝒱₀ ER (rd m ρ) (c : Thread nD τ) none (κ := K (c, .inr (.rx, k))) (sm := .dma (dsem .rx k)) (k' := N)
      (fun K' => (wpE_waitDma2_eq 𝒱₀ (c : Thread nD τ) none Set.univ K').trans (by rw [hd])) (Set.mem_univ _) ()
      (O := owedZ c p.zs) (W := W) (R := 0) (m := 0) (T := ∅)
      (by rw [Nat.zero_add]; exact (expect_dma m ρ c .rx k).symm)) $$ [Hc HO Hat]
  · isplitr; · iexact HI
    isplitl [Hc]; · iexact Hc
    isplitl [HO]; · iexact HO
    isplitr; · iapply (mayWait_rx c k p.zs hz); iexact Hlev
    iexact Hat
  iintro ⟨HO, Hat, -, Hpay⟩
  ihave Hr := (Entails.of_eq hpayeq) $$ Hpay
  imod (Rounds.cell_close ER (rd m ρ) (Set.mem_univ (K (c, .inr (.rx, k)))) (fun h => h) (R := 0 + 1) (duties_later m ρ (dCell .rx c k))) $$ [Hat] with Hz
  · isplitr; · iexact HI
    iexact Hat
  iapply Hk
  isplitr
  · isplitr; · iexact Hinv
    iexact Hreach
  isplitr; · iexact Hlev
  isplitl [HO]; · iexists (insert (SemLoc.dma (dsem .rx k), ()) W); iexact HO
  isplitl [Hsx]; · iexact Hsx
  isplitl [Hr Hz Hkit Hrxr]
  · isplitl [Hr Hz Hkit]
    · isplitl [Hr]; · iexact Hr
      isplitl [Hz]; · iexact Hz
      iexact Hkit
    iexact Hrxr
  isplitl [Hrz]; · iexact Hrz
  isplitl [Hx]; · iexact Hx
  iexact Hout

/-- Past the receive wait of relayed chunk k. -/
theorem step_rzwait {p p' : Prg} (k : Fin 16)
    {src dst : Memref sig .tc .vmem S32x512 .bf16} {hsrc : src.view.WordExact} {hdst : dst.view.WordExact}
    {α : Type} {Q : α → sProp 𝕄} {kont : PUnit → Prog (TpuEff nD τ sig (Elt F) Λ₀ .tc) α}
    (hp' : p' = { p with zw := p.zw + 1 } := by rfl) (hx16 : p.xs = 16 := by decide) (hz : k.val < p.zs := by decide)
    (h0 : rzStage p k = 0 := by decide) (h1 : rzStage p' k = 1 := by decide) (hj : ∀ j, j ≠ k → rzStage p j = rzStage p' j := by decide)
    (hd : dst.view.dmaCredit = N := by rfl) :
    iprop(Inv m ρ c K f0 f1 f2 g p ∗ (Inv m ρ c K f0 f1 f2 g p' -∗ WP c (kont ⟨⟩) Q))
      ⊢ WP c (.op (.waitDma2 (dsem .rz k) src dst hsrc hdst) kont) Q := by
  have e_sx : ∀ j, sxStage p' j = sxStage p j := by subst hp'; intro j; rfl
  have e_rx : ∀ j, rxStage p' j = rxStage p j := by subst hp'; intro j; rfl
  have e_ad : p'.ad = p.ad := by subst hp'; rfl
  have e_xs : p'.xs = p.xs := by subst hp'; rfl
  have e_zs : p'.zs = p.zs := by subst hp'; rfl
  have hpayeq : bigSep ((rd (F := F) m ρ).duties (dCell .rz c k) 0 \ ∅) (fun d => (rd (F := F) m ρ).payload (dCell .rz c k) 0 d)
      = chunk2 c k fullShare (relayG m ρ c) := (rest_dma m ρ c .rz k).trans rfl
  unfold Inv owedP records
  simp only [e_sx, e_rx, e_ad, e_xs, e_zs]
  rw [hx16, owedX_last, zero_add,
    bigSep_focus k (fun j => rzAtom m ρ c j (rzStage p j)) (fun j => rzAtom m ρ c j (rzStage p' j)) (fun j hjk => by rw [hj j hjk]),
    ← bigSep_unfocus k (fun j => rzAtom m ρ c j (rzStage p' j))]
  rw [h0, h1,
    show rzAtom m ρ c k 0 = iprop(cred (tallyAt (dCell .rz c k) () N) ∗ atPos ER (dCell .rz c k) 0 ∅ 0) from rfl,
    show rzAtom m ρ c k 1 = iprop(chunk2 c k fullShare (relayG m ρ c) ∗ semVal (dCell .rz c k) 0) from rfl]
  iintro ⟨⟨⟨#Hinv, #Hreach⟩, #Hlev, ⟨%W, HO⟩, Hsx, Hrx, ⟨⟨Hc, Hat⟩, Hrzr⟩, Hx, Hout⟩, Hk⟩
  ihave #HI := (inv_at (rd m ρ) K (c, .inr (.rz, k))) $$ Hinv
  iapply (Rounds.wp_wait_rest_token 𝒱₀ ER (rd m ρ) (c : Thread nD τ) none (κ := K (c, .inr (.rz, k))) (sm := .dma (dsem .rz k)) (k' := N)
      (fun K' => (wpE_waitDma2_eq 𝒱₀ (c : Thread nD τ) none Set.univ K').trans (by rw [hd])) (Set.mem_univ _) ()
      (O := owedZ c p.zs) (W := W) (R := 0) (m := 0) (T := ∅)
      (by rw [Nat.zero_add]; exact (expect_dma m ρ c .rz k).symm)) $$ [Hc HO Hat]
  · isplitr; · iexact HI
    isplitl [Hc]; · iexact Hc
    isplitl [HO]; · iexact HO
    isplitr; · iapply (mayWait_rz c k p.zs hz); iexact Hlev
    iexact Hat
  iintro ⟨HO, Hat, -, Hpay⟩
  ihave Hr := (Entails.of_eq hpayeq) $$ Hpay
  imod (Rounds.cell_close ER (rd m ρ) (Set.mem_univ (K (c, .inr (.rz, k)))) (fun h => h) (R := 0 + 1) (duties_later m ρ (dCell .rz c k))) $$ [Hat] with Hz
  · isplitr; · iexact HI
    iexact Hat
  iapply Hk
  isplitr
  · isplitr; · iexact Hinv
    iexact Hreach
  isplitr; · iexact Hlev
  isplitl [HO]; · iexists (insert (SemLoc.dma (dsem .rz k), ()) W); iexact HO
  isplitl [Hsx]; · iexact Hsx
  isplitl [Hrx]; · iexact Hrx
  isplitl [Hr Hz Hrzr]
  · isplitl [Hr Hz]
    · isplitl [Hr]; · iexact Hr
      iexact Hz
    iexact Hrzr
  isplitl [Hx]; · iexact Hx
  iexact Hout

end Steps

end Cert.KernelIdeal.Hand

end
-- ==== Proof.StepWaitS.lean ====
import proofs.«901032_g7700000000001033_dist_rs_v7x_xyz2x2x4_x_m1024_n512_bf16_1_alg».proof.Proof.StepBase
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Steps

variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

/-- Past the send wait of chunk k the lent chunk is back. -/
theorem step_sxwait {p p' : Prg} (k : Fin 16)
    {src dst : Memref sig .tc .vmem S32x512 .bf16} {hsrc : src.view.WordExact} {hdst : dst.view.WordExact}
    {α : Type} {Q : α → sProp 𝕄} {kont : PUnit → Prog (TpuEff nD τ sig (Elt F) Λ₀ .tc) α}
    (hp' : p' = { p with sw := p.sw + 1 } := by rfl) (hx16 : p.xs = 16 := by decide) (hz16 : p.zs = 16 := by decide)
    (h0 : sxStage p k = 2 := by decide) (h1 : sxStage p' k = 3 := by decide) (hj : ∀ j, j ≠ k → sxStage p j = sxStage p' j := by decide)
    (hd : dst.view.dmaCredit = N := by rfl) :
    iprop(Inv m ρ c K f0 f1 f2 g p ∗ (Inv m ρ c K f0 f1 f2 g p' -∗ WP c (kont ⟨⟩) Q))
      ⊢ WP c (.op (.waitDma2 (dsem .sx k) src dst hsrc hdst) kont) Q := by
  subst hp'
  have hO : owedP c p = 0 := by unfold owedP; rw [hx16, hz16, owedX_last, owedZ_last, add_zero]
  have e0 : sxAtom m ρ c f0 f1 k (sxStage p k)
      = iprop(cred (tallyAt (dCell .sx c k) () N) ∗ atPos ER (dCell .sx c k) 0 ∅ 0) := by rw [h0]; rfl
  have e1 : sxAtom m ρ c f0 f1 k (sxStage { p with sw := p.sw + 1 } k)
      = iprop(chunk0 c k fullShare (sendG m ρ c) ∗ semVal (dCell .sx c k) 0) := by rw [h1]; rfl
  unfold Inv
  iintro ⟨⟨#HR, #Hlev, ⟨%W, HO⟩, Hsx, Hrx, Hrz, Hx, Hout⟩, Hk⟩
  ihave HR' := HR
  unfold records
  icases HR' with ⟨#HI, #Hreach⟩
  ihave HIk := (inv_at (rd m ρ) K (c, .inr (.sx, k))) $$ HI
  ihave Hf := (Entails.of_eq (bigSep_focus k (fun j => sxAtom m ρ c f0 f1 j (sxStage p j))
    (fun j => sxAtom m ρ c f0 f1 j (sxStage { p with sw := p.sw + 1 } j)) (fun j hjk => by rw [hj j hjk]))) $$ Hsx
  icases Hf with ⟨Hat0, Hrest⟩
  ihave Hat1 := (Entails.of_eq e0) $$ Hat0
  icases Hat1 with ⟨Hc, Hat⟩
  ihave Hc' := (Entails.of_eq (show (cred (tallyAt (dCell .sx c k) () N) : sProp 𝕄) = cred (tallyAt (dCell .sx c k) () dst.view.dmaCredit) from by rw [hd])) $$ Hc
  iapply (Rounds.wp_wait_rest_token 𝒱₀ ER (rd m ρ) (c : Thread nD τ) none (κ := K (c, .inr (.sx, k)))
      (wpE_waitDma2_eq 𝒱₀ (c : Thread nD τ) none Set.univ) (Set.mem_univ _) () (O := owedP c p) (W := W) (R := 0) (m := 0) (T := ∅)
      (by rw [Nat.zero_add, hd]; exact (expect_dma m ρ c .sx k).symm)) $$ [Hc' HO Hat]
  · isplitr; · iexact HIk
    isplitl [Hc']; · iexact Hc'
    isplitl [HO]; · iexact HO
    isplitr; · rw [hO, MayWait_zero]; iempintro
    iexact Hat
  iintro ⟨HO, Hat, -, Hpay⟩
  ihave Hch := (Entails.of_eq ((rest_dma m ρ c .sx k).trans (show dmaPay m ρ c .sx k = chunk0 c k fullShare (sendG m ρ c) from rfl))) $$ Hpay
  imod (Rounds.cell_close ER (rd m ρ) (Set.mem_univ (K (c, .inr (.sx, k)))) (fun h => h) (R := 0 + 1) (duties_later m ρ (dCell .sx c k))) $$ [Hat] with Hz
  · isplitr; · iexact HIk
    iexact Hat
  iapply Hk
  isplitr; · iexact HR
  isplitr; · iexact Hlev
  isplitl [HO]; · iexists _; iexact HO
  isplitl [Hch Hz Hrest]
  · iapply (Entails.of_eq (bigSep_unfocus k (fun j => sxAtom m ρ c f0 f1 j (sxStage { p with sw := p.sw + 1 } j))))
    isplitl [Hch Hz]
    · iapply (Entails.of_eq e1.symm)
      isplitl [Hch]; · iexact Hch
      iexact Hz
    iexact Hrest
  isplitl [Hrx]; · iexact Hrx
  isplitl [Hrz]; · iexact Hrz
  isplitl [Hx]; · iexact Hx
  iexact Hout

theorem step_szwait {p p' : Prg} (k : Fin 16)
    {src dst : Memref sig .tc .vmem S32x512 .bf16} {hsrc : src.view.WordExact} {hdst : dst.view.WordExact}
    {α : Type} {Q : α → sProp 𝕄} {kont : PUnit → Prog (TpuEff nD τ sig (Elt F) Λ₀ .tc) α}
    (hp' : p' = { p with tw := p.tw + 1 } := by rfl) (hx16 : p.xs = 16 := by decide) (hz16 : p.zs = 16 := by decide)
    (h0 : rxStage p k = 2 := by decide) (h1 : rxStage p' k = 3 := by decide) (hj : ∀ j, j ≠ k → rxStage p j = rxStage p' j := by decide)
    (hd : dst.view.dmaCredit = N := by rfl) :
    iprop(Inv m ρ c K f0 f1 f2 g p ∗ (Inv m ρ c K f0 f1 f2 g p' -∗ WP c (kont ⟨⟩) Q))
      ⊢ WP c (.op (.waitDma2 (dsem .sz k) src dst hsrc hdst) kont) Q := by
  subst hp'
  have hO : owedP c p = 0 := by unfold owedP; rw [hx16, hz16, owedX_last, owedZ_last, add_zero]
  have e0 : rxAtom m ρ c f2 k (rxStage p k)
      = iprop(chunk1 c k fullShare.left (recvG m ρ c) ∗ semVal (dCell .rx c k) 0
          ∗ cred (tallyAt (dCell .sz c k) () N) ∗ atPos ER (dCell .sz c k) 0 ∅ 0) := by rw [h0]; rfl
  have e1 : rxAtom m ρ c f2 k (rxStage { p with tw := p.tw + 1 } k)
      = iprop(chunk1 c k fullShare (recvG m ρ c) ∗ semVal (dCell .rx c k) 0 ∗ semVal (dCell .sz c k) 0) := by rw [h1]; rfl
  unfold Inv
  iintro ⟨⟨#HR, #Hlev, ⟨%W, HO⟩, Hsx, Hrx, Hrz, Hx, Hout⟩, Hk⟩
  ihave HR' := HR
  unfold records
  icases HR' with ⟨#HI, #Hreach⟩
  ihave HIk := (inv_at (rd m ρ) K (c, .inr (.sz, k))) $$ HI
  ihave Hf := (Entails.of_eq (bigSep_focus k (fun j => rxAtom m ρ c f2 j (rxStage p j))
    (fun j => rxAtom m ρ c f2 j (rxStage { p with tw := p.tw + 1 } j)) (fun j hjk => by rw [hj j hjk]))) $$ Hrx
  icases Hf with ⟨Hat0, Hrest⟩
  ihave Hat1 := (Entails.of_eq e0) $$ Hat0
  icases Hat1 with ⟨Hleft, Hzrx, Hc, Hat⟩
  ihave Hc' := (Entails.of_eq (show (cred (tallyAt (dCell .sz c k) () N) : sProp 𝕄) = cred (tallyAt (dCell .sz c k) () dst.view.dmaCredit) from by rw [hd])) $$ Hc
  iapply (Rounds.wp_wait_rest_token 𝒱₀ ER (rd m ρ) (c : Thread nD τ) none (κ := K (c, .inr (.sz, k)))
      (wpE_waitDma2_eq 𝒱₀ (c : Thread nD τ) none Set.univ) (Set.mem_univ _) () (O := owedP c p) (W := W) (R := 0) (m := 0) (T := ∅)
      (by rw [Nat.zero_add, hd]; exact (expect_dma m ρ c .sz k).symm)) $$ [Hc' HO Hat]
  · isplitr; · iexact HIk
    isplitl [Hc']; · iexact Hc'
    isplitl [HO]; · iexact HO
    isplitr; · rw [hO, MayWait_zero]; iempintro
    iexact Hat
  iintro ⟨HO, Hat, -, Hpay⟩
  ihave Hright := (Entails.of_eq ((rest_dma m ρ c .sz k).trans (show dmaPay m ρ c .sz k = chunk1 c k fullShare.right (recvG m ρ c) from rfl))) $$ Hpay
  ihave Hch := (pointsTo_halves (Val := Elt F) (ℓ := (c : Thread nD τ).loc cc0_scratch1) (S := sset k) (f := recvG m ρ c)).2 $$ [Hleft Hright]
  · isplitl [Hleft]; · iexact Hleft
    iexact Hright
  imod (Rounds.cell_close ER (rd m ρ) (Set.mem_univ (K (c, .inr (.sz, k)))) (fun h => h) (R := 0 + 1) (duties_later m ρ (dCell .sz c k))) $$ [Hat] with Hz
  · isplitr; · iexact HIk
    iexact Hat
  iapply Hk
  isplitr; · iexact HR
  isplitr; · iexact Hlev
  isplitl [HO]; · iexists _; iexact HO
  isplitl [Hsx]; · iexact Hsx
  isplitl [Hch Hzrx Hz Hrest]
  · iapply (Entails.of_eq (bigSep_unfocus k (fun j => rxAtom m ρ c f2 j (rxStage { p with tw := p.tw + 1 } j))))
    isplitl [Hch Hzrx Hz]
    · iapply (Entails.of_eq e1.symm)
      isplitl [Hch]; · iexact Hch
      isplitl [Hzrx]; · iexact Hzrx
      iexact Hz
    iexact Hrest
  isplitl [Hrz]; · iexact Hrz
  isplitl [Hx]; · iexact Hx
  iexact Hout

end Steps

end Cert.KernelIdeal.Hand

end
-- ==== Proof.Steps.lean ====
import proofs.«901032_g7700000000001033_dist_rs_v7x_xyz2x2x4_x_m1024_n512_bf16_1_alg».proof.Proof.StepStore
import proofs.«901032_g7700000000001033_dist_rs_v7x_xyz2x2x4_x_m1024_n512_bf16_1_alg».proof.Proof.StepAdd
import proofs.«901032_g7700000000001033_dist_rs_v7x_xyz2x2x4_x_m1024_n512_bf16_1_alg».proof.Proof.StepSend
import proofs.«901032_g7700000000001033_dist_rs_v7x_xyz2x2x4_x_m1024_n512_bf16_1_alg».proof.Proof.StepWaitR
import proofs.«901032_g7700000000001033_dist_rs_v7x_xyz2x2x4_x_m1024_n512_bf16_1_alg».proof.Proof.StepWaitS
-- ==== Proof.Parts02.lean ====
import proofs.«901032_g7700000000001033_dist_rs_v7x_xyz2x2x4_x_m1024_n512_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem part2_spec0 (hmx : mxOf c = 0) (v2 v5 v8 v9 v10 v28 v30 : BitVec 32) :
    Moves m ρ c K f0 f1 f2 g ⟨0, 0, 0, 0, 0, 0, 0, 0⟩ ⟨2, 1, 0, 0, 0, 0, 0, 0⟩ (onBufs (k0_part2 (F := F)) c v2 v5 v8 v9 v10 v28 v30) := by
  rw [onBufs, k0_part2_eq_skeleton]; unfold k0_part2_skel
  simp only [cond1_eq, cond2_eq, cond3_eq, cond4_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_store m ρ c K f0 f1 f2 g 0 (hoff := (off1_eq c).trans (by rw [hmx]; rfl))) ?_
  refine .step (fun _ => step_xsend m ρ c K f0 f1 f2 g 0 _ (dev3_eq c)) ?_
  refine .step (fun _ => step_store m ρ c K f0 f1 f2 g 1 (hoff := (off3_eq c).trans (by rw [hmx]; rfl))) ?_
  exact .ret _

theorem part2_spec1 (hmx : mxOf c = 1) (v2 v5 v8 v9 v10 v28 v30 : BitVec 32) :
    Moves m ρ c K f0 f1 f2 g ⟨0, 0, 0, 0, 0, 0, 0, 0⟩ ⟨2, 1, 0, 0, 0, 0, 0, 0⟩ (onBufs (k0_part2 (F := F)) c v2 v5 v8 v9 v10 v28 v30) := by
  rw [onBufs, k0_part2_eq_skeleton]; unfold k0_part2_skel
  simp only [cond1_eq, cond2_eq, cond3_eq, cond4_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_store m ρ c K f0 f1 f2 g 0 (hoff := (off2_eq c).trans (by rw [hmx]; rfl))) ?_
  refine .step (fun _ => step_xsend m ρ c K f0 f1 f2 g 0 _ (dev3_eq c)) ?_
  refine .step (fun _ => step_store m ρ c K f0 f1 f2 g 1 (hoff := (off4_eq c).trans (by rw [hmx]; rfl))) ?_
  exact .ret _

theorem part3_spec0 (hmx : mxOf c = 0) (v2 v5 v8 v9 v10 : BitVec 32) :
    Moves m ρ c K f0 f1 f2 g ⟨2, 1, 0, 0, 0, 0, 0, 0⟩ ⟨4, 3, 0, 0, 0, 0, 0, 0⟩ (onBufs (k0_part3 (F := F)) c v2 v5 v8 v9 v10) := by
  rw [onBufs, k0_part3_eq_skeleton]; unfold k0_part3_skel
  simp only [cond5_eq, cond6_eq, cond7_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 1 _ (dev4_eq c)) ?_
  refine .step (fun _ => step_store m ρ c K f0 f1 f2 g 2 (hoff := (off5_eq c).trans (by rw [hmx]; rfl))) ?_
  refine .step (fun _ => step_xsend m ρ c K f0 f1 f2 g 2 _ (dev5_eq c)) ?_
  refine .step (fun _ => step_store m ρ c K f0 f1 f2 g 3 (hoff := (off7_eq c).trans (by rw [hmx]; rfl))) ?_
  exact .ret _

theorem part3_spec1 (hmx : mxOf c = 1) (v2 v5 v8 v9 v10 : BitVec 32) :
    Moves m ρ c K f0 f1 f2 g ⟨2, 1, 0, 0, 0, 0, 0, 0⟩ ⟨3, 3, 0, 0, 0, 0, 0, 0⟩ (onBufs (k0_part3 (F := F)) c v2 v5 v8 v9 v10) := by
  rw [onBufs, k0_part3_eq_skeleton]; unfold k0_part3_skel
  simp only [cond5_eq, cond6_eq, cond7_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 1 _ (dev4_eq c)) ?_
  refine .step (fun _ => step_store m ρ c K f0 f1 f2 g 2 (hoff := (off6_eq c).trans (by rw [hmx]; rfl))) ?_
  refine .step (fun _ => step_xsend m ρ c K f0 f1 f2 g 2 _ (dev5_eq c)) ?_
  exact .ret _

theorem part4_spec0 (hmx : mxOf c = 0) (v2 v5 v8 v9 v10 v88 : BitVec 32) :
    Moves m ρ c K f0 f1 f2 g ⟨4, 3, 0, 0, 0, 0, 0, 0⟩ ⟨5, 4, 0, 0, 0, 0, 0, 0⟩ (onBufs (k0_part4 (F := F)) c v2 v5 v8 v9 v10 v88) := by
  rw [onBufs, k0_part4_eq_skeleton]; unfold k0_part4_skel
  simp only [cond8_eq, cond9_eq, cond10_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 3 _ (dev6_eq c)) ?_
  refine .step (fun _ => step_store m ρ c K f0 f1 f2 g 4 (hoff := (off9_eq c).trans (by rw [hmx]; rfl))) ?_
  exact .ret _

theorem part4_spec1 (hmx : mxOf c = 1) (v2 v5 v8 v9 v10 v88 : BitVec 32) :
    Moves m ρ c K f0 f1 f2 g ⟨3, 3, 0, 0, 0, 0, 0, 0⟩ ⟨5, 4, 0, 0, 0, 0, 0, 0⟩ (onBufs (k0_part4 (F := F)) c v2 v5 v8 v9 v10 v88) := by
  rw [onBufs, k0_part4_eq_skeleton]; unfold k0_part4_skel
  simp only [cond8_eq, cond9_eq, cond10_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_store m ρ c K f0 f1 f2 g 3 (hoff := (off8_eq c).trans (by rw [hmx]; rfl))) ?_
  refine .step (fun _ => step_xsend m ρ c K f0 f1 f2 g 3 _ (dev6_eq c)) ?_
  refine .step (fun _ => step_store m ρ c K f0 f1 f2 g 4 (hoff := (off10_eq c).trans (by rw [hmx]; rfl))) ?_
  exact .ret _

theorem part5_spec0 (hmx : mxOf c = 0) (v2 v5 v8 v9 v10 : BitVec 32) :
    Moves m ρ c K f0 f1 f2 g ⟨5, 4, 0, 0, 0, 0, 0, 0⟩ ⟨7, 6, 0, 0, 0, 0, 0, 0⟩ (onBufs (k0_part5 (F := F)) c v2 v5 v8 v9 v10) := by
  rw [onBufs, k0_part5_eq_skeleton]; unfold k0_part5_skel
  simp only [cond11_eq, cond12_eq, cond13_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 4 _ (dev7_eq c)) ?_
  refine .step (fun _ => step_store m ρ c K f0 f1 f2 g 5 (hoff := (off11_eq c).trans (by rw [hmx]; rfl))) ?_
  refine .step (fun _ => step_xsend m ρ c K f0 f1 f2 g 5 _ (dev8_eq c)) ?_
  refine .step (fun _ => step_store m ρ c K f0 f1 f2 g 6 (hoff := (off13_eq c).trans (by rw [hmx]; rfl))) ?_
  exact .ret _

theorem part5_spec1 (hmx : mxOf c = 1) (v2 v5 v8 v9 v10 : BitVec 32) :
    Moves m ρ c K f0 f1 f2 g ⟨5, 4, 0, 0, 0, 0, 0, 0⟩ ⟨6, 6, 0, 0, 0, 0, 0, 0⟩ (onBufs (k0_part5 (F := F)) c v2 v5 v8 v9 v10) := by
  rw [onBufs, k0_part5_eq_skeleton]; unfold k0_part5_skel
  simp only [cond11_eq, cond12_eq, cond13_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 4 _ (dev7_eq c)) ?_
  refine .step (fun _ => step_store m ρ c K f0 f1 f2 g 5 (hoff := (off12_eq c).trans (by rw [hmx]; rfl))) ?_
  refine .step (fun _ => step_xsend m ρ c K f0 f1 f2 g 5 _ (dev8_eq c)) ?_
  exact .ret _

theorem part6_spec0 (hmx : mxOf c = 0) (v2 v5 v8 v9 v10 v148 v153 : BitVec 32) :
    Moves m ρ c K f0 f1 f2 g ⟨7, 6, 0, 0, 0, 0, 0, 0⟩ ⟨8, 7, 0, 0, 0, 0, 0, 0⟩ (onBufs (k0_part6 (F := F)) c v2 v5 v8 v9 v10 v148 v153) := by
  rw [onBufs, k0_part6_eq_skeleton]; unfold k0_part6_skel
  simp only [cond14_eq, cond15_eq, cond16_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 6 _ (dev9_eq c)) ?_
  refine .step (fun _ => step_store m ρ c K f0 f1 f2 g 7 (hoff := (off15_eq c).trans (by rw [hmx]; rfl))) ?_
  exact .ret _

theorem part6_spec1 (hmx : mxOf c = 1) (v2 v5 v8 v9 v10 v148 v153 : BitVec 32) :
    Moves m ρ c K f0 f1 f2 g ⟨6, 6, 0, 0, 0, 0, 0, 0⟩ ⟨8, 7, 0, 0, 0, 0, 0, 0⟩ (onBufs (k0_part6 (F := F)) c v2 v5 v8 v9 v10 v148 v153) := by
  rw [onBufs, k0_part6_eq_skeleton]; unfold k0_part6_skel
  simp only [cond14_eq, cond15_eq, cond16_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_store m ρ c K f0 f1 f2 g 6 (hoff := (off14_eq c).trans (by rw [hmx]; rfl))) ?_
  refine .step (fun _ => step_xsend m ρ c K f0 f1 f2 g 6 _ (dev9_eq c)) ?_
  refine .step (fun _ => step_store m ρ c K f0 f1 f2 g 7 (hoff := (off16_eq c).trans (by rw [hmx]; rfl))) ?_
  exact .ret _

theorem part7_spec0 (hmx : mxOf c = 0) (v2 v5 v8 v9 v10 : BitVec 32) :
    Moves m ρ c K f0 f1 f2 g ⟨8, 7, 0, 0, 0, 0, 0, 0⟩ ⟨10, 9, 0, 0, 0, 0, 0, 0⟩ (onBufs (k0_part7 (F := F)) c v2 v5 v8 v9 v10) := by
  rw [onBufs, k0_part7_eq_skeleton]; unfold k0_part7_skel
  simp only [cond17_eq, cond18_eq, cond19_eq, cond20_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 7 _ (dev10_eq c)) ?_
  refine .step (fun _ => step_store m ρ c K f0 f1 f2 g 8 (hoff := (off17_eq c).trans (by rw [hmx]; rfl))) ?_
  refine .step (fun _ => step_xsend m ρ c K f0 f1 f2 g 8 _ (dev11_eq c)) ?_
  refine .step (fun _ => step_store m ρ c K f0 f1 f2 g 9 (hoff := (off19_eq c).trans (by rw [hmx]; rfl))) ?_
  exact .ret _

theorem part7_spec1 (hmx : mxOf c = 1) (v2 v5 v8 v9 v10 : BitVec 32) :
    Moves m ρ c K f0 f1 f2 g ⟨8, 7, 0, 0, 0, 0, 0, 0⟩ ⟨10, 9, 0, 0, 0, 0, 0, 0⟩ (onBufs (k0_part7 (F := F)) c v2 v5 v8 v9 v10) := by
  rw [onBufs, k0_part7_eq_skeleton]; unfold k0_part7_skel
  simp only [cond17_eq, cond18_eq, cond19_eq, cond20_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 7 _ (dev10_eq c)) ?_
  refine .step (fun _ => step_store m ρ c K f0 f1 f2 g 8 (hoff := (off18_eq c).trans (by rw [hmx]; rfl))) ?_
  refine .step (fun _ => step_xsend m ρ c K f0 f1 f2 g 8 _ (dev11_eq c)) ?_
  refine .step (fun _ => step_store m ρ c K f0 f1 f2 g 9 (hoff := (off20_eq c).trans (by rw [hmx]; rfl))) ?_
  exact .ret _

theorem part8_spec0 (hmx : mxOf c = 0) (v2 v5 v8 v9 v10 : BitVec 32) :
    Moves m ρ c K f0 f1 f2 g ⟨10, 9, 0, 0, 0, 0, 0, 0⟩ ⟨11, 10, 0, 0, 0, 0, 0, 0⟩ (onBufs (k0_part8 (F := F)) c v2 v5 v8 v9 v10) := by
  rw [onBufs, k0_part8_eq_skeleton]; unfold k0_part8_skel
  simp only [cond21_eq, cond22_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 9 _ (dev12_eq c)) ?_
  refine .step (fun _ => step_store m ρ c K f0 f1 f2 g 10 (hoff := (off21_eq c).trans (by rw [hmx]; rfl))) ?_
  exact .ret _

theorem part8_spec1 (hmx : mxOf c = 1) (v2 v5 v8 v9 v10 : BitVec 32) :
    Moves m ρ c K f0 f1 f2 g ⟨10, 9, 0, 0, 0, 0, 0, 0⟩ ⟨11, 10, 0, 0, 0, 0, 0, 0⟩ (onBufs (k0_part8 (F := F)) c v2 v5 v8 v9 v10) := by
  rw [onBufs, k0_part8_eq_skeleton]; unfold k0_part8_skel
  simp only [cond21_eq, cond22_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 9 _ (dev12_eq c)) ?_
  refine .step (fun _ => step_store m ρ c K f0 f1 f2 g 10 (hoff := (off22_eq c).trans (by rw [hmx]; rfl))) ?_
  exact .ret _

end Cert.KernelIdeal.Hand

end
-- ==== Proof.Parts09.lean ====
import proofs.«901032_g7700000000001033_dist_rs_v7x_xyz2x2x4_x_m1024_n512_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem part9_spec0 (hmx : mxOf c = 0) (v2 v5 v8 v9 v10 : BitVec 32) :
    Moves m ρ c K f0 f1 f2 g ⟨11, 10, 0, 0, 0, 0, 0, 0⟩ ⟨13, 12, 0, 0, 0, 0, 0, 0⟩ (onBufs (k0_part9 (F := F)) c v2 v5 v8 v9 v10) := by
  rw [onBufs, k0_part9_eq_skeleton]; unfold k0_part9_skel
  simp only [cond23_eq, cond24_eq, cond25_eq, cond26_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 10 _ (dev13_eq c)) ?_
  refine .step (fun _ => step_store m ρ c K f0 f1 f2 g 11 (hoff := (off23_eq c).trans (by rw [hmx]; rfl))) ?_
  refine .step (fun _ => step_xsend m ρ c K f0 f1 f2 g 11 _ (dev14_eq c)) ?_
  refine .step (fun _ => step_store m ρ c K f0 f1 f2 g 12 (hoff := (off25_eq c).trans (by rw [hmx]; rfl))) ?_
  exact .ret _

theorem part9_spec1 (hmx : mxOf c = 1) (v2 v5 v8 v9 v10 : BitVec 32) :
    Moves m ρ c K f0 f1 f2 g ⟨11, 10, 0, 0, 0, 0, 0, 0⟩ ⟨13, 12, 0, 0, 0, 0, 0, 0⟩ (onBufs (k0_part9 (F := F)) c v2 v5 v8 v9 v10) := by
  rw [onBufs, k0_part9_eq_skeleton]; unfold k0_part9_skel
  simp only [cond23_eq, cond24_eq, cond25_eq, cond26_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 10 _ (dev13_eq c)) ?_
  refine .step (fun _ => step_store m ρ c K f0 f1 f2 g 11 (hoff := (off24_eq c).trans (by rw [hmx]; rfl))) ?_
  refine .step (fun _ => step_xsend m ρ c K f0 f1 f2 g 11 _ (dev14_eq c)) ?_
  refine .step (fun _ => step_store m ρ c K f0 f1 f2 g 12 (hoff := (off26_eq c).trans (by rw [hmx]; rfl))) ?_
  exact .ret _

theorem part10_spec0 (hmx : mxOf c = 0) (v2 v5 v8 v9 v10 c8_i32_195 : BitVec 32) :
    Moves m ρ c K f0 f1 f2 g ⟨13, 12, 0, 0, 0, 0, 0, 0⟩ ⟨14, 14, 0, 0, 0, 0, 0, 0⟩ (onBufs (k0_part10 (F := F)) c v2 v5 v8 v9 v10 c8_i32_195) := by
  rw [onBufs, k0_part10_eq_skeleton]; unfold k0_part10_skel
  simp only [cond27_eq, cond28_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_xsend m ρ c K f0 f1 f2 g 12 _ (dev15_eq c)) ?_
  refine .step (fun _ => step_store m ρ c K f0 f1 f2 g 13 (hoff := (off27_eq c).trans (by rw [hmx]; rfl))) ?_
  refine .step (fun _ => step_xsend m ρ c K f0 f1 f2 g 13 _ (dev16_eq c)) ?_
  exact .ret _

theorem part10_spec1 (hmx : mxOf c = 1) (v2 v5 v8 v9 v10 c8_i32_195 : BitVec 32) :
    Moves m ρ c K f0 f1 f2 g ⟨13, 12, 0, 0, 0, 0, 0, 0⟩ ⟨14, 14, 0, 0, 0, 0, 0, 0⟩ (onBufs (k0_part10 (F := F)) c v2 v5 v8 v9 v10 c8_i32_195) := by
  rw [onBufs, k0_part10_eq_skeleton]; unfold k0_part10_skel
  simp only [cond27_eq, cond28_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_xsend m ρ c K f0 f1 f2 g 12 _ (dev15_eq c)) ?_
  refine .step (fun _ => step_store m ρ c K f0 f1 f2 g 13 (hoff := (off28_eq c).trans (by rw [hmx]; rfl))) ?_
  refine .step (fun _ => step_xsend m ρ c K f0 f1 f2 g 13 _ (dev16_eq c)) ?_
  exact .ret _

theorem part11_spec0 (hmx : mxOf c = 0) (v2 v5 v8 v9 v10 c512_i32_217 : BitVec 32) :
    Moves m ρ c K f0 f1 f2 g ⟨14, 14, 0, 0, 0, 0, 0, 0⟩ ⟨16, 15, 0, 0, 0, 0, 0, 0⟩ (onBufs (k0_part11 (F := F)) c v2 v5 v8 v9 v10 c512_i32_217) := by
  rw [onBufs, k0_part11_eq_skeleton]; unfold k0_part11_skel
  simp only [cond29_eq, cond30_eq, cond31_eq, cond32_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_store m ρ c K f0 f1 f2 g 14 (hoff := (off29_eq c).trans (by rw [hmx]; rfl))) ?_
  refine .step (fun _ => step_xsend m ρ c K f0 f1 f2 g 14 _ (dev17_eq c)) ?_
  refine .step (fun _ => step_store m ρ c K f0 f1 f2 g 15 (hoff := (off31_eq c).trans (by rw [hmx]; rfl))) ?_
  exact .ret _

theorem part11_spec1 (hmx : mxOf c = 1) (v2 v5 v8 v9 v10 c512_i32_217 : BitVec 32) :
    Moves m ρ c K f0 f1 f2 g ⟨14, 14, 0, 0, 0, 0, 0, 0⟩ ⟨16, 15, 0, 0, 0, 0, 0, 0⟩ (onBufs (k0_part11 (F := F)) c v2 v5 v8 v9 v10 c512_i32_217) := by
  rw [onBufs, k0_part11_eq_skeleton]; unfold k0_part11_skel
  simp only [cond29_eq, cond30_eq, cond31_eq, cond32_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_store m ρ c K f0 f1 f2 g 14 (hoff := (off30_eq c).trans (by rw [hmx]; rfl))) ?_
  refine .step (fun _ => step_xsend m ρ c K f0 f1 f2 g 14 _ (dev17_eq c)) ?_
  refine .step (fun _ => step_store m ρ c K f0 f1 f2 g 15 (hoff := (off32_eq c).trans (by rw [hmx]; rfl))) ?_
  exact .ret _

theorem part12_spec (v2 v5 v8 v10 v13 v336 : BitVec 32) :
    Moves m ρ c K f0 f1 f2 g ⟨16, 15, 0, 0, 0, 0, 0, 0⟩ ⟨16, 16, 1, 0, 0, 0, 0, 0⟩ (onBufs (k0_part12 (F := F)) c v2 v5 v8 v10 v13 v336) := by
  rw [onBufs, k0_part12_eq_skeleton]; unfold k0_part12_skel
  simp only [Prog.lift, Prog.bind_op, Prog.bind_ret, Prog.pure_eq_ret]
  refine .step (fun _ => step_xsend m ρ c K f0 f1 f2 g 15 _ (dev18_eq c)) ?_
  refine .step (fun _ => step_rxwait m ρ c K f0 f1 f2 g 0) ?_
  exact .ret _

theorem part13_spec0 (hmx : mxOf c = 0) (v2 v5 v8 v9 v10 v13 : BitVec 32) :
    Moves m ρ c K f0 f1 f2 g ⟨16, 16, 1, 0, 0, 0, 0, 0⟩ ⟨16, 16, 2, 1, 1, 0, 0, 0⟩ (onBufs (k0_part13 (F := F)) c v2 v5 v8 v9 v10 v13) := by
  rw [onBufs, k0_part13_eq_skeleton]; unfold k0_part13_skel
  simp only [cond33_eq, cond34_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 0 _ (dev19_eq c)) ?_
  refine .step (fun _ => step_addD m ρ c K f0 f1 f2 g 0 (hoff := (off33_eq c).trans (by rw [hmx]; rfl)) (hooff := (off34_eq c).trans rfl)) ?_
  refine .step (fun _ => step_rxwait m ρ c K f0 f1 f2 g 1) ?_
  exact .ret _

theorem part13_spec1 (hmx : mxOf c = 1) (v2 v5 v8 v9 v10 v13 : BitVec 32) :
    Moves m ρ c K f0 f1 f2 g ⟨16, 16, 1, 0, 0, 0, 0, 0⟩ ⟨16, 16, 2, 1, 1, 0, 0, 0⟩ (onBufs (k0_part13 (F := F)) c v2 v5 v8 v9 v10 v13) := by
  rw [onBufs, k0_part13_eq_skeleton]; unfold k0_part13_skel
  simp only [cond33_eq, cond34_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 0 _ (dev19_eq c)) ?_
  refine .step (fun _ => step_addD m ρ c K f0 f1 f2 g 0 (hoff := (off35_eq c).trans (by rw [hmx]; rfl)) (hooff := (off36_eq c).trans rfl)) ?_
  refine .step (fun _ => step_rxwait m ρ c K f0 f1 f2 g 1) ?_
  exact .ret _

theorem part14_spec0 (hmx : mxOf c = 0) (v2 v5 v8 v9 v10 v13 : BitVec 32) :
    Moves m ρ c K f0 f1 f2 g ⟨16, 16, 2, 1, 1, 0, 0, 0⟩ ⟨16, 16, 3, 2, 2, 0, 0, 0⟩ (onBufs (k0_part14 (F := F)) c v2 v5 v8 v9 v10 v13) := by
  rw [onBufs, k0_part14_eq_skeleton]; unfold k0_part14_skel
  simp only [cond35_eq, cond36_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 1 _ (dev20_eq c)) ?_
  refine .step (fun _ => step_addD m ρ c K f0 f1 f2 g 1 (hoff := (off37_eq c).trans (by rw [hmx]; rfl)) (hooff := (off38_eq c).trans rfl)) ?_
  refine .step (fun _ => step_rxwait m ρ c K f0 f1 f2 g 2) ?_
  exact .ret _

theorem part14_spec1 (hmx : mxOf c = 1) (v2 v5 v8 v9 v10 v13 : BitVec 32) :
    Moves m ρ c K f0 f1 f2 g ⟨16, 16, 2, 1, 1, 0, 0, 0⟩ ⟨16, 16, 3, 2, 2, 0, 0, 0⟩ (onBufs (k0_part14 (F := F)) c v2 v5 v8 v9 v10 v13) := by
  rw [onBufs, k0_part14_eq_skeleton]; unfold k0_part14_skel
  simp only [cond35_eq, cond36_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 1 _ (dev20_eq c)) ?_
  refine .step (fun _ => step_addD m ρ c K f0 f1 f2 g 1 (hoff := (off39_eq c).trans (by rw [hmx]; rfl)) (hooff := (off40_eq c).trans rfl)) ?_
  refine .step (fun _ => step_rxwait m ρ c K f0 f1 f2 g 2) ?_
  exact .ret _

theorem part15_spec0 (hmx : mxOf c = 0) (v2 v5 v8 v9 v10 v13 : BitVec 32) :
    Moves m ρ c K f0 f1 f2 g ⟨16, 16, 3, 2, 2, 0, 0, 0⟩ ⟨16, 16, 4, 3, 3, 0, 0, 0⟩ (onBufs (k0_part15 (F := F)) c v2 v5 v8 v9 v10 v13) := by
  rw [onBufs, k0_part15_eq_skeleton]; unfold k0_part15_skel
  simp only [cond37_eq, cond38_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 2 _ (dev21_eq c)) ?_
  refine .step (fun _ => step_addD m ρ c K f0 f1 f2 g 2 (hoff := (off41_eq c).trans (by rw [hmx]; rfl)) (hooff := (off42_eq c).trans rfl)) ?_
  refine .step (fun _ => step_rxwait m ρ c K f0 f1 f2 g 3) ?_
  exact .ret _

theorem part15_spec1 (hmx : mxOf c = 1) (v2 v5 v8 v9 v10 v13 : BitVec 32) :
    Moves m ρ c K f0 f1 f2 g ⟨16, 16, 3, 2, 2, 0, 0, 0⟩ ⟨16, 16, 4, 3, 3, 0, 0, 0⟩ (onBufs (k0_part15 (F := F)) c v2 v5 v8 v9 v10 v13) := by
  rw [onBufs, k0_part15_eq_skeleton]; unfold k0_part15_skel
  simp only [cond37_eq, cond38_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 2 _ (dev21_eq c)) ?_
  refine .step (fun _ => step_addD m ρ c K f0 f1 f2 g 2 (hoff := (off43_eq c).trans (by rw [hmx]; rfl)) (hooff := (off44_eq c).trans rfl)) ?_
  refine .step (fun _ => step_rxwait m ρ c K f0 f1 f2 g 3) ?_
  exact .ret _

theorem part16_spec0 (hmx : mxOf c = 0) (v2 v5 v8 v9 v10 v13 : BitVec 32) :
    Moves m ρ c K f0 f1 f2 g ⟨16, 16, 4, 3, 3, 0, 0, 0⟩ ⟨16, 16, 5, 4, 4, 0, 0, 0⟩ (onBufs (k0_part16 (F := F)) c v2 v5 v8 v9 v10 v13) := by
  rw [onBufs, k0_part16_eq_skeleton]; unfold k0_part16_skel
  simp only [cond39_eq, cond40_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 3 _ (dev22_eq c)) ?_
  refine .step (fun _ => step_addD m ρ c K f0 f1 f2 g 3 (hoff := (off45_eq c).trans (by rw [hmx]; rfl)) (hooff := (off46_eq c).trans rfl)) ?_
  refine .step (fun _ => step_rxwait m ρ c K f0 f1 f2 g 4) ?_
  exact .ret _

theorem part16_spec1 (hmx : mxOf c = 1) (v2 v5 v8 v9 v10 v13 : BitVec 32) :
    Moves m ρ c K f0 f1 f2 g ⟨16, 16, 4, 3, 3, 0, 0, 0⟩ ⟨16, 16, 5, 4, 4, 0, 0, 0⟩ (onBufs (k0_part16 (F := F)) c v2 v5 v8 v9 v10 v13) := by
  rw [onBufs, k0_part16_eq_skeleton]; unfold k0_part16_skel
  simp only [cond39_eq, cond40_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 3 _ (dev22_eq c)) ?_
  refine .step (fun _ => step_addD m ρ c K f0 f1 f2 g 3 (hoff := (off47_eq c).trans (by rw [hmx]; rfl)) (hooff := (off48_eq c).trans rfl)) ?_
  refine .step (fun _ => step_rxwait m ρ c K f0 f1 f2 g 4) ?_
  exact .ret _

theorem part17_spec0 (hmx : mxOf c = 0) (v2 v5 v8 v9 v10 v13 : BitVec 32) :
    Moves m ρ c K f0 f1 f2 g ⟨16, 16, 5, 4, 4, 0, 0, 0⟩ ⟨16, 16, 6, 5, 5, 0, 0, 0⟩ (onBufs (k0_part17 (F := F)) c v2 v5 v8 v9 v10 v13) := by
  rw [onBufs, k0_part17_eq_skeleton]; unfold k0_part17_skel
  simp only [cond41_eq, cond42_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 4 _ (dev23_eq c)) ?_
  refine .step (fun _ => step_addD m ρ c K f0 f1 f2 g 4 (hoff := (off49_eq c).trans (by rw [hmx]; rfl)) (hooff := (off50_eq c).trans rfl)) ?_
  refine .step (fun _ => step_rxwait m ρ c K f0 f1 f2 g 5) ?_
  exact .ret _

theorem part17_spec1 (hmx : mxOf c = 1) (v2 v5 v8 v9 v10 v13 : BitVec 32) :
    Moves m ρ c K f0 f1 f2 g ⟨16, 16, 5, 4, 4, 0, 0, 0⟩ ⟨16, 16, 6, 5, 5, 0, 0, 0⟩ (onBufs (k0_part17 (F := F)) c v2 v5 v8 v9 v10 v13) := by
  rw [onBufs, k0_part17_eq_skeleton]; unfold k0_part17_skel
  simp only [cond41_eq, cond42_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 4 _ (dev23_eq c)) ?_
  refine .step (fun _ => step_addD m ρ c K f0 f1 f2 g 4 (hoff := (off51_eq c).trans (by rw [hmx]; rfl)) (hooff := (off52_eq c).trans rfl)) ?_
  refine .step (fun _ => step_rxwait m ρ c K f0 f1 f2 g 5) ?_
  exact .ret _

theorem part18_spec0 (hmx : mxOf c = 0) (v2 v5 v8 v9 v10 v13 : BitVec 32) :
    Moves m ρ c K f0 f1 f2 g ⟨16, 16, 6, 5, 5, 0, 0, 0⟩ ⟨16, 16, 7, 6, 6, 0, 0, 0⟩ (onBufs (k0_part18 (F := F)) c v2 v5 v8 v9 v10 v13) := by
  rw [onBufs, k0_part18_eq_skeleton]; unfold k0_part18_skel
  simp only [cond43_eq, cond44_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 5 _ (dev24_eq c)) ?_
  refine .step (fun _ => step_addD m ρ c K f0 f1 f2 g 5 (hoff := (off53_eq c).trans (by rw [hmx]; rfl)) (hooff := (off54_eq c).trans rfl)) ?_
  refine .step (fun _ => step_rxwait m ρ c K f0 f1 f2 g 6) ?_
  exact .ret _

theorem part18_spec1 (hmx : mxOf c = 1) (v2 v5 v8 v9 v10 v13 : BitVec 32) :
    Moves m ρ c K f0 f1 f2 g ⟨16, 16, 6, 5, 5, 0, 0, 0⟩ ⟨16, 16, 7, 6, 6, 0, 0, 0⟩ (onBufs (k0_part18 (F := F)) c v2 v5 v8 v9 v10 v13) := by
  rw [onBufs, k0_part18_eq_skeleton]; unfold k0_part18_skel
  simp only [cond43_eq, cond44_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 5 _ (dev24_eq c)) ?_
  refine .step (fun _ => step_addD m ρ c K f0 f1 f2 g 5 (hoff := (off55_eq c).trans (by rw [hmx]; rfl)) (hooff := (off56_eq c).trans rfl)) ?_
  refine .step (fun _ => step_rxwait m ρ c K f0 f1 f2 g 6) ?_
  exact .ret _

end Cert.KernelIdeal.Hand

end
-- ==== Proof.Parts19.lean ====
import proofs.«901032_g7700000000001033_dist_rs_v7x_xyz2x2x4_x_m1024_n512_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem part19_spec0 (hmx : mxOf c = 0) (v2 v5 v9 v10 v13 : BitVec 32) :
    Moves m ρ c K f0 f1 f2 g ⟨16, 16, 7, 6, 6, 0, 0, 0⟩ ⟨16, 16, 7, 7, 8, 1, 0, 0⟩ (onBufs (k0_part19 (F := F)) c v2 v5 v9 v10 v13) := by
  rw [onBufs, k0_part19_eq_skeleton]; unfold k0_part19_skel
  simp only [cond45_eq, cond46_eq, cond47_eq, cond48_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 6 _ (dev25_eq c)) ?_
  refine .step (fun _ => step_addD m ρ c K f0 f1 f2 g 6 (hoff := (off57_eq c).trans (by rw [hmx]; rfl)) (hooff := (off58_eq c).trans rfl)) ?_
  refine .step (fun _ => step_rzwait m ρ c K f0 f1 f2 g 0) ?_
  refine .step (fun _ => step_addR m ρ c K f0 f1 f2 g 0 (hoff := (off61_eq c).trans (by rw [hmx]; rfl)) (hooff := (off62_eq c).trans rfl)) ?_
  exact .ret _

theorem part19_spec1 (hmx : mxOf c = 1) (v2 v5 v9 v10 v13 : BitVec 32) :
    Moves m ρ c K f0 f1 f2 g ⟨16, 16, 7, 6, 6, 0, 0, 0⟩ ⟨16, 16, 7, 7, 8, 1, 0, 0⟩ (onBufs (k0_part19 (F := F)) c v2 v5 v9 v10 v13) := by
  rw [onBufs, k0_part19_eq_skeleton]; unfold k0_part19_skel
  simp only [cond45_eq, cond46_eq, cond47_eq, cond48_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 6 _ (dev25_eq c)) ?_
  refine .step (fun _ => step_addD m ρ c K f0 f1 f2 g 6 (hoff := (off59_eq c).trans (by rw [hmx]; rfl)) (hooff := (off60_eq c).trans rfl)) ?_
  refine .step (fun _ => step_rzwait m ρ c K f0 f1 f2 g 0) ?_
  refine .step (fun _ => step_addR m ρ c K f0 f1 f2 g 0 (hoff := (off63_eq c).trans (by rw [hmx]; rfl)) (hooff := (off64_eq c).trans rfl)) ?_
  exact .ret _

theorem part20_spec0 (hmx : mxOf c = 0) (v2 v5 v8 v9 v13 v576 : BitVec 32) :
    Moves m ρ c K f0 f1 f2 g ⟨16, 16, 7, 7, 8, 1, 0, 0⟩ ⟨16, 16, 8, 8, 9, 1, 0, 0⟩ (onBufs (k0_part20 (F := F)) c v2 v5 v8 v9 v13 v576) := by
  rw [onBufs, k0_part20_eq_skeleton]; unfold k0_part20_skel
  simp only [cond49_eq, cond50_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rxwait m ρ c K f0 f1 f2 g 7) ?_
  refine .step (fun _ => step_zsend m ρ c K f0 f1 f2 g 7 _ (dev26_eq c)) ?_
  refine .step (fun _ => step_addD m ρ c K f0 f1 f2 g 7 (hoff := (off65_eq c).trans (by rw [hmx]; rfl)) (hooff := (off66_eq c).trans rfl)) ?_
  exact .ret _

theorem part20_spec1 (hmx : mxOf c = 1) (v2 v5 v8 v9 v13 v576 : BitVec 32) :
    Moves m ρ c K f0 f1 f2 g ⟨16, 16, 7, 7, 8, 1, 0, 0⟩ ⟨16, 16, 8, 8, 9, 1, 0, 0⟩ (onBufs (k0_part20 (F := F)) c v2 v5 v8 v9 v13 v576) := by
  rw [onBufs, k0_part20_eq_skeleton]; unfold k0_part20_skel
  simp only [cond49_eq, cond50_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rxwait m ρ c K f0 f1 f2 g 7) ?_
  refine .step (fun _ => step_zsend m ρ c K f0 f1 f2 g 7 _ (dev26_eq c)) ?_
  refine .step (fun _ => step_addD m ρ c K f0 f1 f2 g 7 (hoff := (off67_eq c).trans (by rw [hmx]; rfl)) (hooff := (off68_eq c).trans rfl)) ?_
  exact .ret _

theorem part21_spec0 (hmx : mxOf c = 0) (v2 v5 v8 v9 v10 v13 v606 : BitVec 32) :
    Moves m ρ c K f0 f1 f2 g ⟨16, 16, 8, 8, 9, 1, 0, 0⟩ ⟨16, 16, 9, 8, 10, 2, 0, 0⟩ (onBufs (k0_part21 (F := F)) c v2 v5 v8 v9 v10 v13 v606) := by
  rw [onBufs, k0_part21_eq_skeleton]; unfold k0_part21_skel
  simp only [cond51_eq, cond52_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 1) ?_
  refine .step (fun _ => step_addR m ρ c K f0 f1 f2 g 1 (hoff := (off69_eq c).trans (by rw [hmx]; rfl)) (hooff := (off70_eq c).trans rfl)) ?_
  refine .step (fun _ => step_rxwait m ρ c K f0 f1 f2 g 8) ?_
  exact .ret _

theorem part21_spec1 (hmx : mxOf c = 1) (v2 v5 v8 v9 v10 v13 v606 : BitVec 32) :
    Moves m ρ c K f0 f1 f2 g ⟨16, 16, 8, 8, 9, 1, 0, 0⟩ ⟨16, 16, 9, 8, 10, 2, 0, 0⟩ (onBufs (k0_part21 (F := F)) c v2 v5 v8 v9 v10 v13 v606) := by
  rw [onBufs, k0_part21_eq_skeleton]; unfold k0_part21_skel
  simp only [cond51_eq, cond52_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rzwait m ρ c K f0 f1 f2 g 1) ?_
  refine .step (fun _ => step_addR m ρ c K f0 f1 f2 g 1 (hoff := (off71_eq c).trans (by rw [hmx]; rfl)) (hooff := (off72_eq c).trans rfl)) ?_
  refine .step (fun _ => step_rxwait m ρ c K f0 f1 f2 g 8) ?_
  exact .ret _

theorem part22_spec0 (hmx : mxOf c = 0) (v2 v5 v9 v13 v635 : BitVec 32) :
    Moves m ρ c K f0 f1 f2 g ⟨16, 16, 9, 8, 10, 2, 0, 0⟩ ⟨16, 16, 9, 9, 11, 3, 0, 0⟩ (onBufs (k0_part22 (F := F)) c v2 v5 v9 v13 v635) := by
  rw [onBufs, k0_part22_eq_skeleton]; unfold k0_part22_skel
  simp only [cond53_eq, cond54_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 8 _ (dev27_eq c)) ?_
  refine .step (fun _ => step_addD m ρ c K f0 f1 f2 g 8 (hoff := (off73_eq c).trans (by rw [hmx]; rfl)) (hooff := (off74_eq c).trans rfl)) ?_
  refine .step (fun _ => step_rzwait m ρ c K f0 f1 f2 g 2) ?_
  exact .ret _

theorem part22_spec1 (hmx : mxOf c = 1) (v2 v5 v9 v13 v635 : BitVec 32) :
    Moves m ρ c K f0 f1 f2 g ⟨16, 16, 9, 8, 10, 2, 0, 0⟩ ⟨16, 16, 9, 9, 11, 3, 0, 0⟩ (onBufs (k0_part22 (F := F)) c v2 v5 v9 v13 v635) := by
  rw [onBufs, k0_part22_eq_skeleton]; unfold k0_part22_skel
  simp only [cond53_eq, cond54_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 8 _ (dev27_eq c)) ?_
  refine .step (fun _ => step_addD m ρ c K f0 f1 f2 g 8 (hoff := (off75_eq c).trans (by rw [hmx]; rfl)) (hooff := (off76_eq c).trans rfl)) ?_
  refine .step (fun _ => step_rzwait m ρ c K f0 f1 f2 g 2) ?_
  exact .ret _

theorem part23_spec0 (hmx : mxOf c = 0) (v2 v5 v8 v9 v10 v13 v666 : BitVec 32) :
    Moves m ρ c K f0 f1 f2 g ⟨16, 16, 9, 9, 11, 3, 0, 0⟩ ⟨16, 16, 10, 10, 12, 3, 0, 0⟩ (onBufs (k0_part23 (F := F)) c v2 v5 v8 v9 v10 v13 v666) := by
  rw [onBufs, k0_part23_eq_skeleton]; unfold k0_part23_skel
  simp only [cond55_eq, cond56_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addR m ρ c K f0 f1 f2 g 2 (hoff := (off77_eq c).trans (by rw [hmx]; rfl)) (hooff := (off78_eq c).trans rfl)) ?_
  refine .step (fun _ => step_rxwait m ρ c K f0 f1 f2 g 9) ?_
  refine .step (fun _ => step_zsend m ρ c K f0 f1 f2 g 9 _ (dev28_eq c)) ?_
  exact .ret _

theorem part23_spec1 (hmx : mxOf c = 1) (v2 v5 v8 v9 v10 v13 v666 : BitVec 32) :
    Moves m ρ c K f0 f1 f2 g ⟨16, 16, 9, 9, 11, 3, 0, 0⟩ ⟨16, 16, 10, 10, 12, 3, 0, 0⟩ (onBufs (k0_part23 (F := F)) c v2 v5 v8 v9 v10 v13 v666) := by
  rw [onBufs, k0_part23_eq_skeleton]; unfold k0_part23_skel
  simp only [cond55_eq, cond56_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addR m ρ c K f0 f1 f2 g 2 (hoff := (off79_eq c).trans (by rw [hmx]; rfl)) (hooff := (off80_eq c).trans rfl)) ?_
  refine .step (fun _ => step_rxwait m ρ c K f0 f1 f2 g 9) ?_
  refine .step (fun _ => step_zsend m ρ c K f0 f1 f2 g 9 _ (dev28_eq c)) ?_
  exact .ret _

theorem part24_spec0 (hmx : mxOf c = 0) (v2 v5 v9 v10 v13 v696 : BitVec 32) :
    Moves m ρ c K f0 f1 f2 g ⟨16, 16, 10, 10, 12, 3, 0, 0⟩ ⟨16, 16, 10, 10, 14, 4, 0, 0⟩ (onBufs (k0_part24 (F := F)) c v2 v5 v9 v10 v13 v696) := by
  rw [onBufs, k0_part24_eq_skeleton]; unfold k0_part24_skel
  simp only [cond57_eq, cond58_eq, cond59_eq, cond60_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addD m ρ c K f0 f1 f2 g 9 (hoff := (off81_eq c).trans (by rw [hmx]; rfl)) (hooff := (off82_eq c).trans rfl)) ?_
  refine .step (fun _ => step_rzwait m ρ c K f0 f1 f2 g 3) ?_
  refine .step (fun _ => step_addR m ρ c K f0 f1 f2 g 3 (hoff := (off85_eq c).trans (by rw [hmx]; rfl)) (hooff := (off86_eq c).trans rfl)) ?_
  exact .ret _

theorem part24_spec1 (hmx : mxOf c = 1) (v2 v5 v9 v10 v13 v696 : BitVec 32) :
    Moves m ρ c K f0 f1 f2 g ⟨16, 16, 10, 10, 12, 3, 0, 0⟩ ⟨16, 16, 10, 10, 14, 4, 0, 0⟩ (onBufs (k0_part24 (F := F)) c v2 v5 v9 v10 v13 v696) := by
  rw [onBufs, k0_part24_eq_skeleton]; unfold k0_part24_skel
  simp only [cond57_eq, cond58_eq, cond59_eq, cond60_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addD m ρ c K f0 f1 f2 g 9 (hoff := (off83_eq c).trans (by rw [hmx]; rfl)) (hooff := (off84_eq c).trans rfl)) ?_
  refine .step (fun _ => step_rzwait m ρ c K f0 f1 f2 g 3) ?_
  refine .step (fun _ => step_addR m ρ c K f0 f1 f2 g 3 (hoff := (off87_eq c).trans (by rw [hmx]; rfl)) (hooff := (off88_eq c).trans rfl)) ?_
  exact .ret _

theorem part25_spec0 (hmx : mxOf c = 0) (v2 v5 v8 v9 v13 v724 c4_i32_577 : BitVec 32) :
    Moves m ρ c K f0 f1 f2 g ⟨16, 16, 10, 10, 14, 4, 0, 0⟩ ⟨16, 16, 11, 11, 15, 4, 0, 0⟩ (onBufs (k0_part25 (F := F)) c v2 v5 v8 v9 v13 v724 c4_i32_577) := by
  rw [onBufs, k0_part25_eq_skeleton]; unfold k0_part25_skel
  simp only [cond61_eq, cond62_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rxwait m ρ c K f0 f1 f2 g 10) ?_
  refine .step (fun _ => step_zsend m ρ c K f0 f1 f2 g 10 _ (dev29_eq c)) ?_
  refine .step (fun _ => step_addD m ρ c K f0 f1 f2 g 10 (hoff := (off89_eq c).trans (by rw [hmx]; rfl)) (hooff := (off90_eq c).trans rfl)) ?_
  exact .ret _

theorem part25_spec1 (hmx : mxOf c = 1) (v2 v5 v8 v9 v13 v724 c4_i32_577 : BitVec 32) :
    Moves m ρ c K f0 f1 f2 g ⟨16, 16, 10, 10, 14, 4, 0, 0⟩ ⟨16, 16, 11, 11, 15, 4, 0, 0⟩ (onBufs (k0_part25 (F := F)) c v2 v5 v8 v9 v13 v724 c4_i32_577) := by
  rw [onBufs, k0_part25_eq_skeleton]; unfold k0_part25_skel
  simp only [cond61_eq, cond62_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rxwait m ρ c K f0 f1 f2 g 10) ?_
  refine .step (fun _ => step_zsend m ρ c K f0 f1 f2 g 10 _ (dev29_eq c)) ?_
  refine .step (fun _ => step_addD m ρ c K f0 f1 f2 g 10 (hoff := (off91_eq c).trans (by rw [hmx]; rfl)) (hooff := (off92_eq c).trans rfl)) ?_
  exact .ret _

theorem part26_spec0 (hmx : mxOf c = 0) (v2 v5 v8 v9 v10 v13 v754 c4_i32_603 : BitVec 32) :
    Moves m ρ c K f0 f1 f2 g ⟨16, 16, 11, 11, 15, 4, 0, 0⟩ ⟨16, 16, 12, 11, 16, 5, 0, 0⟩ (onBufs (k0_part26 (F := F)) c v2 v5 v8 v9 v10 v13 v754 c4_i32_603) := by
  rw [onBufs, k0_part26_eq_skeleton]; unfold k0_part26_skel
  simp only [cond63_eq, cond64_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 4) ?_
  refine .step (fun _ => step_addR m ρ c K f0 f1 f2 g 4 (hoff := (off93_eq c).trans (by rw [hmx]; rfl)) (hooff := (off94_eq c).trans rfl)) ?_
  refine .step (fun _ => step_rxwait m ρ c K f0 f1 f2 g 11) ?_
  exact .ret _

theorem part26_spec1 (hmx : mxOf c = 1) (v2 v5 v8 v9 v10 v13 v754 c4_i32_603 : BitVec 32) :
    Moves m ρ c K f0 f1 f2 g ⟨16, 16, 11, 11, 15, 4, 0, 0⟩ ⟨16, 16, 12, 11, 16, 5, 0, 0⟩ (onBufs (k0_part26 (F := F)) c v2 v5 v8 v9 v10 v13 v754 c4_i32_603) := by
  rw [onBufs, k0_part26_eq_skeleton]; unfold k0_part26_skel
  simp only [cond63_eq, cond64_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rzwait m ρ c K f0 f1 f2 g 4) ?_
  refine .step (fun _ => step_addR m ρ c K f0 f1 f2 g 4 (hoff := (off95_eq c).trans (by rw [hmx]; rfl)) (hooff := (off96_eq c).trans rfl)) ?_
  refine .step (fun _ => step_rxwait m ρ c K f0 f1 f2 g 11) ?_
  exact .ret _

theorem part27_spec0 (hmx : mxOf c = 0) (v2 v5 v9 v13 v783 c4_i32_630 : BitVec 32) :
    Moves m ρ c K f0 f1 f2 g ⟨16, 16, 12, 11, 16, 5, 0, 0⟩ ⟨16, 16, 12, 12, 17, 6, 0, 0⟩ (onBufs (k0_part27 (F := F)) c v2 v5 v9 v13 v783 c4_i32_630) := by
  rw [onBufs, k0_part27_eq_skeleton]; unfold k0_part27_skel
  simp only [cond65_eq, cond66_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 11 _ (dev30_eq c)) ?_
  refine .step (fun _ => step_addD m ρ c K f0 f1 f2 g 11 (hoff := (off97_eq c).trans (by rw [hmx]; rfl)) (hooff := (off98_eq c).trans rfl)) ?_
  refine .step (fun _ => step_rzwait m ρ c K f0 f1 f2 g 5) ?_
  exact .ret _

theorem part27_spec1 (hmx : mxOf c = 1) (v2 v5 v9 v13 v783 c4_i32_630 : BitVec 32) :
    Moves m ρ c K f0 f1 f2 g ⟨16, 16, 12, 11, 16, 5, 0, 0⟩ ⟨16, 16, 12, 12, 17, 6, 0, 0⟩ (onBufs (k0_part27 (F := F)) c v2 v5 v9 v13 v783 c4_i32_630) := by
  rw [onBufs, k0_part27_eq_skeleton]; unfold k0_part27_skel
  simp only [cond65_eq, cond66_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 11 _ (dev30_eq c)) ?_
  refine .step (fun _ => step_addD m ρ c K f0 f1 f2 g 11 (hoff := (off99_eq c).trans (by rw [hmx]; rfl)) (hooff := (off100_eq c).trans rfl)) ?_
  refine .step (fun _ => step_rzwait m ρ c K f0 f1 f2 g 5) ?_
  exact .ret _

theorem part28_spec0 (hmx : mxOf c = 0) (v2 v5 v8 v9 v10 v13 v814 c0_i32_655 : BitVec 32) :
    Moves m ρ c K f0 f1 f2 g ⟨16, 16, 12, 12, 17, 6, 0, 0⟩ ⟨16, 16, 13, 13, 18, 6, 0, 0⟩ (onBufs (k0_part28 (F := F)) c v2 v5 v8 v9 v10 v13 v814 c0_i32_655) := by
  rw [onBufs, k0_part28_eq_skeleton]; unfold k0_part28_skel
  simp only [cond67_eq, cond68_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addR m ρ c K f0 f1 f2 g 5 (hoff := (off101_eq c).trans (by rw [hmx]; rfl)) (hooff := (off102_eq c).trans rfl)) ?_
  refine .step (fun _ => step_rxwait m ρ c K f0 f1 f2 g 12) ?_
  refine .step (fun _ => step_zsend m ρ c K f0 f1 f2 g 12 _ (dev31_eq c)) ?_
  exact .ret _

theorem part28_spec1 (hmx : mxOf c = 1) (v2 v5 v8 v9 v10 v13 v814 c0_i32_655 : BitVec 32) :
    Moves m ρ c K f0 f1 f2 g ⟨16, 16, 12, 12, 17, 6, 0, 0⟩ ⟨16, 16, 13, 13, 18, 6, 0, 0⟩ (onBufs (k0_part28 (F := F)) c v2 v5 v8 v9 v10 v13 v814 c0_i32_655) := by
  rw [onBufs, k0_part28_eq_skeleton]; unfold k0_part28_skel
  simp only [cond67_eq, cond68_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addR m ρ c K f0 f1 f2 g 5 (hoff := (off103_eq c).trans (by rw [hmx]; rfl)) (hooff := (off104_eq c).trans rfl)) ?_
  refine .step (fun _ => step_rxwait m ρ c K f0 f1 f2 g 12) ?_
  refine .step (fun _ => step_zsend m ρ c K f0 f1 f2 g 12 _ (dev31_eq c)) ?_
  exact .ret _

end Cert.KernelIdeal.Hand

end
-- ==== Proof.Parts29.lean ====
import proofs.«901032_g7700000000001033_dist_rs_v7x_xyz2x2x4_x_m1024_n512_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem part29_spec0 (hmx : mxOf c = 0) (v2 v5 v9 v10 v13 v844 c0_i32_681 : BitVec 32) :
    Moves m ρ c K f0 f1 f2 g ⟨16, 16, 13, 13, 18, 6, 0, 0⟩ ⟨16, 16, 13, 13, 20, 7, 0, 0⟩ (onBufs (k0_part29 (F := F)) c v2 v5 v9 v10 v13 v844 c0_i32_681) := by
  rw [onBufs, k0_part29_eq_skeleton]; unfold k0_part29_skel
  simp only [cond69_eq, cond70_eq, cond71_eq, cond72_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addD m ρ c K f0 f1 f2 g 12 (hoff := (off105_eq c).trans (by rw [hmx]; rfl)) (hooff := (off106_eq c).trans rfl)) ?_
  refine .step (fun _ => step_rzwait m ρ c K f0 f1 f2 g 6) ?_
  refine .step (fun _ => step_addR m ρ c K f0 f1 f2 g 6 (hoff := (off109_eq c).trans (by rw [hmx]; rfl)) (hooff := (off110_eq c).trans rfl)) ?_
  exact .ret _

theorem part29_spec1 (hmx : mxOf c = 1) (v2 v5 v9 v10 v13 v844 c0_i32_681 : BitVec 32) :
    Moves m ρ c K f0 f1 f2 g ⟨16, 16, 13, 13, 18, 6, 0, 0⟩ ⟨16, 16, 13, 13, 20, 7, 0, 0⟩ (onBufs (k0_part29 (F := F)) c v2 v5 v9 v10 v13 v844 c0_i32_681) := by
  rw [onBufs, k0_part29_eq_skeleton]; unfold k0_part29_skel
  simp only [cond69_eq, cond70_eq, cond71_eq, cond72_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addD m ρ c K f0 f1 f2 g 12 (hoff := (off107_eq c).trans (by rw [hmx]; rfl)) (hooff := (off108_eq c).trans rfl)) ?_
  refine .step (fun _ => step_rzwait m ρ c K f0 f1 f2 g 6) ?_
  refine .step (fun _ => step_addR m ρ c K f0 f1 f2 g 6 (hoff := (off111_eq c).trans (by rw [hmx]; rfl)) (hooff := (off112_eq c).trans rfl)) ?_
  exact .ret _

theorem part30_spec0 (hmx : mxOf c = 0) (v2 v5 v8 v9 v13 v873 c1_i32_707 : BitVec 32) :
    Moves m ρ c K f0 f1 f2 g ⟨16, 16, 13, 13, 20, 7, 0, 0⟩ ⟨16, 16, 14, 14, 21, 7, 0, 0⟩ (onBufs (k0_part30 (F := F)) c v2 v5 v8 v9 v13 v873 c1_i32_707) := by
  rw [onBufs, k0_part30_eq_skeleton]; unfold k0_part30_skel
  simp only [cond73_eq, cond74_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rxwait m ρ c K f0 f1 f2 g 13) ?_
  refine .step (fun _ => step_zsend m ρ c K f0 f1 f2 g 13 _ (dev32_eq c)) ?_
  refine .step (fun _ => step_addD m ρ c K f0 f1 f2 g 13 (hoff := (off113_eq c).trans (by rw [hmx]; rfl)) (hooff := (off114_eq c).trans rfl)) ?_
  exact .ret _

theorem part30_spec1 (hmx : mxOf c = 1) (v2 v5 v8 v9 v13 v873 c1_i32_707 : BitVec 32) :
    Moves m ρ c K f0 f1 f2 g ⟨16, 16, 13, 13, 20, 7, 0, 0⟩ ⟨16, 16, 14, 14, 21, 7, 0, 0⟩ (onBufs (k0_part30 (F := F)) c v2 v5 v8 v9 v13 v873 c1_i32_707) := by
  rw [onBufs, k0_part30_eq_skeleton]; unfold k0_part30_skel
  simp only [cond73_eq, cond74_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rxwait m ρ c K f0 f1 f2 g 13) ?_
  refine .step (fun _ => step_zsend m ρ c K f0 f1 f2 g 13 _ (dev32_eq c)) ?_
  refine .step (fun _ => step_addD m ρ c K f0 f1 f2 g 13 (hoff := (off115_eq c).trans (by rw [hmx]; rfl)) (hooff := (off116_eq c).trans rfl)) ?_
  exact .ret _

theorem part31_spec0 (hmx : mxOf c = 0) (v2 v5 v8 v9 v10 v13 v903 c1_i32_733 : BitVec 32) :
    Moves m ρ c K f0 f1 f2 g ⟨16, 16, 14, 14, 21, 7, 0, 0⟩ ⟨16, 16, 15, 14, 22, 8, 0, 0⟩ (onBufs (k0_part31 (F := F)) c v2 v5 v8 v9 v10 v13 v903 c1_i32_733) := by
  rw [onBufs, k0_part31_eq_skeleton]; unfold k0_part31_skel
  simp only [cond75_eq, cond76_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 7) ?_
  refine .step (fun _ => step_addR m ρ c K f0 f1 f2 g 7 (hoff := (off117_eq c).trans (by rw [hmx]; rfl)) (hooff := (off118_eq c).trans rfl)) ?_
  refine .step (fun _ => step_rxwait m ρ c K f0 f1 f2 g 14) ?_
  exact .ret _

theorem part31_spec1 (hmx : mxOf c = 1) (v2 v5 v8 v9 v10 v13 v903 c1_i32_733 : BitVec 32) :
    Moves m ρ c K f0 f1 f2 g ⟨16, 16, 14, 14, 21, 7, 0, 0⟩ ⟨16, 16, 15, 14, 22, 8, 0, 0⟩ (onBufs (k0_part31 (F := F)) c v2 v5 v8 v9 v10 v13 v903 c1_i32_733) := by
  rw [onBufs, k0_part31_eq_skeleton]; unfold k0_part31_skel
  simp only [cond75_eq, cond76_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rzwait m ρ c K f0 f1 f2 g 7) ?_
  refine .step (fun _ => step_addR m ρ c K f0 f1 f2 g 7 (hoff := (off119_eq c).trans (by rw [hmx]; rfl)) (hooff := (off120_eq c).trans rfl)) ?_
  refine .step (fun _ => step_rxwait m ρ c K f0 f1 f2 g 14) ?_
  exact .ret _

theorem part32_spec0 (hmx : mxOf c = 0) (v2 v5 v9 v13 v932 c1_i32_760 : BitVec 32) :
    Moves m ρ c K f0 f1 f2 g ⟨16, 16, 15, 14, 22, 8, 0, 0⟩ ⟨16, 16, 15, 15, 23, 9, 0, 0⟩ (onBufs (k0_part32 (F := F)) c v2 v5 v9 v13 v932 c1_i32_760) := by
  rw [onBufs, k0_part32_eq_skeleton]; unfold k0_part32_skel
  simp only [cond77_eq, cond78_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_zsend m ρ c K f0 f1 f2 g 14 _ (dev33_eq c)) ?_
  refine .step (fun _ => step_addD m ρ c K f0 f1 f2 g 14 (hoff := (off121_eq c).trans (by rw [hmx]; rfl)) (hooff := (off122_eq c).trans rfl)) ?_
  refine .step (fun _ => step_rzwait m ρ c K f0 f1 f2 g 8) ?_
  exact .ret _

theorem part32_spec1 (hmx : mxOf c = 1) (v2 v5 v9 v13 v932 c1_i32_760 : BitVec 32) :
    Moves m ρ c K f0 f1 f2 g ⟨16, 16, 15, 14, 22, 8, 0, 0⟩ ⟨16, 16, 15, 15, 23, 9, 0, 0⟩ (onBufs (k0_part32 (F := F)) c v2 v5 v9 v13 v932 c1_i32_760) := by
  rw [onBufs, k0_part32_eq_skeleton]; unfold k0_part32_skel
  simp only [cond77_eq, cond78_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_zsend m ρ c K f0 f1 f2 g 14 _ (dev33_eq c)) ?_
  refine .step (fun _ => step_addD m ρ c K f0 f1 f2 g 14 (hoff := (off123_eq c).trans (by rw [hmx]; rfl)) (hooff := (off124_eq c).trans rfl)) ?_
  refine .step (fun _ => step_rzwait m ρ c K f0 f1 f2 g 8) ?_
  exact .ret _

theorem part33_spec0 (hmx : mxOf c = 0) (v2 v5 v8 v9 v10 v13 v961 v963 c0_i32_785 : BitVec 32) :
    Moves m ρ c K f0 f1 f2 g ⟨16, 16, 15, 15, 23, 9, 0, 0⟩ ⟨16, 16, 16, 16, 24, 9, 0, 0⟩ (onBufs (k0_part33 (F := F)) c v2 v5 v8 v9 v10 v13 v961 v963 c0_i32_785) := by
  rw [onBufs, k0_part33_eq_skeleton]; unfold k0_part33_skel
  simp only [cond79_eq, cond80_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addR m ρ c K f0 f1 f2 g 8 (hoff := (off125_eq c).trans (by rw [hmx]; rfl)) (hooff := (off126_eq c).trans rfl)) ?_
  refine .step (fun _ => step_rxwait m ρ c K f0 f1 f2 g 15) ?_
  refine .step (fun _ => step_zsend m ρ c K f0 f1 f2 g 15 _ (dev34_eq c)) ?_
  exact .ret _

theorem part33_spec1 (hmx : mxOf c = 1) (v2 v5 v8 v9 v10 v13 v961 v963 c0_i32_785 : BitVec 32) :
    Moves m ρ c K f0 f1 f2 g ⟨16, 16, 15, 15, 23, 9, 0, 0⟩ ⟨16, 16, 16, 16, 24, 9, 0, 0⟩ (onBufs (k0_part33 (F := F)) c v2 v5 v8 v9 v10 v13 v961 v963 c0_i32_785) := by
  rw [onBufs, k0_part33_eq_skeleton]; unfold k0_part33_skel
  simp only [cond79_eq, cond80_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addR m ρ c K f0 f1 f2 g 8 (hoff := (off127_eq c).trans (by rw [hmx]; rfl)) (hooff := (off128_eq c).trans rfl)) ?_
  refine .step (fun _ => step_rxwait m ρ c K f0 f1 f2 g 15) ?_
  refine .step (fun _ => step_zsend m ρ c K f0 f1 f2 g 15 _ (dev34_eq c)) ?_
  exact .ret _

theorem part34_spec0 (hmx : mxOf c = 0) (v2 v5 v9 v13 v991 v993 c0_i32_811 : BitVec 32) :
    Moves m ρ c K f0 f1 f2 g ⟨16, 16, 16, 16, 24, 9, 0, 0⟩ ⟨16, 16, 16, 16, 26, 10, 0, 0⟩ (onBufs (k0_part34 (F := F)) c v2 v5 v9 v13 v991 v993 c0_i32_811) := by
  rw [onBufs, k0_part34_eq_skeleton]; unfold k0_part34_skel
  simp only [cond81_eq, cond82_eq, cond83_eq, cond84_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_addD m ρ c K f0 f1 f2 g 15 (hoff := (off129_eq c).trans (by rw [hmx]; rfl)) (hooff := (off130_eq c).trans rfl)) ?_
  refine .step (fun _ => step_rzwait m ρ c K f0 f1 f2 g 9) ?_
  refine .step (fun _ => step_addR m ρ c K f0 f1 f2 g 9 (hoff := (off133_eq c).trans (by rw [hmx]; rfl)) (hooff := (off134_eq c).trans rfl)) ?_
  exact .ret _

theorem part34_spec1 (hmx : mxOf c = 1) (v2 v5 v9 v13 v991 v993 c0_i32_811 : BitVec 32) :
    Moves m ρ c K f0 f1 f2 g ⟨16, 16, 16, 16, 24, 9, 0, 0⟩ ⟨16, 16, 16, 16, 26, 10, 0, 0⟩ (onBufs (k0_part34 (F := F)) c v2 v5 v9 v13 v991 v993 c0_i32_811) := by
  rw [onBufs, k0_part34_eq_skeleton]; unfold k0_part34_skel
  simp only [cond81_eq, cond82_eq, cond83_eq, cond84_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addD m ρ c K f0 f1 f2 g 15 (hoff := (off131_eq c).trans (by rw [hmx]; rfl)) (hooff := (off132_eq c).trans rfl)) ?_
  refine .step (fun _ => step_rzwait m ρ c K f0 f1 f2 g 9) ?_
  refine .step (fun _ => step_addR m ρ c K f0 f1 f2 g 9 (hoff := (off135_eq c).trans (by rw [hmx]; rfl)) (hooff := (off136_eq c).trans rfl)) ?_
  exact .ret _

theorem part35_spec0 (hmx : mxOf c = 0) (v2 v5 v9 v13 : BitVec 32) :
    Moves m ρ c K f0 f1 f2 g ⟨16, 16, 16, 16, 26, 10, 0, 0⟩ ⟨16, 16, 16, 16, 28, 12, 0, 0⟩ (onBufs (k0_part35 (F := F)) c v2 v5 v9 v13) := by
  rw [onBufs, k0_part35_eq_skeleton]; unfold k0_part35_skel
  simp only [cond85_eq, cond86_eq, cond87_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 10) ?_
  refine .step (fun _ => step_addR m ρ c K f0 f1 f2 g 10 (hoff := (off137_eq c).trans (by rw [hmx]; rfl)) (hooff := (off138_eq c).trans rfl)) ?_
  refine .step (fun _ => step_rzwait m ρ c K f0 f1 f2 g 11) ?_
  refine .step (fun _ => step_addR m ρ c K f0 f1 f2 g 11 (hoff := (off141_eq c).trans (by rw [hmx]; rfl)) (hooff := (off142_eq c).trans rfl)) ?_
  exact .ret _

theorem part35_spec1 (hmx : mxOf c = 1) (v2 v5 v9 v13 : BitVec 32) :
    Moves m ρ c K f0 f1 f2 g ⟨16, 16, 16, 16, 26, 10, 0, 0⟩ ⟨16, 16, 16, 16, 27, 12, 0, 0⟩ (onBufs (k0_part35 (F := F)) c v2 v5 v9 v13) := by
  rw [onBufs, k0_part35_eq_skeleton]; unfold k0_part35_skel
  simp only [cond85_eq, cond86_eq, cond87_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rzwait m ρ c K f0 f1 f2 g 10) ?_
  refine .step (fun _ => step_addR m ρ c K f0 f1 f2 g 10 (hoff := (off139_eq c).trans (by rw [hmx]; rfl)) (hooff := (off140_eq c).trans rfl)) ?_
  refine .step (fun _ => step_rzwait m ρ c K f0 f1 f2 g 11) ?_
  exact .ret _

theorem part36_spec0 (hmx : mxOf c = 0) (v2 v5 v9 v13 v1048 c1_i32_863 : BitVec 32) :
    Moves m ρ c K f0 f1 f2 g ⟨16, 16, 16, 16, 28, 12, 0, 0⟩ ⟨16, 16, 16, 16, 29, 13, 0, 0⟩ (onBufs (k0_part36 (F := F)) c v2 v5 v9 v13 v1048 c1_i32_863) := by
  rw [onBufs, k0_part36_eq_skeleton]; unfold k0_part36_skel
  simp only [cond88_eq, cond89_eq, cond90_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 12) ?_
  refine .step (fun _ => step_addR m ρ c K f0 f1 f2 g 12 (hoff := (off145_eq c).trans (by rw [hmx]; rfl)) (hooff := (off146_eq c).trans rfl)) ?_
  exact .ret _

theorem part36_spec1 (hmx : mxOf c = 1) (v2 v5 v9 v13 v1048 c1_i32_863 : BitVec 32) :
    Moves m ρ c K f0 f1 f2 g ⟨16, 16, 16, 16, 27, 12, 0, 0⟩ ⟨16, 16, 16, 16, 29, 13, 0, 0⟩ (onBufs (k0_part36 (F := F)) c v2 v5 v9 v13 v1048 c1_i32_863) := by
  rw [onBufs, k0_part36_eq_skeleton]; unfold k0_part36_skel
  simp only [cond88_eq, cond89_eq, cond90_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addR m ρ c K f0 f1 f2 g 11 (hoff := (off143_eq c).trans (by rw [hmx]; rfl)) (hooff := (off144_eq c).trans rfl)) ?_
  refine .step (fun _ => step_rzwait m ρ c K f0 f1 f2 g 12) ?_
  refine .step (fun _ => step_addR m ρ c K f0 f1 f2 g 12 (hoff := (off147_eq c).trans (by rw [hmx]; rfl)) (hooff := (off148_eq c).trans rfl)) ?_
  exact .ret _

theorem part37_spec0 (hmx : mxOf c = 0) (v2 v5 v9 v13 : BitVec 32) :
    Moves m ρ c K f0 f1 f2 g ⟨16, 16, 16, 16, 29, 13, 0, 0⟩ ⟨16, 16, 16, 16, 31, 15, 0, 0⟩ (onBufs (k0_part37 (F := F)) c v2 v5 v9 v13) := by
  rw [onBufs, k0_part37_eq_skeleton]; unfold k0_part37_skel
  simp only [cond91_eq, cond92_eq, cond93_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 13) ?_
  refine .step (fun _ => step_addR m ρ c K f0 f1 f2 g 13 (hoff := (off149_eq c).trans (by rw [hmx]; rfl)) (hooff := (off150_eq c).trans rfl)) ?_
  refine .step (fun _ => step_rzwait m ρ c K f0 f1 f2 g 14) ?_
  refine .step (fun _ => step_addR m ρ c K f0 f1 f2 g 14 (hoff := (off153_eq c).trans (by rw [hmx]; rfl)) (hooff := (off154_eq c).trans rfl)) ?_
  exact .ret _

theorem part37_spec1 (hmx : mxOf c = 1) (v2 v5 v9 v13 : BitVec 32) :
    Moves m ρ c K f0 f1 f2 g ⟨16, 16, 16, 16, 29, 13, 0, 0⟩ ⟨16, 16, 16, 16, 30, 15, 0, 0⟩ (onBufs (k0_part37 (F := F)) c v2 v5 v9 v13) := by
  rw [onBufs, k0_part37_eq_skeleton]; unfold k0_part37_skel
  simp only [cond91_eq, cond92_eq, cond93_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_rzwait m ρ c K f0 f1 f2 g 13) ?_
  refine .step (fun _ => step_addR m ρ c K f0 f1 f2 g 13 (hoff := (off151_eq c).trans (by rw [hmx]; rfl)) (hooff := (off152_eq c).trans rfl)) ?_
  refine .step (fun _ => step_rzwait m ρ c K f0 f1 f2 g 14) ?_
  exact .ret _

theorem part38_spec0 (hmx : mxOf c = 0) (v2 v5 v9 v13 v1105 v1110 c0_i32_915 : BitVec 32) :
    Moves m ρ c K f0 f1 f2 g ⟨16, 16, 16, 16, 31, 15, 0, 0⟩ ⟨16, 16, 16, 16, 32, 16, 1, 0⟩ (onBufs (k0_part38 (F := F)) c v2 v5 v9 v13 v1105 v1110 c0_i32_915) := by
  rw [onBufs, k0_part38_eq_skeleton]; unfold k0_part38_skel
  simp only [cond94_eq, cond95_eq, cond96_eq, mx0Bit_mx0 c hmx, mx1Bit_mx0 c hmx, ↓reduceDIte, eq_false (by decide : ¬ ((0#1 : BitVec 1) = 1#1)), Prog.lift, Prog.bind_op, Prog.bind_ret, Prog.pure_eq_ret]
  refine .step (fun _ => step_rzwait m ρ c K f0 f1 f2 g 15) ?_
  refine .step (fun _ => step_addR m ρ c K f0 f1 f2 g 15 (hoff := (off157_eq c).trans (by rw [hmx]; rfl)) (hooff := (off158_eq c).trans rfl)) ?_
  refine .step (fun _ => step_sxwait m ρ c K f0 f1 f2 g 0) ?_
  exact .ret _

theorem part38_spec1 (hmx : mxOf c = 1) (v2 v5 v9 v13 v1105 v1110 c0_i32_915 : BitVec 32) :
    Moves m ρ c K f0 f1 f2 g ⟨16, 16, 16, 16, 30, 15, 0, 0⟩ ⟨16, 16, 16, 16, 32, 16, 1, 0⟩ (onBufs (k0_part38 (F := F)) c v2 v5 v9 v13 v1105 v1110 c0_i32_915) := by
  rw [onBufs, k0_part38_eq_skeleton]; unfold k0_part38_skel
  simp only [cond94_eq, cond95_eq, cond96_eq, mx0Bit_mx1 c hmx, mx1Bit_mx1 c hmx, ↓reduceDIte, eq_false (by decide : ¬ ((0#1 : BitVec 1) = 1#1)), Prog.lift, Prog.bind_op, Prog.bind_ret, Prog.pure_eq_ret]
  refine .step (fun _ => step_addR m ρ c K f0 f1 f2 g 14 (hoff := (off155_eq c).trans (by rw [hmx]; rfl)) (hooff := (off156_eq c).trans rfl)) ?_
  refine .step (fun _ => step_rzwait m ρ c K f0 f1 f2 g 15) ?_
  refine .step (fun _ => step_addR m ρ c K f0 f1 f2 g 15 (hoff := (off159_eq c).trans (by rw [hmx]; rfl)) (hooff := (off160_eq c).trans rfl)) ?_
  refine .step (fun _ => step_sxwait m ρ c K f0 f1 f2 g 0) ?_
  exact .ret _

end Cert.KernelIdeal.Hand

end
-- ==== Proof.Parts39.lean ====
import proofs.«901032_g7700000000001033_dist_rs_v7x_xyz2x2x4_x_m1024_n512_bf16_1_alg».proof.Proof.Steps

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD) (K : Dev nD × CellIx → ℕ) (f0 : Buf (Elt F) ((c : Thread nD τ).loc cc0_scratch0))
  (f1 : Buf (Elt F) ((px c : Thread nD τ).loc cc0_scratch1)) (f2 : Buf (Elt F) ((pz c : Thread nD τ).loc cc0_scratch2))
  (g : (cc0_stg1_0 : Ref sig .tc).ty.Contents (Elt F))

theorem part39_spec :
    Moves m ρ c K f0 f1 f2 g ⟨16, 16, 16, 16, 32, 16, 1, 0⟩ ⟨16, 16, 16, 16, 32, 16, 3, 3⟩ (onBufs (k0_part39 (F := F))) := by
  rw [onBufs, k0_part39_eq_skeleton]; unfold k0_part39_skel
  simp only [Prog.lift, Prog.bind_op, Prog.bind_ret, Prog.pure_eq_ret]
  refine .step (fun _ => step_szwait m ρ c K f0 f1 f2 g 0) ?_
  refine .step (fun _ => step_sxwait m ρ c K f0 f1 f2 g 1) ?_
  refine .step (fun _ => step_szwait m ρ c K f0 f1 f2 g 1) ?_
  refine .step (fun _ => step_sxwait m ρ c K f0 f1 f2 g 2) ?_
  refine .step (fun _ => step_szwait m ρ c K f0 f1 f2 g 2) ?_
  exact .ret _

theorem part40_spec :
    Moves m ρ c K f0 f1 f2 g ⟨16, 16, 16, 16, 32, 16, 3, 3⟩ ⟨16, 16, 16, 16, 32, 16, 6, 5⟩ (onBufs (k0_part40 (F := F))) := by
  rw [onBufs, k0_part40_eq_skeleton]; unfold k0_part40_skel
  simp only [Prog.lift, Prog.bind_op, Prog.bind_ret, Prog.pure_eq_ret]
  refine .step (fun _ => step_sxwait m ρ c K f0 f1 f2 g 3) ?_
  refine .step (fun _ => step_szwait m ρ c K f0 f1 f2 g 3) ?_
  refine .step (fun _ => step_sxwait m ρ c K f0 f1 f2 g 4) ?_
  refine .step (fun _ => step_szwait m ρ c K f0 f1 f2 g 4) ?_
  refine .step (fun _ => step_sxwait m ρ c K f0 f1 f2 g 5) ?_
  exact .ret _

theorem part41_spec :
    Moves m ρ c K f0 f1 f2 g ⟨16, 16, 16, 16, 32, 16, 6, 5⟩ ⟨16, 16, 16, 16, 32, 16, 8, 8⟩ (onBufs (k0_part41 (F := F))) := by
  rw [onBufs, k0_part41_eq_skeleton]; unfold k0_part41_skel
  simp only [Prog.lift, Prog.bind_op, Prog.bind_ret, Prog.pure_eq_ret]
  refine .step (fun _ => step_szwait m ρ c K f0 f1 f2 g 5) ?_
  refine .step (fun _ => step_sxwait m ρ c K f0 f1 f2 g 6) ?_
  refine .step (fun _ => step_szwait m ρ c K f0 f1 f2 g 6) ?_
  refine .step (fun _ => step_sxwait m ρ c K f0 f1 f2 g 7) ?_
  refine .step (fun _ => step_szwait m ρ c K f0 f1 f2 g 7) ?_
  exact .ret _

theorem part42_spec :
    Moves m ρ c K f0 f1 f2 g ⟨16, 16, 16, 16, 32, 16, 8, 8⟩ ⟨16, 16, 16, 16, 32, 16, 11, 10⟩ (onBufs (k0_part42 (F := F))) := by
  rw [onBufs, k0_part42_eq_skeleton]; unfold k0_part42_skel
  simp only [Prog.lift, Prog.bind_op, Prog.bind_ret, Prog.pure_eq_ret]
  refine .step (fun _ => step_sxwait m ρ c K f0 f1 f2 g 8) ?_
  refine .step (fun _ => step_szwait m ρ c K f0 f1 f2 g 8) ?_
  refine .step (fun _ => step_sxwait m ρ c K f0 f1 f2 g 9) ?_
  refine .step (fun _ => step_szwait m ρ c K f0 f1 f2 g 9) ?_
  refine .step (fun _ => step_sxwait m ρ c K f0 f1 f2 g 10) ?_
  exact .ret _

theorem part43_spec :
    Moves m ρ c K f0 f1 f2 g ⟨16, 16, 16, 16, 32, 16, 11, 10⟩ ⟨16, 16, 16, 16, 32, 16, 13, 13⟩ (onBufs (k0_part43 (F := F))) := by
  rw [onBufs, k0_part43_eq_skeleton]; unfold k0_part43_skel
  simp only [Prog.lift, Prog.bind_op, Prog.bind_ret, Prog.pure_eq_ret]
  refine .step (fun _ => step_szwait m ρ c K f0 f1 f2 g 10) ?_
  refine .step (fun _ => step_sxwait m ρ c K f0 f1 f2 g 11) ?_
  refine .step (fun _ => step_szwait m ρ c K f0 f1 f2 g 11) ?_
  refine .step (fun _ => step_sxwait m ρ c K f0 f1 f2 g 12) ?_
  refine .step (fun _ => step_szwait m ρ c K f0 f1 f2 g 12) ?_
  exact .ret _

theorem part44_spec :
    Moves m ρ c K f0 f1 f2 g ⟨16, 16, 16, 16, 32, 16, 13, 13⟩ ⟨16, 16, 16, 16, 32, 16, 16, 15⟩ (onBufs (k0_part44 (F := F))) := by
  rw [onBufs, k0_part44_eq_skeleton]; unfold k0_part44_skel
  simp only [Prog.lift, Prog.bind_op, Prog.bind_ret, Prog.pure_eq_ret]
  refine .step (fun _ => step_sxwait m ρ c K f0 f1 f2 g 13) ?_
  refine .step (fun _ => step_szwait m ρ c K f0 f1 f2 g 13) ?_
  refine .step (fun _ => step_sxwait m ρ c K f0 f1 f2 g 14) ?_
  refine .step (fun _ => step_szwait m ρ c K f0 f1 f2 g 14) ?_
  refine .step (fun _ => step_sxwait m ρ c K f0 f1 f2 g 15) ?_
  exact .ret _

end Cert.KernelIdeal.Hand

end
-- ==== Proof.Body.lean ====
import proofs.«901032_g7700000000001033_dist_rs_v7x_xyz2x2x4_x_m1024_n512_bf16_1_alg».proof.Proof.Part1
import proofs.«901032_g7700000000001033_dist_rs_v7x_xyz2x2x4_x_m1024_n512_bf16_1_alg».proof.Proof.BodyPre
import proofs.«901032_g7700000000001033_dist_rs_v7x_xyz2x2x4_x_m1024_n512_bf16_1_alg».proof.Proof.Parts02
import proofs.«901032_g7700000000001033_dist_rs_v7x_xyz2x2x4_x_m1024_n512_bf16_1_alg».proof.Proof.Parts09
import proofs.«901032_g7700000000001033_dist_rs_v7x_xyz2x2x4_x_m1024_n512_bf16_1_alg».proof.Proof.Parts19
import proofs.«901032_g7700000000001033_dist_rs_v7x_xyz2x2x4_x_m1024_n512_bf16_1_alg».proof.Proof.Parts29
import proofs.«901032_g7700000000001033_dist_rs_v7x_xyz2x2x4_x_m1024_n512_bf16_1_alg».proof.Proof.Parts39
import proofs.«901032_g7700000000001033_dist_rs_v7x_xyz2x2x4_x_m1024_n512_bf16_1_alg».proof.Proof.OutCover

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 4000000 in
set_option maxRecDepth 65536 in
/-- The body of a device with x coordinate 0: the parts in order, each handing on the state it left. -/
theorem sound_body0 (c : Dev nD) (hmx : mxOf c = 0) :
    bodyPre' m ρ c ⊢ WP c (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  rw [cc0_body_eq_skeleton]; unfold cc0_body_skel WP
  iintro Hpre
  ihave H1 := (pre1_of_bodyPre' m ρ c) $$ Hpre
  icases H1 with ⟨%g, H1⟩
  rw [wp_bind]
  iapply (part1_spec m ρ c g _)
  isplitl [H1]; · iexact H1
  iintro %r %K %f0 %f1 %f2 %hr HI
  obtain ⟨d0, v2, v5, v8, v9, v10, v13, v28, v30⟩ := r
  dsimp only at hr; subst hr
  dsimp only
  rw [wp_bind]
  iapply (part2_spec0 m ρ d0 K f0 f1 f2 g hmx v2 v5 v8 v9 v10 v28 v30 _)
  isplitl [HI]; · iexact HI
  iintro %r HI
  rw [wp_bind]
  iapply (part3_spec0 m ρ d0 K f0 f1 f2 g hmx v2 v5 v8 v9 v10 _)
  isplitl [HI]; · iexact HI
  iintro %v88 HI
  rw [wp_bind]
  iapply (part4_spec0 m ρ d0 K f0 f1 f2 g hmx v2 v5 v8 v9 v10 v88 _)
  isplitl [HI]; · iexact HI
  iintro %r HI
  rw [wp_bind]
  iapply (part5_spec0 m ρ d0 K f0 f1 f2 g hmx v2 v5 v8 v9 v10 _)
  isplitl [HI]; · iexact HI
  iintro %r HI
  obtain ⟨v148, v153⟩ := r
  dsimp only
  rw [wp_bind]
  iapply (part6_spec0 m ρ d0 K f0 f1 f2 g hmx v2 v5 v8 v9 v10 v148 v153 _)
  isplitl [HI]; · iexact HI
  iintro %r HI
  rw [wp_bind]
  iapply (part7_spec0 m ρ d0 K f0 f1 f2 g hmx v2 v5 v8 v9 v10 _)
  isplitl [HI]; · iexact HI
  iintro %r HI
  rw [wp_bind]
  iapply (part8_spec0 m ρ d0 K f0 f1 f2 g hmx v2 v5 v8 v9 v10 _)
  isplitl [HI]; · iexact HI
  iintro %r HI
  rw [wp_bind]
  iapply (part9_spec0 m ρ d0 K f0 f1 f2 g hmx v2 v5 v8 v9 v10 _)
  isplitl [HI]; · iexact HI
  iintro %c8_i32_195 HI
  rw [wp_bind]
  iapply (part10_spec0 m ρ d0 K f0 f1 f2 g hmx v2 v5 v8 v9 v10 c8_i32_195 _)
  isplitl [HI]; · iexact HI
  iintro %c512_i32_217 HI
  rw [wp_bind]
  iapply (part11_spec0 m ρ d0 K f0 f1 f2 g hmx v2 v5 v8 v9 v10 c512_i32_217 _)
  isplitl [HI]; · iexact HI
  iintro %v336 HI
  rw [wp_bind]
  iapply (part12_spec m ρ d0 K f0 f1 f2 g v2 v5 v8 v10 v13 v336 _)
  isplitl [HI]; · iexact HI
  iintro %r HI
  rw [wp_bind]
  iapply (part13_spec0 m ρ d0 K f0 f1 f2 g hmx v2 v5 v8 v9 v10 v13 _)
  isplitl [HI]; · iexact HI
  iintro %r HI
  rw [wp_bind]
  iapply (part14_spec0 m ρ d0 K f0 f1 f2 g hmx v2 v5 v8 v9 v10 v13 _)
  isplitl [HI]; · iexact HI
  iintro %r HI
  rw [wp_bind]
  iapply (part15_spec0 m ρ d0 K f0 f1 f2 g hmx v2 v5 v8 v9 v10 v13 _)
  isplitl [HI]; · iexact HI
  iintro %r HI
  rw [wp_bind]
  iapply (part16_spec0 m ρ d0 K f0 f1 f2 g hmx v2 v5 v8 v9 v10 v13 _)
  isplitl [HI]; · iexact HI
  iintro %r HI
  rw [wp_bind]
  iapply (part17_spec0 m ρ d0 K f0 f1 f2 g hmx v2 v5 v8 v9 v10 v13 _)
  isplitl [HI]; · iexact HI
  iintro %r HI
  rw [wp_bind]
  iapply (part18_spec0 m ρ d0 K f0 f1 f2 g hmx v2 v5 v8 v9 v10 v13 _)
  isplitl [HI]; · iexact HI
  iintro %r HI
  rw [wp_bind]
  iapply (part19_spec0 m ρ d0 K f0 f1 f2 g hmx v2 v5 v9 v10 v13 _)
  isplitl [HI]; · iexact HI
  iintro %v576 HI
  rw [wp_bind]
  iapply (part20_spec0 m ρ d0 K f0 f1 f2 g hmx v2 v5 v8 v9 v13 v576 _)
  isplitl [HI]; · iexact HI
  iintro %v606 HI
  rw [wp_bind]
  iapply (part21_spec0 m ρ d0 K f0 f1 f2 g hmx v2 v5 v8 v9 v10 v13 v606 _)
  isplitl [HI]; · iexact HI
  iintro %v635 HI
  rw [wp_bind]
  iapply (part22_spec0 m ρ d0 K f0 f1 f2 g hmx v2 v5 v9 v13 v635 _)
  isplitl [HI]; · iexact HI
  iintro %v666 HI
  rw [wp_bind]
  iapply (part23_spec0 m ρ d0 K f0 f1 f2 g hmx v2 v5 v8 v9 v10 v13 v666 _)
  isplitl [HI]; · iexact HI
  iintro %v696 HI
  rw [wp_bind]
  iapply (part24_spec0 m ρ d0 K f0 f1 f2 g hmx v2 v5 v9 v10 v13 v696 _)
  isplitl [HI]; · iexact HI
  iintro %r HI
  obtain ⟨v724, c4_i32_577⟩ := r
  dsimp only
  rw [wp_bind]
  iapply (part25_spec0 m ρ d0 K f0 f1 f2 g hmx v2 v5 v8 v9 v13 v724 c4_i32_577 _)
  isplitl [HI]; · iexact HI
  iintro %r HI
  obtain ⟨v754, c4_i32_603⟩ := r
  dsimp only
  rw [wp_bind]
  iapply (part26_spec0 m ρ d0 K f0 f1 f2 g hmx v2 v5 v8 v9 v10 v13 v754 c4_i32_603 _)
  isplitl [HI]; · iexact HI
  iintro %r HI
  obtain ⟨v783, c4_i32_630⟩ := r
  dsimp only
  rw [wp_bind]
  iapply (part27_spec0 m ρ d0 K f0 f1 f2 g hmx v2 v5 v9 v13 v783 c4_i32_630 _)
  isplitl [HI]; · iexact HI
  iintro %r HI
  obtain ⟨v814, c0_i32_655⟩ := r
  dsimp only
  rw [wp_bind]
  iapply (part28_spec0 m ρ d0 K f0 f1 f2 g hmx v2 v5 v8 v9 v10 v13 v814 c0_i32_655 _)
  isplitl [HI]; · iexact HI
  iintro %r HI
  obtain ⟨v844, c0_i32_681⟩ := r
  dsimp only
  rw [wp_bind]
  iapply (part29_spec0 m ρ d0 K f0 f1 f2 g hmx v2 v5 v9 v10 v13 v844 c0_i32_681 _)
  isplitl [HI]; · iexact HI
  iintro %r HI
  obtain ⟨v873, c1_i32_707⟩ := r
  dsimp only
  rw [wp_bind]
  iapply (part30_spec0 m ρ d0 K f0 f1 f2 g hmx v2 v5 v8 v9 v13 v873 c1_i32_707 _)
  isplitl [HI]; · iexact HI
  iintro %r HI
  obtain ⟨v903, c1_i32_733⟩ := r
  dsimp only
  rw [wp_bind]
  iapply (part31_spec0 m ρ d0 K f0 f1 f2 g hmx v2 v5 v8 v9 v10 v13 v903 c1_i32_733 _)
  isplitl [HI]; · iexact HI
  iintro %r HI
  obtain ⟨v932, c1_i32_760⟩ := r
  dsimp only
  rw [wp_bind]
  iapply (part32_spec0 m ρ d0 K f0 f1 f2 g hmx v2 v5 v9 v13 v932 c1_i32_760 _)
  isplitl [HI]; · iexact HI
  iintro %r HI
  obtain ⟨v961, v963, c0_i32_785⟩ := r
  dsimp only
  rw [wp_bind]
  iapply (part33_spec0 m ρ d0 K f0 f1 f2 g hmx v2 v5 v8 v9 v10 v13 v961 v963 c0_i32_785 _)
  isplitl [HI]; · iexact HI
  iintro %r HI
  obtain ⟨v991, v993, c0_i32_811⟩ := r
  dsimp only
  rw [wp_bind]
  iapply (part34_spec0 m ρ d0 K f0 f1 f2 g hmx v2 v5 v9 v13 v991 v993 c0_i32_811 _)
  isplitl [HI]; · iexact HI
  iintro %r HI
  rw [wp_bind]
  iapply (part35_spec0 m ρ d0 K f0 f1 f2 g hmx v2 v5 v9 v13 _)
  isplitl [HI]; · iexact HI
  iintro %r HI
  obtain ⟨v1048, c1_i32_863⟩ := r
  dsimp only
  rw [wp_bind]
  iapply (part36_spec0 m ρ d0 K f0 f1 f2 g hmx v2 v5 v9 v13 v1048 c1_i32_863 _)
  isplitl [HI]; · iexact HI
  iintro %r HI
  rw [wp_bind]
  iapply (part37_spec0 m ρ d0 K f0 f1 f2 g hmx v2 v5 v9 v13 _)
  isplitl [HI]; · iexact HI
  iintro %r HI
  obtain ⟨v1105, v1110, c0_i32_915⟩ := r
  dsimp only
  rw [wp_bind]
  iapply (part38_spec0 m ρ d0 K f0 f1 f2 g hmx v2 v5 v9 v13 v1105 v1110 c0_i32_915 _)
  isplitl [HI]; · iexact HI
  iintro %r HI
  rw [wp_bind]
  iapply (part39_spec m ρ d0 K f0 f1 f2 g _)
  isplitl [HI]; · iexact HI
  iintro %r HI
  rw [wp_bind]
  iapply (part40_spec m ρ d0 K f0 f1 f2 g _)
  isplitl [HI]; · iexact HI
  iintro %r HI
  rw [wp_bind]
  iapply (part41_spec m ρ d0 K f0 f1 f2 g _)
  isplitl [HI]; · iexact HI
  iintro %r HI
  rw [wp_bind]
  iapply (part42_spec m ρ d0 K f0 f1 f2 g _)
  isplitl [HI]; · iexact HI
  iintro %r HI
  rw [wp_bind]
  iapply (part43_spec m ρ d0 K f0 f1 f2 g _)
  isplitl [HI]; · iexact HI
  iintro %r HI
  rw [wp_bind]
  iapply (part44_spec m ρ d0 K f0 f1 f2 g _)
  isplitl [HI]; · iexact HI
  iintro %r HI
  simp only [Prog.lift, Prog.bind_op, Prog.bind_ret, Prog.pure_eq_ret]
  iapply (step_szwait m ρ d0 K f0 f1 f2 g (p := ⟨16, 16, 16, 16, 32, 16, 16, 15⟩) 15)
  isplitl [HI]; · iexact HI
  iintro HI
  unfold WP; rw [wp_ret]; imodintro
  iapply (epilogue m ρ d0 K f0 f1 f2 g (outAt_final m ρ d0 g))
  iexact HI

set_option maxHeartbeats 4000000 in
set_option maxRecDepth 65536 in
/-- The same for x coordinate 1; the two orders differ in which branch of each pair of stores runs. -/
theorem sound_body1 (c : Dev nD) (hmx : mxOf c = 1) :
    bodyPre' m ρ c ⊢ WP c (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  rw [cc0_body_eq_skeleton]; unfold cc0_body_skel WP
  iintro Hpre
  ihave H1 := (pre1_of_bodyPre' m ρ c) $$ Hpre
  icases H1 with ⟨%g, H1⟩
  rw [wp_bind]
  iapply (part1_spec m ρ c g _)
  isplitl [H1]; · iexact H1
  iintro %r %K %f0 %f1 %f2 %hr HI
  obtain ⟨d0, v2, v5, v8, v9, v10, v13, v28, v30⟩ := r
  dsimp only at hr; subst hr
  dsimp only
  rw [wp_bind]
  iapply (part2_spec1 m ρ d0 K f0 f1 f2 g hmx v2 v5 v8 v9 v10 v28 v30 _)
  isplitl [HI]; · iexact HI
  iintro %r HI
  rw [wp_bind]
  iapply (part3_spec1 m ρ d0 K f0 f1 f2 g hmx v2 v5 v8 v9 v10 _)
  isplitl [HI]; · iexact HI
  iintro %v88 HI
  rw [wp_bind]
  iapply (part4_spec1 m ρ d0 K f0 f1 f2 g hmx v2 v5 v8 v9 v10 v88 _)
  isplitl [HI]; · iexact HI
  iintro %r HI
  rw [wp_bind]
  iapply (part5_spec1 m ρ d0 K f0 f1 f2 g hmx v2 v5 v8 v9 v10 _)
  isplitl [HI]; · iexact HI
  iintro %r HI
  obtain ⟨v148, v153⟩ := r
  dsimp only
  rw [wp_bind]
  iapply (part6_spec1 m ρ d0 K f0 f1 f2 g hmx v2 v5 v8 v9 v10 v148 v153 _)
  isplitl [HI]; · iexact HI
  iintro %r HI
  rw [wp_bind]
  iapply (part7_spec1 m ρ d0 K f0 f1 f2 g hmx v2 v5 v8 v9 v10 _)
  isplitl [HI]; · iexact HI
  iintro %r HI
  rw [wp_bind]
  iapply (part8_spec1 m ρ d0 K f0 f1 f2 g hmx v2 v5 v8 v9 v10 _)
  isplitl [HI]; · iexact HI
  iintro %r HI
  rw [wp_bind]
  iapply (part9_spec1 m ρ d0 K f0 f1 f2 g hmx v2 v5 v8 v9 v10 _)
  isplitl [HI]; · iexact HI
  iintro %c8_i32_195 HI
  rw [wp_bind]
  iapply (part10_spec1 m ρ d0 K f0 f1 f2 g hmx v2 v5 v8 v9 v10 c8_i32_195 _)
  isplitl [HI]; · iexact HI
  iintro %c512_i32_217 HI
  rw [wp_bind]
  iapply (part11_spec1 m ρ d0 K f0 f1 f2 g hmx v2 v5 v8 v9 v10 c512_i32_217 _)
  isplitl [HI]; · iexact HI
  iintro %v336 HI
  rw [wp_bind]
  iapply (part12_spec m ρ d0 K f0 f1 f2 g v2 v5 v8 v10 v13 v336 _)
  isplitl [HI]; · iexact HI
  iintro %r HI
  rw [wp_bind]
  iapply (part13_spec1 m ρ d0 K f0 f1 f2 g hmx v2 v5 v8 v9 v10 v13 _)
  isplitl [HI]; · iexact HI
  iintro %r HI
  rw [wp_bind]
  iapply (part14_spec1 m ρ d0 K f0 f1 f2 g hmx v2 v5 v8 v9 v10 v13 _)
  isplitl [HI]; · iexact HI
  iintro %r HI
  rw [wp_bind]
  iapply (part15_spec1 m ρ d0 K f0 f1 f2 g hmx v2 v5 v8 v9 v10 v13 _)
  isplitl [HI]; · iexact HI
  iintro %r HI
  rw [wp_bind]
  iapply (part16_spec1 m ρ d0 K f0 f1 f2 g hmx v2 v5 v8 v9 v10 v13 _)
  isplitl [HI]; · iexact HI
  iintro %r HI
  rw [wp_bind]
  iapply (part17_spec1 m ρ d0 K f0 f1 f2 g hmx v2 v5 v8 v9 v10 v13 _)
  isplitl [HI]; · iexact HI
  iintro %r HI
  rw [wp_bind]
  iapply (part18_spec1 m ρ d0 K f0 f1 f2 g hmx v2 v5 v8 v9 v10 v13 _)
  isplitl [HI]; · iexact HI
  iintro %r HI
  rw [wp_bind]
  iapply (part19_spec1 m ρ d0 K f0 f1 f2 g hmx v2 v5 v9 v10 v13 _)
  isplitl [HI]; · iexact HI
  iintro %v576 HI
  rw [wp_bind]
  iapply (part20_spec1 m ρ d0 K f0 f1 f2 g hmx v2 v5 v8 v9 v13 v576 _)
  isplitl [HI]; · iexact HI
  iintro %v606 HI
  rw [wp_bind]
  iapply (part21_spec1 m ρ d0 K f0 f1 f2 g hmx v2 v5 v8 v9 v10 v13 v606 _)
  isplitl [HI]; · iexact HI
  iintro %v635 HI
  rw [wp_bind]
  iapply (part22_spec1 m ρ d0 K f0 f1 f2 g hmx v2 v5 v9 v13 v635 _)
  isplitl [HI]; · iexact HI
  iintro %v666 HI
  rw [wp_bind]
  iapply (part23_spec1 m ρ d0 K f0 f1 f2 g hmx v2 v5 v8 v9 v10 v13 v666 _)
  isplitl [HI]; · iexact HI
  iintro %v696 HI
  rw [wp_bind]
  iapply (part24_spec1 m ρ d0 K f0 f1 f2 g hmx v2 v5 v9 v10 v13 v696 _)
  isplitl [HI]; · iexact HI
  iintro %r HI
  obtain ⟨v724, c4_i32_577⟩ := r
  dsimp only
  rw [wp_bind]
  iapply (part25_spec1 m ρ d0 K f0 f1 f2 g hmx v2 v5 v8 v9 v13 v724 c4_i32_577 _)
  isplitl [HI]; · iexact HI
  iintro %r HI
  obtain ⟨v754, c4_i32_603⟩ := r
  dsimp only
  rw [wp_bind]
  iapply (part26_spec1 m ρ d0 K f0 f1 f2 g hmx v2 v5 v8 v9 v10 v13 v754 c4_i32_603 _)
  isplitl [HI]; · iexact HI
  iintro %r HI
  obtain ⟨v783, c4_i32_630⟩ := r
  dsimp only
  rw [wp_bind]
  iapply (part27_spec1 m ρ d0 K f0 f1 f2 g hmx v2 v5 v9 v13 v783 c4_i32_630 _)
  isplitl [HI]; · iexact HI
  iintro %r HI
  obtain ⟨v814, c0_i32_655⟩ := r
  dsimp only
  rw [wp_bind]
  iapply (part28_spec1 m ρ d0 K f0 f1 f2 g hmx v2 v5 v8 v9 v10 v13 v814 c0_i32_655 _)
  isplitl [HI]; · iexact HI
  iintro %r HI
  obtain ⟨v844, c0_i32_681⟩ := r
  dsimp only
  rw [wp_bind]
  iapply (part29_spec1 m ρ d0 K f0 f1 f2 g hmx v2 v5 v9 v10 v13 v844 c0_i32_681 _)
  isplitl [HI]; · iexact HI
  iintro %r HI
  obtain ⟨v873, c1_i32_707⟩ := r
  dsimp only
  rw [wp_bind]
  iapply (part30_spec1 m ρ d0 K f0 f1 f2 g hmx v2 v5 v8 v9 v13 v873 c1_i32_707 _)
  isplitl [HI]; · iexact HI
  iintro %r HI
  obtain ⟨v903, c1_i32_733⟩ := r
  dsimp only
  rw [wp_bind]
  iapply (part31_spec1 m ρ d0 K f0 f1 f2 g hmx v2 v5 v8 v9 v10 v13 v903 c1_i32_733 _)
  isplitl [HI]; · iexact HI
  iintro %r HI
  obtain ⟨v932, c1_i32_760⟩ := r
  dsimp only
  rw [wp_bind]
  iapply (part32_spec1 m ρ d0 K f0 f1 f2 g hmx v2 v5 v9 v13 v932 c1_i32_760 _)
  isplitl [HI]; · iexact HI
  iintro %r HI
  obtain ⟨v961, v963, c0_i32_785⟩ := r
  dsimp only
  rw [wp_bind]
  iapply (part33_spec1 m ρ d0 K f0 f1 f2 g hmx v2 v5 v8 v9 v10 v13 v961 v963 c0_i32_785 _)
  isplitl [HI]; · iexact HI
  iintro %r HI
  obtain ⟨v991, v993, c0_i32_811⟩ := r
  dsimp only
  rw [wp_bind]
  iapply (part34_spec1 m ρ d0 K f0 f1 f2 g hmx v2 v5 v9 v13 v991 v993 c0_i32_811 _)
  isplitl [HI]; · iexact HI
  iintro %r HI
  rw [wp_bind]
  iapply (part35_spec1 m ρ d0 K f0 f1 f2 g hmx v2 v5 v9 v13 _)
  isplitl [HI]; · iexact HI
  iintro %r HI
  obtain ⟨v1048, c1_i32_863⟩ := r
  dsimp only
  rw [wp_bind]
  iapply (part36_spec1 m ρ d0 K f0 f1 f2 g hmx v2 v5 v9 v13 v1048 c1_i32_863 _)
  isplitl [HI]; · iexact HI
  iintro %r HI
  rw [wp_bind]
  iapply (part37_spec1 m ρ d0 K f0 f1 f2 g hmx v2 v5 v9 v13 _)
  isplitl [HI]; · iexact HI
  iintro %r HI
  obtain ⟨v1105, v1110, c0_i32_915⟩ := r
  dsimp only
  rw [wp_bind]
  iapply (part38_spec1 m ρ d0 K f0 f1 f2 g hmx v2 v5 v9 v13 v1105 v1110 c0_i32_915 _)
  isplitl [HI]; · iexact HI
  iintro %r HI
  rw [wp_bind]
  iapply (part39_spec m ρ d0 K f0 f1 f2 g _)
  isplitl [HI]; · iexact HI
  iintro %r HI
  rw [wp_bind]
  iapply (part40_spec m ρ d0 K f0 f1 f2 g _)
  isplitl [HI]; · iexact HI
  iintro %r HI
  rw [wp_bind]
  iapply (part41_spec m ρ d0 K f0 f1 f2 g _)
  isplitl [HI]; · iexact HI
  iintro %r HI
  rw [wp_bind]
  iapply (part42_spec m ρ d0 K f0 f1 f2 g _)
  isplitl [HI]; · iexact HI
  iintro %r HI
  rw [wp_bind]
  iapply (part43_spec m ρ d0 K f0 f1 f2 g _)
  isplitl [HI]; · iexact HI
  iintro %r HI
  rw [wp_bind]
  iapply (part44_spec m ρ d0 K f0 f1 f2 g _)
  isplitl [HI]; · iexact HI
  iintro %r HI
  simp only [Prog.lift, Prog.bind_op, Prog.bind_ret, Prog.pure_eq_ret]
  iapply (step_szwait m ρ d0 K f0 f1 f2 g (p := ⟨16, 16, 16, 16, 32, 16, 16, 15⟩) 15)
  isplitl [HI]; · iexact HI
  iintro HI
  unfold WP; rw [wp_ret]; imodintro
  iapply (epilogue m ρ d0 K f0 f1 f2 g (outAt_final m ρ d0 g))
  iexact HI

theorem sound_body (c : Dev nD) :
    bodyPre' m ρ c ⊢ WP c (cc0_body (F := F) (Memref.whole cc0_stg0_0) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  rcases mx_cases c with hmx | hmx
  · exact sound_body0 m ρ c hmx
  · exact sound_body1 m ρ c hmx

end Cert.KernelIdeal.Hand

end
-- ==== Proof.Claims.lean ====
import proofs.«901032_g7700000000001033_dist_rs_v7x_xyz2x2x4_x_m1024_n512_bf16_1_alg».proof.Proof.Launch
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem finalA_out (c : Dev nD) : finalA m ρ c (1 : Fin 2) = outG m ρ c := by
  show (dats m ρ 0 c).arrAt 1 ((t₀ : Fin cfg0.N).val + 1) = _
  rw [Dat.arrAt_succ, if_pos (flush_1 t₀)]
  refine (Memref.write_access_unit_zero_univ (Elt F) main_v1 ?_ _ _ _).trans ?_
  · funext a; fin_cases a <;> rfl
  · funext j
    show (dats m ρ 0 c).after 1 t₀ ((cfg0.win 1).xinj (cfg0.grid.coords t₀) j) = outG m ρ c j
    dsimp only [dats]

/-- Every run ends with each device's result at the value of its thirty-two add-stores and its argument unchanged. -/
theorem run_strong (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outG m ρ c
        ∧ r.2.mem ((c.tc : Thread nD τ).loc main_arg0) = m ((c.tc : Thread nD τ).loc main_arg0)) :=
  (θ_run defs _ _).mono (fun r h c => ⟨(h c 1).trans (finalA_out m ρ c), (h c 0).trans (finalA_x m ρ c)⟩) (run_main m ρ hbody)

theorem run_frame (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c).2) (run_strong m ρ hbody)

end Cert.KernelIdeal.Hand

end
-- ==== Proof.Join.lean ====
import Idealize.ShloMosaic.Lib.Layout
import Idealize.ShloMosaic.Lib.ValueIdx
import Idealize.ShloMosaic.PureOps.Ideal

noncomputable section

namespace Cert.Hand.Value

open Idealize.ShloMosaic Idealize.ShloMosaic.ValueIdx

abbrev SX : Shape := ⟨3, ![2, 1024, 1024]⟩

abbrev SO : Shape := ⟨2, ![1024, 1024]⟩

def mxOf (c : Fin 16) : Nat := c.val / 8

theorem mxOf_lt (c : Fin 16) : mxOf c < 2 := by unfold mxOf; omega

abbrev mxF (c : Fin 16) : Fin 2 := ⟨mxOf c, mxOf_lt c⟩

abbrev pxF (c : Fin 16) : Fin 2 := ⟨1 - mxOf c, by omega⟩

abbrev colF (c : Fin 16) (j : Fin 512) : Fin 1024 := ⟨512 * mxOf c + j.val, by have := mxOf_lt c; omega⟩

/-- The reference's result: the sum of the two blocks. -/
def refOut (X : (⟨SX, .f32⟩ : BufTy).Contents (Elt Ideal)) : (⟨SO, .bf16⟩ : BufTy).Contents (Elt Ideal) :=
  fun i => (show EReal from X (ix3 (0 : Fin 2) (i 0) (i 1))) + (show EReal from X (ix3 (1 : Fin 2) (i 0) (i 1)))

theorem lin_x (n : Nat) : Layout.meshLin [2, 2, 4] n [0] = n / 8 % 2 := by
  show n / (2 * (4 * 1)) % 2 * 1 + 0 = n / 8 % 2
  omega

theorem lin_nil (n : Nat) : Layout.meshLin [2, 2, 4] n [] = 0 := rfl

theorem block_arg (X : (⟨SX, .f32⟩ : BufTy).Contents (Elt Ideal)) (c : Fin 16) (r q : Fin 1024) :
    (Layout.blockN ⟨3, ![1, 1024, 1024]⟩ ⟨3, ![2, 1024, 1024]⟩ (Layout.meshBlock [2, 2, 4] ![[0], [], []] c) X)
        (ix3 (0 : Fin 1) r q)
      = X (ix3 (mxF c) r q) := by
  rw [Layout.blockN_apply]
  refine congrArg X (funext fun b => Fin.ext ?_)
  rw [Layout.TilesN.idx_val]
  match b with
  | ⟨0, _⟩ =>
    show (Layout.meshLin [2, 2, 4] c.val [0]) * 1 + 0 = mxOf c
    rw [lin_x]; unfold mxOf; omega
  | ⟨1, _⟩ =>
    show (Layout.meshLin [2, 2, 4] c.val []) * 1024 + r.val = r.val
    rw [lin_nil]; omega
  | ⟨2, _⟩ =>
    show (Layout.meshLin [2, 2, 4] c.val []) * 1024 + q.val = q.val
    rw [lin_nil]; omega

theorem block_res (v : (⟨SO, .bf16⟩ : BufTy).Contents (Elt Ideal)) (c : Fin 16) (r : Fin 1024) (j : Fin 512) :
    (Layout.blockN ⟨2, ![1024, 512]⟩ ⟨2, ![1024, 1024]⟩ (Layout.meshBlock [2, 2, 4] ![[], [0]] c) v) (ix2 r j)
      = v (ix2 r (colF c j)) := by
  rw [Layout.blockN_apply]
  refine congrArg v (funext fun b => Fin.ext ?_)
  rw [Layout.TilesN.idx_val]
  match b with
  | ⟨0, _⟩ =>
    show (Layout.meshLin [2, 2, 4] c.val []) * 1024 + r.val = r.val
    rw [lin_nil]; omega
  | ⟨1, _⟩ =>
    show (Layout.meshLin [2, 2, 4] c.val [0]) * 512 + j.val = 512 * mxOf c + j.val
    rw [lin_x]; unfold mxOf; omega

/-- A device's own block plus the other block is x[0] + x[1] in either order. -/
theorem join_apply (X : (⟨SX, .f32⟩ : BufTy).Contents (Elt Ideal)) (c : Fin 16) (r : Fin 1024) (j : Fin 512) :
    (show EReal from X (ix3 (mxF c) r (colF c j))) + (show EReal from X (ix3 (pxF c) r (colF c j)))
      = (Layout.blockN ⟨2, ![1024, 512]⟩ ⟨2, ![1024, 1024]⟩ (Layout.meshBlock [2, 2, 4] ![[], [0]] c) (refOut X)) (ix2 r j) := by
  rw [block_res]
  show _ = (show EReal from X (ix3 (0 : Fin 2) r (colF c j))) + (show EReal from X (ix3 (1 : Fin 2) r (colF c j)))
  have hm := mxOf_lt c
  rcases Nat.lt_succ_iff_lt_or_eq.mp hm with h | h
  · have h0 : mxOf c = 0 := by omega
    have e0 : mxF c = (0 : Fin 2) := Fin.ext h0
    have e1 : pxF c = (1 : Fin 2) := Fin.ext (by show 1 - mxOf c = 1; omega)
    rw [e0, e1]
  · have e0 : mxF c = (1 : Fin 2) := Fin.ext h
    have e1 : pxF c = (0 : Fin 2) := Fin.ext (by show 1 - mxOf c = 0; omega)
    rw [e0, e1]
    exact add_comm (G := EReal) _ _

end Cert.Hand.Value

end
-- ==== Proof.RefSide.lean ====
import proofs.«901032_g7700000000001033_dist_rs_v7x_xyz2x2x4_x_m1024_n512_bf16_1_alg».proof.Defs
import proofs.«901032_g7700000000001033_dist_rs_v7x_xyz2x2x4_x_m1024_n512_bf16_1_alg».proof.Proof.Gen.ReferenceIdeal
import proofs.«901032_g7700000000001033_dist_rs_v7x_xyz2x2x4_x_m1024_n512_bf16_1_alg».proof.Proof.Gen.ReferenceIdeal.Run
import proofs.«901032_g7700000000001033_dist_rs_v7x_xyz2x2x4_x_m1024_n512_bf16_1_alg».proof.Proof.Gen.ReferenceIdeal.Read
import proofs.«901032_g7700000000001033_dist_rs_v7x_xyz2x2x4_x_m1024_n512_bf16_1_alg».proof.Proof.Gen.Pre_finite_inputs_ReferenceIdeal
import proofs.«901032_g7700000000001033_dist_rs_v7x_xyz2x2x4_x_m1024_n512_bf16_1_alg».proof.Proof.Join

noncomputable section

namespace Cert.Hand.Value

open Idealize.ShloMosaic Idealize.SL.Sem Idealize.ShloMosaic.ValueIdx
open Cert.ReferenceIdeal Cert.ReferenceIdeal.Gen

theorem frame_ref : Cert.frame_ReferenceIdeal :=
  fun m ρ _ => (θ_run Cert.ReferenceIdeal.defs _ _).mono (fun _ h c => (h c).2)
    (Cert.ReferenceIdeal.Value.run (F := Ideal) m ρ)

theorem idx_plane (i : S1024x1024.Idx) (k : Fin 2) :
    Cert.ReferenceIdeal.Read.idx_main_v0 i k = ix3 k (i 0) (i 1) :=
  funext fun a => Fin.ext (by match a with | ⟨0, _⟩ => rfl | ⟨1, _⟩ => rfl | ⟨2, _⟩ => rfl)

theorem ref_is_refOut (X : (⟨SX, .f32⟩ : BufTy).Contents (Elt Ideal)) :
    Cert.ReferenceIdeal.Read.val_main_v1 (F := Ideal) X = refOut X := by
  funext i
  rw [Cert.ReferenceIdeal.Read.val_main_v1_apply, Cert.ReferenceIdeal.Read.val_main_v0_apply,
    Cert.ReferenceIdeal.Read.val_main_cst_apply, Fin.sum_univ_two, idx_plane, idx_plane]
  simp only [Ideal.truncf_def, Ideal.ofBits_def, Ideal.ofBits_zero_f32, zero_add]
  rfl

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨((h 0).1.trans (Cert.ReferenceIdeal.Read.val_main_v1_eq _)).trans (ref_is_refOut _), (h 0).2⟩)
    (Cert.ReferenceIdeal.Value.run (F := Ideal) m' g')

end Cert.Hand.Value

end
-- ==== Proof.OutValue.lean ====
import proofs.«901032_g7700000000001033_dist_rs_v7x_xyz2x2x4_x_m1024_n512_bf16_1_alg».proof.Proof.OutCover
import proofs.«901032_g7700000000001033_dist_rs_v7x_xyz2x2x4_x_m1024_n512_bf16_1_alg».proof.Proof.Join
import Idealize.ShloMosaic.Lib.ValueIdx
import Idealize.ShloMosaic.Lib.ValueLayout
import Idealize.ShloMosaic.Lib.Pipeline.Value

noncomputable section

namespace Cert.Hand.Value

open Cert.KernelIdeal Cert.KernelIdeal.Gen
open Idealize.ShloMosaic Idealize.ShloMosaic.TcCoe Idealize.ShloMosaic.ValueIdx
open Cert.KernelIdeal.Hand (px pz sOf sOf_lt sOf_px sOf_pz mxOf_px mxOf_pz xstg xld xRect sendW addD addR pieceOf outPieces outG oRect rowS rowT colM colP)

variable (m : (ℓ : Loc nD τ sig) → Buf (Elt Ideal) ℓ) (ρ : Dev nD → PrngReg)

def argOf (c : Dev nD) : (⟨S1x1024x1024, .f32⟩ : BufTy).Contents (Elt Ideal) := m ((c : Thread nD τ).loc main_arg0)

theorem xstg_apply (c : Dev nD) (i : S1x1024x1024.Idx) : xstg m ρ c i = argOf m c i := by
  unfold xstg argOf
  show m ((c : Thread nD τ).loc main_arg0) ((win0_0.rect (0 : Fin 1)).emb i) = _
  refine congrArg (m ((c : Thread nD τ).loc main_arg0)) (funext fun b => Fin.ext ?_)
  rw [Rect.emb_apply]
  show 0 * _ + 1 * (i b).val = (i b).val
  omega

theorem xld_apply (c : Dev nD) (R Q : Nat) (hr : R + 32 ≤ 1024) (hq : Q + 512 ≤ 1024) (a : Fin 32) (j : Fin 512)
    (r q : Fin 1024) (h1 : r.val = R + a.val) (h2 : q.val = Q + j.val) :
    xld m ρ c R Q hr hq (ix3 (0 : Fin 1) a j) = argOf m c (ix3 (0 : Fin 1) r q) := by
  unfold xld
  show xstg m ρ c ((xRect R Q hr hq).emb (ix3 (0 : Fin 1) a j)) = _
  rw [xstg_apply]
  refine congrArg (argOf m c) (funext fun b => Fin.ext ?_)
  rw [Rect.emb_apply]
  match b with
  | ⟨0, _⟩ => show 0 + 1 * 0 = 0; omega
  | ⟨1, _⟩ => show R + 1 * a.val = r.val; omega
  | ⟨2, _⟩ => show Q + 1 * j.val = q.val; omega

theorem sendW_apply (c : Dev nD) (k : Fin 16) (a : Fin 32) (j : Fin 512) (r q : Fin 1024)
    (h1 : r.val = 512 * sOf c + 32 * k.val + a.val) (h2 : q.val = 512 * (1 - Cert.KernelIdeal.Hand.mxOf c) + j.val) :
    sendW m ρ c k (ix2 a j) = argOf m c (ix3 (0 : Fin 1) r q) := by
  unfold sendW k0_pay1
  rw [shapeCast_self, truncf_apply, shapeCast_1ab_ab_apply]
  exact xld_apply m ρ c _ _ _ _ a j r q h1 h2

theorem addD_apply (c : Dev nD) (k : Fin 16) (a : Fin 32) (j : Fin 512) (r q : Fin 1024)
    (h1 : r.val = 512 * sOf c + 32 * k.val + a.val) (h2 : q.val = 512 * Cert.KernelIdeal.Hand.mxOf c + j.val) :
    addD m ρ c k (ix2 a j)
      = (show EReal from argOf m c (ix3 (0 : Fin 1) r q)) + (show EReal from argOf m (px c) (ix3 (0 : Fin 1) r q)) := by
  have hmx := Cert.KernelIdeal.Hand.mxOf_lt c
  unfold addD k0_pay33
  rw [addf_apply, truncf_apply, shapeCast_1ab_ab_apply, xld_apply m ρ c _ _ _ _ a j r q h1 h2,
    sendW_apply m ρ (px c) k a j r q (by rw [sOf_px]; exact h1) (by rw [mxOf_px]; omega)]

theorem addR_apply (c : Dev nD) (k : Fin 16) (a : Fin 32) (j : Fin 512) (r q : Fin 1024)
    (h1 : r.val = 512 * (1 - sOf c) + 32 * k.val + a.val) (h2 : q.val = 512 * Cert.KernelIdeal.Hand.mxOf c + j.val) :
    addR m ρ c k (ix2 a j)
      = (show EReal from argOf m c (ix3 (0 : Fin 1) r q)) + (show EReal from argOf m (px (pz c)) (ix3 (0 : Fin 1) r q)) := by
  have hmx := Cert.KernelIdeal.Hand.mxOf_lt c
  unfold addR k0_pay33
  rw [addf_apply, truncf_apply, shapeCast_1ab_ab_apply, xld_apply m ρ c _ _ _ _ a j r q h1 h2,
    sendW_apply m ρ (px (pz c)) k a j r q (by rw [sOf_px, sOf_pz]; exact h1) (by rw [mxOf_px, mxOf_pz]; omega)]

/-- Whose rows are added to row r: the x partner's for the own half, the z partner's x partner's for the other half; both hold the other block of x. -/
def partner (c : Dev nD) (r : Fin 1024) : Dev nD := if r.val / 512 = sOf c then px c else px (pz c)

theorem mxOf_partner (c : Dev nD) (r : Fin 1024) :
    Cert.KernelIdeal.Hand.mxOf (partner c r) = 1 - Cert.KernelIdeal.Hand.mxOf c := by
  unfold partner
  split
  · exact mxOf_px c
  · rw [mxOf_px, mxOf_pz]

def outVal (c : Dev nD) : (⟨S1024x512, .bf16⟩ : BufTy).Contents (Elt Ideal) := fun y =>
  (show EReal from argOf m c (ix3 (0 : Fin 1) (y 0) (colF c (y 1))))
    + (show EReal from argOf m (partner c (y 0)) (ix3 (0 : Fin 1) (y 0) (colF c (y 1))))

theorem piece_agrees (c : Dev nD) (p : Bool × Fin 16) (x : (pieceOf m ρ c p).1.shape.Idx) :
    (pieceOf m ρ c p).2 x = outVal m c ((pieceOf m ρ c p).1.emb x) := by
  obtain ⟨b, k⟩ := p
  have hs := sOf_lt c
  have hk := k.isLt
  cases b
  · show addD m ρ c k x = outVal m c ((oRect (512 * sOf c + 32 * k.val) (rowS c k)).emb x)
    obtain ⟨a, j, rfl⟩ : ∃ (a : Fin 32) (j : Fin 512), x = ix2 a j := ⟨x 0, x 1, eq_ix2 x⟩
    have ha := a.isLt
    have e0 : (((oRect (512 * sOf c + 32 * k.val) (rowS c k)).emb (ix2 a j)) 0).val = 512 * sOf c + 32 * k.val + a.val := by
      rw [Rect.emb_apply]; show 512 * sOf c + 32 * k.val + 1 * a.val = _; omega
    have e1 : (((oRect (512 * sOf c + 32 * k.val) (rowS c k)).emb (ix2 a j)) 1).val = j.val := by
      rw [Rect.emb_apply]; show 0 + 1 * j.val = _; omega
    have hp : partner c ((oRect (512 * sOf c + 32 * k.val) (rowS c k)).emb (ix2 a j) 0) = px c :=
      if_pos (by rw [e0]; omega)
    unfold outVal
    rw [hp]
    exact addD_apply m ρ c k a j _ _ e0 (by show 512 * Cert.Hand.Value.mxOf c + _ = _; rw [e1]; rfl)
  · show addR m ρ c k x = outVal m c ((oRect (512 * (1 - sOf c) + 32 * k.val) (rowT c k)).emb x)
    obtain ⟨a, j, rfl⟩ : ∃ (a : Fin 32) (j : Fin 512), x = ix2 a j := ⟨x 0, x 1, eq_ix2 x⟩
    have ha := a.isLt
    have e0 : (((oRect (512 * (1 - sOf c) + 32 * k.val) (rowT c k)).emb (ix2 a j)) 0).val = 512 * (1 - sOf c) + 32 * k.val + a.val := by
      rw [Rect.emb_apply]; show 512 * (1 - sOf c) + 32 * k.val + 1 * a.val = _; omega
    have e1 : (((oRect (512 * (1 - sOf c) + 32 * k.val) (rowT c k)).emb (ix2 a j)) 1).val = j.val := by
      rw [Rect.emb_apply]; show 0 + 1 * j.val = _; omega
    have hp : partner c ((oRect (512 * (1 - sOf c) + 32 * k.val) (rowT c k)).emb (ix2 a j) 0) = px (pz c) :=
      if_neg (by rw [e0]; omega)
    unfold outVal
    rw [hp]
    exact addR_apply m ρ c k a j _ _ e0 (by show 512 * Cert.Hand.Value.mxOf c + _ = _; rw [e1]; rfl)

theorem outG_eq (c : Dev nD) : outG m ρ c = outVal m c := by
  funext y
  unfold outG
  refine View.canon_apply_of_pieces (outVal m c) (outPieces m ρ c 32) (fun p hp x => ?_) y
    (Cert.KernelIdeal.Hand.out_cover m ρ c y)
  obtain ⟨p', rfl⟩ := Cert.KernelIdeal.Hand.of_mem_outPieces m ρ c 32 hp
  exact piece_agrees m ρ c p' x

theorem outG_apply (c : Dev nD) (r : Fin 1024) (j : Fin 512) :
    outG m ρ c (ix2 r j)
      = (show EReal from argOf m c (ix3 (0 : Fin 1) r (colF c j)))
        + (show EReal from argOf m (partner c r) (ix3 (0 : Fin 1) r (colF c j))) := by
  rw [outG_eq]; rfl

theorem out_is_block (X' : (⟨SX, .f32⟩ : BufTy).Contents (Elt Ideal))
    (hX : ∀ c : Dev nD, m ((c : Thread nD τ).loc main_arg0)
      = Layout.blockN ⟨3, ![1, 1024, 1024]⟩ ⟨3, ![2, 1024, 1024]⟩ (Layout.meshBlock [2, 2, 4] ![[0], [], []] c) X')
    (c : Dev nD) :
    outG m ρ c = Layout.blockN ⟨2, ![1024, 512]⟩ ⟨2, ![1024, 1024]⟩ (Layout.meshBlock [2, 2, 4] ![[], [0]] c) (refOut X') := by
  have hc : ∀ (d : Dev nD) (r q : Fin 1024), argOf m d (ix3 (0 : Fin 1) r q) = X' (ix3 (mxF d) r q) := fun d r q =>
    (congrFun (hX d) (ix3 (0 : Fin 1) r q)).trans (block_arg X' d r q)
  funext y
  obtain ⟨r, j, rfl⟩ : ∃ (r : Fin 1024) (j : Fin 512), y = ix2 r j := ⟨y 0, y 1, eq_ix2 y⟩
  have hm : mxF (partner c r) = pxF c := Fin.ext (mxOf_partner c r)
  rw [outG_apply, hc, hc, hm]
  exact join_apply X' c r j

end Cert.Hand.Value

end
-- ==== Proof.lean ====
import proofs.«901032_g7700000000001033_dist_rs_v7x_xyz2x2x4_x_m1024_n512_bf16_1_alg».proof.Defs
import proofs.«901032_g7700000000001033_dist_rs_v7x_xyz2x2x4_x_m1024_n512_bf16_1_alg».proof.Proof.Gen.Kernel
import proofs.«901032_g7700000000001033_dist_rs_v7x_xyz2x2x4_x_m1024_n512_bf16_1_alg».proof.Proof.Gen.KernelIdeal
import proofs.«901032_g7700000000001033_dist_rs_v7x_xyz2x2x4_x_m1024_n512_bf16_1_alg».proof.Proof.Gen.ReferenceIdeal
import proofs.«901032_g7700000000001033_dist_rs_v7x_xyz2x2x4_x_m1024_n512_bf16_1_alg».proof.Proof.Gen.Pre_finite_inputs_Kernel
import proofs.«901032_g7700000000001033_dist_rs_v7x_xyz2x2x4_x_m1024_n512_bf16_1_alg».proof.Proof.Gen.Pre_finite_inputs_ReferenceIdeal
import proofs.«901032_g7700000000001033_dist_rs_v7x_xyz2x2x4_x_m1024_n512_bf16_1_alg».proof.Proof.Body
import proofs.«901032_g7700000000001033_dist_rs_v7x_xyz2x2x4_x_m1024_n512_bf16_1_alg».proof.Proof.Claims
import proofs.«901032_g7700000000001033_dist_rs_v7x_xyz2x2x4_x_m1024_n512_bf16_1_alg».proof.Proof.RefSide
import proofs.«901032_g7700000000001033_dist_rs_v7x_xyz2x2x4_x_m1024_n512_bf16_1_alg».proof.Proof.OutValue

/-! Reduce-scatter over the x axis of a 2 x 2 x 4 mesh. Device (mx, my, mz) holds x[mx]; it sends the column half its
x partner keeps, rows of its own half s = mz % 2, across x; relays what lands to its z partner, whose half is the other
one; and stores its own column half plus what landed (half s) or what was relayed (half 1 - s). So each device ends
with its column half of x[0] + x[1], its block of the reference's sum; over the extended reals narrowing is the
identity and addition commutes. -/

noncomputable section

namespace Cert.Proof

open Idealize.ShloMosaic Idealize.SL.Sem

variable {F : FTy → Type} [FloatOps F]

/-- The two printed programs have the same kernel table: there is one label, and its body is the same term. -/
theorem defs₀_eq : Cert.Kernel.defs₀ (F := F) = Cert.KernelIdeal.defs₀ (F := F) := by
  unfold Cert.Kernel.defs₀ Cert.KernelIdeal.defs₀
  congr 1
  funext ℓ a
  match ℓ, a with
  | ⟨0, _⟩, (t, s) => rfl
  | ⟨n + 1, h⟩, _ => exact absurd h (by omega)

theorem defs_eq : Cert.Kernel.defs (F := F) = Cert.KernelIdeal.defs (F := F) :=
  congrArg (Pipeline.defs Cert.KernelIdeal.pcfgs) defs₀_eq

/-- The word-level program is the idealized program's text read at words, so its frame is the same run at words. -/
theorem frame_k : Cert.frame_Kernel := fun m g _ => by
  rw [defs_eq]
  exact Cert.KernelIdeal.Hand.run_frame (F := Bits) m g (Cert.KernelIdeal.Hand.body_obligation m g (Cert.KernelIdeal.Hand.sound_body m g))

theorem frame_ki : Cert.frame_KernelIdeal := fun m g _ =>
  Cert.KernelIdeal.Hand.run_frame (F := Ideal) m g (Cert.KernelIdeal.Hand.body_obligation m g (Cert.KernelIdeal.Hand.sound_body m g))

/-- Every device's result ends at its column half of x[0] + x[1], which is its block of the reference's sum. -/
theorem algebraic : Cert.algebraic_KernelIdeal_ReferenceIdeal := by
  intro m g m' g' _ hagree
  refine ⟨Cert.Hand.Value.refOut (m' (((0 : Dev Cert.ReferenceIdeal.nD).tc : Thread Cert.ReferenceIdeal.nD Cert.ReferenceIdeal.τ).loc Cert.ReferenceIdeal.main_arg0)), ?_, Cert.Hand.Value.ref_run m' g'⟩
  refine (θ_run (Cert.KernelIdeal.defs (F := Ideal)) _ _).mono (fun r h c => ⟨(h c).1.trans ?_, (h c).2⟩)
    (Cert.KernelIdeal.Hand.run_strong (F := Ideal) m g (Cert.KernelIdeal.Hand.body_obligation m g (Cert.KernelIdeal.Hand.sound_body m g)))
  exact Cert.Hand.Value.out_is_block m g _ hagree c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Hand.Value.frame_ref, trivial, algebraic⟩

end Cert.Proof

end
